-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x16 : Shape := ⟨2, ![1048576, 16]⟩
abbrev S64x16 : Shape := ⟨2, ![64, 16]⟩
abbrev S64 : Shape := ⟨1, ![64]⟩
abbrev S32x64 : Shape := ⟨2, ![32, 64]⟩
abbrev S32 : Shape := ⟨1, ![32]⟩
abbrev S32x32 : Shape := ⟨2, ![32, 32]⟩
abbrev S5x32 : Shape := ⟨2, ![5, 32]⟩
abbrev S5 : Shape := ⟨1, ![5]⟩
abbrev S_ : Shape := ⟨0, ![]⟩

class Facts : Prop where
  bcast_S_S1048576x16 : S_.BroadcastsInDim S1048576x16 (![] : Fin 0 → Fin S1048576x16.rank)
  reducesTo_S1048576x16_S_d0_1 : S1048576x16.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S5x32 : S_.BroadcastsInDim S5x32 (![] : Fin 0 → Fin S5x32.rank)
  reducesTo_S5x32_S_d0_1 : S5x32.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg7 : FVec F S5x32 .f32) (main_arg8 : FVec F S5 .f32) (main_v33 : IVec S_ 1) : IVec S_ 1 :=
  let main_v34 : FVec F S5x32 .f32 := Host.absf main_arg7
  let main_cst_12 : FVec F S_ .f32 := constant S_ .f32 0x7F800000#32
  let main_v35 : FVec F S5x32 .f32 := broadcastInDim S5x32 ![] bcast_S_S5x32 main_cst_12
  let main_v36 : IVec S5x32 1 := cmpf .olt main_v34 main_v35
  let main_c_13 : IVec S_ 1 := constantI S_ 1 1#1
  let main_v37 : IVec S_ 1 := (fun x v => Host.reduce IntOp.andi x v reducesTo_S5x32_S_d0_1 h_S_) main_v36 main_c_13
  let main_v38 : IVec S_ 1 := andi main_v33 main_v37
  let main_v39 : FVec F S5 .f32 := Host.absf main_arg8
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  main_v43

def fn_part1 {F : FTy → Type} [FloatOps F] (main_arg4 : FVec F S32 .f32) (main_arg5 : FVec F S32x32 .f32) (main_arg6 : FVec F S32 .f32) (main_arg7 : FVec F S5x32 .f32) (main_arg8 : FVec F S5 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S1048576x16 .f32) (main_arg1 : FVec F S64x16 .f32) (main_arg2 : FVec F S64 .f32) (main_arg3 : FVec F S32x64 .f32) (main_arg4 : FVec F S32 .f32) (main_arg5 : FVec F S32x32 .f32) (main_arg6 : FVec F S32 .f32) (main_arg7 : FVec F S5x32 .f32) (main_arg8 : FVec F S5 .f32) : IVec S_ 1 :=
  let main_v0 : FVec F S1048576x16 .f32 := Host.absf main_arg0
  let main_cst : FVec F S_ .f32 := constant S_ .f32 0x7F800000#32
  let main_v1 : FVec F S1048576x16 .f32 := broadcastInDim S1048576x16 ![] bcast_S_S1048576x16 main_cst
  let main_v2 : IVec S1048576x16 1 := cmpf .olt main_v0 main_v1
  let main_c : IVec S_ 1 := constantI S_ 1 1#1
  let main_v3 : IVec S_ 1 := (fun x v => Host.reduce IntOp.andi x v reducesTo_S1048576x16_S_d0_1 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_arg7 main_arg8 main_v13 main_v16
-- ==== Kernel.lean ====
abbrev S1048576x16 : Shape := ⟨2, ![1048576, 16]⟩
abbrev S64x16 : Shape := ⟨2, ![64, 16]⟩
abbrev S64 : Shape := ⟨1, ![64]⟩
abbrev S32x64 : Shape := ⟨2, ![32, 64]⟩
abbrev S32 : Shape := ⟨1, ![32]⟩
abbrev S32x32 : Shape := ⟨2, ![32, 32]⟩
abbrev S5x32 : Shape := ⟨2, ![5, 32]⟩
abbrev S5 : Shape := ⟨1, ![5]⟩
abbrev S_ : Shape := ⟨0, ![]⟩
abbrev S16x64 : Shape := ⟨2, ![16, 64]⟩
abbrev S64x32 : Shape := ⟨2, ![64, 32]⟩
abbrev S32x5 : Shape := ⟨2, ![32, 5]⟩
abbrev S16x1 : Shape := ⟨2, ![16, 1]⟩
abbrev S8192x16 : Shape := ⟨2, ![8192, 16]⟩
abbrev S8x1 : Shape := ⟨2, ![8, 1]⟩
abbrev S1x8192x16 : Shape := ⟨3, ![1, 8192, 16]⟩
abbrev S1 : Shape := ⟨1, ![1]⟩
abbrev S1x1x1 : Shape := ⟨3, ![1, 1, 1]⟩
abbrev S1x1 : Shape := ⟨2, ![1, 1]⟩
abbrev S1x64 : Shape := ⟨2, ![1, 64]⟩
abbrev S1048576x64 : Shape := ⟨2, ![1048576, 64]⟩
abbrev S8192x64 : Shape := ⟨2, ![8192, 64]⟩
abbrev S1x8192x64 : Shape := ⟨3, ![1, 8192, 64]⟩
abbrev S1x32 : Shape := ⟨2, ![1, 32]⟩
abbrev S1048576x32 : Shape := ⟨2, ![1048576, 32]⟩
abbrev S8192x32 : Shape := ⟨2, ![8192, 32]⟩
abbrev S1x8192x32 : Shape := ⟨3, ![1, 8192, 32]⟩
abbrev S1x5 : Shape := ⟨2, ![1, 5]⟩
abbrev S1048576x5 : Shape := ⟨2, ![1048576, 5]⟩
abbrev S16x5 : Shape := ⟨2, ![16, 5]⟩
abbrev S8192x5 : Shape := ⟨2, ![8192, 5]⟩
abbrev S8x5 : Shape := ⟨2, ![8, 5]⟩

abbrev nBuf : Space → Nat
  | .hbm => 155
  | .vmem => 61
  | .smem => 0
  | _ => 0

abbrev hbmTy0_0 (i : Nat) : BufTy := match i % 128 with
  | 0 => ⟨S1048576x16, .f32⟩
  | 1 => ⟨S64x16, .f32⟩
  | 2 => ⟨S64, .f32⟩
  | 3 => ⟨S32x64, .f32⟩
  | 4 => ⟨S32, .f32⟩
  | 5 => ⟨S32x32, .f32⟩
  | 6 => ⟨S32, .f32⟩
  | 7 => ⟨S5x32, .f32⟩
  | 8 => ⟨S5, .f32⟩
  | 9 => ⟨S64x16, .f32⟩
  | 10 => ⟨S_, .f32⟩
  | 11 => ⟨S_, .f32⟩
  | 12 => ⟨S_, .f32⟩
  | 13 => ⟨S_, .f32⟩
  | 14 => ⟨S64x16, .f32⟩
  | 15 => ⟨S64x16, .f32⟩
  | 16 => ⟨S64x16, .f32⟩
  | 17 => ⟨S_, .f32⟩
  | 18 => ⟨S_, .f32⟩
  | 19 => ⟨S_, .f32⟩
  | 20 => ⟨S64x16, .f32⟩
  | 21 => ⟨S64x16, .f32⟩
  | 22 => ⟨S_, .f32⟩
  | 23 => ⟨S64x16, .f32⟩
  | 24 => ⟨S64x16, .f32⟩
  | 25 => ⟨S16x64, .f32⟩
  | 26 => ⟨S32x64, .f32⟩
  | 27 => ⟨S_, .f32⟩
  | 28 => ⟨S_, .f32⟩
  | 29 => ⟨S_, .f32⟩
  | 30 => ⟨S_, .f32⟩
  | 31 => ⟨S32x64, .f32⟩
  | 32 => ⟨S32x64, .f32⟩
  | 33 => ⟨S32x64, .f32⟩
  | 34 => ⟨S_, .f32⟩
  | 35 => ⟨S_, .f32⟩
  | 36 => ⟨S_, .f32⟩
  | 37 => ⟨S32x64, .f32⟩
  | 38 => ⟨S32x64, .f32⟩
  | 39 => ⟨S_, .f32⟩
  | 40 => ⟨S32x64, .f32⟩
  | 41 => ⟨S32x64, .f32⟩
  | 42 => ⟨S64x32, .f32⟩
  | 43 => ⟨S32x32, .f32⟩
  | 44 => ⟨S_, .f32⟩
  | 45 => ⟨S_, .f32⟩
  | 46 => ⟨S_, .f32⟩
  | 47 => ⟨S_, .f32⟩
  | 48 => ⟨S32x32, .f32⟩
  | 49 => ⟨S32x32, .f32⟩
  | 50 => ⟨S32x32, .f32⟩
  | 51 => ⟨S_, .f32⟩
  | 52 => ⟨S_, .f32⟩
  | 53 => ⟨S_, .f32⟩
  | 54 => ⟨S32x32, .f32⟩
  | 55 => ⟨S32x32, .f32⟩
  | 56 => ⟨S_, .f32⟩
  | 57 => ⟨S32x32, .f32⟩
  | 58 => ⟨S32x32, .f32⟩
  | 59 => ⟨S32x32, .f32⟩
  | 60 => ⟨S5x32, .f32⟩
  | 61 => ⟨S_, .f32⟩
  | 62 => ⟨S_, .f32⟩
  | 63 => ⟨S_, .f32⟩
  | 64 => ⟨S_, .f32⟩
  | 65 => ⟨S5x32, .f32⟩
  | 66 => ⟨S5x32, .f32⟩
  | 67 => ⟨S5x32, .f32⟩
  | 68 => ⟨S_, .f32⟩
  | 69 => ⟨S_, .f32⟩
  | 70 => ⟨S_, .f32⟩
  | 71 => ⟨S5x32, .f32⟩
  | 72 => ⟨S5x32, .f32⟩
  | 73 => ⟨S_, .f32⟩
  | 74 => ⟨S5x32, .f32⟩
  | 75 => ⟨S5x32, .f32⟩
  | 76 => ⟨S32x5, .f32⟩
  | 77 => ⟨S16x1, .f32⟩
  | 78 => ⟨S_, .f32⟩
  | 79 => ⟨S1, .f32⟩
  | 80 => ⟨S1x1, .f32⟩
  | 81 => ⟨S_, .f32⟩
  | 82 => ⟨S1x1, .f32⟩
  | 83 => ⟨S1x1, .f32⟩
  | 84 => ⟨S1x1, .f32⟩
  | 85 => ⟨S1x1, .f32⟩
  | 86 => ⟨S_, .f32⟩
  | 87 => ⟨S64, .f32⟩
  | 88 => ⟨S64, .f32⟩
  | 89 => ⟨S64, .f32⟩
  | 90 => ⟨S1x64, .f32⟩
  | 91 => ⟨S1048576x64, .f32⟩
  | 92 => ⟨S16x1, .f32⟩
  | 93 => ⟨S_, .f32⟩
  | 94 => ⟨S1, .f32⟩
  | 95 => ⟨S1x1, .f32⟩
  | 96 => ⟨S_, .f32⟩
  | 97 => ⟨S1x1, .f32⟩
  | 98 => ⟨S1x1, .f32⟩
  | 99 => ⟨S1x1, .f32⟩
  | 100 => ⟨S1x1, .f32⟩
  | 101 => ⟨S_, .f32⟩
  | 102 => ⟨S32, .f32⟩
  | 103 => ⟨S32, .f32⟩
  | 104 => ⟨S32, .f32⟩
  | 105 => ⟨S1x32, .f32⟩
  | 106 => ⟨S1048576x32, .f32⟩
  | 107 => ⟨S16x1, .f32⟩
  | 108 => ⟨S_, .f32⟩
  | 109 => ⟨S1, .f32⟩
  | 110 => ⟨S1x1, .f32⟩
  | 111 => ⟨S_, .f32⟩
  | 112 => ⟨S1x1, .f32⟩
  | 113 => ⟨S1x1, .f32⟩
  | 114 => ⟨S1x1, .f32⟩
  | 115 => ⟨S1x1, .f32⟩
  | 116 => ⟨S_, .f32⟩
  | 117 => ⟨S32, .f32⟩
  | 118 => ⟨S32, .f32⟩
  | 119 => ⟨S32, .f32⟩
  | 120 => ⟨S1x32, .f32⟩
  | 121 => ⟨S1048576x32, .f32⟩
  | 122 => ⟨S16x1, .f32⟩
  | 123 => ⟨S_, .f32⟩
  | 124 => ⟨S1, .f32⟩
  | 125 => ⟨S1x1, .f32⟩
  | 126 => ⟨S_, .f32⟩
  | 127 => ⟨S1x1, .f32⟩
  | _ => ⟨S1048576x16, .f32⟩

abbrev hbmTy0_1 (i : Nat) : BufTy := match i % 128 with
  | 0 => ⟨S1x1, .f32⟩
  | 1 => ⟨S1x1, .f32⟩
  | 2 => ⟨S1x1, .f32⟩
  | 3 => ⟨S_, .f32⟩
  | 4 => ⟨S5, .f32⟩
  | 5 => ⟨S5, .f32⟩
  | 6 => ⟨S5, .f32⟩
  | 7 => ⟨S1x5, .f32⟩
  | 8 => ⟨S1048576x5, .f32⟩
  | 9 => ⟨S16x5, .f32⟩
  | 10 => ⟨S_, .f32⟩
  | 11 => ⟨S5, .f32⟩
  | 12 => ⟨S1x5, .f32⟩
  | 13 => ⟨S1048576x5, .f32⟩
  | 14 => ⟨S16x5, .f32⟩
  | 15 => ⟨S1x5, .f32⟩
  | 16 => ⟨S1x5, .f32⟩
  | 17 => ⟨S1x5, .f32⟩
  | 18 => ⟨S_, .f32⟩
  | 19 => ⟨S1x5, .f32⟩
  | 20 => ⟨S1x5, .f32⟩
  | 21 => ⟨S_, .f32⟩
  | 22 => ⟨S_, .f32⟩
  | 23 => ⟨S_, .f32⟩
  | 24 => ⟨S_, .f32⟩
  | 25 => ⟨S1x1, .f32⟩
  | 26 => ⟨S1048576x5, .f32⟩
  | _ => ⟨S1048576x16, .f32⟩

abbrev hbmTy (i : Nat) : BufTy := match i / 128 with
  | 0 => hbmTy0_0 i
  | 1 => hbmTy0_1 i
  | _ => ⟨S1048576x16, .f32⟩

abbrev bufTy : (tb : Table) → Fin (tcTables nBuf tb) → BufTy
  | .hbm, ⟨i, _⟩ => hbmTy i
  | .local _ .vmem, ⟨0, _⟩ => ⟨S8192x16, .f32⟩
  | .local _ .vmem, ⟨1, _⟩ => ⟨S8192x16, .f32⟩
  | .local _ .vmem, ⟨2, _⟩ => ⟨S8x1, .f32⟩
  | .local _ .vmem, ⟨3, _⟩ => ⟨S8x1, .f32⟩
  | .local _ .vmem, ⟨4, _⟩ => ⟨S8192x16, .f32⟩
  | .local _ .vmem, ⟨5, _⟩ => ⟨S8192x16, .f32⟩
  | .local _ .vmem, ⟨6, _⟩ => ⟨S1x1, .f32⟩
  | .local _ .vmem, ⟨7, _⟩ => ⟨S1x1, .f32⟩
  | .local _ .vmem, ⟨8, _⟩ => ⟨S16x64, .f32⟩
  | .local _ .vmem, ⟨9, _⟩ => ⟨S1x64, .f32⟩
  | .local _ .vmem, ⟨10, _⟩ => ⟨S8192x64, .f32⟩
  | .local _ .vmem, ⟨11, _⟩ => ⟨S8192x64, .f32⟩
  | .local _ .vmem, ⟨12, _⟩ => ⟨S8x1, .f32⟩
  | .local _ .vmem, ⟨13, _⟩ => ⟨S8x1, .f32⟩
  | .local _ .vmem, ⟨14, _⟩ => ⟨S8192x64, .f32⟩
  | .local _ .vmem, ⟨15, _⟩ => ⟨S8192x64, .f32⟩
  | .local _ .vmem, ⟨16, _⟩ => ⟨S1x1, .f32⟩
  | .local _ .vmem, ⟨17, _⟩ => ⟨S1x1, .f32⟩
  | .local _ .vmem, ⟨18, _⟩ => ⟨S1x1, .f32⟩
  | .local _ .vmem, ⟨19, _⟩ => ⟨S64x32, .f32⟩
  | .local _ .vmem, ⟨20, _⟩ => ⟨S1x32, .f32⟩
  | .local _ .vmem, ⟨21, _⟩ => ⟨S8192x32, .f32⟩
  | .local _ .vmem, ⟨22, _⟩ => ⟨S8192x32, .f32⟩
  | .local _ .vmem, ⟨23, _⟩ => ⟨S8x1, .f32⟩
  | .local _ .vmem, ⟨24, _⟩ => ⟨S8x1, .f32⟩
  | .local _ .vmem, ⟨25, _⟩ => ⟨S8192x32, .f32⟩
  | .local _ .vmem, ⟨26, _⟩ => ⟨S8192x32, .f32⟩
  | .local _ .vmem, ⟨27, _⟩ => ⟨S1x1, .f32⟩
  | .local _ .vmem, ⟨28, _⟩ => ⟨S1x1, .f32⟩
  | .local _ .vmem, ⟨29, _⟩ => ⟨S1x1, .f32⟩
  | .local _ .vmem, ⟨30, _⟩ => ⟨S32x32, .f32⟩
  | .local _ .vmem, ⟨31, _⟩ => ⟨S1x32, .f32⟩
  | .local _ .vmem, ⟨32, _⟩ => ⟨S8192x32, .f32⟩
  | .local _ .vmem, ⟨33, _⟩ => ⟨S8192x32, .f32⟩
  | .local _ .vmem, ⟨34, _⟩ => ⟨S8x1, .f32⟩
  | .local _ .vmem, ⟨35, _⟩ => ⟨S8x1, .f32⟩
  | .local _ .vmem, ⟨36, _⟩ => ⟨S8192x32, .f32⟩
  | .local _ .vmem, ⟨37, _⟩ => ⟨S8192x32, .f32⟩
  | .local _ .vmem, ⟨38, _⟩ => ⟨S1x1, .f32⟩
  | .local _ .vmem, ⟨39, _⟩ => ⟨S1x1, .f32⟩
  | .local _ .vmem, ⟨40, _⟩ => ⟨S1x1, .f32⟩
  | .local _ .vmem, ⟨41, _⟩ => ⟨S32x5, .f32⟩
  | .local _ .vmem, ⟨42, _⟩ => ⟨S1x5, .f32⟩
  | .local _ .vmem, ⟨43, _⟩ => ⟨S8192x5, .f32⟩
  | .local _ .vmem, ⟨44, _⟩ => ⟨S8192x5, .f32⟩
  | .local _ .vmem, ⟨45, _⟩ => ⟨S8x5, .f32⟩
  | .local _ .vmem, ⟨46, _⟩ => ⟨S8x5, .f32⟩
  | .local _ .vmem, ⟨47, _⟩ => ⟨S8192x5, .f32⟩
  | .local _ .vmem, ⟨48, _⟩ => ⟨S8192x5, .f32⟩
  | .local _ .vmem, ⟨49, _⟩ => ⟨S1x5, .f32⟩
  | .local _ .vmem, ⟨50, _⟩ => ⟨S8192x5, .f32⟩
  | .local _ .vmem, ⟨51, _⟩ => ⟨S8192x5, .f32⟩
  | .local _ .vmem, ⟨52, _⟩ => ⟨S8x5, .f32⟩
  | .local _ .vmem, ⟨53, _⟩ => ⟨S8x5, .f32⟩
  | .local _ .vmem, ⟨54, _⟩ => ⟨S8192x5, .f32⟩
  | .local _ .vmem, ⟨55, _⟩ => ⟨S8192x5, .f32⟩
  | .local _ .vmem, ⟨56, _⟩ => ⟨S1x5, .f32⟩
  | .local _ .vmem, ⟨57, _⟩ => ⟨S1x1, .f32⟩
  | .local _ .vmem, ⟨58, _⟩ => ⟨S1x1, .f32⟩
  | .local _ .vmem, ⟨59, _⟩ => ⟨S8192x5, .f32⟩
  | .local _ .vmem, ⟨60, _⟩ => ⟨S8192x5, .f32⟩
  | _, _ => ⟨S1048576x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_cst_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_cst_4 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_5 : Ref sig .tc := ⟨.hbm, 34, rfl⟩
abbrev main_cst_6 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_7 : Ref sig .tc := ⟨.hbm, 44, rfl⟩
abbrev main_v17 : Ref sig .tc := ⟨.hbm, 45, rfl⟩
abbrev main_cst_8 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_9 : Ref sig .tc := ⟨.hbm, 51, rfl⟩
abbrev main_cst_10 : Ref sig .tc := ⟨.hbm, 52, rfl⟩
abbrev main_call5_v0 : Ref sig .tc := ⟨.hbm, 53, rfl⟩
abbrev main_call5_v1 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_11 : Ref sig .tc := ⟨.hbm, 61, rfl⟩
abbrev main_v25 : Ref sig .tc := ⟨.hbm, 62, rfl⟩
abbrev main_cst_12 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_13 : Ref sig .tc := ⟨.hbm, 68, rfl⟩
abbrev main_cst_14 : Ref sig .tc := ⟨.hbm, 69, rfl⟩
abbrev main_call7_v0 : Ref sig .tc := ⟨.hbm, 70, rfl⟩
abbrev main_call7_v1 : Ref sig .tc := ⟨.hbm, 71, rfl⟩
abbrev main_call7_v2 : Ref sig .tc := ⟨.hbm, 72, rfl⟩
abbrev main_call7_v3 : Ref sig .tc := ⟨.hbm, 73, rfl⟩
abbrev main_call7_v4 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_cst_15 : Ref sig .tc := ⟨.hbm, 78, rfl⟩
abbrev main_v33 : Ref sig .tc := ⟨.hbm, 79, rfl⟩
abbrev main_v34 : Ref sig .tc := ⟨.hbm, 80, rfl⟩
abbrev main_cst_16 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44_0 : Ref sig .tc := ⟨.hbm, 91, rfl⟩
abbrev main_v44_1 : Ref sig .tc := ⟨.hbm, 92, rfl⟩
abbrev main_cst_17 : Ref sig .tc := ⟨.hbm, 93, rfl⟩
abbrev main_v45 : Ref sig .tc := ⟨.hbm, 94, rfl⟩
abbrev main_v46 : Ref sig .tc := ⟨.hbm, 95, rfl⟩
abbrev main_cst_18 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56_0 : Ref sig .tc := ⟨.hbm, 106, rfl⟩
abbrev main_v56_1 : Ref sig .tc := ⟨.hbm, 107, rfl⟩
abbrev main_cst_19 : Ref sig .tc := ⟨.hbm, 108, rfl⟩
abbrev main_v57 : Ref sig .tc := ⟨.hbm, 109, rfl⟩
abbrev main_v58 : Ref sig .tc := ⟨.hbm, 110, rfl⟩
abbrev main_cst_20 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68_0 : Ref sig .tc := ⟨.hbm, 121, rfl⟩
abbrev main_v68_1 : Ref sig .tc := ⟨.hbm, 122, rfl⟩
abbrev main_cst_21 : Ref sig .tc := ⟨.hbm, 123, rfl⟩
abbrev main_v69 : Ref sig .tc := ⟨.hbm, 124, rfl⟩
abbrev main_v70 : Ref sig .tc := ⟨.hbm, 125, rfl⟩
abbrev main_cst_22 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80_0 : Ref sig .tc := ⟨.hbm, 136, rfl⟩
abbrev main_v80_1 : Ref sig .tc := ⟨.hbm, 137, rfl⟩
abbrev main_cst_23 : Ref sig .tc := ⟨.hbm, 138, rfl⟩
abbrev main_v81 : Ref sig .tc := ⟨.hbm, 139, rfl⟩
abbrev main_v82 : Ref sig .tc := ⟨.hbm, 140, rfl⟩
abbrev main_v83_0 : Ref sig .tc := ⟨.hbm, 141, rfl⟩
abbrev main_v83_1 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_cst_24 : Ref sig .tc := ⟨.hbm, 146, rfl⟩
abbrev main_v87 : Ref sig .tc := ⟨.hbm, 147, rfl⟩
abbrev main_v88 : Ref sig .tc := ⟨.hbm, 148, rfl⟩
abbrev main_cst_25 : Ref sig .tc := ⟨.hbm, 149, rfl⟩
abbrev main_v89 : Ref sig .tc := ⟨.hbm, 150, rfl⟩
abbrev main_cst_26 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc2_stg7_0 : Ref sig .tc := ⟨.vmem, 23, rfl⟩
abbrev cc2_stg7_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg6_1 : Ref sig .tc := ⟨.vmem, 44, rfl⟩
abbrev cc4_stg7_0 : Ref sig .tc := ⟨.vmem, 45, rfl⟩
abbrev cc4_stg7_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg2_0 : Ref sig .tc := ⟨.vmem, 50, rfl⟩
abbrev cc5_stg2_1 : Ref sig .tc := ⟨.vmem, 51, rfl⟩
abbrev cc5_stg3_0 : Ref sig .tc := ⟨.vmem, 52, rfl⟩
abbrev cc5_stg3_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg4_1 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc2_sem7_0 : DmaSem sig := 23
abbrev cc2_sem7_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem6_1 : DmaSem sig := 44
abbrev cc4_sem7_0 : DmaSem sig := 45
abbrev cc4_sem7_1 : DmaSem sig := 46
abbrev cc5_sem0_0 : DmaSem sig := 47
abbrev cc5_sem0_1 : DmaSem sig := 48
abbrev cc5_sem1_0 : DmaSem sig := 49
abbrev cc5_sem2_0 : DmaSem sig := 50
abbrev cc5_sem2_1 : DmaSem sig := 51
abbrev cc5_sem3_0 : DmaSem sig := 52
abbrev cc5_sem3_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem4_1 : DmaSem sig := 60

abbrev nD : Nat := 1
abbrev τ : Topo := Topo.v7x

variable {F : FTy → Type} [FloatOps F]

abbrev grid0 : Pipeline.Grid := ⟨2, ![2, 64], ![false, false]⟩

def k0_cond1 (i : grid0.Coords) : BitVec 1 :=
  let arg1 : BitVec 32 := BitVec.ofNat 32 (i 1).val
  let c0_i32 : BitVec 32 := 0#32
  let v9 : BitVec 1 := Scalar.cmpi .eq arg1 c0_i32
  let v10 : BitVec 32 := Scalar.extui v9
  let c0_i32_1 : BitVec 32 := 0#32
  let v11 : BitVec 1 := Scalar.cmpi .ne v10 c0_i32_1
  v11

def k0_cond2 (i : grid0.Coords) : BitVec 1 :=
  let arg1 : BitVec 32 := BitVec.ofNat 32 (i 1).val
  let c0_i32_2 : BitVec 32 := 0#32
  let v12 : BitVec 1 := Scalar.cmpi .ne arg1 c0_i32_2
  let v13 : BitVec 32 := Scalar.extui v12
  let c0_i32_3 : BitVec 32 := 0#32
  let v14 : BitVec 1 := Scalar.cmpi .ne v13 c0_i32_3
  v14

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 64], ![false, false]⟩

def k1_cond1 (i : grid1.Coords) : BitVec 1 :=
  let arg1 : BitVec 32 := BitVec.ofNat 32 (i 1).val
  let c0_i32 : BitVec 32 := 0#32
  let v34 : BitVec 1 := Scalar.cmpi .eq arg1 c0_i32
  let v35 : BitVec 32 := Scalar.extui v34
  let c0_i32_16 : BitVec 32 := 0#32
  let v36 : BitVec 1 := Scalar.cmpi .ne v35 c0_i32_16
  v36

def k1_cond2 (i : grid1.Coords) : BitVec 1 :=
  let arg1 : BitVec 32 := BitVec.ofNat 32 (i 1).val
  let c0_i32_17 : BitVec 32 := 0#32
  let v37 : BitVec 1 := Scalar.cmpi .ne arg1 c0_i32_17
  let v38 : BitVec 32 := Scalar.extui v37
  let c0_i32_18 : BitVec 32 := 0#32
  let v39 : BitVec 1 := Scalar.cmpi .ne v38 c0_i32_18
  v39

def cc1_transform_0 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8192x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S8192x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![2, 64], ![false, false]⟩

def k2_cond1 (i : grid2.Coords) : BitVec 1 :=
  let arg1 : BitVec 32 := BitVec.ofNat 32 (i 1).val
  let c0_i32 : BitVec 32 := 0#32
  let v41 : BitVec 1 := Scalar.cmpi .eq arg1 c0_i32
  let v42 : BitVec 32 := Scalar.extui v41
  let c0_i32_18 : BitVec 32 := 0#32
  let v43 : BitVec 1 := Scalar.cmpi .ne v42 c0_i32_18
  v43

def k2_cond2 (i : grid2.Coords) : BitVec 1 :=
  let arg1 : BitVec 32 := BitVec.ofNat 32 (i 1).val
  let c0_i32_19 : BitVec 32 := 0#32
  let v44 : BitVec 1 := Scalar.cmpi .ne arg1 c0_i32_19
  let v45 : BitVec 32 := Scalar.extui v44
  let c0_i32_20 : BitVec 32 := 0#32
  let v46 : BitVec 1 := Scalar.cmpi .ne v45 c0_i32_20
  v46

def cc2_transform_0 (i : grid2.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S64x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S8192x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S8x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev grid3 : Pipeline.Grid := ⟨2, ![2, 64], ![false, false]⟩

def k3_cond1 (i : grid3.Coords) : BitVec 1 :=
  let arg1 : BitVec 32 := BitVec.ofNat 32 (i 1).val
  let c0_i32 : BitVec 32 := 0#32
  let v41 : BitVec 1 := Scalar.cmpi .eq arg1 c0_i32
  let v42 : BitVec 32 := Scalar.extui v41
  let c0_i32_18 : BitVec 32 := 0#32
  let v43 : BitVec 1 := Scalar.cmpi .ne v42 c0_i32_18
  v43

def k3_cond2 (i : grid3.Coords) : BitVec 1 :=
  let arg1 : BitVec 32 := BitVec.ofNat 32 (i 1).val
  let c0_i32_19 : BitVec 32 := 0#32
  let v44 : BitVec 1 := Scalar.cmpi .ne arg1 c0_i32_19
  let v45 : BitVec 32 := Scalar.extui v44
  let c0_i32_20 : BitVec 32 := 0#32
  let v46 : BitVec 1 := Scalar.cmpi .ne v45 c0_i32_20
  v46

def cc3_transform_0 (i : grid3.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S8192x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S32x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S8192x32 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S8x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev grid4 : Pipeline.Grid := ⟨2, ![2, 64], ![false, false]⟩

def k4_cond1 (i : grid4.Coords) : BitVec 1 :=
  let arg1 : BitVec 32 := BitVec.ofNat 32 (i 1).val
  let c0_i32 : BitVec 32 := 0#32
  let v33 : BitVec 1 := Scalar.cmpi .eq arg1 c0_i32
  let v34 : BitVec 32 := Scalar.extui v33
  let c0_i32_16 : BitVec 32 := 0#32
  let v35 : BitVec 1 := Scalar.cmpi .ne v34 c0_i32_16
  v35

def k4_cond2 (i : grid4.Coords) : BitVec 1 :=
  let arg1 : BitVec 32 := BitVec.ofNat 32 (i 1).val
  let c0_i32_17 : BitVec 32 := 0#32
  let v36 : BitVec 1 := Scalar.cmpi .ne arg1 c0_i32_17
  let v37 : BitVec 32 := Scalar.extui v36
  let c0_i32_18 : BitVec 32 := 0#32
  let v38 : BitVec 1 := Scalar.cmpi .ne v37 c0_i32_18
  v38

def cc4_transform_0 (i : grid4.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S8192x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S1x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S32x5 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S1x5 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 2 → Memref sig .tc .vmem S8192x5 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 2 → Memref sig .tc .vmem S8x5 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, false]

abbrev grid5 : Pipeline.Grid := ⟨2, ![2, 64], ![false, false]⟩

def k5_cond1 (i : grid5.Coords) : BitVec 1 :=
  let arg1 : BitVec 32 := BitVec.ofNat 32 (i 1).val
  let c0_i32 : BitVec 32 := 0#32
  let v12 : BitVec 1 := Scalar.cmpi .eq arg1 c0_i32
  let v13 : BitVec 32 := Scalar.extui v12
  let c0_i32_5 : BitVec 32 := 0#32
  let v14 : BitVec 1 := Scalar.cmpi .ne v13 c0_i32_5
  v14

def k5_cond2 (i : grid5.Coords) : BitVec 1 :=
  let arg1 : BitVec 32 := BitVec.ofNat 32 (i 1).val
  let c0_i32_6 : BitVec 32 := 0#32
  let v15 : BitVec 1 := Scalar.cmpi .ne arg1 c0_i32_6
  let v16 : BitVec 32 := Scalar.extui v15
  let c0_i32_7 : BitVec 32 := 0#32
  let v17 : BitVec 1 := Scalar.cmpi .ne v16 c0_i32_7
  v17

def cc5_transform_0 (i : grid5.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S8192x5 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S1x5 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 2 → Memref sig .tc .vmem S8192x5 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S8x5 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨1, ![128], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8192x5 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x5 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S8192x5 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  reducesTo_S64x16_S_d0_1 : S64x16.ReducesTo [0, 1] S_
  h_S_ : 0 < S_.numel
  bcast_S_S64x16 : S_.BroadcastsInDim S64x16 (![] : Fin 0 → Fin S64x16.rank)
  transposes_S64x16_S16x64_1_0 : S64x16.Transposes [1, 0] S16x64
  reducesTo_S32x64_S_d0_1 : S32x64.ReducesTo [0, 1] S_
  bcast_S_S32x64 : S_.BroadcastsInDim S32x64 (![] : Fin 0 → Fin S32x64.rank)
  transposes_S32x64_S64x32_1_0 : S32x64.Transposes [1, 0] S64x32
  reducesTo_S32x32_S_d0_1 : S32x32.ReducesTo [0, 1] S_
  bcast_S_S32x32 : S_.BroadcastsInDim S32x32 (![] : Fin 0 → Fin S32x32.rank)
  transposes_S32x32_S32x32_1_0 : S32x32.Transposes [1, 0] S32x32
  reducesTo_S5x32_S_d0_1 : S5x32.ReducesTo [0, 1] S_
  bcast_S_S5x32 : S_.BroadcastsInDim S5x32 (![] : Fin 0 → Fin S5x32.rank)
  transposes_S5x32_S32x5_1_0 : S5x32.Transposes [1, 0] S32x5
  inb_S8192x16_S8192x16_0_0 : ∀ a, (![0, 0] : Fin 2 → Nat) a + S8192x16.size a ≤ S8192x16.size a
  h_S8192x16 : 0 < S8192x16.numel
  shapeCasts_S8192x16_S1x8192x16 : S8192x16.ShapeCasts S1x8192x16
  reduces_S1x8192x16_S1 : S1x8192x16.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  broadcasts_S1x1_S8x1 : S1x1.Broadcasts S8x1
  inb_S8x1_S8x1_0_0 : ∀ a, (![0, 0] : Fin 2 → Nat) a + S8x1.size a ≤ S8x1.size a
  h_S8x1 : 0 < S8x1.numel
  shapeCasts_S8x1_S8x1 : S8x1.ShapeCasts S8x1
  reducesTo_S16x1_S1_d0 : S16x1.ReducesTo [0] S1
  bcast_S1_S1x1_1 : S1.BroadcastsInDim S1x1 (![1] : Fin 1 → Fin S1x1.rank)
  bcast_S_S1x1 : S_.BroadcastsInDim S1x1 (![] : Fin 0 → Fin S1x1.rank)
  shapeCasts_S1x1_S_ : S1x1.ShapeCasts S_
  bcast_S_S64 : S_.BroadcastsInDim S64 (![] : Fin 0 → Fin S64.rank)
  shapeCasts_S64_S1x64 : S64.ShapeCasts S1x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S8192x64_S8192x64_0_0 : ∀ a, (![0, 0] : Fin 2 → Nat) a + S8192x64.size a ≤ S8192x64.size a
  h_S8192x64 : 0 < S8192x64.numel
  shapeCasts_S8192x64_S1x8192x64 : S8192x64.ShapeCasts S1x8192x64
  reduces_S1x8192x64_S1 : S1x8192x64.Reduces [1, 2] S1
  bcast_S_S32 : S_.BroadcastsInDim S32 (![] : Fin 0 → Fin S32.rank)
  shapeCasts_S32_S1x32 : S32.ShapeCasts S1x32
  shapeCasts_S8192x64_S8192x64 : S8192x64.ShapeCasts S8192x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8192x32 : S1x32.Broadcasts S8192x32
  inb_S8192x32_S8192x32_0_0 : ∀ a, (![0, 0] : Fin 2 → Nat) a + S8192x32.size a ≤ S8192x32.size a
  h_S8192x32 : 0 < S8192x32.numel
  shapeCasts_S8192x32_S1x8192x32 : S8192x32.ShapeCasts S1x8192x32
  reduces_S1x8192x32_S1 : S1x8192x32.Reduces [1, 2] S1
  shapeCasts_S8192x32_S8192x32 : S8192x32.ShapeCasts S8192x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  bcast_S_S5 : S_.BroadcastsInDim S5 (![] : Fin 0 → Fin S5.rank)
  shapeCasts_S5_S1x5 : S5.ShapeCasts S1x5
  inb_S32x5_S32x5_0_0 : ∀ a, (![0, 0] : Fin 2 → Nat) a + S32x5.size a ≤ S32x5.size a
  h_S32x5 : 0 < S32x5.numel
  shapeCasts_S32x5_S32x5 : S32x5.ShapeCasts S32x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S8192x5 : S1x5.Broadcasts S8192x5
  inb_S8192x5_S8192x5_0_0 : ∀ a, (![0, 0] : Fin 2 → Nat) a + S8192x5.size a ≤ S8192x5.size a
  h_S8192x5 : 0 < S8192x5.numel
  reduces_S8192x5_S5 : S8192x5.Reduces [0] S5
  broadcasts_S1x5_S8x5 : S1x5.Broadcasts S8x5
  inb_S8x5_S8x5_0_0 : ∀ a, (![0, 0] : Fin 2 → Nat) a + S8x5.size a ≤ S8x5.size a
  h_S8x5 : 0 < S8x5.numel
  shapeCasts_S8x5_S8x5 : S8x5.ShapeCasts S8x5
  reducesTo_S16x5_S5_d0 : S16x5.ReducesTo [0] S5
  bcast_S5_S1x5_1 : S5.BroadcastsInDim S1x5 (![1] : Fin 1 → Fin S1x5.rank)
  shapeCasts_S8192x5_S8192x5 : S8192x5.ShapeCasts S8192x5
  slices_S16x5_S1x5_0_0 : S16x5.Slices ![0, 0] S1x5
  slices_S16x5_S1x5_8_0 : S16x5.Slices ![8, 0] S1x5
  bcast_S_S1x5 : S_.BroadcastsInDim S1x5 (![] : Fin 0 → Fin S1x5.rank)
  reducesTo_S1x5_S_d0_1 : S1x5.ReducesTo [0, 1] S_
  shapeCasts_S_S1x1 : S_.ShapeCasts S1x1
  dot_S8192x16_S16x64_S8192x64_1_0_0_1_n_n_wf : DotDims.WF S8192x16 S16x64 S8192x64 [1] [0] [0] [1] [] []
  dot_S8192x64_S64x32_S8192x32_1_0_0_1_n_n_wf : DotDims.WF S8192x64 S64x32 S8192x32 [1] [0] [0] [1] [] []
  dot_S8192x32_S32x32_S8192x32_1_0_0_1_n_n_wf : DotDims.WF S8192x32 S32x32 S8192x32 [1] [0] [0] [1] [] []
  dot_S8192x32_S32x5_S8192x5_1_0_0_1_n_n_wf : DotDims.WF S8192x32 S32x5 S8192x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x16.size a ≤ S1048576x16.size a
  hwx0_0 : ∀ i : grid0.Coords, EltTy.bits .f32 = 32 ∨ (Rect.block (s := S1048576x16) S8192x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1.size a ≤ S16x1.size a
  hwx0_1 : ∀ i : grid0.Coords, EltTy.bits .f32 = 32 ∨ (Rect.block (s := S16x1) S8x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x16.size a ≤ S1048576x16.size a
  hwx1_0 : ∀ i : grid1.Coords, EltTy.bits .f32 = 32 ∨ (Rect.block (s := S1048576x16) S8192x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64.size a ≤ S16x64.size a
  hwx1_3 : ∀ i : grid1.Coords, EltTy.bits .f32 = 32 ∨ (Rect.block (s := S16x64) S16x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x64.size a ≤ S1048576x64.size a
  hwx1_5 : ∀ i : grid1.Coords, EltTy.bits .f32 = 32 ∨ (Rect.block (s := S1048576x64) S8192x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x1.size a ≤ S16x1.size a
  hwx1_6 : ∀ i : grid1.Coords, EltTy.bits .f32 = 32 ∨ (Rect.block (s := S16x1) S8x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S1048576x64.size a
  hwx2_0 : ∀ i : grid2.Coords, EltTy.bits .f32 = 32 ∨ (Rect.block (s := S1048576x64) S8192x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x32.size a ≤ S64x32.size a
  hwx2_4 : ∀ i : grid2.Coords, EltTy.bits .f32 = 32 ∨ (Rect.block (s := S64x32) S64x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8192x32.size a ≤ S1048576x32.size a
  hwx2_6 : ∀ i : grid2.Coords, EltTy.bits .f32 = 32 ∨ (Rect.block (s := S1048576x32) S8192x32.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x1.size a ≤ S16x1.size a
  hwx2_7 : ∀ i : grid2.Coords, EltTy.bits .f32 = 32 ∨ (Rect.block (s := S16x1) S8x1.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x32.size a ≤ S1048576x32.size a
  hwx3_0 : ∀ i : grid3.Coords, EltTy.bits .f32 = 32 ∨ (Rect.block (s := S1048576x32) S8192x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1.size a ≤ S1x1.size a
  hwx3_1 : ∀ i : grid3.Coords, EltTy.bits .f32 = 32 ∨ (Rect.block (s := S1x1) S1x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x32.size a ≤ S32x32.size a
  hwx3_4 : ∀ i : grid3.Coords, EltTy.bits .f32 = 32 ∨ (Rect.block (s := S32x32) S32x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x32.size a ≤ S1x32.size a
  hwx3_5 : ∀ i : grid3.Coords, EltTy.bits .f32 = 32 ∨ (Rect.block (s := S1x32) S1x32.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8192x32.size a ≤ S1048576x32.size a
  hwx3_6 : ∀ i : grid3.Coords, EltTy.bits .f32 = 32 ∨ (Rect.block (s := S1048576x32) S8192x32.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S8x1.size a ≤ S16x1.size a
  hwx3_7 : ∀ i : grid3.Coords, EltTy.bits .f32 = 32 ∨ (Rect.block (s := S16x1) S8x1.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x32.size a ≤ S1048576x32.size a
  hwx4_0 : ∀ i : grid4.Coords, EltTy.bits .f32 = 32 ∨ (Rect.block (s := S1048576x32) S8192x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x1.size a ≤ S1x1.size a
  hwx4_1 : ∀ i : grid4.Coords, EltTy.bits .f32 = 32 ∨ (Rect.block (s := S1x1) S1x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32x5.size a ≤ S32x5.size a
  hwx4_4 : ∀ i : grid4.Coords, EltTy.bits .f32 = 32 ∨ (Rect.block (s := S32x5) S32x5.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x5.size a ≤ S1x5.size a
  hwx4_5 : ∀ i : grid4.Coords, EltTy.bits .f32 = 32 ∨ (Rect.block (s := S1x5) S1x5.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S8192x5.size a ≤ S1048576x5.size a
  hwx4_6 : ∀ i : grid4.Coords, EltTy.bits .f32 = 32 ∨ (Rect.block (s := S1048576x5) S8192x5.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8x5.size a ≤ S16x5.size a
  hwx4_7 : ∀ i : grid4.Coords, EltTy.bits .f32 = 32 ∨ (Rect.block (s := S16x5) S8x5.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x5.size a ≤ S1048576x5.size a
  hwx5_0 : ∀ i : grid5.Coords, EltTy.bits .f32 = 32 ∨ (Rect.block (s := S1048576x5) S8192x5.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x5.size a ≤ S1x5.size a
  hwx5_1 : ∀ i : grid5.Coords, EltTy.bits .f32 = 32 ∨ (Rect.block (s := S1x5) S1x5.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8192x5.size a ≤ S1048576x5.size a
  hwx5_2 : ∀ i : grid5.Coords, EltTy.bits .f32 = 32 ∨ (Rect.block (s := S1048576x5) S8192x5.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8x5.size a ≤ S16x5.size a
  hwx5_3 : ∀ i : grid5.Coords, EltTy.bits .f32 = 32 ∨ (Rect.block (s := S16x5) S8x5.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8192x5.size a ≤ S1048576x5.size a
  hwx6_0 : ∀ i : grid6.Coords, EltTy.bits .f32 = 32 ∨ (Rect.block (s := S1048576x5) S8192x5.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x5.size a ≤ S1x5.size a
  hwx6_1 : ∀ i : grid6.Coords, EltTy.bits .f32 = 32 ∨ (Rect.block (s := S1x5) S1x5.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1.size a ≤ S1x1.size a
  hwx6_3 : ∀ i : grid6.Coords, EltTy.bits .f32 = 32 ∨ (Rect.block (s := S1x1) S1x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S8192x5.size a ≤ S1048576x5.size a
  hwx6_4 : ∀ i : grid6.Coords, EltTy.bits .f32 = 32 ∨ (Rect.block (s := S1048576x5) S8192x5.size (cc6_transform_4 i) (hinb6_4 i)).WholeWords (EltTy.packing .f32)

variable [Facts₀]

def dot_S8192x16_S16x64_S8192x64_1_0_0_1_n_n : DotDims S8192x16 S16x64 S8192x64 where
  lhsContracting := [1]
  rhsContracting := [0]
  lhsNonContracting := [0]
  rhsNonContracting := [1]
  lhsBatch := []
  rhsBatch := []
  wf := dot_S8192x16_S16x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x32_S32x5_S8192x5_1_0_0_1_n_n : DotDims S8192x32 S32x5 S8192x5 where
  lhsContracting := [1]
  rhsContracting := [0]
  lhsNonContracting := [0]
  rhsNonContracting := [1]
  lhsBatch := []
  rhsBatch := []
  wf := dot_S8192x32_S32x5_S8192x5_1_0_0_1_n_n_wf

abbrev win0_0 : Pipeline.Window sig grid0 :=
  Pipeline.Window.ofSpec (Memref.whole main_arg0) S8192x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S8x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

abbrev win1_0 : Pipeline.Window sig grid1 :=
  Pipeline.Window.ofSpec (Memref.whole main_arg0) S8192x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S16x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44_0) S8192x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v44_1) S8x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond1 i == 1#1) && !(k1_cond2 i == 1#1) | ⟨_ + 7, h⟩ => absurd h (Nat.not_lt.2 (Nat.le_add_left _ _))

abbrev win2_0 : Pipeline.Window sig grid2 :=
  Pipeline.Window.ofSpec (Memref.whole main_v44_0) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S64x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56_0) S8192x32.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v56_1) S8x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond1 i == 1#1) && !(k2_cond2 i == 1#1) | ⟨_ + 8, h⟩ => absurd h (Nat.not_lt.2 (Nat.le_add_left _ _))

abbrev win3_0 : Pipeline.Window sig grid3 :=
  Pipeline.Window.ofSpec (Memref.whole main_v56_0) S8192x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S1x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v23) S32x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S1x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68_0) S8192x32.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v68_1) S8x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun _ => false | 7 => fun i => !(k3_cond1 i == 1#1) && !(k3_cond2 i == 1#1) | ⟨_ + 8, h⟩ => absurd h (Nat.not_lt.2 (Nat.le_add_left _ _))

abbrev win4_0 : Pipeline.Window sig grid4 :=
  Pipeline.Window.ofSpec (Memref.whole main_v68_0) S8192x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S1x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v31) S32x5.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v79) S1x5.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v80_0) S8192x5.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v80_1) S8x5.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun _ => false | 7 => fun i => !(k4_cond1 i == 1#1) && !(k4_cond2 i == 1#1) | ⟨_ + 8, h⟩ => absurd h (Nat.not_lt.2 (Nat.le_add_left _ _))

abbrev win5_0 : Pipeline.Window sig grid5 :=
  Pipeline.Window.ofSpec (Memref.whole main_v80_0) S8192x5.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S1x5.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83_0) S8192x5.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v83_1) S8x5.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond1 i == 1#1) && !(k5_cond2 i == 1#1) | ⟨_ + 4, h⟩ => absurd h (Nat.not_lt.2 (Nat.le_add_left _ _))

abbrev win6_0 : Pipeline.Window sig grid6 :=
  Pipeline.Window.ofSpec (Memref.whole main_v83_0) S8192x5.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v86) S1x5.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v74) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v91) S1x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v92) S8192x5.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S1048576x16 : Shape := ⟨2, ![1048576, 16]⟩
abbrev S64x16 : Shape := ⟨2, ![64, 16]⟩
abbrev S64 : Shape := ⟨1, ![64]⟩
abbrev S32x64 : Shape := ⟨2, ![32, 64]⟩
abbrev S32 : Shape := ⟨1, ![32]⟩
abbrev S32x32 : Shape := ⟨2, ![32, 32]⟩
abbrev S5x32 : Shape := ⟨2, ![5, 32]⟩
abbrev S5 : Shape := ⟨1, ![5]⟩
abbrev S_ : Shape := ⟨0, ![]⟩
abbrev S16x64 : Shape := ⟨2, ![16, 64]⟩
abbrev S1048576x64 : Shape := ⟨2, ![1048576, 64]⟩
abbrev S1x64 : Shape := ⟨2, ![1, 64]⟩
abbrev S64x32 : Shape := ⟨2, ![64, 32]⟩
abbrev S1048576x32 : Shape := ⟨2, ![1048576, 32]⟩
abbrev S1x32 : Shape := ⟨2, ![1, 32]⟩
abbrev S32x5 : Shape := ⟨2, ![32, 5]⟩
abbrev S1048576x5 : Shape := ⟨2, ![1048576, 5]⟩
abbrev S1x5 : Shape := ⟨2, ![1, 5]⟩

abbrev nBuf : Space → Nat
  | .hbm => 273
  | .vmem => 0
  | .smem => 0
  | _ => 0

abbrev hbmTy0_0 (i : Nat) : BufTy := match i % 128 with
  | 0 => ⟨S1048576x16, .f32⟩
  | 1 => ⟨S64x16, .f32⟩
  | 2 => ⟨S64, .f32⟩
  | 3 => ⟨S32x64, .f32⟩
  | 4 => ⟨S32, .f32⟩
  | 5 => ⟨S32x32, .f32⟩
  | 6 => ⟨S32, .f32⟩
  | 7 => ⟨S5x32, .f32⟩
  | 8 => ⟨S5, .f32⟩
  | 9 => ⟨S1048576x16, .f32⟩
  | 10 => ⟨S_, .f32⟩
  | 11 => ⟨S_, .f32⟩
  | 12 => ⟨S_, .f32⟩
  | 13 => ⟨S_, .f32⟩
  | 14 => ⟨S1048576x16, .f32⟩
  | 15 => ⟨S1048576x16, .f32⟩
  | 16 => ⟨S1048576x16, .f32⟩
  | 17 => ⟨S_, .f32⟩
  | 18 => ⟨S_, .f32⟩
  | 19 => ⟨S_, .f32⟩
  | 20 => ⟨S1048576x16, .f32⟩
  | 21 => ⟨S1048576x16, .f32⟩
  | 22 => ⟨S_, .f32⟩
  | 23 => ⟨S1048576x16, .f32⟩
  | 24 => ⟨S1048576x16, .f32⟩
  | 25 => ⟨S1048576x16, .f32⟩
  | 26 => ⟨S1048576x16, .f32⟩
  | 27 => ⟨S64x16, .f32⟩
  | 28 => ⟨S_, .f32⟩
  | 29 => ⟨S_, .f32⟩
  | 30 => ⟨S_, .f32⟩
  | 31 => ⟨S_, .f32⟩
  | 32 => ⟨S64x16, .f32⟩
  | 33 => ⟨S64x16, .f32⟩
  | 34 => ⟨S64x16, .f32⟩
  | 35 => ⟨S_, .f32⟩
  | 36 => ⟨S_, .f32⟩
  | 37 => ⟨S_, .f32⟩
  | 38 => ⟨S64x16, .f32⟩
  | 39 => ⟨S64x16, .f32⟩
  | 40 => ⟨S_, .f32⟩
  | 41 => ⟨S64x16, .f32⟩
  | 42 => ⟨S64x16, .f32⟩
  | 43 => ⟨S_, .f32⟩
  | 44 => ⟨S64, .f32⟩
  | 45 => ⟨S64, .f32⟩
  | 46 => ⟨S64, .f32⟩
  | 47 => ⟨S1048576x16, .f32⟩
  | 48 => ⟨S1048576x16, .f32⟩
  | 49 => ⟨S16x64, .f32⟩
  | 50 => ⟨S1048576x64, .f32⟩
  | 51 => ⟨S1x64, .f32⟩
  | 52 => ⟨S1048576x64, .f32⟩
  | 53 => ⟨S1048576x64, .f32⟩
  | 54 => ⟨S1048576x64, .f32⟩
  | 55 => ⟨S1048576x64, .f32⟩
  | 56 => ⟨S_, .f32⟩
  | 57 => ⟨S_, .f32⟩
  | 58 => ⟨S_, .f32⟩
  | 59 => ⟨S1048576x64, .f32⟩
  | 60 => ⟨S1048576x64, .f32⟩
  | 61 => ⟨S_, .f32⟩
  | 62 => ⟨S1048576x64, .f32⟩
  | 63 => ⟨S1048576x64, .f32⟩
  | 64 => ⟨S1048576x64, .f32⟩
  | 65 => ⟨S_, .f32⟩
  | 66 => ⟨S_, .f32⟩
  | 67 => ⟨S_, .f32⟩
  | 68 => ⟨S_, .f32⟩
  | 69 => ⟨S_, .f32⟩
  | 70 => ⟨S1048576x64, .f32⟩
  | 71 => ⟨S1048576x64, .f32⟩
  | 72 => ⟨S1048576x64, .f32⟩
  | 73 => ⟨S_, .f32⟩
  | 74 => ⟨S1048576x64, .f32⟩
  | 75 => ⟨S1048576x64, .f32⟩
  | 76 => ⟨S1048576x64, .f32⟩
  | 77 => ⟨S_, .f32⟩
  | 78 => ⟨S_, .f32⟩
  | 79 => ⟨S_, .f32⟩
  | 80 => ⟨S1048576x64, .f32⟩
  | 81 => ⟨S1048576x64, .f32⟩
  | 82 => ⟨S_, .f32⟩
  | 83 => ⟨S1048576x64, .f32⟩
  | 84 => ⟨S1048576x64, .f32⟩
  | 85 => ⟨S1048576x64, .f32⟩
  | 86 => ⟨S1048576x64, .f32⟩
  | 87 => ⟨S32x64, .f32⟩
  | 88 => ⟨S_, .f32⟩
  | 89 => ⟨S_, .f32⟩
  | 90 => ⟨S_, .f32⟩
  | 91 => ⟨S_, .f32⟩
  | 92 => ⟨S32x64, .f32⟩
  | 93 => ⟨S32x64, .f32⟩
  | 94 => ⟨S32x64, .f32⟩
  | 95 => ⟨S_, .f32⟩
  | 96 => ⟨S_, .f32⟩
  | 97 => ⟨S_, .f32⟩
  | 98 => ⟨S32x64, .f32⟩
  | 99 => ⟨S32x64, .f32⟩
  | 100 => ⟨S_, .f32⟩
  | 101 => ⟨S32x64, .f32⟩
  | 102 => ⟨S32x64, .f32⟩
  | 103 => ⟨S_, .f32⟩
  | 104 => ⟨S32, .f32⟩
  | 105 => ⟨S32, .f32⟩
  | 106 => ⟨S32, .f32⟩
  | 107 => ⟨S1048576x64, .f32⟩
  | 108 => ⟨S1048576x64, .f32⟩
  | 109 => ⟨S64x32, .f32⟩
  | 110 => ⟨S1048576x32, .f32⟩
  | 111 => ⟨S1x32, .f32⟩
  | 112 => ⟨S1048576x32, .f32⟩
  | 113 => ⟨S1048576x32, .f32⟩
  | 114 => ⟨S1048576x32, .f32⟩
  | 115 => ⟨S1048576x32, .f32⟩
  | 116 => ⟨S_, .f32⟩
  | 117 => ⟨S_, .f32⟩
  | 118 => ⟨S_, .f32⟩
  | 119 => ⟨S1048576x32, .f32⟩
  | 120 => ⟨S1048576x32, .f32⟩
  | 121 => ⟨S_, .f32⟩
  | 122 => ⟨S1048576x32, .f32⟩
  | 123 => ⟨S1048576x32, .f32⟩
  | 124 => ⟨S1048576x32, .f32⟩
  | 125 => ⟨S_, .f32⟩
  | 126 => ⟨S_, .f32⟩
  | 127 => ⟨S_, .f32⟩
  | _ => ⟨S1048576x16, .f32⟩

abbrev hbmTy0_1 (i : Nat) : BufTy := match i % 128 with
  | 0 => ⟨S_, .f32⟩
  | 1 => ⟨S_, .f32⟩
  | 2 => ⟨S1048576x32, .f32⟩
  | 3 => ⟨S1048576x32, .f32⟩
  | 4 => ⟨S1048576x32, .f32⟩
  | 5 => ⟨S_, .f32⟩
  | 6 => ⟨S1048576x32, .f32⟩
  | 7 => ⟨S1048576x32, .f32⟩
  | 8 => ⟨S1048576x32, .f32⟩
  | 9 => ⟨S_, .f32⟩
  | 10 => ⟨S_, .f32⟩
  | 11 => ⟨S_, .f32⟩
  | 12 => ⟨S1048576x32, .f32⟩
  | 13 => ⟨S1048576x32, .f32⟩
  | 14 => ⟨S_, .f32⟩
  | 15 => ⟨S1048576x32, .f32⟩
  | 16 => ⟨S1048576x32, .f32⟩
  | 17 => ⟨S1048576x32, .f32⟩
  | 18 => ⟨S1048576x32, .f32⟩
  | 19 => ⟨S32x32, .f32⟩
  | 20 => ⟨S_, .f32⟩
  | 21 => ⟨S_, .f32⟩
  | 22 => ⟨S_, .f32⟩
  | 23 => ⟨S_, .f32⟩
  | 24 => ⟨S32x32, .f32⟩
  | 25 => ⟨S32x32, .f32⟩
  | 26 => ⟨S32x32, .f32⟩
  | 27 => ⟨S_, .f32⟩
  | 28 => ⟨S_, .f32⟩
  | 29 => ⟨S_, .f32⟩
  | 30 => ⟨S32x32, .f32⟩
  | 31 => ⟨S32x32, .f32⟩
  | 32 => ⟨S_, .f32⟩
  | 33 => ⟨S32x32, .f32⟩
  | 34 => ⟨S32x32, .f32⟩
  | 35 => ⟨S_, .f32⟩
  | 36 => ⟨S32, .f32⟩
  | 37 => ⟨S32, .f32⟩
  | 38 => ⟨S32, .f32⟩
  | 39 => ⟨S1048576x32, .f32⟩
  | 40 => ⟨S1048576x32, .f32⟩
  | 41 => ⟨S32x32, .f32⟩
  | 42 => ⟨S1048576x32, .f32⟩
  | 43 => ⟨S1x32, .f32⟩
  | 44 => ⟨S1048576x32, .f32⟩
  | 45 => ⟨S1048576x32, .f32⟩
  | 46 => ⟨S1048576x32, .f32⟩
  | 47 => ⟨S1048576x32, .f32⟩
  | 48 => ⟨S_, .f32⟩
  | 49 => ⟨S_, .f32⟩
  | 50 => ⟨S_, .f32⟩
  | 51 => ⟨S1048576x32, .f32⟩
  | 52 => ⟨S1048576x32, .f32⟩
  | 53 => ⟨S_, .f32⟩
  | 54 => ⟨S1048576x32, .f32⟩
  | 55 => ⟨S1048576x32, .f32⟩
  | 56 => ⟨S1048576x32, .f32⟩
  | 57 => ⟨S_, .f32⟩
  | 58 => ⟨S_, .f32⟩
  | 59 => ⟨S_, .f32⟩
  | 60 => ⟨S_, .f32⟩
  | 61 => ⟨S_, .f32⟩
  | 62 => ⟨S1048576x32, .f32⟩
  | 63 => ⟨S1048576x32, .f32⟩
  | 64 => ⟨S1048576x32, .f32⟩
  | 65 => ⟨S_, .f32⟩
  | 66 => ⟨S1048576x32, .f32⟩
  | 67 => ⟨S1048576x32, .f32⟩
  | 68 => ⟨S1048576x32, .f32⟩
  | 69 => ⟨S_, .f32⟩
  | 70 => ⟨S_, .f32⟩
  | 71 => ⟨S_, .f32⟩
  | 72 => ⟨S1048576x32, .f32⟩
  | 73 => ⟨S1048576x32, .f32⟩
  | 74 => ⟨S_, .f32⟩
  | 75 => ⟨S1048576x32, .f32⟩
  | 76 => ⟨S1048576x32, .f32⟩
  | 77 => ⟨S1048576x32, .f32⟩
  | 78 => ⟨S1048576x32, .f32⟩
  | 79 => ⟨S5x32, .f32⟩
  | 80 => ⟨S_, .f32⟩
  | 81 => ⟨S_, .f32⟩
  | 82 => ⟨S_, .f32⟩
  | 83 => ⟨S_, .f32⟩
  | 84 => ⟨S5x32, .f32⟩
  | 85 => ⟨S5x32, .f32⟩
  | 86 => ⟨S5x32, .f32⟩
  | 87 => ⟨S_, .f32⟩
  | 88 => ⟨S_, .f32⟩
  | 89 => ⟨S_, .f32⟩
  | 90 => ⟨S5x32, .f32⟩
  | 91 => ⟨S5x32, .f32⟩
  | 92 => ⟨S_, .f32⟩
  | 93 => ⟨S5x32, .f32⟩
  | 94 => ⟨S5x32, .f32⟩
  | 95 => ⟨S_, .f32⟩
  | 96 => ⟨S5, .f32⟩
  | 97 => ⟨S5, .f32⟩
  | 98 => ⟨S5, .f32⟩
  | 99 => ⟨S1048576x32, .f32⟩
  | 100 => ⟨S1048576x32, .f32⟩
  | 101 => ⟨S32x5, .f32⟩
  | 102 => ⟨S1048576x5, .f32⟩
  | 103 => ⟨S1x5, .f32⟩
  | 104 => ⟨S1048576x5, .f32⟩
  | 105 => ⟨S1048576x5, .f32⟩
  | 106 => ⟨S1048576x5, .f32⟩
  | 107 => ⟨S1048576x5, .f32⟩
  | 108 => ⟨S_, .f32⟩
  | 109 => ⟨S5, .f32⟩
  | 110 => ⟨S_, .f32⟩
  | 111 => ⟨S5, .f32⟩
  | 112 => ⟨S5, .f32⟩
  | 113 => ⟨S1x5, .f32⟩
  | 114 => ⟨S1048576x5, .f32⟩
  | 115 => ⟨S1048576x5, .f32⟩
  | 116 => ⟨S1048576x5, .f32⟩
  | 117 => ⟨S_, .f32⟩
  | 118 => ⟨S5, .f32⟩
  | 119 => ⟨S1x5, .f32⟩
  | 120 => ⟨S1048576x5, .f32⟩
  | 121 => ⟨S1048576x5, .f32⟩
  | 122 => ⟨S1048576x5, .f32⟩
  | 123 => ⟨S_, .f32⟩
  | 124 => ⟨S_, .f32⟩
  | 125 => ⟨S_, .f32⟩
  | 126 => ⟨S_, .f32⟩
  | 127 => ⟨S_, .f32⟩
  | _ => ⟨S1048576x16, .f32⟩

abbrev hbmTy0_2 (i : Nat) : BufTy := match i % 128 with
  | 0 => ⟨S1048576x5, .f32⟩
  | 1 => ⟨S1048576x5, .f32⟩
  | 2 => ⟨S1048576x5, .f32⟩
  | 3 => ⟨S_, .f32⟩
  | 4 => ⟨S1048576x5, .f32⟩
  | 5 => ⟨S1048576x5, .f32⟩
  | 6 => ⟨S1048576x5, .f32⟩
  | 7 => ⟨S_, .f32⟩
  | 8 => ⟨S_, .f32⟩
  | 9 => ⟨S_, .f32⟩
  | 10 => ⟨S1048576x5, .f32⟩
  | 11 => ⟨S1048576x5, .f32⟩
  | 12 => ⟨S_, .f32⟩
  | 13 => ⟨S1048576x5, .f32⟩
  | 14 => ⟨S1048576x5, .f32⟩
  | 15 => ⟨S1048576x5, .f32⟩
  | 16 => ⟨S1048576x5, .f32⟩
  | _ => ⟨S1048576x16, .f32⟩

abbrev hbmTy (i : Nat) : BufTy := match i / 128 with
  | 0 => hbmTy0_0 i
  | 1 => hbmTy0_1 i
  | 2 => hbmTy0_2 i
  | _ => ⟨S1048576x16, .f32⟩

abbrev bufTy : (tb : Table) → Fin (tcTables nBuf tb) → BufTy
  | .hbm, ⟨i, _⟩ => hbmTy i
  | _, _ => ⟨S1048576x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_cst_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_3 : Ref sig .tc := ⟨.hbm, 28, rfl⟩
abbrev main_v10 : Ref sig .tc := ⟨.hbm, 29, rfl⟩
abbrev main_cst_4 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_5 : Ref sig .tc := ⟨.hbm, 35, rfl⟩
abbrev main_cst_6 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_7 : Ref sig .tc := ⟨.hbm, 56, rfl⟩
abbrev main_cst_8 : Ref sig .tc := ⟨.hbm, 57, rfl⟩
abbrev main_call5_v0 : Ref sig .tc := ⟨.hbm, 58, rfl⟩
abbrev main_call5_v1 : Ref sig .tc := ⟨.hbm, 59, rfl⟩
abbrev main_call5_v2 : Ref sig .tc := ⟨.hbm, 60, rfl⟩
abbrev main_call5_v3 : Ref sig .tc := ⟨.hbm, 61, rfl⟩
abbrev main_call5_v4 : Ref sig .tc := ⟨.hbm, 62, rfl⟩
abbrev main_v29 : Ref sig .tc := ⟨.hbm, 63, rfl⟩
abbrev main_v30 : Ref sig .tc := ⟨.hbm, 64, rfl⟩
abbrev main_cst_9 : Ref sig .tc := ⟨.hbm, 65, rfl⟩
abbrev main_v31 : Ref sig .tc := ⟨.hbm, 66, rfl⟩
abbrev main_cst_10 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_11 : Ref sig .tc := ⟨.hbm, 77, rfl⟩
abbrev main_cst_12 : Ref sig .tc := ⟨.hbm, 78, rfl⟩
abbrev main_call8_v0 : Ref sig .tc := ⟨.hbm, 79, rfl⟩
abbrev main_call8_v1 : Ref sig .tc := ⟨.hbm, 80, rfl⟩
abbrev main_call8_v2 : Ref sig .tc := ⟨.hbm, 81, rfl⟩
abbrev main_call8_v3 : Ref sig .tc := ⟨.hbm, 82, rfl⟩
abbrev main_call8_v4 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_13 : Ref sig .tc := ⟨.hbm, 88, rfl⟩
abbrev main_v45 : Ref sig .tc := ⟨.hbm, 89, rfl⟩
abbrev main_cst_14 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_15 : Ref sig .tc := ⟨.hbm, 95, rfl⟩
abbrev main_cst_16 : Ref sig .tc := ⟨.hbm, 96, rfl⟩
abbrev main_call10_v0 : Ref sig .tc := ⟨.hbm, 97, rfl⟩
abbrev main_call10_v1 : Ref sig .tc := ⟨.hbm, 98, rfl⟩
abbrev main_call10_v2 : Ref sig .tc := ⟨.hbm, 99, rfl⟩
abbrev main_call10_v3 : Ref sig .tc := ⟨.hbm, 100, rfl⟩
abbrev main_call10_v4 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_17 : Ref sig .tc := ⟨.hbm, 116, rfl⟩
abbrev main_cst_18 : Ref sig .tc := ⟨.hbm, 117, rfl⟩
abbrev main_call12_v0 : Ref sig .tc := ⟨.hbm, 118, rfl⟩
abbrev main_call12_v1 : Ref sig .tc := ⟨.hbm, 119, rfl⟩
abbrev main_call12_v2 : Ref sig .tc := ⟨.hbm, 120, rfl⟩
abbrev main_call12_v3 : Ref sig .tc := ⟨.hbm, 121, rfl⟩
abbrev main_call12_v4 : Ref sig .tc := ⟨.hbm, 122, rfl⟩
abbrev main_v64 : Ref sig .tc := ⟨.hbm, 123, rfl⟩
abbrev main_v65 : Ref sig .tc := ⟨.hbm, 124, rfl⟩
abbrev main_cst_19 : Ref sig .tc := ⟨.hbm, 125, rfl⟩
abbrev main_v66 : Ref sig .tc := ⟨.hbm, 126, rfl⟩
abbrev main_cst_20 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_cst_21 : Ref sig .tc := ⟨.hbm, 137, rfl⟩
abbrev main_cst_22 : Ref sig .tc := ⟨.hbm, 138, rfl⟩
abbrev main_call15_v0 : Ref sig .tc := ⟨.hbm, 139, rfl⟩
abbrev main_call15_v1 : Ref sig .tc := ⟨.hbm, 140, rfl⟩
abbrev main_call15_v2 : Ref sig .tc := ⟨.hbm, 141, rfl⟩
abbrev main_call15_v3 : Ref sig .tc := ⟨.hbm, 142, rfl⟩
abbrev main_call15_v4 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_cst_23 : Ref sig .tc := ⟨.hbm, 148, rfl⟩
abbrev main_v80 : Ref sig .tc := ⟨.hbm, 149, rfl⟩
abbrev main_cst_24 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_cst_25 : Ref sig .tc := ⟨.hbm, 155, rfl⟩
abbrev main_cst_26 : Ref sig .tc := ⟨.hbm, 156, rfl⟩
abbrev main_call17_v0 : Ref sig .tc := ⟨.hbm, 157, rfl⟩
abbrev main_call17_v1 : Ref sig .tc := ⟨.hbm, 158, rfl⟩
abbrev main_call17_v2 : Ref sig .tc := ⟨.hbm, 159, rfl⟩
abbrev main_call17_v3 : Ref sig .tc := ⟨.hbm, 160, rfl⟩
abbrev main_call17_v4 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_cst_27 : Ref sig .tc := ⟨.hbm, 176, rfl⟩
abbrev main_cst_28 : Ref sig .tc := ⟨.hbm, 177, rfl⟩
abbrev main_call19_v0 : Ref sig .tc := ⟨.hbm, 178, rfl⟩
abbrev main_call19_v1 : Ref sig .tc := ⟨.hbm, 179, rfl⟩
abbrev main_call19_v2 : Ref sig .tc := ⟨.hbm, 180, rfl⟩
abbrev main_call19_v3 : Ref sig .tc := ⟨.hbm, 181, rfl⟩
abbrev main_call19_v4 : Ref sig .tc := ⟨.hbm, 182, rfl⟩
abbrev main_v99 : Ref sig .tc := ⟨.hbm, 183, rfl⟩
abbrev main_v100 : Ref sig .tc := ⟨.hbm, 184, rfl⟩
abbrev main_cst_29 : Ref sig .tc := ⟨.hbm, 185, rfl⟩
abbrev main_v101 : Ref sig .tc := ⟨.hbm, 186, rfl⟩
abbrev main_cst_30 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_cst_31 : Ref sig .tc := ⟨.hbm, 197, rfl⟩
abbrev main_cst_32 : Ref sig .tc := ⟨.hbm, 198, rfl⟩
abbrev main_call22_v0 : Ref sig .tc := ⟨.hbm, 199, rfl⟩
abbrev main_call22_v1 : Ref sig .tc := ⟨.hbm, 200, rfl⟩
abbrev main_call22_v2 : Ref sig .tc := ⟨.hbm, 201, rfl⟩
abbrev main_call22_v3 : Ref sig .tc := ⟨.hbm, 202, rfl⟩
abbrev main_call22_v4 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_cst_33 : Ref sig .tc := ⟨.hbm, 208, rfl⟩
abbrev main_v115 : Ref sig .tc := ⟨.hbm, 209, rfl⟩
abbrev main_cst_34 : Ref sig .tc := ⟨.hbm, 210, rfl⟩
abbrev main_v116 : Ref sig .tc := ⟨.hbm, 211, rfl⟩
abbrev main_v117 : Ref sig .tc := ⟨.hbm, 212, rfl⟩
abbrev main_v118 : Ref sig .tc := ⟨.hbm, 213, rfl⟩
abbrev main_v119 : Ref sig .tc := ⟨.hbm, 214, rfl⟩
abbrev main_cst_35 : Ref sig .tc := ⟨.hbm, 215, rfl⟩
abbrev main_cst_36 : Ref sig .tc := ⟨.hbm, 216, rfl⟩
abbrev main_call24_v0 : Ref sig .tc := ⟨.hbm, 217, rfl⟩
abbrev main_call24_v1 : Ref sig .tc := ⟨.hbm, 218, rfl⟩
abbrev main_call24_v2 : Ref sig .tc := ⟨.hbm, 219, rfl⟩
abbrev main_call24_v3 : Ref sig .tc := ⟨.hbm, 220, rfl⟩
abbrev main_call24_v4 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_v123 : Ref sig .tc := ⟨.hbm, 225, rfl⟩
abbrev main_v124 : Ref sig .tc := ⟨.hbm, 226, rfl⟩
abbrev main_v125 : Ref sig .tc := ⟨.hbm, 227, rfl⟩
abbrev main_v126 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_v130 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_cst_37 : Ref sig .tc := ⟨.hbm, 236, rfl⟩
abbrev main_v134 : Ref sig .tc := ⟨.hbm, 237, rfl⟩
abbrev main_cst_38 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_v139 : Ref sig .tc := ⟨.hbm, 243, rfl⟩
abbrev main_v140 : Ref sig .tc := ⟨.hbm, 244, rfl⟩
abbrev main_cst_39 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_cst_40 : Ref sig .tc := ⟨.hbm, 251, rfl⟩
abbrev main_v146 : Ref sig .tc := ⟨.hbm, 252, rfl⟩
abbrev main_cst_41 : Ref sig .tc := ⟨.hbm, 253, rfl⟩
abbrev main_v147 : Ref sig .tc := ⟨.hbm, 254, rfl⟩
abbrev main_v148 : Ref sig .tc := ⟨.hbm, 255, rfl⟩
abbrev main_v149 : Ref sig .tc := ⟨.hbm, 256, rfl⟩
abbrev main_v150 : Ref sig .tc := ⟨.hbm, 257, rfl⟩
abbrev main_v151 : Ref sig .tc := ⟨.hbm, 258, rfl⟩
abbrev main_v152 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_cst_42 : Ref sig .tc := ⟨.hbm, 263, rfl⟩
abbrev main_cst_43 : Ref sig .tc := ⟨.hbm, 264, rfl⟩
abbrev main_call28_v0 : Ref sig .tc := ⟨.hbm, 265, rfl⟩
abbrev main_call28_v1 : Ref sig .tc := ⟨.hbm, 266, rfl⟩
abbrev main_call28_v2 : Ref sig .tc := ⟨.hbm, 267, rfl⟩
abbrev main_call28_v3 : Ref sig .tc := ⟨.hbm, 268, rfl⟩
abbrev main_call28_v4 : Ref sig .tc := ⟨.hbm, 269, rfl⟩
abbrev main_v156 : Ref sig .tc := ⟨.hbm, 270, rfl⟩
abbrev main_v157 : Ref sig .tc := ⟨.hbm, 271, rfl⟩
abbrev main_v158 : Ref sig .tc := ⟨.hbm, 272, rfl⟩

abbrev nD : Nat := 1
abbrev τ : Topo := Topo.v7x

variable {F : FTy → Type} [FloatOps F]

class Facts₀ : Prop where
  reducesTo_S1048576x16_S_d0_1 : S1048576x16.ReducesTo [0, 1] S_
  h_S_ : 0 < S_.numel
  bcast_S_S1048576x16 : S_.BroadcastsInDim S1048576x16 (![] : Fin 0 → Fin S1048576x16.rank)
  reducesTo_S64x16_S_d0_1 : S64x16.ReducesTo [0, 1] S_
  bcast_S_S64x16 : S_.BroadcastsInDim S64x16 (![] : Fin 0 → Fin S64x16.rank)
  bcast_S_S64 : S_.BroadcastsInDim S64 (![] : Fin 0 → Fin S64.rank)
  transposes_S64x16_S16x64_1_0 : S64x16.Transposes [1, 0] S16x64
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  reducesTo_S1048576x64_S_d0_1 : S1048576x64.ReducesTo [0, 1] S_
  reducesTo_S32x64_S_d0_1 : S32x64.ReducesTo [0, 1] S_
  bcast_S_S32x64 : S_.BroadcastsInDim S32x64 (![] : Fin 0 → Fin S32x64.rank)
  bcast_S_S32 : S_.BroadcastsInDim S32 (![] : Fin 0 → Fin S32.rank)
  transposes_S32x64_S64x32_1_0 : S32x64.Transposes [1, 0] S64x32
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  bcast_S_S1048576x32 : S_.BroadcastsInDim S1048576x32 (![] : Fin 0 → Fin S1048576x32.rank)
  reducesTo_S1048576x32_S_d0_1 : S1048576x32.ReducesTo [0, 1] S_
  reducesTo_S32x32_S_d0_1 : S32x32.ReducesTo [0, 1] S_
  bcast_S_S32x32 : S_.BroadcastsInDim S32x32 (![] : Fin 0 → Fin S32x32.rank)
  transposes_S32x32_S32x32_1_0 : S32x32.Transposes [1, 0] S32x32
  reducesTo_S5x32_S_d0_1 : S5x32.ReducesTo [0, 1] S_
  bcast_S_S5x32 : S_.BroadcastsInDim S5x32 (![] : Fin 0 → Fin S5x32.rank)
  bcast_S_S5 : S_.BroadcastsInDim S5 (![] : Fin 0 → Fin S5.rank)
  transposes_S5x32_S32x5_1_0 : S5x32.Transposes [1, 0] S32x5
  bcast_S5_S1x5_1 : S5.BroadcastsInDim S1x5 (![1] : Fin 1 → Fin S1x5.rank)
  bcast_S1x5_S1048576x5_0_1 : S1x5.BroadcastsInDim S1048576x5 (![0, 1] : Fin 2 → Fin S1048576x5.rank)
  bcast_S_S1048576x5 : S_.BroadcastsInDim S1048576x5 (![] : Fin 0 → Fin S1048576x5.rank)
  reducesTo_S1048576x5_S5_d0 : S1048576x5.ReducesTo [0] S5
  reducesTo_S1048576x5_S_d0_1 : S1048576x5.ReducesTo [0, 1] S_
  dot_S1048576x16_S16x64_S1048576x64_1_0_0_1_n_n_wf : DotDims.WF S1048576x16 S16x64 S1048576x64 [1] [0] [0] [1] [] []
  dot_S1048576x64_S64x32_S1048576x32_1_0_0_1_n_n_wf : DotDims.WF S1048576x64 S64x32 S1048576x32 [1] [0] [0] [1] [] []
  dot_S1048576x32_S32x32_S1048576x32_1_0_0_1_n_n_wf : DotDims.WF S1048576x32 S32x32 S1048576x32 [1] [0] [0] [1] [] []
  dot_S1048576x32_S32x5_S1048576x5_1_0_0_1_n_n_wf : DotDims.WF S1048576x32 S32x5 S1048576x5 [1] [0] [0] [1] [] []

variable [Facts₀]

def dot_S1048576x16_S16x64_S1048576x64_1_0_0_1_n_n : DotDims S1048576x16 S16x64 S1048576x64 where
  lhsContracting := [1]
  rhsContracting := [0]
  lhsNonContracting := [0]
  rhsNonContracting := [1]
  lhsBatch := []
  rhsBatch := []
  wf := dot_S1048576x16_S16x64_S1048576x64_1_0_0_1_n_n_wf
def dot_S1048576x64_S64x32_S1048576x32_1_0_0_1_n_n : DotDims S1048576x64 S64x32 S1048576x32 where
  lhsContracting := [1]
  rhsContracting := [0]
  lhsNonContracting := [0]
  rhsNonContracting := [1]
  lhsBatch := []
  rhsBatch := []
  wf := dot_S1048576x64_S64x32_S1048576x32_1_0_0_1_n_n_wf
def dot_S1048576x32_S32x32_S1048576x32_1_0_0_1_n_n : DotDims S1048576x32 S32x32 S1048576x32 where
  lhsContracting := [1]
  rhsContracting := [0]
  lhsNonContracting := [0]
  rhsNonContracting := [1]
  lhsBatch := []
  rhsBatch := []
  wf := dot_S1048576x32_S32x32_S1048576x32_1_0_0_1_n_n_wf
def dot_S1048576x32_S32x5_S1048576x5_1_0_0_1_n_n : DotDims S1048576x32 S32x5 S1048576x5 where
  lhsContracting := [1]
  rhsContracting := [0]
  lhsNonContracting := [0]
  rhsNonContracting := [1]
  lhsBatch := []
  rhsBatch := []
  wf := dot_S1048576x32_S32x5_S1048576x5_1_0_0_1_n_n_wf

class Facts : Prop extends Facts₀ where

variable [Facts]
-- ==== Proof.ChainAgree.lean ====
import Mathlib.Logic.Function.Basic

namespace Chain

variable {β : Type*} {N M K : Nat} {o o' o'' : Nat → β}

/-- Two tables have the same rows up to row `N`. -/
def AgreeTo (N : Nat) (o o' : Nat → β) : Prop := ∀ n ≤ N, o n = o' n

theorem AgreeTo.mono (h : AgreeTo N o o') (hM : M ≤ N) : AgreeTo M o o' := fun n hn => h n (Nat.le_trans hn hM)

theorem AgreeTo.symm (h : AgreeTo N o o') : AgreeTo N o' o := fun n hn => (h n hn).symm

theorem AgreeTo.trans (h : AgreeTo N o o') (h' : AgreeTo N o' o'') : AgreeTo N o o'' := fun n hn => (h n hn).trans (h' n hn)

/-- Setting a row above `N` leaves the rows up to `N` as they were. -/
theorem agreeTo_update (h : N < K) (e : β) : AgreeTo N (Function.update o K e) o := fun n hn => by
  rw [Function.update_of_ne (Nat.ne_of_lt (Nat.lt_of_le_of_lt hn h))]

/-- What holds on a whole list fails at no member: a point where it fails is outside the list. -/
theorem not_mem_of_forall {α : Type*} {p : α → Prop} {l : List α} (h : ∀ x ∈ l, p x) {b : α} (hb : ¬p b) : b ∉ l :=
  fun hl => hb (h b hl)

/-- Of two entries set one after the other, the first is read back where the second was not set. -/
theorem update_update_fst {α : Type*} [DecidableEq α] {β : α → Type*} (f : ∀ a, β a) {a b : α} (h : a ≠ b) (x : β a) (y : β b) :
    Function.update (Function.update f a x) b y a = x := by
  rw [Function.update_of_ne h, Function.update_self]

end Chain
-- ==== Proof.K.Cong.lean ====
import proofs.«411066_j83983790505988_3_alg».proof.Proof.KRegions
import proofs.«411066_j83983790505988_3_alg».proof.Proof.ChainAgree

namespace Cert.Kernel.Hand

open Cert.Kernel.Gen Cert.Kernel.GenP
open Idealize.ShloMosaic Idealize.ShloMosaic.TcCoe Idealize.SL.Sem Chain

variable {F : FTy → Type} [FloatOps F]
variable (m : (ℓ : Loc nD τ sig) → Buf (Elt F) ℓ) (c : Dev nD) {o o' : Outs (F := F)}

theorem V18_congr (h : AgreeTo 18 o o') : V18 m o c = V18 m o' c := by
  rw [V18, h 18 le_rfl]
theorem V18_a : V18 m o c main_v32 = o 18 main_v32 c := by
  rw [V18, Function.update_self]
theorem V21_congr (h : AgreeTo 18 o o') : V21 m o c = V21 m o' c := by
  rw [V21, V20, V19, V18_congr m c h]
/-- Off a pass's own arrays its exit contents are its entry contents, also over a table with the same earlier rows. -/
theorem V22_in (h : AgreeTo 18 o o') (r : Ref sig .tc) (hr : r ∉ [main_v44_0, main_v44_1]) : V22 m o' c r = V21 m o c r := by
  rw [V22_of m o' c r hr, V21_congr m c h]
theorem V22_congr (h : AgreeTo 22 o o') : V22 m o c = V22 m o' c := by
  rw [V22, V21_congr m c (h.mono (by decide)), h 22 le_rfl]
theorem V22_a : V22 m o c main_v44_0 = o 22 main_v44_0 c :=
  update_update_fst _ (StableHlo.devRef_ne_of_ne (by decide)) _ _
theorem V22_b : V22 m o c main_v44_1 = o 22 main_v44_1 c := by
  rw [V22, Function.update_self]
theorem V25_congr (h : AgreeTo 22 o o') : V25 m o c = V25 m o' c := by
  rw [V25, V24, V23, V22_congr m c h]
theorem V26_in (h : AgreeTo 22 o o') (r : Ref sig .tc) (hr : r ∉ [main_v56_0, main_v56_1]) : V26 m o' c r = V25 m o c r := by
  rw [V26_of m o' c r hr, V25_congr m c h]
theorem V26_congr (h : AgreeTo 26 o o') : V26 m o c = V26 m o' c := by
  rw [V26, V25_congr m c (h.mono (by decide)), h 26 le_rfl]
theorem V26_a : V26 m o c main_v56_0 = o 26 main_v56_0 c :=
  update_update_fst _ (StableHlo.devRef_ne_of_ne (by decide)) _ _
theorem V26_b : V26 m o c main_v56_1 = o 26 main_v56_1 c := by
  rw [V26, Function.update_self]
theorem V29_congr (h : AgreeTo 26 o o') : V29 m o c = V29 m o' c := by
  rw [V29, V28, V27, V26_congr m c h]
theorem V30_in (h : AgreeTo 26 o o') (r : Ref sig .tc) (hr : r ∉ [main_v68_0, main_v68_1]) : V30 m o' c r = V29 m o c r := by
  rw [V30_of m o' c r hr, V29_congr m c h]
theorem V30_congr (h : AgreeTo 30 o o') : V30 m o c = V30 m o' c := by
  rw [V30, V29_congr m c (h.mono (by decide)), h 30 le_rfl]
theorem V30_a : V30 m o c main_v68_0 = o 30 main_v68_0 c :=
  update_update_fst _ (StableHlo.devRef_ne_of_ne (by decide)) _ _
theorem V30_b : V30 m o c main_v68_1 = o 30 main_v68_1 c := by
  rw [V30, Function.update_self]
theorem V33_congr (h : AgreeTo 30 o o') : V33 m o c = V33 m o' c := by
  rw [V33, V32, V31, V30_congr m c h]
theorem V34_in (h : AgreeTo 30 o o') (r : Ref sig .tc) (hr : r ∉ [main_v80_0, main_v80_1]) : V34 m o' c r = V33 m o c r := by
  rw [V34_of m o' c r hr, V33_congr m c h]
theorem V34_congr (h : AgreeTo 34 o o') : V34 m o c = V34 m o' c := by
  rw [V34, V33_congr m c (h.mono (by decide)), h 34 le_rfl]
theorem V34_a : V34 m o c main_v80_0 = o 34 main_v80_0 c :=
  update_update_fst _ (StableHlo.devRef_ne_of_ne (by decide)) _ _
theorem V34_b : V34 m o c main_v80_1 = o 34 main_v80_1 c := by
  rw [V34, Function.update_self]
theorem V35_congr (h : AgreeTo 34 o o') : V35 m o c = V35 m o' c := by
  rw [V35, V34_congr m c h]
theorem V36_in (h : AgreeTo 34 o o') (r : Ref sig .tc) (hr : r ∉ [main_v83_0, main_v83_1]) : V36 m o' c r = V35 m o c r := by
  rw [V36_of m o' c r hr, V35_congr m c h]
theorem V36_congr (h : AgreeTo 36 o o') : V36 m o c = V36 m o' c := by
  rw [V36, V35_congr m c (h.mono (by decide)), h 36 le_rfl]
theorem V36_a : V36 m o c main_v83_0 = o 36 main_v83_0 c :=
  update_update_fst _ (StableHlo.devRef_ne_of_ne (by decide)) _ _
theorem V36_b : V36 m o c main_v83_1 = o 36 main_v83_1 c := by
  rw [V36, Function.update_self]
theorem V37_congr (h : AgreeTo 36 o o') : V37 m o c = V37 m o' c := by
  rw [V37, V36_congr m c h]
theorem V38_in (h : AgreeTo 36 o o') (r : Ref sig .tc) (hr : r ∉ [main_v92]) : V38 m o' c r = V37 m o c r := by
  rw [V38_of m o' c r hr, V37_congr m c h]
theorem V38_congr (h : AgreeTo 38 o o') : V38 m o c = V38 m o' c := by
  rw [V38, V37_congr m c (h.mono (by decide)), h 38 le_rfl]
theorem V38_a : V38 m o c main_v92 = o 38 main_v92 c := by
  rw [V38, Function.update_self]

end Cert.Kernel.Hand
-- ==== Proof.BodyLib.lean ====
universe u

namespace BodyLib

variable {α : Type u} {N : Nat}

/-- A running value along the points `0 … N-1` that starts afresh (`a`) at every multiple of `m` and is combined with the point before (`g`) elsewhere. -/
def accFold (m : Nat) (a : Fin N → α) (g : Fin N → α → α) : (n : Nat) → n < N → α
  | 0, h => a ⟨0, h⟩
  | n + 1, h => if (n + 1) % m = 0 then a ⟨n + 1, h⟩ else g ⟨n + 1, h⟩ (accFold m a g n (Nat.lt_of_succ_lt h))

theorem accFold_A (m : Nat) (a : Fin N → α) (g : Fin N → α → α) (t : Fin N) (h0 : t.val % m = 0) :
    accFold m a g t.val t.isLt = a t := by
  obtain ⟨n, hn⟩ := t
  cases n with
  | zero => rfl
  | succ n => exact if_pos h0

theorem accFold_B (m : Nat) (a : Fin N → α) (g : Fin N → α → α) (t : Fin N) (h0 : ¬t.val % m = 0) :
    accFold m a g t.val t.isLt = g t (accFold m a g (t.val - 1) (Nat.lt_of_le_of_lt (Nat.sub_le _ _) t.isLt)) := by
  obtain ⟨n, hn⟩ := t
  cases n with
  | zero => exact absurd (Nat.zero_mod _) h0
  | succ n => exact if_neg h0

end BodyLib
-- ==== Proof.K.Reg0.lean ====
import proofs.«411066_j83983790505988_3_alg».proof.Proof.Gen.Kernel.Launch
import proofs.«411066_j83983790505988_3_alg».proof.Proof.Gen.Kernel.Skeleton
import proofs.«411066_j83983790505988_3_alg».proof.Proof.Gen.Kernel.Points
import proofs.«411066_j83983790505988_3_alg».proof.Proof.BodyLib
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

theorem hcond0_1 : ∀ t : Fin cfg0.N, k0_cond1 (grid0.coords t) = 1#1 ↔ t.val % 64 = 0 :=
  (by decide +kernel : ∀ t : Fin grid0.N, _)
theorem hcond0_2 : ∀ t : Fin cfg0.N, k0_cond2 (grid0.coords t) = 1#1 ↔ t.val % 64 ≠ 0 :=
  (by decide +kernel : ∀ t : Fin grid0.N, _)
theorem hlive0_1 : ∀ i : grid0.Coords, cfg0.idle 1 i = false :=
  (by decide +kernel : ∀ i : grid0.Coords, idle0 1 i = false)

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rIn0 : Rect S8192x16 := Rect.unit (s := S8192x16) ![0, 0] S8192x16.size inb_S8192x16_S8192x16_0_0
abbrev rAcc0 : Rect S8x1 := Rect.unit (s := S8x1) ![0, 0] S8x1.size inb_S8x1_S8x1_0_0

def outA0 (x0 : Vec F S8192x16 .f32) : Vec F S8x1 .f32 :=
  View.canon [⟨rAcc0, k0_pay1 (View.ld x0 rIn0)⟩]
def outB0 (x0 : Vec F S8192x16 .f32) (xo : Vec F S8x1 .f32) : Vec F S8x1 .f32 :=
  View.canon [⟨rAcc0, k0_pay2 (View.ld x0 rIn0) (View.ld xo rAcc0)⟩]

section
variable (c : Dev nD) (E : Set ℕ) (i : grid0.Coords) (arg2 : Memref sig .tc .vmem S8192x16 .f32) (harg2 : arg2.IsWhole) (arg3 : Memref sig .tc .vmem S8x1 .f32) (harg3 : arg3.IsWhole) (x0 : Vec F S8192x16 .f32)

set_option maxHeartbeats 1000000 in
theorem sound_kernel0 (xo r : Vec F S8x1 .f32)
    (hc : k0_cond1 i = 1#1 ∧ ¬ k0_cond2 i = 1#1 ∧ r = outA0 x0 ∨ ¬ k0_cond1 i = 1#1 ∧ k0_cond2 i = 1#1 ∧ r = outB0 x0 xo)
    (K : PUnit → sProp 𝕄) :
    iprop(owns (c : Thread nD τ) arg2 fullShare x0 ∗ owns (c : Thread nD τ) arg3 fullShare xo
        ∗ (iprop(owns (c : Thread nD τ) arg2 fullShare x0 ∗ owns (c : Thread nD τ) arg3 fullShare r) -∗ K ⟨⟩))
      ⊢ wp frame (wpE (defs₀ (F := F)) Variants.none c none) E (cc0__k1_kernel i arg2 harg2 arg3 harg3) K := by
  simp only [cc0__k1_kernel_eq_skeleton]; unfold cc0__k1_kernel_skel
  unfold owns
  iintro ⟨⟨%f0, %hf0, H0⟩, ⟨%f1, %hf1, H1⟩, Hk⟩
  subst hf0; subst hf1
  rcases hc with ⟨h1, h2, rfl⟩ | ⟨h1, h2, rfl⟩ <;>
  (sl_exec (disch := first | exact h1 | exact h2)
   sl_step
   iapply Hk
   isplitl [H0]
   · iexists f0; isplitr; · ipureintro; rfl
     iexact H0
   iexists _; isplitr
   swap; · iexact H1
   ipureintro
   exact View.read_writes_eq_canon _ _ _ (View.cover_of_tiled _ S8x1.size (by rfl)))

end

variable (c : Dev nD) (t : Fin cfg0.N)

def acc0 : (n : ℕ) → n < cfg0.N → Vec F S8x1 .f32 :=
  BodyLib.accFold 64 (fun t => outA0 (iblk0 V c 0 t)) fun t => outB0 (iblk0 V c 0 t)

theorem acc0_A (h0 : t.val % 64 = 0) :
    acc0 V c t.val t.isLt = outA0 (iblk0 V c 0 t) := BodyLib.accFold_A _ _ _ t h0

theorem acc0_B (h0 : ¬t.val % 64 = 0) :
    acc0 V c t.val t.isLt = outB0 (iblk0 V c 0 t) (acc0 V c (t.val - 1) (Nat.lt_of_le_of_lt (Nat.sub_le _ _) t.isLt)) :=
  BodyLib.accFold_B _ _ _ t h0

def dat0 : Dat τ (Elt F) Unit ℕ (Pipeline.UD sig nD τ) ℕ cfg0 c where
  A w := V c (Pipeline.arrRef spec0 w)
  after w t := match w with
    | ⟨0, _⟩ => iblk0 V c 0 t
    | ⟨1, _⟩ => acc0 V c t.val t.isLt
  Φ _ := Pipeline.ΦA spec0 c
  q _ := fullShare
  owed _ := 0

theorem A_eq0 (w : Fin cfg0.W) : (dat0 V c).A w = V c (Pipeline.arrRef spec0 w) := by
  dsimp only [dat0]

theorem after0_1 : (dat0 V c).after 1 t = acc0 V c t.val t.isLt := by dsimp only [dat0]

theorem before0_0 (d) : (dat0 V c).before 0 t d = iblk0 V c 0 t :=
  (dat0 V c).before_in_eq_fetched 0 rfl (fun _ => rfl) (fun _ _ _ => rfl) (fun _ => rfl) t d

theorem before0_1_B (h0 : ¬t.val % 64 = 0) (d) :
    (dat0 V c).before 1 t d = acc0 V c (t.val - 1) (Nat.lt_of_le_of_lt (Nat.sub_le _ _) t.isLt) := by
  rw [Dat.before_out_kept _ 1 rfl t (by omega) (Bool.eq_false_iff.mpr fun h => by have := (flush0_1 _).mp h; dsimp only at this; omega)
    hlive0_1 (fun _ _ => rfl)]
  dsimp only [dat0]

set_option maxHeartbeats 800000 in
theorem sound_body0 :
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))
    ⊢ wp frame (wpE (defs₀ (F := F)) Variants.none c none) Set.univ (bodyAt0 t) (fun _ =>
  iprop((dat0 V c).Φ t.castSucc ∗ (dat0 V c).owesAt () t.castSucc
    ∗ owns (c : Thread nD τ) (st0_0 t) fullShare (iblk0 V c 0 t)
    ∗ owns (c : Thread nD τ) (st0_1 t) fullShare ((dat0 V c).after 1 t))) := by
  unfold bodyAt0
  simp only [before0_0]
  rw [after0_1]
  iintro ⟨HΦ, Ho, ⟨%d0, H0⟩, ⟨%d1, H1⟩⟩
  iapply (sound_kernel0 c Set.univ (grid0.coords t) _ _ _ _ (iblk0 V c 0 t) ((dat0 V c).before 1 t d1) (acc0 V c t.val t.isLt)
    (if h0 : t.val % 64 = 0 then .inl ⟨(hcond0_1 t).mpr h0, fun h => (hcond0_2 t).mp h h0, acc0_A V c t h0⟩
      else .inr ⟨fun h => h0 ((hcond0_1 t).mp h), (hcond0_2 t).mpr h0, (acc0_B V c t h0).trans (congrArg _ (before0_1_B V c t h0 _).symm)⟩) _)
  iframe H0 H1
  iintro ⟨H0, H1⟩
  iframe

theorem body_obligation0 : BodyObligation (dat0 (F := F) V c) (defs₀ (F := F)) Variants.none () Set.univ := fun t => by
  rw [bigSep_W0, bigSep_W0]
  dsimp only []
  rw [show idle0 1 (grid0.coords t) = false from hlive0_1 _]
  exact sound_body0 V c t

end Cert.Kernel.Hand

end
-- ==== Proof.K.D0.lean ====
import proofs.«411066_j83983790505988_3_alg».proof.Proof.K.Cong
import proofs.«411066_j83983790505988_3_alg».proof.Proof.K.Reg0

noncomputable section

namespace Cert.Kernel.Hand

open Cert.Kernel.Gen Cert.Kernel.GenP
open Idealize.ShloMosaic Idealize.ShloMosaic.TcCoe Idealize.SL.Sem Chain

variable {F : FTy → Type} [FloatOps F]

variable (m : (ℓ : Loc nD τ sig) → Buf (Elt F) ℓ)

abbrev VT (F : FTy → Type) : Type := (c : Dev nD) → (b : Ref sig .tc) → Buf (Elt F) ((c : Thread nD τ).loc b)

abbrev In0 : VT F := fun c b => V17 m c b
abbrev InVal0 (c : Dev nD) : Valuation τ sig (Elt F) := V17 m c
/-- The table of what the passes leave: each pass sets its own row to its exit contents. -/
def o18 : Outs (F := F) := fun _ r c =>
  Pipeline.withArrays spec0 c (InVal0 m c) (fun w => (dat0 (In0 m) c).arrAt w cfg0.N) r
abbrev OutVal0 (c : Dev nD) : Valuation τ sig (Elt F) := V18 m (o18 m) c
theorem o18_1 (c : Dev nD) : o18 m 18 main_v32 c = (dat0 (In0 m) c).arrAt 1 cfg0.N :=
  Pipeline.withArrays_arr spec0 launch0.win.arr_inj c _ _ 1
theorem hF0 (c : Dev nD) : ∀ w, (dat0 (In0 m) c).arrAt w cfg0.N = OutVal0 m c (Pipeline.arrRef spec0 w) := by
  intro w
  have hi := fun hw hn =>
    ((dat0 (In0 m) c).arrAt_in w hw cfg0.N).trans ((A_eq0 (In0 m) c w).trans (V18_of m (o18 m) c _ hn).symm)
  fin_cases w <;> try exact hi rfl (by decide)
  exact (o18_1 m c).symm.trans (V18_a m c).symm
theorem hrest0 (c : Dev nD) : ∀ b, b ∉ Finset.univ.image (Pipeline.arrRef spec0) → OutVal0 m c b = In0 m c b := fun b hb =>
  V18_of m (o18 m) c b (not_mem_of_forall (by decide) hb)

end Cert.Kernel.Hand

end
-- ==== Proof.BodyLibView.lean ====
import Idealize.ShloMosaic.Lib.Pipeline.FrameBody
import Idealize.ShloMosaic.Lib.Pipeline.Value

namespace BodyLib

open Idealize.ShloMosaic Idealize.ShloMosaic.Pipeline Idealize.SL Idealize.SL.RA

theorem hz2 : (![0, 0] : Fin 2 → Nat) = fun _ => 0 := funext fun a => by fin_cases a <;> rfl

/-- Read back after one store through the rectangle of the whole shape: the payload stored. -/
theorem read_writes_whole {sg : RefSig} {κ : Kind} {sp : Space} {S : Shape} {Val : EltTy → Type} {e : EltTy} [∀ e, Nonempty (Val e)]
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h
  rw [View.read_writes_eq_canon _ _ _ (fun y => ⟨_, List.mem_singleton_self _, by
    show y ∈ (Rect.whole S).set; rw [Rect.set_whole]; exact Finset.mem_univ y⟩)]
  exact View.canon_cons_unit_zero rfl _ w []

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD} (dat : Dat τ Val Ix Name U Lvl cfg c)

theorem before_in (w : Fin cfg.W) (t : Fin cfg.N) (d : (cfg.win w).block.Idx → Val (cfg.win w).elt)
    (hw : (cfg.win w).isOut = false := by rfl) (hlive : ∀ i, cfg.idle w i = false := by intro _; rfl)
    (hclip : ∀ t t' : Fin cfg.N, (cfg.win w).index t = (cfg.win w).index t' →
      (cfg.win w).clip (cfg.grid.coords t) = (cfg.win w).clip (cfg.grid.coords t') := by intro _ _ _; rfl)
    (hkeep : ∀ t, (cfg.win w).cut (cfg.grid.coords t) (dat.after w t) = dat.blockOf w t := by intro _; rfl) :
    dat.before w t d = dat.fetched w t d :=
  dat.before_in_eq_fetched w hw hlive hclip hkeep t d

end BodyLib
-- ==== Proof.K.Reg1.lean ====
import proofs.«411066_j83983790505988_3_alg».proof.Proof.Gen.Kernel.Launch
import proofs.«411066_j83983790505988_3_alg».proof.Proof.Gen.Kernel.Skeleton
import proofs.«411066_j83983790505988_3_alg».proof.Proof.Gen.Kernel.Points
import proofs.«411066_j83983790505988_3_alg».proof.Proof.BodyLib
import proofs.«411066_j83983790505988_3_alg».proof.Proof.BodyLibView
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

abbrev r1_0 : Rect S8192x16 := Rect.unit (s := S8192x16) ![0, 0] S8192x16.size inb_S8192x16_S8192x16_0_0
abbrev r1_1 : Rect S1x1 := Rect.unit (s := S1x1) ![0, 0] S1x1.size inb_S1x1_S1x1_0_0
abbrev r1_3 : Rect S16x64 := Rect.unit (s := S16x64) ![0, 0] S16x64.size inb_S16x64_S16x64_0_0
abbrev r1_4 : Rect S1x64 := Rect.unit (s := S1x64) ![0, 0] S1x64.size inb_S1x64_S1x64_0_0
abbrev r1_5 : Rect S8192x64 := Rect.unit (s := S8192x64) ![0, 0] S8192x64.size inb_S8192x64_S8192x64_0_0
abbrev r1_6 : Rect S8x1 := Rect.unit (s := S8x1) ![0, 0] S8x1.size inb_S8x1_S8x1_0_0

def act1 (x0 : Vec F S8192x16 .f32) (x1 x2 : Vec F S1x1 .f32) (x3 : Vec F S16x64 .f32) (x4 : Vec F S1x64 .f32) : FVec F S8192x64 .f32 :=
  k1_pay2 (View.ld x1 r1_1) (View.ld x2 r1_1) (View.ld x0 r1_0) (View.ld x3 r1_3) (View.ld x4 r1_4)

def tile1 (x0 : Vec F S8192x16 .f32) (x1 x2 : Vec F S1x1 .f32) (x3 : Vec F S16x64 .f32) (x4 : Vec F S1x64 .f32) : FVec F S8x1 .f32 :=
  k1_pay3 (View.ld x1 r1_1) (View.ld x2 r1_1) (View.ld x0 r1_0) (View.ld x3 r1_3) (View.ld x4 r1_4)

def out1_5 (x0 : Vec F S8192x16 .f32) (x1 x2 : Vec F S1x1 .f32) (x3 : Vec F S16x64 .f32) (x4 : Vec F S1x64 .f32) : Vec F S8192x64 .f32 :=
  View.canon [⟨r1_5, act1 x0 x1 x2 x3 x4⟩]

def out1_6A (x0 : Vec F S8192x16 .f32) (x1 x2 : Vec F S1x1 .f32) (x3 : Vec F S16x64 .f32) (x4 : Vec F S1x64 .f32) : Vec F S8x1 .f32 :=
  View.canon [⟨r1_6, tile1 x0 x1 x2 x3 x4⟩]

def out1_6B (x0 : Vec F S8192x16 .f32) (x1 x2 : Vec F S1x1 .f32) (x3 : Vec F S16x64 .f32) (x4 : Vec F S1x64 .f32) (xo : Vec F S8x1 .f32) : Vec F S8x1 .f32 :=
  View.canon [⟨r1_6, k1_pay1 (tile1 x0 x1 x2 x3 x4) (View.ld xo r1_6)⟩]

theorem hcond1_1 : ∀ t : Fin cfg1.N, k1_cond1 (grid1.coords t) = 1#1 ↔ t.val % 64 = 0 :=
  (by decide +kernel : ∀ t : Fin grid1.N, _)
theorem hcond1_2 : ∀ t : Fin cfg1.N, k1_cond2 (grid1.coords t) = 1#1 ↔ t.val % 64 ≠ 0 :=
  (by decide +kernel : ∀ t : Fin grid1.N, _)

section
variable (c : Dev nD) (E : Set ℕ) (i : grid1.Coords) (arg2 : Memref sig .tc .vmem S8192x16 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S1x64 .f32) (harg6 : arg6.IsWhole) (arg7 : Memref sig .tc .vmem S8192x64 .f32) (harg7 : arg7.IsWhole) (arg8 : Memref sig .tc .vmem S8x1 .f32) (harg8 : arg8.IsWhole) (x0 : Vec F S8192x16 .f32) (x1 x2 : Vec F S1x1 .f32) (x3 : Vec F S16x64 .f32) (x4 : Vec F S1x64 .f32)

set_option maxHeartbeats 1000000 in
theorem sound_kernel1 (xo r : Vec F S8x1 .f32)
    (hc : k1_cond1 i = 1#1 ∧ ¬k1_cond2 i = 1#1 ∧ r = out1_6A x0 x1 x2 x3 x4 ∨ ¬k1_cond1 i = 1#1 ∧ k1_cond2 i = 1#1 ∧ r = out1_6B x0 x1 x2 x3 x4 xo)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare xo
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4) ∗ owns (c : Thread nD τ) arg8 fullShare r) -∗ K ⟨⟩))
      ⊢ wp frame (wpE (defs₀ (F := F)) Variants.none c none) E (cc1__layer1_kernel i arg2 harg2 arg3 harg3 arg4 harg4 arg5 harg5 arg6 harg6 arg7 harg7 arg8 harg8) K := by
  simp only [cc1__layer1_kernel_eq_skeleton]; unfold cc1__layer1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0; subst hf1; subst hf2; subst hf3; subst hf4; subst hf6
  rcases hc with ⟨hc1, hc2, rfl⟩ | ⟨hc1, hc2, rfl⟩ <;>
  (sl_exec (disch := first | exact hc1 | exact hc2)
   sl_step
   iapply Hk
   isplitl [H0]
   · iexists f0; isplitr; · ipureintro; rfl
     iexact H0
   isplitl [H1]
   · iexists f1; isplitr; · ipureintro; rfl
     iexact H1
   isplitl [H2]
   · iexists f2; isplitr; · ipureintro; rfl
     iexact H2
   isplitl [H3]
   · iexists f3; isplitr; · ipureintro; rfl
     iexact H3
   isplitl [H4]
   · iexists f4; isplitr; · ipureintro; rfl
     iexact H4
   isplitl [H5]
   · iexists _; isplitr
     swap; · iexact H5
     ipureintro
     exact View.read_writes_eq_canon _ _ _ (View.cover_of_tiled _ S8192x64.size (by rfl))
   iexists _; isplitr
   swap; · iexact H6
   ipureintro
   dsimp only
   exact View.read_writes_eq_canon _ _ _ (View.cover_of_tiled _ S8x1.size (by rfl)))

end

theorem hlive1_6 : ∀ i : grid1.Coords, cfg1.idle 6 i = false := by
  intro i
  show (!(k1_cond1 i == 1#1) && !(k1_cond2 i == 1#1)) = false
  unfold k1_cond1 k1_cond2
  generalize (i 1) = n
  revert n; decide

variable (V : (c : Dev nD) → (b : Ref sig .tc) → Buf (Elt F) ((c : Thread nD τ).loc b))

variable (c : Dev nD) (t : Fin cfg1.N)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

def tileAt1 : FVec F S8x1 .f32 :=
  tile1 (iblk1 V c 0 t) (iblk1 V c 1 t) (iblk1 V c 2 t) (iblk1 V c 3 t) (iblk1 V c 4 t)

def actAt1 : Vec F S8192x64 .f32 :=
  out1_5 (iblk1 V c 0 t) (iblk1 V c 1 t) (iblk1 V c 2 t) (iblk1 V c 3 t) (iblk1 V c 4 t)

def accAt1 : (n : ℕ) → n < cfg1.N → Vec F S8x1 .f32 :=
  BodyLib.accFold 64 (fun t => out1_6A (iblk1 V c 0 t) (iblk1 V c 1 t) (iblk1 V c 2 t) (iblk1 V c 3 t) (iblk1 V c 4 t)) fun t => out1_6B (iblk1 V c 0 t) (iblk1 V c 1 t) (iblk1 V c 2 t) (iblk1 V c 3 t) (iblk1 V c 4 t)

theorem accAt1_A (h0 : t.val % 64 = 0) :
    accAt1 V c t.val t.isLt = out1_6A (iblk1 V c 0 t) (iblk1 V c 1 t) (iblk1 V c 2 t) (iblk1 V c 3 t) (iblk1 V c 4 t) := BodyLib.accFold_A _ _ _ t h0

theorem accAt1_B (h0 : ¬t.val % 64 = 0) :
    accAt1 V c t.val t.isLt = out1_6B (iblk1 V c 0 t) (iblk1 V c 1 t) (iblk1 V c 2 t) (iblk1 V c 3 t) (iblk1 V c 4 t)
      (accAt1 V c (t.val - 1) (Nat.lt_of_le_of_lt (Nat.sub_le _ _) t.isLt)) := BodyLib.accFold_B _ _ _ t h0

def dat1 : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => actAt1 V c t
    | ⟨6, _⟩ => accAt1 V c t.val t.isLt
  Φ _ := Pipeline.ΦA spec1 c
  q _ := fullShare
  owed _ := 0

theorem A_eq1 (w : Fin cfg1.W) : (dat1 V c).A w = V c (Pipeline.arrRef spec1 w) := by
  dsimp only [dat1]

theorem after1_5 : (dat1 V c).after 5 t = actAt1 V c t := by dsimp only [dat1]
theorem after1_6 : (dat1 V c).after 6 t = accAt1 V c t.val t.isLt := by dsimp only [dat1]

theorem before1_0 (d) : (dat1 V c).before 0 t d = iblk1 V c 0 t :=
  BodyLib.before_in (dat1 V c) 0 t d
theorem before1_1 (d) : (dat1 V c).before 1 t d = iblk1 V c 1 t :=
  BodyLib.before_in (dat1 V c) 1 t d
theorem before1_2 (d) : (dat1 V c).before 2 t d = iblk1 V c 2 t :=
  BodyLib.before_in (dat1 V c) 2 t d
theorem before1_3 (d) : (dat1 V c).before 3 t d = iblk1 V c 3 t :=
  BodyLib.before_in (dat1 V c) 3 t d
theorem before1_4 (d) : (dat1 V c).before 4 t d = iblk1 V c 4 t :=
  BodyLib.before_in (dat1 V c) 4 t d

theorem before1_6_B (h0 : ¬t.val % 64 = 0) (d) :
    (dat1 V c).before 6 t d = accAt1 V c (t.val - 1) (Nat.lt_of_le_of_lt (Nat.sub_le _ _) t.isLt) := by
  rw [Dat.before_out_kept _ 6 rfl t (fun h => h0 (by rw [h])) (Bool.eq_false_iff.mpr fun h => by have := (flush1_6 _).mp h; dsimp only at this; omega)
    hlive1_6 (fun _ _ => rfl)]
  dsimp only [dat1]

set_option maxHeartbeats 800000 in
theorem sound_body1 :
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))
    ⊢ wp frame (wpE (defs₀ (F := F)) Variants.none c none) Set.univ (bodyAt1 t) (fun _ =>
  iprop((dat1 V c).Φ t.castSucc ∗ (dat1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare ((dat1 V c).after 5 t)
    ∗ owns (c : Thread nD τ) (st1_6 t) fullShare ((dat1 V c).after 6 t))) := by
  unfold bodyAt1
  simp only [before1_0, before1_1, before1_2, before1_3, before1_4]
  rw [after1_5, after1_6]
  unfold actAt1
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) ((dat1 V c).before 6 t d6) (accAt1 V c t.val t.isLt)
    (if h0 : t.val % 64 = 0 then .inl ⟨(hcond1_1 t).mpr h0, fun h => (hcond1_2 t).mp h h0, accAt1_A V c t h0⟩
      else .inr ⟨fun h => h0 ((hcond1_1 t).mp h), (hcond1_2 t).mpr h0, (accAt1_B V c t h0).trans (congrArg _ (before1_6_B V c t h0 _).symm)⟩) _)
  iframe H0 H1 H2 H3 H4 H6
  isplitl [H5]; · iexists _; iexact H5
  iintro ⟨H0, H1, H2, H3, H4, H5, H6⟩
  iframe

set_option maxHeartbeats 1000000 in
theorem body_obligation1 : BodyObligation (dat1 (F := F) V c) (defs₀ (F := F)) Variants.none () Set.univ := fun t => by
  rw [bigSep_W1, bigSep_W1]
  have h6 : cfg1.idle 6 (cfg1.grid.coords t) = false := hlive1_6 _
  rw [h6]
  exact sound_body1 V c t

end Cert.Kernel.Hand

end
-- ==== Proof.K.D1.lean ====
import proofs.«411066_j83983790505988_3_alg».proof.Proof.K.D0
import proofs.«411066_j83983790505988_3_alg».proof.Proof.K.Reg1

noncomputable section

namespace Cert.Kernel.Hand

open Cert.Kernel.Gen Cert.Kernel.GenP
open Idealize.ShloMosaic Idealize.ShloMosaic.TcCoe Idealize.SL.Sem Chain

variable {F : FTy → Type} [FloatOps F]

variable (m : (ℓ : Loc nD τ sig) → Buf (Elt F) ℓ)

abbrev In1 : VT F := fun c b => V21 m (o18 m) c b
abbrev InVal1 (c : Dev nD) : Valuation τ sig (Elt F) := V21 m (o18 m) c
def o22 : Outs (F := F) := Function.update (o18 m) 22 fun r c =>
  Pipeline.withArrays spec1 c (InVal1 m c) (fun w => (dat1 (In1 m) c).arrAt w cfg1.N) r
abbrev OutVal1 (c : Dev nD) : Valuation τ sig (Elt F) := V22 m (o22 m) c
theorem ag1 : AgreeTo 18 (o18 m) (o22 m) := (agreeTo_update (by decide) _).symm
theorem o22_5 (c : Dev nD) : o22 m 22 main_v44_0 c = (dat1 (In1 m) c).arrAt 5 cfg1.N := by
  rw [o22, Function.update_self]; exact Pipeline.withArrays_arr spec1 launch1.win.arr_inj c _ _ 5
theorem o22_6 (c : Dev nD) : o22 m 22 main_v44_1 c = (dat1 (In1 m) c).arrAt 6 cfg1.N := by
  rw [o22, Function.update_self]; exact Pipeline.withArrays_arr spec1 launch1.win.arr_inj c _ _ 6
theorem hF1 (c : Dev nD) : ∀ w, (dat1 (In1 m) c).arrAt w cfg1.N = OutVal1 m c (Pipeline.arrRef spec1 w) := by
  intro w
  have hi := fun hw hn =>
    ((dat1 (In1 m) c).arrAt_in w hw cfg1.N).trans ((A_eq1 (In1 m) c w).trans (V22_in m c (ag1 m) _ hn).symm)
  fin_cases w <;> try exact hi rfl (by decide)
  · exact (o22_5 m c).symm.trans (V22_a m c).symm
  · exact (o22_6 m c).symm.trans (V22_b m c).symm
theorem hrest1 (c : Dev nD) : ∀ b, b ∉ Finset.univ.image (Pipeline.arrRef spec1) → OutVal1 m c b = In1 m c b := fun b hb =>
  V22_in m c (ag1 m) b (not_mem_of_forall (by decide) hb)

end Cert.Kernel.Hand

end
-- ==== Proof.K.Reg2.lean ====
import proofs.«411066_j83983790505988_3_alg».proof.Proof.Gen.Kernel.Launch
import proofs.«411066_j83983790505988_3_alg».proof.Proof.Gen.Kernel.Skeleton
import proofs.«411066_j83983790505988_3_alg».proof.Proof.Gen.Kernel.Points
import proofs.«411066_j83983790505988_3_alg».proof.Proof.BodyLib
import proofs.«411066_j83983790505988_3_alg».proof.Proof.BodyLibView
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

theorem hcond2_1 : ∀ t : Fin cfg2.N, k2_cond1 (grid2.coords t) = 1#1 ↔ t.val % 64 = 0 :=
  (by decide +kernel : ∀ t : Fin grid2.N, _)
theorem hcond2_2 : ∀ t : Fin cfg2.N, k2_cond2 (grid2.coords t) = 1#1 ↔ ¬t.val % 64 = 0 :=
  (by decide +kernel : ∀ t : Fin grid2.N, _)
theorem liveAll2_7 : ∀ i : grid2.Coords, cfg2.idle 7 i = false := by decide +kernel

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rH2 : Rect S8192x64 := Rect.unit (s := S8192x64) ![0, 0] S8192x64.size inb_S8192x64_S8192x64_0_0
abbrev rS2 : Rect S1x1 := Rect.unit (s := S1x1) ![0, 0] S1x1.size inb_S1x1_S1x1_0_0
abbrev rW2 : Rect S64x32 := Rect.unit (s := S64x32) ![0, 0] S64x32.size inb_S64x32_S64x32_0_0
abbrev rB2 : Rect S1x32 := Rect.unit (s := S1x32) ![0, 0] S1x32.size inb_S1x32_S1x32_0_0
abbrev rO2 : Rect S8192x32 := Rect.unit (s := S8192x32) ![0, 0] S8192x32.size inb_S8192x32_S8192x32_0_0
abbrev rM2 : Rect S8x1 := Rect.unit (s := S8x1) ![0, 0] S8x1.size inb_S8x1_S8x1_0_0

def tile2 (x0 : Vec F S8192x64 .f32) (x1 x2 x3 : Vec F S1x1 .f32) (x4 : Vec F S64x32 .f32) (x5 : Vec F S1x32 .f32) : FVec F S8192x32 .f32 :=
  k2_pay3 (View.ld x1 rS2) (View.ld x2 rS2) (View.ld x3 rS2) (View.ld x0 rH2) (View.ld x4 rW2) (View.ld x5 rB2)

def peak2 (x0 : Vec F S8192x64 .f32) (x1 x2 x3 : Vec F S1x1 .f32) (x4 : Vec F S64x32 .f32) (x5 : Vec F S1x32 .f32) : FVec F S1x1x1 .f32 :=
  k2_pay4 (View.ld x1 rS2) (View.ld x2 rS2) (View.ld x3 rS2) (View.ld x0 rH2) (View.ld x4 rW2) (View.ld x5 rB2)

def out2_6 (x0 : Vec F S8192x64 .f32) (x1 x2 x3 : Vec F S1x1 .f32) (x4 : Vec F S64x32 .f32) (x5 : Vec F S1x32 .f32) : Vec F S8192x32 .f32 :=
  View.canon [⟨rO2, tile2 x0 x1 x2 x3 x4 x5⟩]

def accA2 (p : FVec F S1x1x1 .f32) : Vec F S8x1 .f32 :=
  View.canon [⟨rM2, k2_pay1 p⟩]

def accB2 (p : FVec F S1x1x1 .f32) (xo : Vec F S8x1 .f32) : Vec F S8x1 .f32 :=
  View.canon [⟨rM2, k2_pay2 p (View.ld xo rM2)⟩]

section
variable (c : Dev nD) (E : Set ℕ) (i : grid2.Coords) (arg2 : Memref sig .tc .vmem S8192x64 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S8192x32 .f32) (harg8 : arg8.IsWhole) (arg9 : Memref sig .tc .vmem S8x1 .f32) (harg9 : arg9.IsWhole)
    (x0 : Vec F S8192x64 .f32) (x1 x2 x3 : Vec F S1x1 .f32) (x4 : Vec F S64x32 .f32) (x5 : Vec F S1x32 .f32)

set_option maxHeartbeats 1000000 in
theorem sound_kernel2 (xo r : Vec F S8x1 .f32)
    (hc : k2_cond1 i = 1#1 ∧ ¬k2_cond2 i = 1#1 ∧ r = accA2 (peak2 x0 x1 x2 x3 x4 x5) ∨ ¬k2_cond1 i = 1#1 ∧ k2_cond2 i = 1#1 ∧ r = accB2 (peak2 x0 x1 x2 x3 x4 x5) xo)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out2_6 x0 x1 x2 x3 x4 x5) ∗ owns (c : Thread nD τ) arg9 fullShare r) -∗ K ⟨⟩))
      ⊢ wp frame (wpE (defs₀ (F := F)) Variants.none c none) E (cc2__layer_mid_kernel i arg2 harg2 arg3 harg3 arg4 harg4 arg5 harg5 arg6 harg6 arg7 harg7 arg8 harg8 arg9 harg9) K := by
  simp only [cc2__layer_mid_kernel_eq_skeleton]; unfold cc2__layer_mid_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0; subst hf1; subst hf2; subst hf3; subst hf4; subst hf5; subst hf7
  rcases hc with ⟨hc1, hc2, rfl⟩ | ⟨hc1, hc2, rfl⟩ <;>
  (sl_exec (disch := first | exact hc1 | exact hc2)
   sl_step
   iapply Hk
   isplitl [H0]
   · iexists f0; isplitr; · ipureintro; rfl
     iexact H0
   isplitl [H1]
   · iexists f1; isplitr; · ipureintro; rfl
     iexact H1
   isplitl [H2]
   · iexists f2; isplitr; · ipureintro; rfl
     iexact H2
   isplitl [H3]
   · iexists f3; isplitr; · ipureintro; rfl
     iexact H3
   isplitl [H4]
   · iexists f4; isplitr; · ipureintro; rfl
     iexact H4
   isplitl [H5]
   · iexists f5; isplitr; · ipureintro; rfl
     iexact H5
   isplitl [H6]
   · iexists _; isplitr
     swap; · iexact H6
     ipureintro
     exact View.read_writes_eq_canon _ _ _ (View.cover_of_tiled _ S8192x32.size (by rfl))
   iexists _; isplitr
   swap; · iexact H7
   ipureintro
   exact View.read_writes_eq_canon _ _ _ (View.cover_of_tiled _ S8x1.size (by rfl)))

end

variable (c : Dev nD) (t : Fin cfg2.N)

def peakAt2 : FVec F S1x1x1 .f32 := peak2 (iblk2 V c 0 t) (iblk2 V c 1 t) (iblk2 V c 2 t) (iblk2 V c 3 t) (iblk2 V c 4 t) (iblk2 V c 5 t)

def acc2 : (n : ℕ) → n < cfg2.N → Vec F S8x1 .f32 :=
  BodyLib.accFold 64 (fun t => accA2 (peakAt2 V c t)) fun t => accB2 (peakAt2 V c t)

theorem acc2_A (h0 : t.val % 64 = 0) :
    acc2 V c t.val t.isLt = accA2 (peakAt2 V c t) := BodyLib.accFold_A _ _ _ t h0

theorem acc2_B (h0 : ¬t.val % 64 = 0) :
    acc2 V c t.val t.isLt = accB2 (peakAt2 V c t) (acc2 V c (t.val - 1) (Nat.lt_of_le_of_lt (Nat.sub_le _ _) t.isLt)) :=
  BodyLib.accFold_B _ _ _ t h0

def dat2 : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => acc2 V c t.val t.isLt
  Φ _ := Pipeline.ΦA spec2 c
  q _ := fullShare
  owed _ := 0

theorem A_eq2 (w : Fin cfg2.W) : (dat2 V c).A w = V c (Pipeline.arrRef spec2 w) := by
  dsimp only [dat2]

theorem after2_6 : (dat2 V c).after 6 t = out2_6 (iblk2 V c 0 t) (iblk2 V c 1 t) (iblk2 V c 2 t) (iblk2 V c 3 t) (iblk2 V c 4 t) (iblk2 V c 5 t) := by dsimp only [dat2]
theorem after2_7 : (dat2 V c).after 7 t = acc2 V c t.val t.isLt := by dsimp only [dat2]

theorem before2_0 (d) : (dat2 V c).before 0 t d = iblk2 V c 0 t :=
  BodyLib.before_in (dat2 V c) 0 t d
theorem before2_1 (d) : (dat2 V c).before 1 t d = iblk2 V c 1 t :=
  BodyLib.before_in (dat2 V c) 1 t d
theorem before2_2 (d) : (dat2 V c).before 2 t d = iblk2 V c 2 t :=
  BodyLib.before_in (dat2 V c) 2 t d
theorem before2_3 (d) : (dat2 V c).before 3 t d = iblk2 V c 3 t :=
  BodyLib.before_in (dat2 V c) 3 t d
theorem before2_4 (d) : (dat2 V c).before 4 t d = iblk2 V c 4 t :=
  BodyLib.before_in (dat2 V c) 4 t d
theorem before2_5 (d) : (dat2 V c).before 5 t d = iblk2 V c 5 t :=
  BodyLib.before_in (dat2 V c) 5 t d

theorem before2_7_B (h0 : ¬t.val % 64 = 0) (d) :
    (dat2 V c).before 7 t d = acc2 V c (t.val - 1) (Nat.lt_of_le_of_lt (Nat.sub_le _ _) t.isLt) := by
  rw [Dat.before_out_kept _ 7 rfl t (by omega) (Bool.eq_false_iff.mpr fun h => by have := (flush2_7 _).mp h; dsimp only at this; omega)
    liveAll2_7 (fun _ _ => rfl)]
  dsimp only [dat2]

set_option maxHeartbeats 1000000 in
theorem sound_body2 :
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))
    ⊢ wp frame (wpE (defs₀ (F := F)) Variants.none c none) Set.univ (bodyAt2 t) (fun _ =>
  iprop((dat2 V c).Φ t.castSucc ∗ (dat2 V c).owesAt () t.castSucc
    ∗ owns (c : Thread nD τ) (st2_0 t) fullShare (iblk2 V c 0 t)
    ∗ owns (c : Thread nD τ) (st2_1 t) fullShare (iblk2 V c 1 t)
    ∗ owns (c : Thread nD τ) (st2_2 t) fullShare (iblk2 V c 2 t)
    ∗ owns (c : Thread nD τ) (st2_3 t) fullShare (iblk2 V c 3 t)
    ∗ owns (c : Thread nD τ) (st2_4 t) fullShare (iblk2 V c 4 t)
    ∗ owns (c : Thread nD τ) (st2_5 t) fullShare (iblk2 V c 5 t)
    ∗ owns (c : Thread nD τ) (st2_6 t) fullShare ((dat2 V c).after 6 t)
    ∗ owns (c : Thread nD τ) (st2_7 t) fullShare ((dat2 V c).after 7 t))) := by
  unfold bodyAt2
  simp only [before2_0, before2_1, before2_2, before2_3, before2_4, before2_5]
  rw [after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) ((dat2 V c).before 7 t d7) (acc2 V c t.val t.isLt)
    (if h0 : t.val % 64 = 0 then .inl ⟨(hcond2_1 t).mpr h0, fun h => (hcond2_2 t).mp h h0, acc2_A V c t h0⟩
      else .inr ⟨fun h => h0 ((hcond2_1 t).mp h), (hcond2_2 t).mpr h0, (acc2_B V c t h0).trans (congrArg _ (before2_7_B V c t h0 _).symm)⟩) _)
  iframe H0 H1 H2 H3 H4 H5 H7
  isplitl [H6]; · iexists _; iexact H6
  iintro ⟨H0, H1, H2, H3, H4, H5, H6, H7⟩
  iframe

theorem body_obligation2 : BodyObligation (dat2 (F := F) V c) (defs₀ (F := F)) Variants.none () Set.univ := fun t => by
  rw [bigSep_W2, bigSep_W2]
  have hi : cfg2.idle 7 (cfg2.grid.coords t) = false := liveAll2_7 _
  rw [hi]
  exact sound_body2 V c t

end Cert.Kernel.Hand

end
-- ==== Proof.K.D2.lean ====
import proofs.«411066_j83983790505988_3_alg».proof.Proof.K.D1
import proofs.«411066_j83983790505988_3_alg».proof.Proof.K.Reg2

noncomputable section

namespace Cert.Kernel.Hand

open Cert.Kernel.Gen Cert.Kernel.GenP
open Idealize.ShloMosaic Idealize.ShloMosaic.TcCoe Idealize.SL.Sem Chain

variable {F : FTy → Type} [FloatOps F]

variable (m : (ℓ : Loc nD τ sig) → Buf (Elt F) ℓ)

abbrev In2 : VT F := fun c b => V25 m (o22 m) c b
abbrev InVal2 (c : Dev nD) : Valuation τ sig (Elt F) := V25 m (o22 m) c
def o26 : Outs (F := F) := Function.update (o22 m) 26 fun r c =>
  Pipeline.withArrays spec2 c (InVal2 m c) (fun w => (dat2 (In2 m) c).arrAt w cfg2.N) r
abbrev OutVal2 (c : Dev nD) : Valuation τ sig (Elt F) := V26 m (o26 m) c
theorem ag2 : AgreeTo 22 (o22 m) (o26 m) := (agreeTo_update (by decide) _).symm
theorem o26_6 (c : Dev nD) : o26 m 26 main_v56_0 c = (dat2 (In2 m) c).arrAt 6 cfg2.N := by
  rw [o26, Function.update_self]; exact Pipeline.withArrays_arr spec2 launch2.win.arr_inj c _ _ 6
theorem o26_7 (c : Dev nD) : o26 m 26 main_v56_1 c = (dat2 (In2 m) c).arrAt 7 cfg2.N := by
  rw [o26, Function.update_self]; exact Pipeline.withArrays_arr spec2 launch2.win.arr_inj c _ _ 7
theorem hF2 (c : Dev nD) : ∀ w, (dat2 (In2 m) c).arrAt w cfg2.N = OutVal2 m c (Pipeline.arrRef spec2 w) := by
  intro w
  have hi := fun hw hn =>
    ((dat2 (In2 m) c).arrAt_in w hw cfg2.N).trans ((A_eq2 (In2 m) c w).trans (V26_in m c (ag2 m) _ hn).symm)
  fin_cases w <;> try exact hi rfl (by decide)
  · exact (o26_6 m c).symm.trans (V26_a m c).symm
  · exact (o26_7 m c).symm.trans (V26_b m c).symm
theorem hrest2 (c : Dev nD) : ∀ b, b ∉ Finset.univ.image (Pipeline.arrRef spec2) → OutVal2 m c b = In2 m c b := fun b hb =>
  V26_in m c (ag2 m) b (not_mem_of_forall (by decide) hb)

end Cert.Kernel.Hand

end
-- ==== Proof.K.Reg3.lean ====
import proofs.«411066_j83983790505988_3_alg».proof.Proof.Gen.Kernel.Launch
import proofs.«411066_j83983790505988_3_alg».proof.Proof.Gen.Kernel.Skeleton
import proofs.«411066_j83983790505988_3_alg».proof.Proof.Gen.Kernel.Points
import proofs.«411066_j83983790505988_3_alg».proof.Proof.BodyLib
import proofs.«411066_j83983790505988_3_alg».proof.Proof.BodyLibView
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_s : Rect S1x1 := Rect.unit (s := S1x1) ![0, 0] S1x1.size inb_S1x1_S1x1_0_0
abbrev r3_h : Rect S8192x32 := Rect.unit (s := S8192x32) ![0, 0] S8192x32.size inb_S8192x32_S8192x32_0_0
abbrev r3_w : Rect S32x32 := Rect.unit (s := S32x32) ![0, 0] S32x32.size inb_S32x32_S32x32_0_0
abbrev r3_b : Rect S1x32 := Rect.unit (s := S1x32) ![0, 0] S1x32.size inb_S1x32_S1x32_0_0
abbrev r3_a : Rect S8x1 := Rect.unit (s := S8x1) ![0, 0] S8x1.size inb_S8x1_S8x1_0_0

def out3_6 (x0 : Vec F S8192x32 .f32) (x1 x2 x3 : Vec F S1x1 .f32) (x4 : Vec F S32x32 .f32) (x5 : Vec F S1x32 .f32) : Vec F S8192x32 .f32 :=
  View.canon [⟨r3_h, k3_pay3 (View.ld x1 r3_s) (View.ld x2 r3_s) (View.ld x3 r3_s) (View.ld x0 r3_h) (View.ld x4 r3_w) (View.ld x5 r3_b)⟩]

def tile3 (x0 : Vec F S8192x32 .f32) (x1 x2 x3 : Vec F S1x1 .f32) (x4 : Vec F S32x32 .f32) (x5 : Vec F S1x32 .f32) : FVec F S1x1x1 .f32 :=
  k3_pay4 (View.ld x1 r3_s) (View.ld x2 r3_s) (View.ld x3 r3_s) (View.ld x0 r3_h) (View.ld x4 r3_w) (View.ld x5 r3_b)

def out3_7A (x0 : Vec F S8192x32 .f32) (x1 x2 x3 : Vec F S1x1 .f32) (x4 : Vec F S32x32 .f32) (x5 : Vec F S1x32 .f32) : Vec F S8x1 .f32 :=
  View.canon [⟨r3_a, k3_pay1 (tile3 x0 x1 x2 x3 x4 x5)⟩]

def out3_7B (x0 : Vec F S8192x32 .f32) (x1 x2 x3 : Vec F S1x1 .f32) (x4 : Vec F S32x32 .f32) (x5 : Vec F S1x32 .f32) (acc : Vec F S8x1 .f32) : Vec F S8x1 .f32 :=
  View.canon [⟨r3_a, k3_pay2 (tile3 x0 x1 x2 x3 x4 x5) (View.ld acc r3_a)⟩]

def acc3 (c : Dev nD) : (n : ℕ) → n < cfg3.N → Vec F S8x1 .f32 :=
  BodyLib.accFold 64 (fun t => out3_7A (iblk3 V c 0 t) (iblk3 V c 1 t) (iblk3 V c 2 t) (iblk3 V c 3 t) (iblk3 V c 4 t) (iblk3 V c 5 t)) fun t => out3_7B (iblk3 V c 0 t) (iblk3 V c 1 t) (iblk3 V c 2 t) (iblk3 V c 3 t) (iblk3 V c 4 t) (iblk3 V c 5 t)

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
    | ⟨7, _⟩ => acc3 V c t.val t.isLt
  Φ _ := Pipeline.ΦA spec3 c
  q _ := fullShare
  owed _ := 0

theorem A_eq3 (c : Dev nD) (w : Fin cfg3.W) : (dat3 V c).A w = V c (Pipeline.arrRef spec3 w) := by
  dsimp only [dat3]

theorem hcond3_1 : ∀ t : Fin cfg3.N, k3_cond1 (grid3.coords t) = 1#1 ↔ t.val % 64 = 0 :=
  (by decide +kernel : ∀ t : Fin grid3.N, _)
theorem hcond3_2 : ∀ t : Fin cfg3.N, k3_cond2 (grid3.coords t) = 1#1 ↔ ¬t.val % 64 = 0 :=
  (by decide +kernel : ∀ t : Fin grid3.N, _)
theorem hlive3_7 : ∀ i : grid3.Coords, cfg3.idle 7 i = false :=
  (by decide +kernel : ∀ i : grid3.Coords, idle3 7 i = false)

section
variable (c : Dev nD) (E : Set ℕ) (i : grid3.Coords) (arg2 : Memref sig .tc .vmem S8192x32 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S8192x32 .f32) (harg8 : arg8.IsWhole) (arg9 : Memref sig .tc .vmem S8x1 .f32) (harg9 : arg9.IsWhole) (x0 : Vec F S8192x32 .f32) (x1 x2 x3 : Vec F S1x1 .f32) (x4 : Vec F S32x32 .f32) (x5 : Vec F S1x32 .f32)

set_option maxHeartbeats 1000000 in
theorem sound_kernel3 (acc r : Vec F S8x1 .f32)
    (hc : k3_cond1 i = 1#1 ∧ ¬k3_cond2 i = 1#1 ∧ r = out3_7A x0 x1 x2 x3 x4 x5 ∨ ¬k3_cond1 i = 1#1 ∧ k3_cond2 i = 1#1 ∧ r = out3_7B x0 x1 x2 x3 x4 x5 acc)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (out3_6 x0 x1 x2 x3 x4 x5) ∗ owns (c : Thread nD τ) arg9 fullShare r) -∗ K ⟨⟩))
      ⊢ wp frame (wpE (defs₀ (F := F)) Variants.none c none) E (cc3__layer_mid_kernel i arg2 harg2 arg3 harg3 arg4 harg4 arg5 harg5 arg6 harg6 arg7 harg7 arg8 harg8 arg9 harg9) K := by
  simp only [cc3__layer_mid_kernel_eq_skeleton]; unfold cc3__layer_mid_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0; subst hf1; subst hf2; subst hf3; subst hf4; subst hf5; subst hf7
  rcases hc with ⟨h1, h2, rfl⟩ | ⟨h1, h2, rfl⟩ <;>
  (sl_exec
   sl_step
   iapply Hk
   isplitl [H0]
   · iexists f0; isplitr; · ipureintro; rfl
     iexact H0
   isplitl [H1]
   · iexists f1; isplitr; · ipureintro; rfl
     iexact H1
   isplitl [H2]
   · iexists f2; isplitr; · ipureintro; rfl
     iexact H2
   isplitl [H3]
   · iexists f3; isplitr; · ipureintro; rfl
     iexact H3
   isplitl [H4]
   · iexists f4; isplitr; · ipureintro; rfl
     iexact H4
   isplitl [H5]
   · iexists f5; isplitr; · ipureintro; rfl
     iexact H5
   isplitl [H6]
   · iexists _; isplitr
     swap; · iexact H6
     ipureintro
     exact View.read_writes_eq_canon _ _ _ (View.cover_of_tiled _ S8192x32.size (by rfl))
   iexists _; isplitr
   swap; · iexact H7
   ipureintro
   exact View.read_writes_eq_canon _ _ _ (View.cover_of_tiled _ S8x1.size (by rfl)))

end

variable (c : Dev nD) (t : Fin cfg3.N)

theorem after3_6 : (dat3 V c).after 6 t = out3_6 (iblk3 V c 0 t) (iblk3 V c 1 t) (iblk3 V c 2 t) (iblk3 V c 3 t) (iblk3 V c 4 t) (iblk3 V c 5 t) := by dsimp only [dat3]
theorem after3_7 : (dat3 V c).after 7 t = acc3 V c t.val t.isLt := by dsimp only [dat3]

theorem acc3_A (h0 : t.val % 64 = 0) :
    acc3 V c t.val t.isLt = out3_7A (iblk3 V c 0 t) (iblk3 V c 1 t) (iblk3 V c 2 t) (iblk3 V c 3 t) (iblk3 V c 4 t) (iblk3 V c 5 t) := BodyLib.accFold_A _ _ _ t h0

theorem acc3_B (h0 : ¬t.val % 64 = 0) :
    acc3 V c t.val t.isLt = out3_7B (iblk3 V c 0 t) (iblk3 V c 1 t) (iblk3 V c 2 t) (iblk3 V c 3 t) (iblk3 V c 4 t) (iblk3 V c 5 t)
      (acc3 V c (t.val - 1) (Nat.lt_of_le_of_lt (Nat.sub_le _ _) t.isLt)) := BodyLib.accFold_B _ _ _ t h0

theorem before3_0 (d) : (dat3 V c).before 0 t d = iblk3 V c 0 t :=
  BodyLib.before_in (dat3 V c) 0 t d
theorem before3_1 (d) : (dat3 V c).before 1 t d = iblk3 V c 1 t :=
  BodyLib.before_in (dat3 V c) 1 t d
theorem before3_2 (d) : (dat3 V c).before 2 t d = iblk3 V c 2 t :=
  BodyLib.before_in (dat3 V c) 2 t d
theorem before3_3 (d) : (dat3 V c).before 3 t d = iblk3 V c 3 t :=
  BodyLib.before_in (dat3 V c) 3 t d
theorem before3_4 (d) : (dat3 V c).before 4 t d = iblk3 V c 4 t :=
  BodyLib.before_in (dat3 V c) 4 t d
theorem before3_5 (d) : (dat3 V c).before 5 t d = iblk3 V c 5 t :=
  BodyLib.before_in (dat3 V c) 5 t d

theorem before3_7_B (h0 : ¬t.val % 64 = 0) (d) :
    (dat3 V c).before 7 t d = acc3 V c (t.val - 1) (Nat.lt_of_le_of_lt (Nat.sub_le _ _) t.isLt) := by
  rw [Dat.before_out_kept _ 7 rfl t (by omega) (Bool.eq_false_iff.mpr fun h => by have := (flush3_7 _).mp h; dsimp only at this; omega)
    hlive3_7 (fun _ _ => rfl)]
  dsimp only [dat3]

set_option maxHeartbeats 1000000 in
theorem sound_body3 :
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))
    ⊢ wp frame (wpE (defs₀ (F := F)) Variants.none c none) Set.univ (bodyAt3 t) (fun _ =>
  iprop((dat3 V c).Φ t.castSucc ∗ (dat3 V c).owesAt () t.castSucc
    ∗ owns (c : Thread nD τ) (st3_0 t) fullShare (iblk3 V c 0 t)
    ∗ owns (c : Thread nD τ) (st3_1 t) fullShare (iblk3 V c 1 t)
    ∗ owns (c : Thread nD τ) (st3_2 t) fullShare (iblk3 V c 2 t)
    ∗ owns (c : Thread nD τ) (st3_3 t) fullShare (iblk3 V c 3 t)
    ∗ owns (c : Thread nD τ) (st3_4 t) fullShare (iblk3 V c 4 t)
    ∗ owns (c : Thread nD τ) (st3_5 t) fullShare (iblk3 V c 5 t)
    ∗ owns (c : Thread nD τ) (st3_6 t) fullShare ((dat3 V c).after 6 t)
    ∗ owns (c : Thread nD τ) (st3_7 t) fullShare ((dat3 V c).after 7 t))) := by
  unfold bodyAt3
  simp only [before3_0, before3_1, before3_2, before3_3, before3_4, before3_5]
  rw [after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) ((dat3 V c).before 7 t d7) (acc3 V c t.val t.isLt)
    (if h0 : t.val % 64 = 0 then .inl ⟨(hcond3_1 t).mpr h0, fun h => (hcond3_2 t).mp h h0, acc3_A V c t h0⟩
      else .inr ⟨fun h => h0 ((hcond3_1 t).mp h), (hcond3_2 t).mpr h0, (acc3_B V c t h0).trans (congrArg _ (before3_7_B V c t h0 _).symm)⟩) _)
  iframe H0 H1 H2 H3 H4 H5 H7
  isplitl [H6]; · iexists _; iexact H6
  iintro ⟨H0, H1, H2, H3, H4, H5, H6, H7⟩
  iframe

theorem body_obligation3 : BodyObligation (dat3 (F := F) V c) (defs₀ (F := F)) Variants.none () Set.univ := fun t => by
  rw [bigSep_W3, bigSep_W3]
  dsimp only []
  rw [show idle3 7 (grid3.coords t) = false from hlive3_7 _]
  exact sound_body3 V c t

end Cert.Kernel.Hand

end
-- ==== Proof.K.D3.lean ====
import proofs.«411066_j83983790505988_3_alg».proof.Proof.K.D2
import proofs.«411066_j83983790505988_3_alg».proof.Proof.K.Reg3

noncomputable section

namespace Cert.Kernel.Hand

open Cert.Kernel.Gen Cert.Kernel.GenP
open Idealize.ShloMosaic Idealize.ShloMosaic.TcCoe Idealize.SL.Sem Chain

variable {F : FTy → Type} [FloatOps F]

variable (m : (ℓ : Loc nD τ sig) → Buf (Elt F) ℓ)

abbrev In3 : VT F := fun c b => V29 m (o26 m) c b
abbrev InVal3 (c : Dev nD) : Valuation τ sig (Elt F) := V29 m (o26 m) c
def o30 : Outs (F := F) := Function.update (o26 m) 30 fun r c =>
  Pipeline.withArrays spec3 c (InVal3 m c) (fun w => (dat3 (In3 m) c).arrAt w cfg3.N) r
abbrev OutVal3 (c : Dev nD) : Valuation τ sig (Elt F) := V30 m (o30 m) c
theorem ag3 : AgreeTo 26 (o26 m) (o30 m) := (agreeTo_update (by decide) _).symm
theorem o30_6 (c : Dev nD) : o30 m 30 main_v68_0 c = (dat3 (In3 m) c).arrAt 6 cfg3.N := by
  rw [o30, Function.update_self]; exact Pipeline.withArrays_arr spec3 launch3.win.arr_inj c _ _ 6
theorem o30_7 (c : Dev nD) : o30 m 30 main_v68_1 c = (dat3 (In3 m) c).arrAt 7 cfg3.N := by
  rw [o30, Function.update_self]; exact Pipeline.withArrays_arr spec3 launch3.win.arr_inj c _ _ 7
theorem hF3 (c : Dev nD) : ∀ w, (dat3 (In3 m) c).arrAt w cfg3.N = OutVal3 m c (Pipeline.arrRef spec3 w) := by
  intro w
  have hi := fun hw hn =>
    ((dat3 (In3 m) c).arrAt_in w hw cfg3.N).trans ((A_eq3 (In3 m) c w).trans (V30_in m c (ag3 m) _ hn).symm)
  fin_cases w <;> try exact hi rfl (by decide)
  · exact (o30_6 m c).symm.trans (V30_a m c).symm
  · exact (o30_7 m c).symm.trans (V30_b m c).symm
theorem hrest3 (c : Dev nD) : ∀ b, b ∉ Finset.univ.image (Pipeline.arrRef spec3) → OutVal3 m c b = In3 m c b := fun b hb =>
  V30_in m c (ag3 m) b (not_mem_of_forall (by decide) hb)

end Cert.Kernel.Hand

end
-- ==== Proof.K.Reg4.lean ====
import proofs.«411066_j83983790505988_3_alg».proof.Proof.Gen.Kernel.Launch
import proofs.«411066_j83983790505988_3_alg».proof.Proof.Gen.Kernel.Skeleton
import proofs.«411066_j83983790505988_3_alg».proof.Proof.Gen.Kernel.Points
import proofs.«411066_j83983790505988_3_alg».proof.Proof.BodyLib
import proofs.«411066_j83983790505988_3_alg».proof.Proof.BodyLibView
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

theorem hz2_4 : (![0, 0] : Fin 2 → Nat) = fun _ => 0 := funext fun a => by fin_cases a <;> rfl

theorem hcond4_1 : ∀ t : Fin cfg4.N, k4_cond1 (grid4.coords t) = 1#1 ↔ t.val % 64 = 0 :=
  (by decide +kernel : ∀ t : Fin grid4.N, _)
theorem hcond4_2 : ∀ t : Fin cfg4.N, k4_cond2 (grid4.coords t) = 1#1 ↔ ¬t.val % 64 = 0 :=
  (by decide +kernel : ∀ t : Fin grid4.N, _)
theorem hidle4_7 : ∀ i : grid4.Coords, cfg4.idle 7 i = false :=
  (by decide +kernel : ∀ i : grid4.Coords, idle4 7 i = false)

section
variable (c : Dev nD) (E : Set ℕ) (i : grid4.Coords) (arg2 : Memref sig .tc .vmem S8192x32 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S32x5 .f32) (harg6 : arg6.IsWhole) (arg7 : Memref sig .tc .vmem S1x5 .f32) (harg7 : arg7.IsWhole) (arg8 : Memref sig .tc .vmem S8192x5 .f32) (harg8 : arg8.IsWhole) (arg9 : Memref sig .tc .vmem S8x5 .f32) (harg9 : arg9.IsWhole) (x0 : Vec F S8192x32 .f32) (x1 x2 x3 : Vec F S1x1 .f32) (x4 : Vec F S32x5 .f32) (x5 : Vec F S1x5 .f32)

set_option maxHeartbeats 1000000 in
theorem sound_kernel4 (xo r : Vec F S8x5 .f32)
    (hc : k4_cond1 i = 1#1 ∧ ¬k4_cond2 i = 1#1 ∧ r = k4_pay3 x1 x2 x3 x0 x4 x5 ∨ ¬k4_cond1 i = 1#1 ∧ k4_cond2 i = 1#1 ∧ r = k4_pay1 (k4_pay3 x1 x2 x3 x0 x4 x5) xo)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xo
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k4_pay2 x1 x2 x3 x0 x4 x5)
            ∗ owns (c : Thread nD τ) arg9 fullShare r) -∗ K ⟨⟩))
      ⊢ wp frame (wpE (defs₀ (F := F)) Variants.none c none) E (cc4__layer4_kernel i arg2 harg2 arg3 harg3 arg4 harg4 arg5 harg5 arg6 harg6 arg7 harg7 arg8 harg8 arg9 harg9) K := by
  simp only [cc4__layer4_kernel_eq_skeleton]; unfold cc4__layer4_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0 hf1 hf2 hf3 hf4 hf5 hf7
  rcases hc with ⟨h1, h2, rfl⟩ | ⟨h1, h2, rfl⟩ <;>
  (sl_exec (disch := first | exact h1 | exact h2)
   sl_step
   iapply Hk
   isplitl [H0]; · iexists f0; isplitr; · ipureintro; rfl
                   iexact H0
   isplitl [H1]; · iexists f1; isplitr; · ipureintro; rfl
                   iexact H1
   isplitl [H2]; · iexists f2; isplitr; · ipureintro; rfl
                   iexact H2
   isplitl [H3]; · iexists f3; isplitr; · ipureintro; rfl
                   iexact H3
   isplitl [H4]; · iexists f4; isplitr; · ipureintro; rfl
                   iexact H4
   isplitl [H5]; · iexists f5; isplitr; · ipureintro; rfl
                   iexact H5
   isplitl [H6]
   · iexists _; isplitr
     swap; · iexact H6
     ipureintro
     rw [BodyLib.read_writes_whole _ _ hz2_4]
     simp only [View.readAt_eq_ld, View.ld_unit_zero (S := S1x1) hz2_4, View.ld_unit_zero (S := S8192x32) hz2_4, View.ld_unit_zero (S := S32x5) hz2_4, View.ld_unit_zero (S := S1x5) hz2_4, View.ld_unit_zero (S := S8x5) hz2_4]
   · iexists _; isplitr
     swap; · iexact H7
     ipureintro
     rw [BodyLib.read_writes_whole _ _ hz2_4]
     simp only [View.readAt_eq_ld, View.ld_unit_zero (S := S1x1) hz2_4, View.ld_unit_zero (S := S8192x32) hz2_4, View.ld_unit_zero (S := S32x5) hz2_4, View.ld_unit_zero (S := S1x5) hz2_4, View.ld_unit_zero (S := S8x5) hz2_4])

end

variable (V : (c : Dev nD) → (b : Ref sig .tc) → Buf (Elt F) ((c : Thread nD τ).loc b))

variable (c : Dev nD) (t : Fin cfg4.N)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

def logits4 : Vec F S8192x5 .f32 :=
  k4_pay2 (iblk4 V c 1 t) (iblk4 V c 2 t) (iblk4 V c 3 t) (iblk4 V c 0 t) (iblk4 V c 4 t) (iblk4 V c 5 t)

def tile4 : Vec F S8x5 .f32 :=
  k4_pay3 (iblk4 V c 1 t) (iblk4 V c 2 t) (iblk4 V c 3 t) (iblk4 V c 0 t) (iblk4 V c 4 t) (iblk4 V c 5 t)

def acc4 : (n : ℕ) → n < cfg4.N → Vec F S8x5 .f32 :=
  BodyLib.accFold 64 (tile4 V c) fun t => k4_pay1 (tile4 V c t)

theorem acc4_A (h0 : t.val % 64 = 0) : acc4 V c t.val t.isLt = tile4 V c t :=
  BodyLib.accFold_A _ _ _ t h0

theorem acc4_B (h0 : ¬t.val % 64 = 0) :
    acc4 V c t.val t.isLt = k4_pay1 (tile4 V c t) (acc4 V c (t.val - 1) (Nat.lt_of_le_of_lt (Nat.sub_le _ _) t.isLt)) :=
  BodyLib.accFold_B _ _ _ t h0

def dat4 : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => logits4 V c t
    | ⟨7, _⟩ => acc4 V c t.val t.isLt
  Φ _ := Pipeline.ΦA spec4 c
  q _ := fullShare
  owed _ := 0

theorem A_eq4 (w : Fin cfg4.W) : (dat4 V c).A w = V c (Pipeline.arrRef spec4 w) := by
  dsimp only [dat4]

theorem after4_6 : (dat4 V c).after 6 t = logits4 V c t := by dsimp only [dat4]
theorem after4_7 : (dat4 V c).after 7 t = acc4 V c t.val t.isLt := by dsimp only [dat4]

theorem before4_0 (d) : (dat4 V c).before 0 t d = iblk4 V c 0 t :=
  BodyLib.before_in (dat4 V c) 0 t d
theorem before4_1 (d) : (dat4 V c).before 1 t d = iblk4 V c 1 t :=
  BodyLib.before_in (dat4 V c) 1 t d
theorem before4_2 (d) : (dat4 V c).before 2 t d = iblk4 V c 2 t :=
  BodyLib.before_in (dat4 V c) 2 t d
theorem before4_3 (d) : (dat4 V c).before 3 t d = iblk4 V c 3 t :=
  BodyLib.before_in (dat4 V c) 3 t d
theorem before4_4 (d) : (dat4 V c).before 4 t d = iblk4 V c 4 t :=
  BodyLib.before_in (dat4 V c) 4 t d
theorem before4_5 (d) : (dat4 V c).before 5 t d = iblk4 V c 5 t :=
  BodyLib.before_in (dat4 V c) 5 t d

theorem before4_7_B (h0 : ¬t.val % 64 = 0) (d) :
    (dat4 V c).before 7 t d = acc4 V c (t.val - 1) (Nat.lt_of_le_of_lt (Nat.sub_le _ _) t.isLt) := by
  rw [Dat.before_out_kept _ 7 rfl t (by omega) (Bool.eq_false_iff.mpr fun h => by have := (flush4_7 _).mp h; dsimp only at this; omega)
    hidle4_7 (fun _ _ => rfl)]
  dsimp only [dat4]

set_option maxHeartbeats 800000 in
theorem sound_body4 :
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))
    ⊢ wp frame (wpE (defs₀ (F := F)) Variants.none c none) Set.univ (bodyAt4 t) (fun _ =>
  iprop((dat4 V c).Φ t.castSucc ∗ (dat4 V c).owesAt () t.castSucc
    ∗ owns (c : Thread nD τ) (st4_0 t) fullShare (iblk4 V c 0 t)
    ∗ owns (c : Thread nD τ) (st4_1 t) fullShare (iblk4 V c 1 t)
    ∗ owns (c : Thread nD τ) (st4_2 t) fullShare (iblk4 V c 2 t)
    ∗ owns (c : Thread nD τ) (st4_3 t) fullShare (iblk4 V c 3 t)
    ∗ owns (c : Thread nD τ) (st4_4 t) fullShare (iblk4 V c 4 t)
    ∗ owns (c : Thread nD τ) (st4_5 t) fullShare (iblk4 V c 5 t)
    ∗ owns (c : Thread nD τ) (st4_6 t) fullShare ((dat4 V c).after 6 t)
    ∗ owns (c : Thread nD τ) (st4_7 t) fullShare ((dat4 V c).after 7 t))) := by
  unfold bodyAt4
  simp only [before4_0, before4_1, before4_2, before4_3, before4_4, before4_5]
  rw [after4_6, after4_7]
  unfold logits4
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ (grid4.coords t) _ _ _ _ _ _ _ _ _ _ _ _ _ _ _ _ (iblk4 V c 0 t) (iblk4 V c 1 t) (iblk4 V c 2 t) (iblk4 V c 3 t) (iblk4 V c 4 t) (iblk4 V c 5 t) ((dat4 V c).before 7 t d7) (acc4 V c t.val t.isLt)
    (if h0 : t.val % 64 = 0 then .inl ⟨(hcond4_1 t).mpr h0, fun h => (hcond4_2 t).mp h h0, acc4_A V c t h0⟩
      else .inr ⟨fun h => h0 ((hcond4_1 t).mp h), (hcond4_2 t).mpr h0, (acc4_B V c t h0).trans (congrArg _ (before4_7_B V c t h0 _).symm)⟩) _)
  iframe H0 H1 H2 H3 H4 H5 H7
  isplitl [H6]; · iexists _; iexact H6
  iintro ⟨H0, H1, H2, H3, H4, H5, H6, H7⟩
  iframe

theorem body_obligation4 : BodyObligation (dat4 (F := F) V c) (defs₀ (F := F)) Variants.none () Set.univ := fun t => by
  rw [bigSep_W4, bigSep_W4]
  have hi : cfg4.idle 7 (cfg4.grid.coords t) = false := hidle4_7 _
  rw [hi]
  exact sound_body4 V c t

end Cert.Kernel.Hand

end
-- ==== Proof.K.D4.lean ====
import proofs.«411066_j83983790505988_3_alg».proof.Proof.K.D3
import proofs.«411066_j83983790505988_3_alg».proof.Proof.K.Reg4

noncomputable section

namespace Cert.Kernel.Hand

open Cert.Kernel.Gen Cert.Kernel.GenP
open Idealize.ShloMosaic Idealize.ShloMosaic.TcCoe Idealize.SL.Sem Chain

variable {F : FTy → Type} [FloatOps F]

variable (m : (ℓ : Loc nD τ sig) → Buf (Elt F) ℓ)

abbrev In4 : VT F := fun c b => V33 m (o30 m) c b
abbrev InVal4 (c : Dev nD) : Valuation τ sig (Elt F) := V33 m (o30 m) c
def o34 : Outs (F := F) := Function.update (o30 m) 34 fun r c =>
  Pipeline.withArrays spec4 c (InVal4 m c) (fun w => (dat4 (In4 m) c).arrAt w cfg4.N) r
abbrev OutVal4 (c : Dev nD) : Valuation τ sig (Elt F) := V34 m (o34 m) c
theorem ag4 : AgreeTo 30 (o30 m) (o34 m) := (agreeTo_update (by decide) _).symm
theorem o34_6 (c : Dev nD) : o34 m 34 main_v80_0 c = (dat4 (In4 m) c).arrAt 6 cfg4.N := by
  rw [o34, Function.update_self]; exact Pipeline.withArrays_arr spec4 launch4.win.arr_inj c _ _ 6
theorem o34_7 (c : Dev nD) : o34 m 34 main_v80_1 c = (dat4 (In4 m) c).arrAt 7 cfg4.N := by
  rw [o34, Function.update_self]; exact Pipeline.withArrays_arr spec4 launch4.win.arr_inj c _ _ 7
theorem hF4 (c : Dev nD) : ∀ w, (dat4 (In4 m) c).arrAt w cfg4.N = OutVal4 m c (Pipeline.arrRef spec4 w) := by
  intro w
  have hi := fun hw hn =>
    ((dat4 (In4 m) c).arrAt_in w hw cfg4.N).trans ((A_eq4 (In4 m) c w).trans (V34_in m c (ag4 m) _ hn).symm)
  fin_cases w <;> try exact hi rfl (by decide)
  · exact (o34_6 m c).symm.trans (V34_a m c).symm
  · exact (o34_7 m c).symm.trans (V34_b m c).symm
theorem hrest4 (c : Dev nD) : ∀ b, b ∉ Finset.univ.image (Pipeline.arrRef spec4) → OutVal4 m c b = In4 m c b := fun b hb =>
  V34_in m c (ag4 m) b (not_mem_of_forall (by decide) hb)

end Cert.Kernel.Hand

end
-- ==== Proof.K.Reg5.lean ====
import proofs.«411066_j83983790505988_3_alg».proof.Proof.Gen.Kernel.Launch
import proofs.«411066_j83983790505988_3_alg».proof.Proof.Gen.Kernel.Skeleton
import proofs.«411066_j83983790505988_3_alg».proof.Proof.Gen.Kernel.Points
import proofs.«411066_j83983790505988_3_alg».proof.Proof.BodyLib
import proofs.«411066_j83983790505988_3_alg».proof.Proof.BodyLibView
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem hcond5_1 : ∀ t : Fin cfg5.N, k5_cond1 (grid5.coords t) = 1#1 ↔ t.val % 64 = 0 :=
  (by decide +kernel : ∀ t : Fin grid5.N, _)

theorem hcond5_2 : ∀ t : Fin cfg5.N, k5_cond2 (grid5.coords t) = 1#1 ↔ ¬t.val % 64 = 0 :=
  (by decide +kernel : ∀ t : Fin grid5.N, _)

def acc5 (c : Dev nD) : (n : ℕ) → n < cfg5.N → Vec F S8x5 .f32 :=
  BodyLib.accFold 64 (fun t => k5_pay2 (iblk5 V c 0 t) (iblk5 V c 1 t)) fun t => k5_pay3 (iblk5 V c 0 t) (iblk5 V c 1 t)

theorem acc5_first (c : Dev nD) (t : Fin cfg5.N) (h0 : t.val % 64 = 0) :
    acc5 V c t.val t.isLt = k5_pay2 (iblk5 V c 0 t) (iblk5 V c 1 t) := BodyLib.accFold_A _ _ _ t h0

theorem acc5_later (c : Dev nD) (t : Fin cfg5.N) (h0 : ¬t.val % 64 = 0) :
    acc5 V c t.val t.isLt = k5_pay3 (iblk5 V c 0 t) (iblk5 V c 1 t) (acc5 V c (t.val - 1) (Nat.lt_of_le_of_lt (Nat.sub_le _ _) t.isLt)) :=
  BodyLib.accFold_B _ _ _ t h0

def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => k5_pay1 (iblk5 V c 0 t) (iblk5 V c 1 t)
    | ⟨3, _⟩ => acc5 V c t.val t.isLt
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_2 (c : Dev nD) (t : Fin cfg5.N) : (dat5 V c).after 2 t = k5_pay1 (iblk5 V c 0 t) (iblk5 V c 1 t) := by dsimp only [dat5]
theorem after5_3 (c : Dev nD) (t : Fin cfg5.N) : (dat5 V c).after 3 t = acc5 V c t.val t.isLt := by dsimp only [dat5]

theorem hz5 : (![0, 0] : Fin 2 → Nat) = fun _ => 0 := funext fun a => by fin_cases a <;> rfl

section
variable (c : Dev nD) (E : Set ℕ) (i : grid5.Coords) (arg2 : Memref sig .tc .vmem S8192x5 .f32) (harg2 : arg2.IsWhole) (arg3 : Memref sig .tc .vmem S1x5 .f32) (harg3 : arg3.IsWhole) (arg4 : Memref sig .tc .vmem S8192x5 .f32) (harg4 : arg4.IsWhole) (arg5 : Memref sig .tc .vmem S8x5 .f32) (harg5 : arg5.IsWhole) (x0 : Vec F S8192x5 .f32) (x1 : Vec F S1x5 .f32)

set_option maxHeartbeats 400000 in
theorem sound_kernel5_first (hc1 : k5_cond1 i = 1#1) (hc2 : ¬k5_cond2 i = 1#1) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k5_pay1 x0 x1) ∗ owns (c : Thread nD τ) arg5 fullShare (k5_pay2 x0 x1)) -∗ K ⟨⟩))
      ⊢ wp frame (wpE (defs₀ (F := F)) Variants.none c none) E (cc5__softmax_exp_kernel i arg2 harg2 arg3 harg3 arg4 harg4 arg5 harg5) K := by
  simp only [cc5__softmax_exp_kernel_eq_skeleton]; unfold cc5__softmax_exp_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [BodyLib.read_writes_whole _ _ hz5]
    simp only [View.readAt_eq_ld, View.ld_unit_zero (S := S8192x5) hz5, View.ld_unit_zero (S := S1x5) hz5]
  · iexists _; isplitr
    swap; · iexact H3
    ipureintro
    rw [BodyLib.read_writes_whole _ _ hz5]
    simp only [View.readAt_eq_ld, View.ld_unit_zero (S := S8192x5) hz5, View.ld_unit_zero (S := S1x5) hz5]

set_option maxHeartbeats 400000 in
theorem sound_kernel5_later (hc1 : ¬k5_cond1 i = 1#1) (hc2 : k5_cond2 i = 1#1) (xo : Vec F S8x5 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xo
        ∗ (iprop(owns (c : Thread nD τ) arg2 fullShare x0 ∗ owns (c : Thread nD τ) arg3 fullShare x1
            ∗ owns (c : Thread nD τ) arg4 fullShare (k5_pay1 x0 x1) ∗ owns (c : Thread nD τ) arg5 fullShare (k5_pay3 x0 x1 xo)) -∗ K ⟨⟩))
      ⊢ wp frame (wpE (defs₀ (F := F)) Variants.none c none) E (cc5__softmax_exp_kernel i arg2 harg2 arg3 harg3 arg4 harg4 arg5 harg5) K := by
  simp only [cc5__softmax_exp_kernel_eq_skeleton]; unfold cc5__softmax_exp_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [BodyLib.read_writes_whole _ _ hz5]
    simp only [View.readAt_eq_ld, View.ld_unit_zero (S := S8192x5) hz5, View.ld_unit_zero (S := S1x5) hz5]
  · iexists _; isplitr
    swap; · iexact H3
    ipureintro
    rw [BodyLib.read_writes_whole _ _ hz5]
    simp only [View.readAt_eq_ld, View.ld_unit_zero (S := S8192x5) hz5, View.ld_unit_zero (S := S1x5) hz5,
      View.ld_unit_zero (S := S8x5) hz5]

end

variable (c : Dev nD) (t : Fin cfg5.N)

theorem before5_0 (d) : (dat5 V c).before 0 t d = iblk5 V c 0 t :=
  BodyLib.before_in (dat5 V c) 0 t d

theorem before5_1 (d) : (dat5 V c).before 1 t d = iblk5 V c 1 t :=
  BodyLib.before_in (dat5 V c) 1 t d

theorem idle5_3 (i : cfg5.grid.Coords) : cfg5.idle 3 i = false := by
  have key : ∀ j : Fin 64,
      (!(Scalar.cmpi .ne (Scalar.extui (Scalar.cmpi .eq (BitVec.ofNat 32 j.val) 0#32)) 0#32 == 1#1)
        && !(Scalar.cmpi .ne (Scalar.extui (Scalar.cmpi .ne (BitVec.ofNat 32 j.val) 0#32)) 0#32 == 1#1)) = false := by
    decide +kernel
  exact key (i 1)

theorem before5_3_later (h0 : ¬t.val % 64 = 0) (d) :
    (dat5 V c).before 3 t d = acc5 V c (t.val - 1) (Nat.lt_of_le_of_lt (Nat.sub_le _ _) t.isLt) := by
  rw [Dat.before_out_kept _ 3 rfl t (by omega)
    (Bool.eq_false_iff.mpr fun h => by have := (flush5_3 _).mp h; dsimp only at this; omega)
    (idle5_3) (fun _ _ => rfl)]
  dsimp only [dat5]

set_option maxHeartbeats 400000 in
theorem sound_body5 :
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))
    ⊢ wp frame (wpE (defs₀ (F := F)) Variants.none c none) Set.univ (bodyAt5 t) (fun _ =>
  iprop((dat5 V c).Φ t.castSucc ∗ (dat5 V c).owesAt () t.castSucc
    ∗ owns (c : Thread nD τ) (st5_0 t) fullShare (iblk5 V c 0 t)
    ∗ owns (c : Thread nD τ) (st5_1 t) fullShare (iblk5 V c 1 t)
    ∗ owns (c : Thread nD τ) (st5_2 t) fullShare ((dat5 V c).after 2 t)
    ∗ owns (c : Thread nD τ) (st5_3 t) fullShare ((dat5 V c).after 3 t))) := by
  unfold bodyAt5
  simp only [before5_0, before5_1]
  rw [after5_2, after5_3]
  iintro ⟨HΦ, Ho, ⟨%d0, H0⟩, ⟨%d1, H1⟩, ⟨%d2, H2⟩, ⟨%d3, H3⟩⟩
  by_cases h0 : t.val % 64 = 0
  · rw [acc5_first V c t h0]
    iapply (sound_kernel5_first c Set.univ (grid5.coords t) _ _ _ _ _ _ _ _ (iblk5 V c 0 t) (iblk5 V c 1 t) ((hcond5_1 t).mpr h0) (fun h => (hcond5_2 t).mp h h0) _)
    iframe H0 H1
    isplitl [H2]; · iexists _; iexact H2
    isplitl [H3]; · iexists _; iexact H3
    iintro ⟨H0, H1, H2, H3⟩
    iframe
  · rw [acc5_later V c t h0]
    simp only [before5_3_later V c t h0]
    iapply (sound_kernel5_later c Set.univ (grid5.coords t) _ _ _ _ _ _ _ _ (iblk5 V c 0 t) (iblk5 V c 1 t) (fun h => h0 ((hcond5_1 t).mp h)) ((hcond5_2 t).mpr h0) _ _)
    iframe H0 H1 H3
    isplitl [H2]; · iexists _; iexact H2
    iintro ⟨H0, H1, H2, H3⟩
    iframe

theorem body_obligation5 : BodyObligation (dat5 (F := F) V c) (defs₀ (F := F)) Variants.none () Set.univ := fun t => by
  rw [bigSep_W5, bigSep_W5]
  have hi : cfg5.idle 3 (cfg5.grid.coords t) = false := idle5_3 _
  rw [hi]
  exact sound_body5 V c t

end Cert.Kernel.Hand

end
-- ==== Proof.K.D5.lean ====
import proofs.«411066_j83983790505988_3_alg».proof.Proof.K.D4
import proofs.«411066_j83983790505988_3_alg».proof.Proof.K.Reg5

noncomputable section

namespace Cert.Kernel.Hand

open Cert.Kernel.Gen Cert.Kernel.GenP
open Idealize.ShloMosaic Idealize.ShloMosaic.TcCoe Idealize.SL.Sem Chain

variable {F : FTy → Type} [FloatOps F]

variable (m : (ℓ : Loc nD τ sig) → Buf (Elt F) ℓ)

abbrev In5 : VT F := fun c b => V35 m (o34 m) c b
abbrev InVal5 (c : Dev nD) : Valuation τ sig (Elt F) := V35 m (o34 m) c
def o36 : Outs (F := F) := Function.update (o34 m) 36 fun r c =>
  Pipeline.withArrays spec5 c (InVal5 m c) (fun w => (dat5 (In5 m) c).arrAt w cfg5.N) r
abbrev OutVal5 (c : Dev nD) : Valuation τ sig (Elt F) := V36 m (o36 m) c
theorem ag5 : AgreeTo 34 (o34 m) (o36 m) := (agreeTo_update (by decide) _).symm
theorem o36_2 (c : Dev nD) : o36 m 36 main_v83_0 c = (dat5 (In5 m) c).arrAt 2 cfg5.N := by
  rw [o36, Function.update_self]; exact Pipeline.withArrays_arr spec5 launch5.win.arr_inj c _ _ 2
theorem o36_3 (c : Dev nD) : o36 m 36 main_v83_1 c = (dat5 (In5 m) c).arrAt 3 cfg5.N := by
  rw [o36, Function.update_self]; exact Pipeline.withArrays_arr spec5 launch5.win.arr_inj c _ _ 3
theorem hF5 (c : Dev nD) : ∀ w, (dat5 (In5 m) c).arrAt w cfg5.N = OutVal5 m c (Pipeline.arrRef spec5 w) := by
  intro w
  have hi := fun hw hn =>
    ((dat5 (In5 m) c).arrAt_in w hw cfg5.N).trans ((A_eq5 (In5 m) c w).trans (V36_in m c (ag5 m) _ hn).symm)
  fin_cases w <;> try exact hi rfl (by decide)
  · exact (o36_2 m c).symm.trans (V36_a m c).symm
  · exact (o36_3 m c).symm.trans (V36_b m c).symm
theorem hrest5 (c : Dev nD) : ∀ b, b ∉ Finset.univ.image (Pipeline.arrRef spec5) → OutVal5 m c b = In5 m c b := fun b hb =>
  V36_in m c (ag5 m) b (not_mem_of_forall (by decide) hb)

end Cert.Kernel.Hand

end
-- ==== Proof.K.Reg6.lean ====
import proofs.«411066_j83983790505988_3_alg».proof.Proof.Gen.Kernel.Launch
import proofs.«411066_j83983790505988_3_alg».proof.Proof.Gen.Kernel.Skeleton
import proofs.«411066_j83983790505988_3_alg».proof.Proof.Gen.Kernel.Points
import proofs.«411066_j83983790505988_3_alg».proof.Proof.BodyLibView
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

variable (c : Dev nD) (t : Fin cfg6.N)

abbrev rT6 : Rect S8192x5 := Rect.unit (s := S8192x5) ![0, 0] S8192x5.size inb_S8192x5_S8192x5_0_0
abbrev rS6 : Rect S1x5 := Rect.unit (s := S1x5) ![0, 0] S1x5.size inb_S1x5_S1x5_0_0
abbrev rU6 : Rect S1x1 := Rect.unit (s := S1x1) ![0, 0] S1x1.size inb_S1x1_S1x1_0_0

def out6 (x0 : Vec F S8192x5 .f32) (x1 : Vec F S1x5 .f32) (x2 : Vec F S1x1 .f32) (x3 : Vec F S1x1 .f32) : Vec F S8192x5 .f32 :=
  View.canon [⟨rT6, k6_pay1 (View.ld x2 rU6) (View.ld x3 rU6) (View.ld x0 rT6) (View.ld x1 rS6)⟩]

set_option maxHeartbeats 1000000 in
theorem sound_kernel6 (c : Dev nD) (E : Set ℕ) (i : grid6.Coords)
    (arg1 : Memref sig .tc .vmem S8192x5 .f32) (harg1 : arg1.IsWhole) (arg2 : Memref sig .tc .vmem S1x5 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S8192x5 .f32) (harg5 : arg5.IsWhole)
    (x0 : Vec F S8192x5 .f32) (x1 : Vec F S1x5 .f32) (x2 : Vec F S1x1 .f32) (x3 : Vec F S1x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out6 x0 x1 x2 x3)) -∗ K ⟨⟩))
      ⊢ wp frame (wpE (defs₀ (F := F)) Variants.none c none) E
          (cc6__softmax_final_kernel i arg1 harg1 arg2 harg2 arg3 harg3 arg4 harg4 arg5 harg5) K := by
  simp only [cc6__softmax_final_kernel_eq_skeleton]; unfold cc6__softmax_final_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S8192x5.size (by rfl))

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6 (iblk6 V c 0 t) (iblk6 V c 1 t) (iblk6 V c 2 t) (iblk6 V c 3 t)
  Φ _ := Pipeline.ΦA spec6 c
  q _ := fullShare
  owed _ := 0

theorem A_eq6 (w : Fin cfg6.W) : (dat6 V c).A w = V c (Pipeline.arrRef spec6 w) := by
  dsimp only [dat6]

theorem after6_4 :
    (dat6 V c).after 4 t = out6 (iblk6 V c 0 t) (iblk6 V c 1 t) (iblk6 V c 2 t) (iblk6 V c 3 t) := by dsimp only [dat6]

theorem before6_0 (d) : (dat6 V c).before 0 t d = iblk6 V c 0 t :=
  BodyLib.before_in (dat6 V c) 0 t d
theorem before6_1 (d) : (dat6 V c).before 1 t d = iblk6 V c 1 t :=
  BodyLib.before_in (dat6 V c) 1 t d
theorem before6_2 (d) : (dat6 V c).before 2 t d = iblk6 V c 2 t :=
  BodyLib.before_in (dat6 V c) 2 t d
theorem before6_3 (d) : (dat6 V c).before 3 t d = iblk6 V c 3 t :=
  BodyLib.before_in (dat6 V c) 3 t d

theorem sound_body6 :
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))
    ⊢ wp frame (wpE (defs₀ (F := F)) Variants.none c none) Set.univ (bodyAt6 t) (fun _ =>
  iprop((dat6 V c).Φ t.castSucc ∗ (dat6 V c).owesAt () t.castSucc
    ∗ owns (c : Thread nD τ) (st6_0 t) fullShare (iblk6 V c 0 t)
    ∗ owns (c : Thread nD τ) (st6_1 t) fullShare (iblk6 V c 1 t)
    ∗ owns (c : Thread nD τ) (st6_2 t) fullShare (iblk6 V c 2 t)
    ∗ owns (c : Thread nD τ) (st6_3 t) fullShare (iblk6 V c 3 t)
    ∗ owns (c : Thread nD τ) (st6_4 t) fullShare ((dat6 V c).after 4 t))) := by
  unfold bodyAt6
  simp only [before6_0, before6_1, before6_2, before6_3]
  rw [after6_4]
  iintro ⟨HΦ, Ho, ⟨%d0, H0⟩, ⟨%d1, H1⟩, ⟨%d2, H2⟩, ⟨%d3, H3⟩, ⟨%d4, H4⟩⟩
  iapply (sound_kernel6 c Set.univ (grid6.coords t) _ _ _ _ _ _ _ _ _ _ (iblk6 V c 0 t) (iblk6 V c 1 t) (iblk6 V c 2 t) (iblk6 V c 3 t) _)
  iframe H0 H1 H2 H3
  isplitl [H4]; · iexists _; iexact H4
  iintro ⟨H0, H1, H2, H3, H4⟩
  iframe

theorem body_obligation6 : BodyObligation (dat6 (F := F) V c) (defs₀ (F := F)) Variants.none () Set.univ := fun t => by
  rw [bigSep_W6, bigSep_W6]
  exact sound_body6 V c t

end Cert.Kernel.Hand

end
-- ==== Proof.K.D6.lean ====
import proofs.«411066_j83983790505988_3_alg».proof.Proof.K.D5
import proofs.«411066_j83983790505988_3_alg».proof.Proof.K.Reg6

noncomputable section

namespace Cert.Kernel.Hand

open Cert.Kernel.Gen Cert.Kernel.GenP
open Idealize.ShloMosaic Idealize.ShloMosaic.TcCoe Idealize.SL.Sem Chain

variable {F : FTy → Type} [FloatOps F]

variable (m : (ℓ : Loc nD τ sig) → Buf (Elt F) ℓ)

abbrev In6 : VT F := fun c b => V37 m (o36 m) c b
abbrev InVal6 (c : Dev nD) : Valuation τ sig (Elt F) := V37 m (o36 m) c
def o38 : Outs (F := F) := Function.update (o36 m) 38 fun r c =>
  Pipeline.withArrays spec6 c (InVal6 m c) (fun w => (dat6 (In6 m) c).arrAt w cfg6.N) r
abbrev OutVal6 (c : Dev nD) : Valuation τ sig (Elt F) := V38 m (o38 m) c
theorem ag6 : AgreeTo 36 (o36 m) (o38 m) := (agreeTo_update (by decide) _).symm
theorem o38_4 (c : Dev nD) : o38 m 38 main_v92 c = (dat6 (In6 m) c).arrAt 4 cfg6.N := by
  rw [o38, Function.update_self]; exact Pipeline.withArrays_arr spec6 launch6.win.arr_inj c _ _ 4
theorem hF6 (c : Dev nD) : ∀ w, (dat6 (In6 m) c).arrAt w cfg6.N = OutVal6 m c (Pipeline.arrRef spec6 w) := by
  intro w
  have hi := fun hw hn =>
    ((dat6 (In6 m) c).arrAt_in w hw cfg6.N).trans ((A_eq6 (In6 m) c w).trans (V38_in m c (ag6 m) _ hn).symm)
  fin_cases w <;> try exact hi rfl (by decide)
  exact (o38_4 m c).symm.trans (V38_a m c).symm
theorem hrest6 (c : Dev nD) : ∀ b, b ∉ Finset.univ.image (Pipeline.arrRef spec6) → OutVal6 m c b = In6 m c b := fun b hb =>
  V38_in m c (ag6 m) b (not_mem_of_forall (by decide) hb)

end Cert.Kernel.Hand

end
-- ==== Proof.K.Fam.lean ====
import proofs.«411066_j83983790505988_3_alg».proof.Proof.K.D6

noncomputable section

namespace Cert.Kernel.Hand

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

abbrev outs : Outs (F := F) := o38 m

def pdats : (p : Fin 7) → (c : Dev nD) → Dat τ (Elt F) Unit ℕ (Pipeline.UD sig nD τ) ℕ (Pipeline.pin (pcfgs (F := F)) adm p) c
  | ⟨0, _⟩ => fun c => dat0 (In0 m) c
  | ⟨1, _⟩ => fun c => dat1 (In1 m) c
  | ⟨2, _⟩ => fun c => dat2 (In2 m) c
  | ⟨3, _⟩ => fun c => dat3 (In3 m) c
  | ⟨4, _⟩ => fun c => dat4 (In4 m) c
  | ⟨5, _⟩ => fun c => dat5 (In5 m) c
  | ⟨6, _⟩ => fun c => dat6 (In6 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

end Cert.Kernel.Hand

end
-- ==== Proof.K.Eq.lean ====
import proofs.«411066_j83983790505988_3_alg».proof.Proof.K.Fam

namespace Cert.Kernel.Hand

open Cert.Kernel.Gen Cert.Kernel.GenP
open Idealize.ShloMosaic Idealize.ShloMosaic.TcCoe Idealize.SL.Sem Chain

variable {F : FTy → Type} [FloatOps F]

variable (m : (ℓ : Loc nD τ sig) → Buf (Elt F) ℓ)

/-- The last table keeps every earlier table's rows: each pass sets only its own row. -/
theorem a36 : AgreeTo 36 (o38 m) (o36 m) := (ag6 m).symm
theorem a34 : AgreeTo 34 (o38 m) (o34 m) := ((a36 m).mono (by decide)).trans (ag5 m).symm
theorem a30 : AgreeTo 30 (o38 m) (o30 m) := ((a34 m).mono (by decide)).trans (ag4 m).symm
theorem a26 : AgreeTo 26 (o38 m) (o26 m) := ((a30 m).mono (by decide)).trans (ag3 m).symm
theorem a22 : AgreeTo 22 (o38 m) (o22 m) := ((a26 m).mono (by decide)).trans (ag2 m).symm
theorem a18 : AgreeTo 18 (o38 m) (o18 m) := ((a22 m).mono (by decide)).trans (ag1 m).symm
theorem o38_at18 (r : Ref sig .tc) (c : Dev nD) : o38 m 18 r c = o18 m 18 r c := by
  rw [a18 m 18 le_rfl]
theorem o38_at22 (r : Ref sig .tc) (c : Dev nD) : o38 m 22 r c = o22 m 22 r c := by
  rw [a22 m 22 le_rfl]
theorem o38_at26 (r : Ref sig .tc) (c : Dev nD) : o38 m 26 r c = o26 m 26 r c := by
  rw [a26 m 26 le_rfl]
theorem o38_at30 (r : Ref sig .tc) (c : Dev nD) : o38 m 30 r c = o30 m 30 r c := by
  rw [a30 m 30 le_rfl]
theorem o38_at34 (r : Ref sig .tc) (c : Dev nD) : o38 m 34 r c = o34 m 34 r c := by
  rw [a34 m 34 le_rfl]
theorem o38_at36 (r : Ref sig .tc) (c : Dev nD) : o38 m 36 r c = o36 m 36 r c := by
  rw [a36 m 36 le_rfl]
theorem eqOut0 (c : Dev nD) : V18 m (outs m) c = OutVal0 m c :=
  V18_congr m c (a18 m)
theorem eqIn1 (c : Dev nD) : V21 m (outs m) c = InVal1 m c :=
  V21_congr m c (a18 m)
theorem eqOut1 (c : Dev nD) : V22 m (outs m) c = OutVal1 m c :=
  V22_congr m c (a22 m)
theorem eqIn2 (c : Dev nD) : V25 m (outs m) c = InVal2 m c :=
  V25_congr m c (a22 m)
theorem eqOut2 (c : Dev nD) : V26 m (outs m) c = OutVal2 m c :=
  V26_congr m c (a26 m)
theorem eqIn3 (c : Dev nD) : V29 m (outs m) c = InVal3 m c :=
  V29_congr m c (a26 m)
theorem eqOut3 (c : Dev nD) : V30 m (outs m) c = OutVal3 m c :=
  V30_congr m c (a30 m)
theorem eqIn4 (c : Dev nD) : V33 m (outs m) c = InVal4 m c :=
  V33_congr m c (a30 m)
theorem eqOut4 (c : Dev nD) : V34 m (outs m) c = OutVal4 m c :=
  V34_congr m c (a34 m)
theorem eqIn5 (c : Dev nD) : V35 m (outs m) c = InVal5 m c :=
  V35_congr m c (a34 m)
theorem eqOut5 (c : Dev nD) : V36 m (outs m) c = OutVal5 m c :=
  V36_congr m c (a36 m)
theorem eqIn6 (c : Dev nD) : V37 m (outs m) c = InVal6 m c :=
  V37_congr m c (a36 m)
theorem eqOut6 (c : Dev nD) : V38 m (outs m) c = OutVal6 m c :=
  rfl

end Cert.Kernel.Hand
-- ==== Proof.SegOf.lean ====
import Idealize.ShloMosaic.Lib.Pipeline.RegionsLoop
import Idealize.ShloMosaic.Lib.Pipeline.Frame

noncomputable section

namespace Cert

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {nD : Nat} {τ : Topo} {sig : RefSig} {Val : EltTy → Type} {U : Type} [URA U]
  {Λ₀ : Sem.Labels} {P : Type} [Fintype P]

local notation "𝕄" => MT nD τ sig Unit Val ℕ U ℕ

/-- The held buffers at equal contents, beside anything, are the same assertion. -/
theorem held_congr {c : Thread nD τ} {S : Finset (DevRef τ sig)} {V V' : Valuation τ sig Val} (h : V = V') {R : sProp 𝕄} :
    iprop(StableHlo.held c S V ∗ R) ⊢ iprop(StableHlo.held c S V' ∗ R) := h ▸ .rfl

/-- A pass that owes nothing and keeps only scratch and the register: its arrays leave the held buffers at `In` and return at `Out`. -/
def regionOfHeld (cfgs : P → Cfg sig Λ₀) (pdats : (p : P) → (c : Dev nD) → Dat τ Val Unit ℕ U ℕ (cfgs p) c)
    (defs₀ : Defs nD τ sig Val Λ₀) (𝒱₀ : Variants) (L : GSem nD τ sig → Finset Unit) (lv : GSem nD τ sig → Unit → ℕ)
    (p : P) (lf : Pipeline.LaunchFacts (nD := nD) (τ := τ) cfgs p) (In Out : Dev nD → Valuation τ sig Val)
    (hb : ∀ c, BodyObligation (pdats p c) defs₀ 𝒱₀ () Set.univ)
    (howed : ∀ c t, (pdats p c).owed t = 0) (hrec : ∀ c, (pdats p c).recorded 0 = Set.univ)
    (hq : ∀ c w, (pdats p c).q w = fullShare)
    (hA : ∀ c w, (pdats p c).A w = In c (Pipeline.arrRef (cfgs p).spec w))
    (hΦ : ∀ c t, (pdats p c).Φ t = Pipeline.ΦA (cfgs p).spec c)
    (hF : ∀ c w, (pdats p c).arrAt w (cfgs p).N = Out c (Pipeline.arrRef (cfgs p).spec w))
    (hrest : ∀ c b, b ∉ Finset.univ.image (Pipeline.arrRef (cfgs p).spec) → Out c b = In c b) :
    Pipeline.RegionSeg (fun p => (cfgs p).toPCfg) (fun p => (cfgs p).toPCfg_adm) pdats () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero (fun p => (cfgs p).toPCfg) (fun p => (cfgs p).toPCfg_adm) pdats () L lv p howed
  pre c := iprop(StableHlo.held (c : Thread nD τ) (Pipeline.ucRefs τ sig) (In c) ∗ (∃ r, prngReg c r) ∗ ∃ W, owes (c : Thread nD τ) (0 : CellTallies nD τ sig Unit) W)
  post c := iprop(StableHlo.held (c : Thread nD τ) (Pipeline.ucRefs τ sig) (Out c) ∗ (∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := U) (Lvl := ℕ) (cfgs p).spec c (fun b => In c b)
  hentry c := by
    rw [Pipeline.ownSems0_none]
    have hs := Pipeline.arrays_of_unscopedBufs (p := p) (fun p => (cfgs p).toPCfg) (fun p => (cfgs p).toPCfg_adm) pdats lf.win lf.arr_whole c
      ((pdats p c).share_full (hq c)) (fun b => In c b) (hA c)
    rw [Pipeline.unscopedBufs_held] at hs
    iintro ⟨⟨Hb, Hg, Ho⟩, -, -⟩
    ihave Hs := hs $$ Hb
    icases Hs with ⟨Ha, Hz⟩
    imodintro
    isplitl [Ha]; · iexact Ha
    isplitr
    · unfold Pipeline.prefHeld; rw [show (Finset.univ : Finset (Fin 0)) = ∅ from rfl, BI.bigSep_empty]; iempintro
    isplitl [Ho]
    · unfold Pipeline.Dat.owesAt Pipeline.owesWithin Pipeline.Dat.bound; rw [howed, hrec]
      icases Ho with ⟨%W, Ho⟩; iexists W; isplitr; · ipureintro; exact fun _ _ => Or.inl trivial
      iexact Ho
    isplitl [Hg]; · iexact Hg
    iexact Hz
  hin c := by
    rw [hΦ]; unfold Pipeline.ΦA
    iintro ⟨Hg, -, Hsc⟩
    isplitl [Hsc]; · iexact Hsc
    iexact Hg
  hout c := by
    rw [Pipeline.ownSems0_none, hΦ]; unfold Pipeline.ΦA
    iintro ⟨Hsc, Hg⟩
    isplitl [Hg]; · iexact Hg
    isplitr; · iempintro
    iexact Hsc
  hexit c := by
    have hj := Pipeline.unscopedBufs_of_arrays (p := p) (fun p => (cfgs p).toPCfg) (fun p => (cfgs p).toPCfg_adm) (Ix := Unit) (Name := ℕ) (U := U) (Lvl := ℕ)
      lf.win lf.arr_whole c pdats ((pdats p c).share_full (hq c))
      (fun b => In c b) (fun b => Out c b) ((pdats p c).arrAt · (cfgs p).N) (hF c) (hrest c)
    rw [Pipeline.unscopedBufs_held] at hj
    iintro ⟨Ha, Ho, Hg, Hz⟩
    imodintro
    isplitl [Ha Hz]
    · iapply hj; isplitl [Ha] <;> iassumption
    isplitl [Hg]; · iexact Hg
    unfold Pipeline.Dat.owesAt Pipeline.owesWithin; rw [howed]
    icases Ho with ⟨%W, -, Ho⟩; iexists W; iexact Ho

end Cert

end
-- ==== Proof.K.S0.lean ====
import proofs.«411066_j83983790505988_3_alg».proof.Proof.K.Fam
import proofs.«411066_j83983790505988_3_alg».proof.Proof.SegOf

namespace Cert.Kernel.Hand

open Cert.Kernel.Gen Cert.Kernel.GenP
open Idealize.ShloMosaic

variable {F : FTy → Type} [FloatOps F]

variable (m : (ℓ : Loc nD τ sig) → Buf (Elt F) ℓ)

noncomputable def reg0 : Pipeline.RegionSeg (pcfgs (F := F)) adm (pdats m) () defs₀ 𝒱₀ L lv 0 :=
  regionOfHeld cfgs (pdats m) defs₀ 𝒱₀ L lv 0 launch0 (InVal0 m) (OutVal0 m) (body_obligation0 (In0 m))
    (fun _ _ => rfl) (fun _ => rfl) (fun _ _ => rfl) (fun _ _ => rfl) (fun _ _ => rfl) (hF0 m) (hrest0 m)

end Cert.Kernel.Hand
-- ==== Proof.K.S1.lean ====
import proofs.«411066_j83983790505988_3_alg».proof.Proof.K.Fam
import proofs.«411066_j83983790505988_3_alg».proof.Proof.SegOf

namespace Cert.Kernel.Hand

open Cert.Kernel.Gen Cert.Kernel.GenP
open Idealize.ShloMosaic

variable {F : FTy → Type} [FloatOps F]

variable (m : (ℓ : Loc nD τ sig) → Buf (Elt F) ℓ)

noncomputable def reg1 : Pipeline.RegionSeg (pcfgs (F := F)) adm (pdats m) () defs₀ 𝒱₀ L lv 1 :=
  regionOfHeld cfgs (pdats m) defs₀ 𝒱₀ L lv 1 launch1 (InVal1 m) (OutVal1 m) (body_obligation1 (In1 m))
    (fun _ _ => rfl) (fun _ => rfl) (fun _ _ => rfl) (fun _ _ => rfl) (fun _ _ => rfl) (hF1 m) (hrest1 m)

end Cert.Kernel.Hand
-- ==== Proof.K.S2.lean ====
import proofs.«411066_j83983790505988_3_alg».proof.Proof.K.Fam
import proofs.«411066_j83983790505988_3_alg».proof.Proof.SegOf

namespace Cert.Kernel.Hand

open Cert.Kernel.Gen Cert.Kernel.GenP
open Idealize.ShloMosaic

variable {F : FTy → Type} [FloatOps F]

variable (m : (ℓ : Loc nD τ sig) → Buf (Elt F) ℓ)

noncomputable def reg2 : Pipeline.RegionSeg (pcfgs (F := F)) adm (pdats m) () defs₀ 𝒱₀ L lv 2 :=
  regionOfHeld cfgs (pdats m) defs₀ 𝒱₀ L lv 2 launch2 (InVal2 m) (OutVal2 m) (body_obligation2 (In2 m))
    (fun _ _ => rfl) (fun _ => rfl) (fun _ _ => rfl) (fun _ _ => rfl) (fun _ _ => rfl) (hF2 m) (hrest2 m)

end Cert.Kernel.Hand
-- ==== Proof.K.S3.lean ====
import proofs.«411066_j83983790505988_3_alg».proof.Proof.K.Fam
import proofs.«411066_j83983790505988_3_alg».proof.Proof.SegOf

namespace Cert.Kernel.Hand

open Cert.Kernel.Gen Cert.Kernel.GenP
open Idealize.ShloMosaic

variable {F : FTy → Type} [FloatOps F]

variable (m : (ℓ : Loc nD τ sig) → Buf (Elt F) ℓ)

noncomputable def reg3 : Pipeline.RegionSeg (pcfgs (F := F)) adm (pdats m) () defs₀ 𝒱₀ L lv 3 :=
  regionOfHeld cfgs (pdats m) defs₀ 𝒱₀ L lv 3 launch3 (InVal3 m) (OutVal3 m) (body_obligation3 (In3 m))
    (fun _ _ => rfl) (fun _ => rfl) (fun _ _ => rfl) (fun _ _ => rfl) (fun _ _ => rfl) (hF3 m) (hrest3 m)

end Cert.Kernel.Hand
-- ==== Proof.K.S4.lean ====
import proofs.«411066_j83983790505988_3_alg».proof.Proof.K.Fam
import proofs.«411066_j83983790505988_3_alg».proof.Proof.SegOf

namespace Cert.Kernel.Hand

open Cert.Kernel.Gen Cert.Kernel.GenP
open Idealize.ShloMosaic

variable {F : FTy → Type} [FloatOps F]

variable (m : (ℓ : Loc nD τ sig) → Buf (Elt F) ℓ)

noncomputable def reg4 : Pipeline.RegionSeg (pcfgs (F := F)) adm (pdats m) () defs₀ 𝒱₀ L lv 4 :=
  regionOfHeld cfgs (pdats m) defs₀ 𝒱₀ L lv 4 launch4 (InVal4 m) (OutVal4 m) (body_obligation4 (In4 m))
    (fun _ _ => rfl) (fun _ => rfl) (fun _ _ => rfl) (fun _ _ => rfl) (fun _ _ => rfl) (hF4 m) (hrest4 m)

end Cert.Kernel.Hand
-- ==== Proof.K.S5.lean ====
import proofs.«411066_j83983790505988_3_alg».proof.Proof.K.Fam
import proofs.«411066_j83983790505988_3_alg».proof.Proof.SegOf

namespace Cert.Kernel.Hand

open Cert.Kernel.Gen Cert.Kernel.GenP
open Idealize.ShloMosaic

variable {F : FTy → Type} [FloatOps F]

variable (m : (ℓ : Loc nD τ sig) → Buf (Elt F) ℓ)

noncomputable def reg5 : Pipeline.RegionSeg (pcfgs (F := F)) adm (pdats m) () defs₀ 𝒱₀ L lv 5 :=
  regionOfHeld cfgs (pdats m) defs₀ 𝒱₀ L lv 5 launch5 (InVal5 m) (OutVal5 m) (body_obligation5 (In5 m))
    (fun _ _ => rfl) (fun _ => rfl) (fun _ _ => rfl) (fun _ _ => rfl) (fun _ _ => rfl) (hF5 m) (hrest5 m)

end Cert.Kernel.Hand
-- ==== Proof.K.S6.lean ====
import proofs.«411066_j83983790505988_3_alg».proof.Proof.K.Fam
import proofs.«411066_j83983790505988_3_alg».proof.Proof.SegOf

namespace Cert.Kernel.Hand

open Cert.Kernel.Gen Cert.Kernel.GenP
open Idealize.ShloMosaic

variable {F : FTy → Type} [FloatOps F]

variable (m : (ℓ : Loc nD τ sig) → Buf (Elt F) ℓ)

noncomputable def reg6 : Pipeline.RegionSeg (pcfgs (F := F)) adm (pdats m) () defs₀ 𝒱₀ L lv 6 :=
  regionOfHeld cfgs (pdats m) defs₀ 𝒱₀ L lv 6 launch6 (InVal6 m) (OutVal6 m) (body_obligation6 (In6 m))
    (fun _ _ => rfl) (fun _ => rfl) (fun _ _ => rfl) (fun _ _ => rfl) (fun _ _ => rfl) (hF6 m) (hrest6 m)

end Cert.Kernel.Hand
-- ==== Proof.K.Run.lean ====
import proofs.«411066_j83983790505988_3_alg».proof.Proof.K.Eq
import proofs.«411066_j83983790505988_3_alg».proof.Proof.K.S0
import proofs.«411066_j83983790505988_3_alg».proof.Proof.K.S1
import proofs.«411066_j83983790505988_3_alg».proof.Proof.K.S2
import proofs.«411066_j83983790505988_3_alg».proof.Proof.K.S3
import proofs.«411066_j83983790505988_3_alg».proof.Proof.K.S4
import proofs.«411066_j83983790505988_3_alg».proof.Proof.K.S5
import proofs.«411066_j83983790505988_3_alg».proof.Proof.K.S6

namespace Cert.Kernel.Hand

open Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V38 m (outs m) c b) := by
  refine Pipeline.θ_run_regions_kit_dev (pcfgs (F := F)) adm (pdats m) () cellOf_inj embL defs₀ 𝒱₀ L lv m ρ main
    (segs m (outs m) 𝒱₀ L lv (fun _ c => R c) () (pdats m) (reg0 m) (reg1 m) (reg2 m) (reg3 m) (reg4 m) (reg5 m) (reg6 m))
    (fun c Q => by
      rewrite [main_chain c, Seg.run_eq_chain,
        show (segs m (outs m) 𝒱₀ L lv (fun _ c => R c) () (pdats m) (reg0 m) (reg1 m) (reg2 m) (reg3 m) (reg4 m) (reg5 m) (reg6 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      with_reducible exact .rfl)
    (fun c => by simp only [segs, Seg.pipes_host, Seg.pipes_region, Seg.pipes_nil]; decide) (O₀ := 0) (hL := fun _ _ => rfl)
    (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V38 m (outs m) c) ∗ ∃ r, prngReg c r))
    (hch := fun c => ⟨.rfl, .rfl, .rfl, .rfl, .rfl, .rfl, .rfl, .rfl, .rfl, .rfl, .rfl, .rfl, .rfl, .rfl, .rfl, .rfl, .rfl,
      .rfl, held_congr (eqOut0 m c).symm, .rfl, .rfl, held_congr (eqIn1 m c), held_congr (eqOut1 m c).symm, .rfl, .rfl,
      held_congr (eqIn2 m c), held_congr (eqOut2 m c).symm, .rfl, .rfl, held_congr (eqIn3 m c), held_congr (eqOut3 m c).symm, .rfl, .rfl,
      held_congr (eqIn4 m c), held_congr (eqOut4 m c).symm, held_congr (eqIn5 m c), held_congr (eqOut5 m c).symm, held_congr (eqIn6 m c),
      (held_congr (eqOut6 m c).symm).trans BI.sep_assoc'⟩)
    (hinit := ?_)
    (QY := fun c s => ∀ b ∈ Pipeline.ucRefs τ sig, s.mem ((c : Thread nD τ).1, b) = V38 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (V38 m (outs m) c) s')
    isplitl [Hh] <;> iassumption

theorem run_value (ρ : Dev nD → PrngReg) :
    θ_run defs (onTc (τ := τ) (main (F := F))) ⟨m, fun _ => 0, ρ⟩ (fun r => ∀ c : Dev nD,
      r.2.mem ((c.tc : Thread nD τ).loc main_v92) = V38 m (outs m) c main_v92
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v92 (by decide)),
     (h c _ (mem_uc main_arg0 (by decide))).trans (V38_main_arg0 m (outs m) c),
     (h c _ (mem_uc main_arg1 (by decide))).trans (V38_main_arg1 m (outs m) c),
     (h c _ (mem_uc main_arg2 (by decide))).trans (V38_main_arg2 m (outs m) c),
     (h c _ (mem_uc main_arg3 (by decide))).trans (V38_main_arg3 m (outs m) c),
     (h c _ (mem_uc main_arg4 (by decide))).trans (V38_main_arg4 m (outs m) c),
     (h c _ (mem_uc main_arg5 (by decide))).trans (V38_main_arg5 m (outs m) c),
     (h c _ (mem_uc main_arg6 (by decide))).trans (V38_main_arg6 m (outs m) c),
     (h c _ (mem_uc main_arg7 (by decide))).trans (V38_main_arg7 m (outs m) c),
     (h c _ (mem_uc main_arg8 (by decide))).trans (V38_main_arg8 m (outs m) c)⟩) (run_all m ρ)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_value m ρ)

end Cert.Kernel.Hand
-- ==== Proof.KI.Cong.lean ====
import proofs.«411066_j83983790505988_3_alg».proof.Proof.KIRegions
import proofs.«411066_j83983790505988_3_alg».proof.Proof.ChainAgree

namespace Cert.KernelIdeal.Hand

open Cert.KernelIdeal.Gen Cert.KernelIdeal.GenP
open Idealize.ShloMosaic Idealize.ShloMosaic.TcCoe Idealize.SL.Sem Chain

variable {F : FTy → Type} [FloatOps F]
variable (m : (ℓ : Loc nD τ sig) → Buf (Elt F) ℓ) (c : Dev nD) {o o' : Outs (F := F)}

theorem V18_congr (h : AgreeTo 18 o o') : V18 m o c = V18 m o' c := by
  rw [V18, h 18 le_rfl]
theorem V18_a : V18 m o c main_v32 = o 18 main_v32 c := by
  rw [V18, Function.update_self]
theorem V21_congr (h : AgreeTo 18 o o') : V21 m o c = V21 m o' c := by
  rw [V21, V20, V19, V18_congr m c h]
/-- Off a pass's own arrays its exit contents are its entry contents, also over a table with the same earlier rows. -/
theorem V22_in (h : AgreeTo 18 o o') (r : Ref sig .tc) (hr : r ∉ [main_v44_0, main_v44_1]) : V22 m o' c r = V21 m o c r := by
  rw [V22_of m o' c r hr, V21_congr m c h]
theorem V22_congr (h : AgreeTo 22 o o') : V22 m o c = V22 m o' c := by
  rw [V22, V21_congr m c (h.mono (by decide)), h 22 le_rfl]
theorem V22_a : V22 m o c main_v44_0 = o 22 main_v44_0 c :=
  update_update_fst _ (StableHlo.devRef_ne_of_ne (by decide)) _ _
theorem V22_b : V22 m o c main_v44_1 = o 22 main_v44_1 c := by
  rw [V22, Function.update_self]
theorem V25_congr (h : AgreeTo 22 o o') : V25 m o c = V25 m o' c := by
  rw [V25, V24, V23, V22_congr m c h]
theorem V26_in (h : AgreeTo 22 o o') (r : Ref sig .tc) (hr : r ∉ [main_v56_0, main_v56_1]) : V26 m o' c r = V25 m o c r := by
  rw [V26_of m o' c r hr, V25_congr m c h]
theorem V26_congr (h : AgreeTo 26 o o') : V26 m o c = V26 m o' c := by
  rw [V26, V25_congr m c (h.mono (by decide)), h 26 le_rfl]
theorem V26_a : V26 m o c main_v56_0 = o 26 main_v56_0 c :=
  update_update_fst _ (StableHlo.devRef_ne_of_ne (by decide)) _ _
theorem V26_b : V26 m o c main_v56_1 = o 26 main_v56_1 c := by
  rw [V26, Function.update_self]
theorem V29_congr (h : AgreeTo 26 o o') : V29 m o c = V29 m o' c := by
  rw [V29, V28, V27, V26_congr m c h]
theorem V30_in (h : AgreeTo 26 o o') (r : Ref sig .tc) (hr : r ∉ [main_v68_0, main_v68_1]) : V30 m o' c r = V29 m o c r := by
  rw [V30_of m o' c r hr, V29_congr m c h]
theorem V30_congr (h : AgreeTo 30 o o') : V30 m o c = V30 m o' c := by
  rw [V30, V29_congr m c (h.mono (by decide)), h 30 le_rfl]
theorem V30_a : V30 m o c main_v68_0 = o 30 main_v68_0 c :=
  update_update_fst _ (StableHlo.devRef_ne_of_ne (by decide)) _ _
theorem V30_b : V30 m o c main_v68_1 = o 30 main_v68_1 c := by
  rw [V30, Function.update_self]
theorem V33_congr (h : AgreeTo 30 o o') : V33 m o c = V33 m o' c := by
  rw [V33, V32, V31, V30_congr m c h]
theorem V34_in (h : AgreeTo 30 o o') (r : Ref sig .tc) (hr : r ∉ [main_v80_0, main_v80_1]) : V34 m o' c r = V33 m o c r := by
  rw [V34_of m o' c r hr, V33_congr m c h]
theorem V34_congr (h : AgreeTo 34 o o') : V34 m o c = V34 m o' c := by
  rw [V34, V33_congr m c (h.mono (by decide)), h 34 le_rfl]
theorem V34_a : V34 m o c main_v80_0 = o 34 main_v80_0 c :=
  update_update_fst _ (StableHlo.devRef_ne_of_ne (by decide)) _ _
theorem V34_b : V34 m o c main_v80_1 = o 34 main_v80_1 c := by
  rw [V34, Function.update_self]
theorem V35_congr (h : AgreeTo 34 o o') : V35 m o c = V35 m o' c := by
  rw [V35, V34_congr m c h]
theorem V36_in (h : AgreeTo 34 o o') (r : Ref sig .tc) (hr : r ∉ [main_v83_0, main_v83_1]) : V36 m o' c r = V35 m o c r := by
  rw [V36_of m o' c r hr, V35_congr m c h]
theorem V36_congr (h : AgreeTo 36 o o') : V36 m o c = V36 m o' c := by
  rw [V36, V35_congr m c (h.mono (by decide)), h 36 le_rfl]
theorem V36_a : V36 m o c main_v83_0 = o 36 main_v83_0 c :=
  update_update_fst _ (StableHlo.devRef_ne_of_ne (by decide)) _ _
theorem V36_b : V36 m o c main_v83_1 = o 36 main_v83_1 c := by
  rw [V36, Function.update_self]
theorem V37_congr (h : AgreeTo 36 o o') : V37 m o c = V37 m o' c := by
  rw [V37, V36_congr m c h]
theorem V38_in (h : AgreeTo 36 o o') (r : Ref sig .tc) (hr : r ∉ [main_v92]) : V38 m o' c r = V37 m o c r := by
  rw [V38_of m o' c r hr, V37_congr m c h]
theorem V38_congr (h : AgreeTo 38 o o') : V38 m o c = V38 m o' c := by
  rw [V38, V37_congr m c (h.mono (by decide)), h 38 le_rfl]
theorem V38_a : V38 m o c main_v92 = o 38 main_v92 c := by
  rw [V38, Function.update_self]

end Cert.KernelIdeal.Hand
-- ==== Proof.KI.Reg0.lean ====
import proofs.«411066_j83983790505988_3_alg».proof.Proof.Gen.KernelIdeal.Launch
import proofs.«411066_j83983790505988_3_alg».proof.Proof.Gen.KernelIdeal.Skeleton
import proofs.«411066_j83983790505988_3_alg».proof.Proof.Gen.KernelIdeal.Points
import proofs.«411066_j83983790505988_3_alg».proof.Proof.BodyLib
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

theorem hcond0_1 : ∀ t : Fin cfg0.N, k0_cond1 (grid0.coords t) = 1#1 ↔ t.val % 64 = 0 :=
  (by decide +kernel : ∀ t : Fin grid0.N, _)
theorem hcond0_2 : ∀ t : Fin cfg0.N, k0_cond2 (grid0.coords t) = 1#1 ↔ t.val % 64 ≠ 0 :=
  (by decide +kernel : ∀ t : Fin grid0.N, _)
theorem hlive0_1 : ∀ i : grid0.Coords, cfg0.idle 1 i = false :=
  (by decide +kernel : ∀ i : grid0.Coords, idle0 1 i = false)

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rIn0 : Rect S8192x16 := Rect.unit (s := S8192x16) ![0, 0] S8192x16.size inb_S8192x16_S8192x16_0_0
abbrev rAcc0 : Rect S8x1 := Rect.unit (s := S8x1) ![0, 0] S8x1.size inb_S8x1_S8x1_0_0

def outA0 (x0 : Vec F S8192x16 .f32) : Vec F S8x1 .f32 :=
  View.canon [⟨rAcc0, k0_pay1 (View.ld x0 rIn0)⟩]
def outB0 (x0 : Vec F S8192x16 .f32) (xo : Vec F S8x1 .f32) : Vec F S8x1 .f32 :=
  View.canon [⟨rAcc0, k0_pay2 (View.ld x0 rIn0) (View.ld xo rAcc0)⟩]

section
variable (c : Dev nD) (E : Set ℕ) (i : grid0.Coords) (arg2 : Memref sig .tc .vmem S8192x16 .f32) (harg2 : arg2.IsWhole) (arg3 : Memref sig .tc .vmem S8x1 .f32) (harg3 : arg3.IsWhole) (x0 : Vec F S8192x16 .f32)

set_option maxHeartbeats 1000000 in
theorem sound_kernel0 (xo r : Vec F S8x1 .f32)
    (hc : k0_cond1 i = 1#1 ∧ ¬ k0_cond2 i = 1#1 ∧ r = outA0 x0 ∨ ¬ k0_cond1 i = 1#1 ∧ k0_cond2 i = 1#1 ∧ r = outB0 x0 xo)
    (K : PUnit → sProp 𝕄) :
    iprop(owns (c : Thread nD τ) arg2 fullShare x0 ∗ owns (c : Thread nD τ) arg3 fullShare xo
        ∗ (iprop(owns (c : Thread nD τ) arg2 fullShare x0 ∗ owns (c : Thread nD τ) arg3 fullShare r) -∗ K ⟨⟩))
      ⊢ wp frame (wpE (defs₀ (F := F)) Variants.none c none) E (cc0__k1_kernel i arg2 harg2 arg3 harg3) K := by
  simp only [cc0__k1_kernel_eq_skeleton]; unfold cc0__k1_kernel_skel
  unfold owns
  iintro ⟨⟨%f0, %hf0, H0⟩, ⟨%f1, %hf1, H1⟩, Hk⟩
  subst hf0; subst hf1
  rcases hc with ⟨h1, h2, rfl⟩ | ⟨h1, h2, rfl⟩ <;>
  (sl_exec (disch := first | exact h1 | exact h2)
   sl_step
   iapply Hk
   isplitl [H0]
   · iexists f0; isplitr; · ipureintro; rfl
     iexact H0
   iexists _; isplitr
   swap; · iexact H1
   ipureintro
   exact View.read_writes_eq_canon _ _ _ (View.cover_of_tiled _ S8x1.size (by rfl)))

end

variable (c : Dev nD) (t : Fin cfg0.N)

def acc0 : (n : ℕ) → n < cfg0.N → Vec F S8x1 .f32 :=
  BodyLib.accFold 64 (fun t => outA0 (iblk0 V c 0 t)) fun t => outB0 (iblk0 V c 0 t)

theorem acc0_A (h0 : t.val % 64 = 0) :
    acc0 V c t.val t.isLt = outA0 (iblk0 V c 0 t) := BodyLib.accFold_A _ _ _ t h0

theorem acc0_B (h0 : ¬t.val % 64 = 0) :
    acc0 V c t.val t.isLt = outB0 (iblk0 V c 0 t) (acc0 V c (t.val - 1) (Nat.lt_of_le_of_lt (Nat.sub_le _ _) t.isLt)) :=
  BodyLib.accFold_B _ _ _ t h0

def dat0 : Dat τ (Elt F) Unit ℕ (Pipeline.UD sig nD τ) ℕ cfg0 c where
  A w := V c (Pipeline.arrRef spec0 w)
  after w t := match w with
    | ⟨0, _⟩ => iblk0 V c 0 t
    | ⟨1, _⟩ => acc0 V c t.val t.isLt
  Φ _ := Pipeline.ΦA spec0 c
  q _ := fullShare
  owed _ := 0

theorem A_eq0 (w : Fin cfg0.W) : (dat0 V c).A w = V c (Pipeline.arrRef spec0 w) := by
  dsimp only [dat0]

theorem after0_1 : (dat0 V c).after 1 t = acc0 V c t.val t.isLt := by dsimp only [dat0]

theorem before0_0 (d) : (dat0 V c).before 0 t d = iblk0 V c 0 t :=
  (dat0 V c).before_in_eq_fetched 0 rfl (fun _ => rfl) (fun _ _ _ => rfl) (fun _ => rfl) t d

theorem before0_1_B (h0 : ¬t.val % 64 = 0) (d) :
    (dat0 V c).before 1 t d = acc0 V c (t.val - 1) (Nat.lt_of_le_of_lt (Nat.sub_le _ _) t.isLt) := by
  rw [Dat.before_out_kept _ 1 rfl t (by omega) (Bool.eq_false_iff.mpr fun h => by have := (flush0_1 _).mp h; dsimp only at this; omega)
    hlive0_1 (fun _ _ => rfl)]
  dsimp only [dat0]

set_option maxHeartbeats 800000 in
theorem sound_body0 :
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))
    ⊢ wp frame (wpE (defs₀ (F := F)) Variants.none c none) Set.univ (bodyAt0 t) (fun _ =>
  iprop((dat0 V c).Φ t.castSucc ∗ (dat0 V c).owesAt () t.castSucc
    ∗ owns (c : Thread nD τ) (st0_0 t) fullShare (iblk0 V c 0 t)
    ∗ owns (c : Thread nD τ) (st0_1 t) fullShare ((dat0 V c).after 1 t))) := by
  unfold bodyAt0
  simp only [before0_0]
  rw [after0_1]
  iintro ⟨HΦ, Ho, ⟨%d0, H0⟩, ⟨%d1, H1⟩⟩
  iapply (sound_kernel0 c Set.univ (grid0.coords t) _ _ _ _ (iblk0 V c 0 t) ((dat0 V c).before 1 t d1) (acc0 V c t.val t.isLt)
    (if h0 : t.val % 64 = 0 then .inl ⟨(hcond0_1 t).mpr h0, fun h => (hcond0_2 t).mp h h0, acc0_A V c t h0⟩
      else .inr ⟨fun h => h0 ((hcond0_1 t).mp h), (hcond0_2 t).mpr h0, (acc0_B V c t h0).trans (congrArg _ (before0_1_B V c t h0 _).symm)⟩) _)
  iframe H0 H1
  iintro ⟨H0, H1⟩
  iframe

theorem body_obligation0 : BodyObligation (dat0 (F := F) V c) (defs₀ (F := F)) Variants.none () Set.univ := fun t => by
  rw [bigSep_W0, bigSep_W0]
  dsimp only []
  rw [show idle0 1 (grid0.coords t) = false from hlive0_1 _]
  exact sound_body0 V c t

end Cert.KernelIdeal.Hand

end
-- ==== Proof.KI.D0.lean ====
import proofs.«411066_j83983790505988_3_alg».proof.Proof.KI.Cong
import proofs.«411066_j83983790505988_3_alg».proof.Proof.KI.Reg0

noncomputable section

namespace Cert.KernelIdeal.Hand

open Cert.KernelIdeal.Gen Cert.KernelIdeal.GenP
open Idealize.ShloMosaic Idealize.ShloMosaic.TcCoe Idealize.SL.Sem Chain

variable {F : FTy → Type} [FloatOps F]

variable (m : (ℓ : Loc nD τ sig) → Buf (Elt F) ℓ)

abbrev VT (F : FTy → Type) : Type := (c : Dev nD) → (b : Ref sig .tc) → Buf (Elt F) ((c : Thread nD τ).loc b)

abbrev In0 : VT F := fun c b => V17 m c b
abbrev InVal0 (c : Dev nD) : Valuation τ sig (Elt F) := V17 m c
/-- The table of what the passes leave: each pass sets its own row to its exit contents. -/
def o18 : Outs (F := F) := fun _ r c =>
  Pipeline.withArrays spec0 c (InVal0 m c) (fun w => (dat0 (In0 m) c).arrAt w cfg0.N) r
abbrev OutVal0 (c : Dev nD) : Valuation τ sig (Elt F) := V18 m (o18 m) c
theorem o18_1 (c : Dev nD) : o18 m 18 main_v32 c = (dat0 (In0 m) c).arrAt 1 cfg0.N :=
  Pipeline.withArrays_arr spec0 launch0.win.arr_inj c _ _ 1
theorem hF0 (c : Dev nD) : ∀ w, (dat0 (In0 m) c).arrAt w cfg0.N = OutVal0 m c (Pipeline.arrRef spec0 w) := by
  intro w
  have hi := fun hw hn =>
    ((dat0 (In0 m) c).arrAt_in w hw cfg0.N).trans ((A_eq0 (In0 m) c w).trans (V18_of m (o18 m) c _ hn).symm)
  fin_cases w <;> try exact hi rfl (by decide)
  exact (o18_1 m c).symm.trans (V18_a m c).symm
theorem hrest0 (c : Dev nD) : ∀ b, b ∉ Finset.univ.image (Pipeline.arrRef spec0) → OutVal0 m c b = In0 m c b := fun b hb =>
  V18_of m (o18 m) c b (not_mem_of_forall (by decide) hb)

end Cert.KernelIdeal.Hand

end
-- ==== Proof.KI.Reg1.lean ====
import proofs.«411066_j83983790505988_3_alg».proof.Proof.Gen.KernelIdeal.Launch
import proofs.«411066_j83983790505988_3_alg».proof.Proof.Gen.KernelIdeal.Skeleton
import proofs.«411066_j83983790505988_3_alg».proof.Proof.Gen.KernelIdeal.Points
import proofs.«411066_j83983790505988_3_alg».proof.Proof.BodyLib
import proofs.«411066_j83983790505988_3_alg».proof.Proof.BodyLibView
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

abbrev r1_0 : Rect S8192x16 := Rect.unit (s := S8192x16) ![0, 0] S8192x16.size inb_S8192x16_S8192x16_0_0
abbrev r1_1 : Rect S1x1 := Rect.unit (s := S1x1) ![0, 0] S1x1.size inb_S1x1_S1x1_0_0
abbrev r1_3 : Rect S16x64 := Rect.unit (s := S16x64) ![0, 0] S16x64.size inb_S16x64_S16x64_0_0
abbrev r1_4 : Rect S1x64 := Rect.unit (s := S1x64) ![0, 0] S1x64.size inb_S1x64_S1x64_0_0
abbrev r1_5 : Rect S8192x64 := Rect.unit (s := S8192x64) ![0, 0] S8192x64.size inb_S8192x64_S8192x64_0_0
abbrev r1_6 : Rect S8x1 := Rect.unit (s := S8x1) ![0, 0] S8x1.size inb_S8x1_S8x1_0_0

def act1 (x0 : Vec F S8192x16 .f32) (x1 x2 : Vec F S1x1 .f32) (x3 : Vec F S16x64 .f32) (x4 : Vec F S1x64 .f32) : FVec F S8192x64 .f32 :=
  k1_pay2 (View.ld x1 r1_1) (View.ld x2 r1_1) (View.ld x0 r1_0) (View.ld x3 r1_3) (View.ld x4 r1_4)

def tile1 (x0 : Vec F S8192x16 .f32) (x1 x2 : Vec F S1x1 .f32) (x3 : Vec F S16x64 .f32) (x4 : Vec F S1x64 .f32) : FVec F S8x1 .f32 :=
  k1_pay3 (View.ld x1 r1_1) (View.ld x2 r1_1) (View.ld x0 r1_0) (View.ld x3 r1_3) (View.ld x4 r1_4)

def out1_5 (x0 : Vec F S8192x16 .f32) (x1 x2 : Vec F S1x1 .f32) (x3 : Vec F S16x64 .f32) (x4 : Vec F S1x64 .f32) : Vec F S8192x64 .f32 :=
  View.canon [⟨r1_5, act1 x0 x1 x2 x3 x4⟩]

def out1_6A (x0 : Vec F S8192x16 .f32) (x1 x2 : Vec F S1x1 .f32) (x3 : Vec F S16x64 .f32) (x4 : Vec F S1x64 .f32) : Vec F S8x1 .f32 :=
  View.canon [⟨r1_6, tile1 x0 x1 x2 x3 x4⟩]

def out1_6B (x0 : Vec F S8192x16 .f32) (x1 x2 : Vec F S1x1 .f32) (x3 : Vec F S16x64 .f32) (x4 : Vec F S1x64 .f32) (xo : Vec F S8x1 .f32) : Vec F S8x1 .f32 :=
  View.canon [⟨r1_6, k1_pay1 (tile1 x0 x1 x2 x3 x4) (View.ld xo r1_6)⟩]

theorem hcond1_1 : ∀ t : Fin cfg1.N, k1_cond1 (grid1.coords t) = 1#1 ↔ t.val % 64 = 0 :=
  (by decide +kernel : ∀ t : Fin grid1.N, _)
theorem hcond1_2 : ∀ t : Fin cfg1.N, k1_cond2 (grid1.coords t) = 1#1 ↔ t.val % 64 ≠ 0 :=
  (by decide +kernel : ∀ t : Fin grid1.N, _)

section
variable (c : Dev nD) (E : Set ℕ) (i : grid1.Coords) (arg2 : Memref sig .tc .vmem S8192x16 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S16x64 .f32) (harg5 : arg5.IsWhole) (arg6 : Memref sig .tc .vmem S1x64 .f32) (harg6 : arg6.IsWhole) (arg7 : Memref sig .tc .vmem S8192x64 .f32) (harg7 : arg7.IsWhole) (arg8 : Memref sig .tc .vmem S8x1 .f32) (harg8 : arg8.IsWhole) (x0 : Vec F S8192x16 .f32) (x1 x2 : Vec F S1x1 .f32) (x3 : Vec F S16x64 .f32) (x4 : Vec F S1x64 .f32)

set_option maxHeartbeats 1000000 in
theorem sound_kernel1 (xo r : Vec F S8x1 .f32)
    (hc : k1_cond1 i = 1#1 ∧ ¬k1_cond2 i = 1#1 ∧ r = out1_6A x0 x1 x2 x3 x4 ∨ ¬k1_cond1 i = 1#1 ∧ k1_cond2 i = 1#1 ∧ r = out1_6B x0 x1 x2 x3 x4 xo)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare xo
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4) ∗ owns (c : Thread nD τ) arg8 fullShare r) -∗ K ⟨⟩))
      ⊢ wp frame (wpE (defs₀ (F := F)) Variants.none c none) E (cc1__layer1_kernel i arg2 harg2 arg3 harg3 arg4 harg4 arg5 harg5 arg6 harg6 arg7 harg7 arg8 harg8) K := by
  simp only [cc1__layer1_kernel_eq_skeleton]; unfold cc1__layer1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0; subst hf1; subst hf2; subst hf3; subst hf4; subst hf6
  rcases hc with ⟨hc1, hc2, rfl⟩ | ⟨hc1, hc2, rfl⟩ <;>
  (sl_exec (disch := first | exact hc1 | exact hc2)
   sl_step
   iapply Hk
   isplitl [H0]
   · iexists f0; isplitr; · ipureintro; rfl
     iexact H0
   isplitl [H1]
   · iexists f1; isplitr; · ipureintro; rfl
     iexact H1
   isplitl [H2]
   · iexists f2; isplitr; · ipureintro; rfl
     iexact H2
   isplitl [H3]
   · iexists f3; isplitr; · ipureintro; rfl
     iexact H3
   isplitl [H4]
   · iexists f4; isplitr; · ipureintro; rfl
     iexact H4
   isplitl [H5]
   · iexists _; isplitr
     swap; · iexact H5
     ipureintro
     exact View.read_writes_eq_canon _ _ _ (View.cover_of_tiled _ S8192x64.size (by rfl))
   iexists _; isplitr
   swap; · iexact H6
   ipureintro
   dsimp only
   exact View.read_writes_eq_canon _ _ _ (View.cover_of_tiled _ S8x1.size (by rfl)))

end

theorem hlive1_6 : ∀ i : grid1.Coords, cfg1.idle 6 i = false := by
  intro i
  show (!(k1_cond1 i == 1#1) && !(k1_cond2 i == 1#1)) = false
  unfold k1_cond1 k1_cond2
  generalize (i 1) = n
  revert n; decide

variable (V : (c : Dev nD) → (b : Ref sig .tc) → Buf (Elt F) ((c : Thread nD τ).loc b))

variable (c : Dev nD) (t : Fin cfg1.N)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

def tileAt1 : FVec F S8x1 .f32 :=
  tile1 (iblk1 V c 0 t) (iblk1 V c 1 t) (iblk1 V c 2 t) (iblk1 V c 3 t) (iblk1 V c 4 t)

def actAt1 : Vec F S8192x64 .f32 :=
  out1_5 (iblk1 V c 0 t) (iblk1 V c 1 t) (iblk1 V c 2 t) (iblk1 V c 3 t) (iblk1 V c 4 t)

def accAt1 : (n : ℕ) → n < cfg1.N → Vec F S8x1 .f32 :=
  BodyLib.accFold 64 (fun t => out1_6A (iblk1 V c 0 t) (iblk1 V c 1 t) (iblk1 V c 2 t) (iblk1 V c 3 t) (iblk1 V c 4 t)) fun t => out1_6B (iblk1 V c 0 t) (iblk1 V c 1 t) (iblk1 V c 2 t) (iblk1 V c 3 t) (iblk1 V c 4 t)

theorem accAt1_A (h0 : t.val % 64 = 0) :
    accAt1 V c t.val t.isLt = out1_6A (iblk1 V c 0 t) (iblk1 V c 1 t) (iblk1 V c 2 t) (iblk1 V c 3 t) (iblk1 V c 4 t) := BodyLib.accFold_A _ _ _ t h0

theorem accAt1_B (h0 : ¬t.val % 64 = 0) :
    accAt1 V c t.val t.isLt = out1_6B (iblk1 V c 0 t) (iblk1 V c 1 t) (iblk1 V c 2 t) (iblk1 V c 3 t) (iblk1 V c 4 t)
      (accAt1 V c (t.val - 1) (Nat.lt_of_le_of_lt (Nat.sub_le _ _) t.isLt)) := BodyLib.accFold_B _ _ _ t h0

def dat1 : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => actAt1 V c t
    | ⟨6, _⟩ => accAt1 V c t.val t.isLt
  Φ _ := Pipeline.ΦA spec1 c
  q _ := fullShare
  owed _ := 0

theorem A_eq1 (w : Fin cfg1.W) : (dat1 V c).A w = V c (Pipeline.arrRef spec1 w) := by
  dsimp only [dat1]

theorem after1_5 : (dat1 V c).after 5 t = actAt1 V c t := by dsimp only [dat1]
theorem after1_6 : (dat1 V c).after 6 t = accAt1 V c t.val t.isLt := by dsimp only [dat1]

theorem before1_0 (d) : (dat1 V c).before 0 t d = iblk1 V c 0 t :=
  BodyLib.before_in (dat1 V c) 0 t d
theorem before1_1 (d) : (dat1 V c).before 1 t d = iblk1 V c 1 t :=
  BodyLib.before_in (dat1 V c) 1 t d
theorem before1_2 (d) : (dat1 V c).before 2 t d = iblk1 V c 2 t :=
  BodyLib.before_in (dat1 V c) 2 t d
theorem before1_3 (d) : (dat1 V c).before 3 t d = iblk1 V c 3 t :=
  BodyLib.before_in (dat1 V c) 3 t d
theorem before1_4 (d) : (dat1 V c).before 4 t d = iblk1 V c 4 t :=
  BodyLib.before_in (dat1 V c) 4 t d

theorem before1_6_B (h0 : ¬t.val % 64 = 0) (d) :
    (dat1 V c).before 6 t d = accAt1 V c (t.val - 1) (Nat.lt_of_le_of_lt (Nat.sub_le _ _) t.isLt) := by
  rw [Dat.before_out_kept _ 6 rfl t (fun h => h0 (by rw [h])) (Bool.eq_false_iff.mpr fun h => by have := (flush1_6 _).mp h; dsimp only at this; omega)
    hlive1_6 (fun _ _ => rfl)]
  dsimp only [dat1]

set_option maxHeartbeats 800000 in
theorem sound_body1 :
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))
    ⊢ wp frame (wpE (defs₀ (F := F)) Variants.none c none) Set.univ (bodyAt1 t) (fun _ =>
  iprop((dat1 V c).Φ t.castSucc ∗ (dat1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare ((dat1 V c).after 5 t)
    ∗ owns (c : Thread nD τ) (st1_6 t) fullShare ((dat1 V c).after 6 t))) := by
  unfold bodyAt1
  simp only [before1_0, before1_1, before1_2, before1_3, before1_4]
  rw [after1_5, after1_6]
  unfold actAt1
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) ((dat1 V c).before 6 t d6) (accAt1 V c t.val t.isLt)
    (if h0 : t.val % 64 = 0 then .inl ⟨(hcond1_1 t).mpr h0, fun h => (hcond1_2 t).mp h h0, accAt1_A V c t h0⟩
      else .inr ⟨fun h => h0 ((hcond1_1 t).mp h), (hcond1_2 t).mpr h0, (accAt1_B V c t h0).trans (congrArg _ (before1_6_B V c t h0 _).symm)⟩) _)
  iframe H0 H1 H2 H3 H4 H6
  isplitl [H5]; · iexists _; iexact H5
  iintro ⟨H0, H1, H2, H3, H4, H5, H6⟩
  iframe

set_option maxHeartbeats 1000000 in
theorem body_obligation1 : BodyObligation (dat1 (F := F) V c) (defs₀ (F := F)) Variants.none () Set.univ := fun t => by
  rw [bigSep_W1, bigSep_W1]
  have h6 : cfg1.idle 6 (cfg1.grid.coords t) = false := hlive1_6 _
  rw [h6]
  exact sound_body1 V c t

end Cert.KernelIdeal.Hand

end
-- ==== Proof.KI.D1.lean ====
import proofs.«411066_j83983790505988_3_alg».proof.Proof.KI.D0
import proofs.«411066_j83983790505988_3_alg».proof.Proof.KI.Reg1

noncomputable section

namespace Cert.KernelIdeal.Hand

open Cert.KernelIdeal.Gen Cert.KernelIdeal.GenP
open Idealize.ShloMosaic Idealize.ShloMosaic.TcCoe Idealize.SL.Sem Chain

variable {F : FTy → Type} [FloatOps F]

variable (m : (ℓ : Loc nD τ sig) → Buf (Elt F) ℓ)

abbrev In1 : VT F := fun c b => V21 m (o18 m) c b
abbrev InVal1 (c : Dev nD) : Valuation τ sig (Elt F) := V21 m (o18 m) c
def o22 : Outs (F := F) := Function.update (o18 m) 22 fun r c =>
  Pipeline.withArrays spec1 c (InVal1 m c) (fun w => (dat1 (In1 m) c).arrAt w cfg1.N) r
abbrev OutVal1 (c : Dev nD) : Valuation τ sig (Elt F) := V22 m (o22 m) c
theorem ag1 : AgreeTo 18 (o18 m) (o22 m) := (agreeTo_update (by decide) _).symm
theorem o22_5 (c : Dev nD) : o22 m 22 main_v44_0 c = (dat1 (In1 m) c).arrAt 5 cfg1.N := by
  rw [o22, Function.update_self]; exact Pipeline.withArrays_arr spec1 launch1.win.arr_inj c _ _ 5
theorem o22_6 (c : Dev nD) : o22 m 22 main_v44_1 c = (dat1 (In1 m) c).arrAt 6 cfg1.N := by
  rw [o22, Function.update_self]; exact Pipeline.withArrays_arr spec1 launch1.win.arr_inj c _ _ 6
theorem hF1 (c : Dev nD) : ∀ w, (dat1 (In1 m) c).arrAt w cfg1.N = OutVal1 m c (Pipeline.arrRef spec1 w) := by
  intro w
  have hi := fun hw hn =>
    ((dat1 (In1 m) c).arrAt_in w hw cfg1.N).trans ((A_eq1 (In1 m) c w).trans (V22_in m c (ag1 m) _ hn).symm)
  fin_cases w <;> try exact hi rfl (by decide)
  · exact (o22_5 m c).symm.trans (V22_a m c).symm
  · exact (o22_6 m c).symm.trans (V22_b m c).symm
theorem hrest1 (c : Dev nD) : ∀ b, b ∉ Finset.univ.image (Pipeline.arrRef spec1) → OutVal1 m c b = In1 m c b := fun b hb =>
  V22_in m c (ag1 m) b (not_mem_of_forall (by decide) hb)

end Cert.KernelIdeal.Hand

end
-- ==== Proof.KI.Reg2.lean ====
import proofs.«411066_j83983790505988_3_alg».proof.Proof.Gen.KernelIdeal.Launch
import proofs.«411066_j83983790505988_3_alg».proof.Proof.Gen.KernelIdeal.Skeleton
import proofs.«411066_j83983790505988_3_alg».proof.Proof.Gen.KernelIdeal.Points
import proofs.«411066_j83983790505988_3_alg».proof.Proof.BodyLib
import proofs.«411066_j83983790505988_3_alg».proof.Proof.BodyLibView
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

theorem hcond2_1 : ∀ t : Fin cfg2.N, k2_cond1 (grid2.coords t) = 1#1 ↔ t.val % 64 = 0 :=
  (by decide +kernel : ∀ t : Fin grid2.N, _)
theorem hcond2_2 : ∀ t : Fin cfg2.N, k2_cond2 (grid2.coords t) = 1#1 ↔ ¬t.val % 64 = 0 :=
  (by decide +kernel : ∀ t : Fin grid2.N, _)
theorem liveAll2_7 : ∀ i : grid2.Coords, cfg2.idle 7 i = false := by decide +kernel

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rH2 : Rect S8192x64 := Rect.unit (s := S8192x64) ![0, 0] S8192x64.size inb_S8192x64_S8192x64_0_0
abbrev rS2 : Rect S1x1 := Rect.unit (s := S1x1) ![0, 0] S1x1.size inb_S1x1_S1x1_0_0
abbrev rW2 : Rect S64x32 := Rect.unit (s := S64x32) ![0, 0] S64x32.size inb_S64x32_S64x32_0_0
abbrev rB2 : Rect S1x32 := Rect.unit (s := S1x32) ![0, 0] S1x32.size inb_S1x32_S1x32_0_0
abbrev rO2 : Rect S8192x32 := Rect.unit (s := S8192x32) ![0, 0] S8192x32.size inb_S8192x32_S8192x32_0_0
abbrev rM2 : Rect S8x1 := Rect.unit (s := S8x1) ![0, 0] S8x1.size inb_S8x1_S8x1_0_0

def tile2 (x0 : Vec F S8192x64 .f32) (x1 x2 x3 : Vec F S1x1 .f32) (x4 : Vec F S64x32 .f32) (x5 : Vec F S1x32 .f32) : FVec F S8192x32 .f32 :=
  k2_pay3 (View.ld x1 rS2) (View.ld x2 rS2) (View.ld x3 rS2) (View.ld x0 rH2) (View.ld x4 rW2) (View.ld x5 rB2)

def peak2 (x0 : Vec F S8192x64 .f32) (x1 x2 x3 : Vec F S1x1 .f32) (x4 : Vec F S64x32 .f32) (x5 : Vec F S1x32 .f32) : FVec F S1x1x1 .f32 :=
  k2_pay4 (View.ld x1 rS2) (View.ld x2 rS2) (View.ld x3 rS2) (View.ld x0 rH2) (View.ld x4 rW2) (View.ld x5 rB2)

def out2_6 (x0 : Vec F S8192x64 .f32) (x1 x2 x3 : Vec F S1x1 .f32) (x4 : Vec F S64x32 .f32) (x5 : Vec F S1x32 .f32) : Vec F S8192x32 .f32 :=
  View.canon [⟨rO2, tile2 x0 x1 x2 x3 x4 x5⟩]

def accA2 (p : FVec F S1x1x1 .f32) : Vec F S8x1 .f32 :=
  View.canon [⟨rM2, k2_pay1 p⟩]

def accB2 (p : FVec F S1x1x1 .f32) (xo : Vec F S8x1 .f32) : Vec F S8x1 .f32 :=
  View.canon [⟨rM2, k2_pay2 p (View.ld xo rM2)⟩]

section
variable (c : Dev nD) (E : Set ℕ) (i : grid2.Coords) (arg2 : Memref sig .tc .vmem S8192x64 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S8192x32 .f32) (harg8 : arg8.IsWhole) (arg9 : Memref sig .tc .vmem S8x1 .f32) (harg9 : arg9.IsWhole)
    (x0 : Vec F S8192x64 .f32) (x1 x2 x3 : Vec F S1x1 .f32) (x4 : Vec F S64x32 .f32) (x5 : Vec F S1x32 .f32)

set_option maxHeartbeats 1000000 in
theorem sound_kernel2 (xo r : Vec F S8x1 .f32)
    (hc : k2_cond1 i = 1#1 ∧ ¬k2_cond2 i = 1#1 ∧ r = accA2 (peak2 x0 x1 x2 x3 x4 x5) ∨ ¬k2_cond1 i = 1#1 ∧ k2_cond2 i = 1#1 ∧ r = accB2 (peak2 x0 x1 x2 x3 x4 x5) xo)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out2_6 x0 x1 x2 x3 x4 x5) ∗ owns (c : Thread nD τ) arg9 fullShare r) -∗ K ⟨⟩))
      ⊢ wp frame (wpE (defs₀ (F := F)) Variants.none c none) E (cc2__layer_mid_kernel i arg2 harg2 arg3 harg3 arg4 harg4 arg5 harg5 arg6 harg6 arg7 harg7 arg8 harg8 arg9 harg9) K := by
  simp only [cc2__layer_mid_kernel_eq_skeleton]; unfold cc2__layer_mid_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0; subst hf1; subst hf2; subst hf3; subst hf4; subst hf5; subst hf7
  rcases hc with ⟨hc1, hc2, rfl⟩ | ⟨hc1, hc2, rfl⟩ <;>
  (sl_exec (disch := first | exact hc1 | exact hc2)
   sl_step
   iapply Hk
   isplitl [H0]
   · iexists f0; isplitr; · ipureintro; rfl
     iexact H0
   isplitl [H1]
   · iexists f1; isplitr; · ipureintro; rfl
     iexact H1
   isplitl [H2]
   · iexists f2; isplitr; · ipureintro; rfl
     iexact H2
   isplitl [H3]
   · iexists f3; isplitr; · ipureintro; rfl
     iexact H3
   isplitl [H4]
   · iexists f4; isplitr; · ipureintro; rfl
     iexact H4
   isplitl [H5]
   · iexists f5; isplitr; · ipureintro; rfl
     iexact H5
   isplitl [H6]
   · iexists _; isplitr
     swap; · iexact H6
     ipureintro
     exact View.read_writes_eq_canon _ _ _ (View.cover_of_tiled _ S8192x32.size (by rfl))
   iexists _; isplitr
   swap; · iexact H7
   ipureintro
   exact View.read_writes_eq_canon _ _ _ (View.cover_of_tiled _ S8x1.size (by rfl)))

end

variable (c : Dev nD) (t : Fin cfg2.N)

def peakAt2 : FVec F S1x1x1 .f32 := peak2 (iblk2 V c 0 t) (iblk2 V c 1 t) (iblk2 V c 2 t) (iblk2 V c 3 t) (iblk2 V c 4 t) (iblk2 V c 5 t)

def acc2 : (n : ℕ) → n < cfg2.N → Vec F S8x1 .f32 :=
  BodyLib.accFold 64 (fun t => accA2 (peakAt2 V c t)) fun t => accB2 (peakAt2 V c t)

theorem acc2_A (h0 : t.val % 64 = 0) :
    acc2 V c t.val t.isLt = accA2 (peakAt2 V c t) := BodyLib.accFold_A _ _ _ t h0

theorem acc2_B (h0 : ¬t.val % 64 = 0) :
    acc2 V c t.val t.isLt = accB2 (peakAt2 V c t) (acc2 V c (t.val - 1) (Nat.lt_of_le_of_lt (Nat.sub_le _ _) t.isLt)) :=
  BodyLib.accFold_B _ _ _ t h0

def dat2 : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => acc2 V c t.val t.isLt
  Φ _ := Pipeline.ΦA spec2 c
  q _ := fullShare
  owed _ := 0

theorem A_eq2 (w : Fin cfg2.W) : (dat2 V c).A w = V c (Pipeline.arrRef spec2 w) := by
  dsimp only [dat2]

theorem after2_6 : (dat2 V c).after 6 t = out2_6 (iblk2 V c 0 t) (iblk2 V c 1 t) (iblk2 V c 2 t) (iblk2 V c 3 t) (iblk2 V c 4 t) (iblk2 V c 5 t) := by dsimp only [dat2]
theorem after2_7 : (dat2 V c).after 7 t = acc2 V c t.val t.isLt := by dsimp only [dat2]

theorem before2_0 (d) : (dat2 V c).before 0 t d = iblk2 V c 0 t :=
  BodyLib.before_in (dat2 V c) 0 t d
theorem before2_1 (d) : (dat2 V c).before 1 t d = iblk2 V c 1 t :=
  BodyLib.before_in (dat2 V c) 1 t d
theorem before2_2 (d) : (dat2 V c).before 2 t d = iblk2 V c 2 t :=
  BodyLib.before_in (dat2 V c) 2 t d
theorem before2_3 (d) : (dat2 V c).before 3 t d = iblk2 V c 3 t :=
  BodyLib.before_in (dat2 V c) 3 t d
theorem before2_4 (d) : (dat2 V c).before 4 t d = iblk2 V c 4 t :=
  BodyLib.before_in (dat2 V c) 4 t d
theorem before2_5 (d) : (dat2 V c).before 5 t d = iblk2 V c 5 t :=
  BodyLib.before_in (dat2 V c) 5 t d

theorem before2_7_B (h0 : ¬t.val % 64 = 0) (d) :
    (dat2 V c).before 7 t d = acc2 V c (t.val - 1) (Nat.lt_of_le_of_lt (Nat.sub_le _ _) t.isLt) := by
  rw [Dat.before_out_kept _ 7 rfl t (by omega) (Bool.eq_false_iff.mpr fun h => by have := (flush2_7 _).mp h; dsimp only at this; omega)
    liveAll2_7 (fun _ _ => rfl)]
  dsimp only [dat2]

set_option maxHeartbeats 1000000 in
theorem sound_body2 :
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))
    ⊢ wp frame (wpE (defs₀ (F := F)) Variants.none c none) Set.univ (bodyAt2 t) (fun _ =>
  iprop((dat2 V c).Φ t.castSucc ∗ (dat2 V c).owesAt () t.castSucc
    ∗ owns (c : Thread nD τ) (st2_0 t) fullShare (iblk2 V c 0 t)
    ∗ owns (c : Thread nD τ) (st2_1 t) fullShare (iblk2 V c 1 t)
    ∗ owns (c : Thread nD τ) (st2_2 t) fullShare (iblk2 V c 2 t)
    ∗ owns (c : Thread nD τ) (st2_3 t) fullShare (iblk2 V c 3 t)
    ∗ owns (c : Thread nD τ) (st2_4 t) fullShare (iblk2 V c 4 t)
    ∗ owns (c : Thread nD τ) (st2_5 t) fullShare (iblk2 V c 5 t)
    ∗ owns (c : Thread nD τ) (st2_6 t) fullShare ((dat2 V c).after 6 t)
    ∗ owns (c : Thread nD τ) (st2_7 t) fullShare ((dat2 V c).after 7 t))) := by
  unfold bodyAt2
  simp only [before2_0, before2_1, before2_2, before2_3, before2_4, before2_5]
  rw [after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) ((dat2 V c).before 7 t d7) (acc2 V c t.val t.isLt)
    (if h0 : t.val % 64 = 0 then .inl ⟨(hcond2_1 t).mpr h0, fun h => (hcond2_2 t).mp h h0, acc2_A V c t h0⟩
      else .inr ⟨fun h => h0 ((hcond2_1 t).mp h), (hcond2_2 t).mpr h0, (acc2_B V c t h0).trans (congrArg _ (before2_7_B V c t h0 _).symm)⟩) _)
  iframe H0 H1 H2 H3 H4 H5 H7
  isplitl [H6]; · iexists _; iexact H6
  iintro ⟨H0, H1, H2, H3, H4, H5, H6, H7⟩
  iframe

theorem body_obligation2 : BodyObligation (dat2 (F := F) V c) (defs₀ (F := F)) Variants.none () Set.univ := fun t => by
  rw [bigSep_W2, bigSep_W2]
  have hi : cfg2.idle 7 (cfg2.grid.coords t) = false := liveAll2_7 _
  rw [hi]
  exact sound_body2 V c t

end Cert.KernelIdeal.Hand

end
-- ==== Proof.KI.D2.lean ====
import proofs.«411066_j83983790505988_3_alg».proof.Proof.KI.D1
import proofs.«411066_j83983790505988_3_alg».proof.Proof.KI.Reg2

noncomputable section

namespace Cert.KernelIdeal.Hand

open Cert.KernelIdeal.Gen Cert.KernelIdeal.GenP
open Idealize.ShloMosaic Idealize.ShloMosaic.TcCoe Idealize.SL.Sem Chain

variable {F : FTy → Type} [FloatOps F]

variable (m : (ℓ : Loc nD τ sig) → Buf (Elt F) ℓ)

abbrev In2 : VT F := fun c b => V25 m (o22 m) c b
abbrev InVal2 (c : Dev nD) : Valuation τ sig (Elt F) := V25 m (o22 m) c
def o26 : Outs (F := F) := Function.update (o22 m) 26 fun r c =>
  Pipeline.withArrays spec2 c (InVal2 m c) (fun w => (dat2 (In2 m) c).arrAt w cfg2.N) r
abbrev OutVal2 (c : Dev nD) : Valuation τ sig (Elt F) := V26 m (o26 m) c
theorem ag2 : AgreeTo 22 (o22 m) (o26 m) := (agreeTo_update (by decide) _).symm
theorem o26_6 (c : Dev nD) : o26 m 26 main_v56_0 c = (dat2 (In2 m) c).arrAt 6 cfg2.N := by
  rw [o26, Function.update_self]; exact Pipeline.withArrays_arr spec2 launch2.win.arr_inj c _ _ 6
theorem o26_7 (c : Dev nD) : o26 m 26 main_v56_1 c = (dat2 (In2 m) c).arrAt 7 cfg2.N := by
  rw [o26, Function.update_self]; exact Pipeline.withArrays_arr spec2 launch2.win.arr_inj c _ _ 7
theorem hF2 (c : Dev nD) : ∀ w, (dat2 (In2 m) c).arrAt w cfg2.N = OutVal2 m c (Pipeline.arrRef spec2 w) := by
  intro w
  have hi := fun hw hn =>
    ((dat2 (In2 m) c).arrAt_in w hw cfg2.N).trans ((A_eq2 (In2 m) c w).trans (V26_in m c (ag2 m) _ hn).symm)
  fin_cases w <;> try exact hi rfl (by decide)
  · exact (o26_6 m c).symm.trans (V26_a m c).symm
  · exact (o26_7 m c).symm.trans (V26_b m c).symm
theorem hrest2 (c : Dev nD) : ∀ b, b ∉ Finset.univ.image (Pipeline.arrRef spec2) → OutVal2 m c b = In2 m c b := fun b hb =>
  V26_in m c (ag2 m) b (not_mem_of_forall (by decide) hb)

end Cert.KernelIdeal.Hand

end
-- ==== Proof.KI.Reg3.lean ====
import proofs.«411066_j83983790505988_3_alg».proof.Proof.Gen.KernelIdeal.Launch
import proofs.«411066_j83983790505988_3_alg».proof.Proof.Gen.KernelIdeal.Skeleton
import proofs.«411066_j83983790505988_3_alg».proof.Proof.Gen.KernelIdeal.Points
import proofs.«411066_j83983790505988_3_alg».proof.Proof.BodyLib
import proofs.«411066_j83983790505988_3_alg».proof.Proof.BodyLibView
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_s : Rect S1x1 := Rect.unit (s := S1x1) ![0, 0] S1x1.size inb_S1x1_S1x1_0_0
abbrev r3_h : Rect S8192x32 := Rect.unit (s := S8192x32) ![0, 0] S8192x32.size inb_S8192x32_S8192x32_0_0
abbrev r3_w : Rect S32x32 := Rect.unit (s := S32x32) ![0, 0] S32x32.size inb_S32x32_S32x32_0_0
abbrev r3_b : Rect S1x32 := Rect.unit (s := S1x32) ![0, 0] S1x32.size inb_S1x32_S1x32_0_0
abbrev r3_a : Rect S8x1 := Rect.unit (s := S8x1) ![0, 0] S8x1.size inb_S8x1_S8x1_0_0

def out3_6 (x0 : Vec F S8192x32 .f32) (x1 x2 x3 : Vec F S1x1 .f32) (x4 : Vec F S32x32 .f32) (x5 : Vec F S1x32 .f32) : Vec F S8192x32 .f32 :=
  View.canon [⟨r3_h, k3_pay3 (View.ld x1 r3_s) (View.ld x2 r3_s) (View.ld x3 r3_s) (View.ld x0 r3_h) (View.ld x4 r3_w) (View.ld x5 r3_b)⟩]

def tile3 (x0 : Vec F S8192x32 .f32) (x1 x2 x3 : Vec F S1x1 .f32) (x4 : Vec F S32x32 .f32) (x5 : Vec F S1x32 .f32) : FVec F S1x1x1 .f32 :=
  k3_pay4 (View.ld x1 r3_s) (View.ld x2 r3_s) (View.ld x3 r3_s) (View.ld x0 r3_h) (View.ld x4 r3_w) (View.ld x5 r3_b)

def out3_7A (x0 : Vec F S8192x32 .f32) (x1 x2 x3 : Vec F S1x1 .f32) (x4 : Vec F S32x32 .f32) (x5 : Vec F S1x32 .f32) : Vec F S8x1 .f32 :=
  View.canon [⟨r3_a, k3_pay1 (tile3 x0 x1 x2 x3 x4 x5)⟩]

def out3_7B (x0 : Vec F S8192x32 .f32) (x1 x2 x3 : Vec F S1x1 .f32) (x4 : Vec F S32x32 .f32) (x5 : Vec F S1x32 .f32) (acc : Vec F S8x1 .f32) : Vec F S8x1 .f32 :=
  View.canon [⟨r3_a, k3_pay2 (tile3 x0 x1 x2 x3 x4 x5) (View.ld acc r3_a)⟩]

def acc3 (c : Dev nD) : (n : ℕ) → n < cfg3.N → Vec F S8x1 .f32 :=
  BodyLib.accFold 64 (fun t => out3_7A (iblk3 V c 0 t) (iblk3 V c 1 t) (iblk3 V c 2 t) (iblk3 V c 3 t) (iblk3 V c 4 t) (iblk3 V c 5 t)) fun t => out3_7B (iblk3 V c 0 t) (iblk3 V c 1 t) (iblk3 V c 2 t) (iblk3 V c 3 t) (iblk3 V c 4 t) (iblk3 V c 5 t)

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
    | ⟨7, _⟩ => acc3 V c t.val t.isLt
  Φ _ := Pipeline.ΦA spec3 c
  q _ := fullShare
  owed _ := 0

theorem A_eq3 (c : Dev nD) (w : Fin cfg3.W) : (dat3 V c).A w = V c (Pipeline.arrRef spec3 w) := by
  dsimp only [dat3]

theorem hcond3_1 : ∀ t : Fin cfg3.N, k3_cond1 (grid3.coords t) = 1#1 ↔ t.val % 64 = 0 :=
  (by decide +kernel : ∀ t : Fin grid3.N, _)
theorem hcond3_2 : ∀ t : Fin cfg3.N, k3_cond2 (grid3.coords t) = 1#1 ↔ ¬t.val % 64 = 0 :=
  (by decide +kernel : ∀ t : Fin grid3.N, _)
theorem hlive3_7 : ∀ i : grid3.Coords, cfg3.idle 7 i = false :=
  (by decide +kernel : ∀ i : grid3.Coords, idle3 7 i = false)

section
variable (c : Dev nD) (E : Set ℕ) (i : grid3.Coords) (arg2 : Memref sig .tc .vmem S8192x32 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S8192x32 .f32) (harg8 : arg8.IsWhole) (arg9 : Memref sig .tc .vmem S8x1 .f32) (harg9 : arg9.IsWhole) (x0 : Vec F S8192x32 .f32) (x1 x2 x3 : Vec F S1x1 .f32) (x4 : Vec F S32x32 .f32) (x5 : Vec F S1x32 .f32)

set_option maxHeartbeats 1000000 in
theorem sound_kernel3 (acc r : Vec F S8x1 .f32)
    (hc : k3_cond1 i = 1#1 ∧ ¬k3_cond2 i = 1#1 ∧ r = out3_7A x0 x1 x2 x3 x4 x5 ∨ ¬k3_cond1 i = 1#1 ∧ k3_cond2 i = 1#1 ∧ r = out3_7B x0 x1 x2 x3 x4 x5 acc)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (out3_6 x0 x1 x2 x3 x4 x5) ∗ owns (c : Thread nD τ) arg9 fullShare r) -∗ K ⟨⟩))
      ⊢ wp frame (wpE (defs₀ (F := F)) Variants.none c none) E (cc3__layer_mid_kernel i arg2 harg2 arg3 harg3 arg4 harg4 arg5 harg5 arg6 harg6 arg7 harg7 arg8 harg8 arg9 harg9) K := by
  simp only [cc3__layer_mid_kernel_eq_skeleton]; unfold cc3__layer_mid_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0; subst hf1; subst hf2; subst hf3; subst hf4; subst hf5; subst hf7
  rcases hc with ⟨h1, h2, rfl⟩ | ⟨h1, h2, rfl⟩ <;>
  (sl_exec
   sl_step
   iapply Hk
   isplitl [H0]
   · iexists f0; isplitr; · ipureintro; rfl
     iexact H0
   isplitl [H1]
   · iexists f1; isplitr; · ipureintro; rfl
     iexact H1
   isplitl [H2]
   · iexists f2; isplitr; · ipureintro; rfl
     iexact H2
   isplitl [H3]
   · iexists f3; isplitr; · ipureintro; rfl
     iexact H3
   isplitl [H4]
   · iexists f4; isplitr; · ipureintro; rfl
     iexact H4
   isplitl [H5]
   · iexists f5; isplitr; · ipureintro; rfl
     iexact H5
   isplitl [H6]
   · iexists _; isplitr
     swap; · iexact H6
     ipureintro
     exact View.read_writes_eq_canon _ _ _ (View.cover_of_tiled _ S8192x32.size (by rfl))
   iexists _; isplitr
   swap; · iexact H7
   ipureintro
   exact View.read_writes_eq_canon _ _ _ (View.cover_of_tiled _ S8x1.size (by rfl)))

end

variable (c : Dev nD) (t : Fin cfg3.N)

theorem after3_6 : (dat3 V c).after 6 t = out3_6 (iblk3 V c 0 t) (iblk3 V c 1 t) (iblk3 V c 2 t) (iblk3 V c 3 t) (iblk3 V c 4 t) (iblk3 V c 5 t) := by dsimp only [dat3]
theorem after3_7 : (dat3 V c).after 7 t = acc3 V c t.val t.isLt := by dsimp only [dat3]

theorem acc3_A (h0 : t.val % 64 = 0) :
    acc3 V c t.val t.isLt = out3_7A (iblk3 V c 0 t) (iblk3 V c 1 t) (iblk3 V c 2 t) (iblk3 V c 3 t) (iblk3 V c 4 t) (iblk3 V c 5 t) := BodyLib.accFold_A _ _ _ t h0

theorem acc3_B (h0 : ¬t.val % 64 = 0) :
    acc3 V c t.val t.isLt = out3_7B (iblk3 V c 0 t) (iblk3 V c 1 t) (iblk3 V c 2 t) (iblk3 V c 3 t) (iblk3 V c 4 t) (iblk3 V c 5 t)
      (acc3 V c (t.val - 1) (Nat.lt_of_le_of_lt (Nat.sub_le _ _) t.isLt)) := BodyLib.accFold_B _ _ _ t h0

theorem before3_0 (d) : (dat3 V c).before 0 t d = iblk3 V c 0 t :=
  BodyLib.before_in (dat3 V c) 0 t d
theorem before3_1 (d) : (dat3 V c).before 1 t d = iblk3 V c 1 t :=
  BodyLib.before_in (dat3 V c) 1 t d
theorem before3_2 (d) : (dat3 V c).before 2 t d = iblk3 V c 2 t :=
  BodyLib.before_in (dat3 V c) 2 t d
theorem before3_3 (d) : (dat3 V c).before 3 t d = iblk3 V c 3 t :=
  BodyLib.before_in (dat3 V c) 3 t d
theorem before3_4 (d) : (dat3 V c).before 4 t d = iblk3 V c 4 t :=
  BodyLib.before_in (dat3 V c) 4 t d
theorem before3_5 (d) : (dat3 V c).before 5 t d = iblk3 V c 5 t :=
  BodyLib.before_in (dat3 V c) 5 t d

theorem before3_7_B (h0 : ¬t.val % 64 = 0) (d) :
    (dat3 V c).before 7 t d = acc3 V c (t.val - 1) (Nat.lt_of_le_of_lt (Nat.sub_le _ _) t.isLt) := by
  rw [Dat.before_out_kept _ 7 rfl t (by omega) (Bool.eq_false_iff.mpr fun h => by have := (flush3_7 _).mp h; dsimp only at this; omega)
    hlive3_7 (fun _ _ => rfl)]
  dsimp only [dat3]

set_option maxHeartbeats 1000000 in
theorem sound_body3 :
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))
    ⊢ wp frame (wpE (defs₀ (F := F)) Variants.none c none) Set.univ (bodyAt3 t) (fun _ =>
  iprop((dat3 V c).Φ t.castSucc ∗ (dat3 V c).owesAt () t.castSucc
    ∗ owns (c : Thread nD τ) (st3_0 t) fullShare (iblk3 V c 0 t)
    ∗ owns (c : Thread nD τ) (st3_1 t) fullShare (iblk3 V c 1 t)
    ∗ owns (c : Thread nD τ) (st3_2 t) fullShare (iblk3 V c 2 t)
    ∗ owns (c : Thread nD τ) (st3_3 t) fullShare (iblk3 V c 3 t)
    ∗ owns (c : Thread nD τ) (st3_4 t) fullShare (iblk3 V c 4 t)
    ∗ owns (c : Thread nD τ) (st3_5 t) fullShare (iblk3 V c 5 t)
    ∗ owns (c : Thread nD τ) (st3_6 t) fullShare ((dat3 V c).after 6 t)
    ∗ owns (c : Thread nD τ) (st3_7 t) fullShare ((dat3 V c).after 7 t))) := by
  unfold bodyAt3
  simp only [before3_0, before3_1, before3_2, before3_3, before3_4, before3_5]
  rw [after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) ((dat3 V c).before 7 t d7) (acc3 V c t.val t.isLt)
    (if h0 : t.val % 64 = 0 then .inl ⟨(hcond3_1 t).mpr h0, fun h => (hcond3_2 t).mp h h0, acc3_A V c t h0⟩
      else .inr ⟨fun h => h0 ((hcond3_1 t).mp h), (hcond3_2 t).mpr h0, (acc3_B V c t h0).trans (congrArg _ (before3_7_B V c t h0 _).symm)⟩) _)
  iframe H0 H1 H2 H3 H4 H5 H7
  isplitl [H6]; · iexists _; iexact H6
  iintro ⟨H0, H1, H2, H3, H4, H5, H6, H7⟩
  iframe

theorem body_obligation3 : BodyObligation (dat3 (F := F) V c) (defs₀ (F := F)) Variants.none () Set.univ := fun t => by
  rw [bigSep_W3, bigSep_W3]
  dsimp only []
  rw [show idle3 7 (grid3.coords t) = false from hlive3_7 _]
  exact sound_body3 V c t

end Cert.KernelIdeal.Hand

end
-- ==== Proof.KI.D3.lean ====
import proofs.«411066_j83983790505988_3_alg».proof.Proof.KI.D2
import proofs.«411066_j83983790505988_3_alg».proof.Proof.KI.Reg3

noncomputable section

namespace Cert.KernelIdeal.Hand

open Cert.KernelIdeal.Gen Cert.KernelIdeal.GenP
open Idealize.ShloMosaic Idealize.ShloMosaic.TcCoe Idealize.SL.Sem Chain

variable {F : FTy → Type} [FloatOps F]

variable (m : (ℓ : Loc nD τ sig) → Buf (Elt F) ℓ)

abbrev In3 : VT F := fun c b => V29 m (o26 m) c b
abbrev InVal3 (c : Dev nD) : Valuation τ sig (Elt F) := V29 m (o26 m) c
def o30 : Outs (F := F) := Function.update (o26 m) 30 fun r c =>
  Pipeline.withArrays spec3 c (InVal3 m c) (fun w => (dat3 (In3 m) c).arrAt w cfg3.N) r
abbrev OutVal3 (c : Dev nD) : Valuation τ sig (Elt F) := V30 m (o30 m) c
theorem ag3 : AgreeTo 26 (o26 m) (o30 m) := (agreeTo_update (by decide) _).symm
theorem o30_6 (c : Dev nD) : o30 m 30 main_v68_0 c = (dat3 (In3 m) c).arrAt 6 cfg3.N := by
  rw [o30, Function.update_self]; exact Pipeline.withArrays_arr spec3 launch3.win.arr_inj c _ _ 6
theorem o30_7 (c : Dev nD) : o30 m 30 main_v68_1 c = (dat3 (In3 m) c).arrAt 7 cfg3.N := by
  rw [o30, Function.update_self]; exact Pipeline.withArrays_arr spec3 launch3.win.arr_inj c _ _ 7
theorem hF3 (c : Dev nD) : ∀ w, (dat3 (In3 m) c).arrAt w cfg3.N = OutVal3 m c (Pipeline.arrRef spec3 w) := by
  intro w
  have hi := fun hw hn =>
    ((dat3 (In3 m) c).arrAt_in w hw cfg3.N).trans ((A_eq3 (In3 m) c w).trans (V30_in m c (ag3 m) _ hn).symm)
  fin_cases w <;> try exact hi rfl (by decide)
  · exact (o30_6 m c).symm.trans (V30_a m c).symm
  · exact (o30_7 m c).symm.trans (V30_b m c).symm
theorem hrest3 (c : Dev nD) : ∀ b, b ∉ Finset.univ.image (Pipeline.arrRef spec3) → OutVal3 m c b = In3 m c b := fun b hb =>
  V30_in m c (ag3 m) b (not_mem_of_forall (by decide) hb)

end Cert.KernelIdeal.Hand

end
-- ==== Proof.KI.Reg4.lean ====
import proofs.«411066_j83983790505988_3_alg».proof.Proof.Gen.KernelIdeal.Launch
import proofs.«411066_j83983790505988_3_alg».proof.Proof.Gen.KernelIdeal.Skeleton
import proofs.«411066_j83983790505988_3_alg».proof.Proof.Gen.KernelIdeal.Points
import proofs.«411066_j83983790505988_3_alg».proof.Proof.BodyLib
import proofs.«411066_j83983790505988_3_alg».proof.Proof.BodyLibView
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

theorem hz2_4 : (![0, 0] : Fin 2 → Nat) = fun _ => 0 := funext fun a => by fin_cases a <;> rfl

theorem hcond4_1 : ∀ t : Fin cfg4.N, k4_cond1 (grid4.coords t) = 1#1 ↔ t.val % 64 = 0 :=
  (by decide +kernel : ∀ t : Fin grid4.N, _)
theorem hcond4_2 : ∀ t : Fin cfg4.N, k4_cond2 (grid4.coords t) = 1#1 ↔ ¬t.val % 64 = 0 :=
  (by decide +kernel : ∀ t : Fin grid4.N, _)
theorem hidle4_7 : ∀ i : grid4.Coords, cfg4.idle 7 i = false :=
  (by decide +kernel : ∀ i : grid4.Coords, idle4 7 i = false)

section
variable (c : Dev nD) (E : Set ℕ) (i : grid4.Coords) (arg2 : Memref sig .tc .vmem S8192x32 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S32x5 .f32) (harg6 : arg6.IsWhole) (arg7 : Memref sig .tc .vmem S1x5 .f32) (harg7 : arg7.IsWhole) (arg8 : Memref sig .tc .vmem S8192x5 .f32) (harg8 : arg8.IsWhole) (arg9 : Memref sig .tc .vmem S8x5 .f32) (harg9 : arg9.IsWhole) (x0 : Vec F S8192x32 .f32) (x1 x2 x3 : Vec F S1x1 .f32) (x4 : Vec F S32x5 .f32) (x5 : Vec F S1x5 .f32)

set_option maxHeartbeats 1000000 in
theorem sound_kernel4 (xo r : Vec F S8x5 .f32)
    (hc : k4_cond1 i = 1#1 ∧ ¬k4_cond2 i = 1#1 ∧ r = k4_pay3 x1 x2 x3 x0 x4 x5 ∨ ¬k4_cond1 i = 1#1 ∧ k4_cond2 i = 1#1 ∧ r = k4_pay1 (k4_pay3 x1 x2 x3 x0 x4 x5) xo)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xo
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k4_pay2 x1 x2 x3 x0 x4 x5)
            ∗ owns (c : Thread nD τ) arg9 fullShare r) -∗ K ⟨⟩))
      ⊢ wp frame (wpE (defs₀ (F := F)) Variants.none c none) E (cc4__layer4_kernel i arg2 harg2 arg3 harg3 arg4 harg4 arg5 harg5 arg6 harg6 arg7 harg7 arg8 harg8 arg9 harg9) K := by
  simp only [cc4__layer4_kernel_eq_skeleton]; unfold cc4__layer4_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0 hf1 hf2 hf3 hf4 hf5 hf7
  rcases hc with ⟨h1, h2, rfl⟩ | ⟨h1, h2, rfl⟩ <;>
  (sl_exec (disch := first | exact h1 | exact h2)
   sl_step
   iapply Hk
   isplitl [H0]; · iexists f0; isplitr; · ipureintro; rfl
                   iexact H0
   isplitl [H1]; · iexists f1; isplitr; · ipureintro; rfl
                   iexact H1
   isplitl [H2]; · iexists f2; isplitr; · ipureintro; rfl
                   iexact H2
   isplitl [H3]; · iexists f3; isplitr; · ipureintro; rfl
                   iexact H3
   isplitl [H4]; · iexists f4; isplitr; · ipureintro; rfl
                   iexact H4
   isplitl [H5]; · iexists f5; isplitr; · ipureintro; rfl
                   iexact H5
   isplitl [H6]
   · iexists _; isplitr
     swap; · iexact H6
     ipureintro
     rw [BodyLib.read_writes_whole _ _ hz2_4]
     simp only [View.readAt_eq_ld, View.ld_unit_zero (S := S1x1) hz2_4, View.ld_unit_zero (S := S8192x32) hz2_4, View.ld_unit_zero (S := S32x5) hz2_4, View.ld_unit_zero (S := S1x5) hz2_4, View.ld_unit_zero (S := S8x5) hz2_4]
   · iexists _; isplitr
     swap; · iexact H7
     ipureintro
     rw [BodyLib.read_writes_whole _ _ hz2_4]
     simp only [View.readAt_eq_ld, View.ld_unit_zero (S := S1x1) hz2_4, View.ld_unit_zero (S := S8192x32) hz2_4, View.ld_unit_zero (S := S32x5) hz2_4, View.ld_unit_zero (S := S1x5) hz2_4, View.ld_unit_zero (S := S8x5) hz2_4])

end

variable (V : (c : Dev nD) → (b : Ref sig .tc) → Buf (Elt F) ((c : Thread nD τ).loc b))

variable (c : Dev nD) (t : Fin cfg4.N)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

def logits4 : Vec F S8192x5 .f32 :=
  k4_pay2 (iblk4 V c 1 t) (iblk4 V c 2 t) (iblk4 V c 3 t) (iblk4 V c 0 t) (iblk4 V c 4 t) (iblk4 V c 5 t)

def tile4 : Vec F S8x5 .f32 :=
  k4_pay3 (iblk4 V c 1 t) (iblk4 V c 2 t) (iblk4 V c 3 t) (iblk4 V c 0 t) (iblk4 V c 4 t) (iblk4 V c 5 t)

def acc4 : (n : ℕ) → n < cfg4.N → Vec F S8x5 .f32 :=
  BodyLib.accFold 64 (tile4 V c) fun t => k4_pay1 (tile4 V c t)

theorem acc4_A (h0 : t.val % 64 = 0) : acc4 V c t.val t.isLt = tile4 V c t :=
  BodyLib.accFold_A _ _ _ t h0

theorem acc4_B (h0 : ¬t.val % 64 = 0) :
    acc4 V c t.val t.isLt = k4_pay1 (tile4 V c t) (acc4 V c (t.val - 1) (Nat.lt_of_le_of_lt (Nat.sub_le _ _) t.isLt)) :=
  BodyLib.accFold_B _ _ _ t h0

def dat4 : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => logits4 V c t
    | ⟨7, _⟩ => acc4 V c t.val t.isLt
  Φ _ := Pipeline.ΦA spec4 c
  q _ := fullShare
  owed _ := 0

theorem A_eq4 (w : Fin cfg4.W) : (dat4 V c).A w = V c (Pipeline.arrRef spec4 w) := by
  dsimp only [dat4]

theorem after4_6 : (dat4 V c).after 6 t = logits4 V c t := by dsimp only [dat4]
theorem after4_7 : (dat4 V c).after 7 t = acc4 V c t.val t.isLt := by dsimp only [dat4]

theorem before4_0 (d) : (dat4 V c).before 0 t d = iblk4 V c 0 t :=
  BodyLib.before_in (dat4 V c) 0 t d
theorem before4_1 (d) : (dat4 V c).before 1 t d = iblk4 V c 1 t :=
  BodyLib.before_in (dat4 V c) 1 t d
theorem before4_2 (d) : (dat4 V c).before 2 t d = iblk4 V c 2 t :=
  BodyLib.before_in (dat4 V c) 2 t d
theorem before4_3 (d) : (dat4 V c).before 3 t d = iblk4 V c 3 t :=
  BodyLib.before_in (dat4 V c) 3 t d
theorem before4_4 (d) : (dat4 V c).before 4 t d = iblk4 V c 4 t :=
  BodyLib.before_in (dat4 V c) 4 t d
theorem before4_5 (d) : (dat4 V c).before 5 t d = iblk4 V c 5 t :=
  BodyLib.before_in (dat4 V c) 5 t d

theorem before4_7_B (h0 : ¬t.val % 64 = 0) (d) :
    (dat4 V c).before 7 t d = acc4 V c (t.val - 1) (Nat.lt_of_le_of_lt (Nat.sub_le _ _) t.isLt) := by
  rw [Dat.before_out_kept _ 7 rfl t (by omega) (Bool.eq_false_iff.mpr fun h => by have := (flush4_7 _).mp h; dsimp only at this; omega)
    hidle4_7 (fun _ _ => rfl)]
  dsimp only [dat4]

set_option maxHeartbeats 800000 in
theorem sound_body4 :
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))
    ⊢ wp frame (wpE (defs₀ (F := F)) Variants.none c none) Set.univ (bodyAt4 t) (fun _ =>
  iprop((dat4 V c).Φ t.castSucc ∗ (dat4 V c).owesAt () t.castSucc
    ∗ owns (c : Thread nD τ) (st4_0 t) fullShare (iblk4 V c 0 t)
    ∗ owns (c : Thread nD τ) (st4_1 t) fullShare (iblk4 V c 1 t)
    ∗ owns (c : Thread nD τ) (st4_2 t) fullShare (iblk4 V c 2 t)
    ∗ owns (c : Thread nD τ) (st4_3 t) fullShare (iblk4 V c 3 t)
    ∗ owns (c : Thread nD τ) (st4_4 t) fullShare (iblk4 V c 4 t)
    ∗ owns (c : Thread nD τ) (st4_5 t) fullShare (iblk4 V c 5 t)
    ∗ owns (c : Thread nD τ) (st4_6 t) fullShare ((dat4 V c).after 6 t)
    ∗ owns (c : Thread nD τ) (st4_7 t) fullShare ((dat4 V c).after 7 t))) := by
  unfold bodyAt4
  simp only [before4_0, before4_1, before4_2, before4_3, before4_4, before4_5]
  rw [after4_6, after4_7]
  unfold logits4
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ (grid4.coords t) _ _ _ _ _ _ _ _ _ _ _ _ _ _ _ _ (iblk4 V c 0 t) (iblk4 V c 1 t) (iblk4 V c 2 t) (iblk4 V c 3 t) (iblk4 V c 4 t) (iblk4 V c 5 t) ((dat4 V c).before 7 t d7) (acc4 V c t.val t.isLt)
    (if h0 : t.val % 64 = 0 then .inl ⟨(hcond4_1 t).mpr h0, fun h => (hcond4_2 t).mp h h0, acc4_A V c t h0⟩
      else .inr ⟨fun h => h0 ((hcond4_1 t).mp h), (hcond4_2 t).mpr h0, (acc4_B V c t h0).trans (congrArg _ (before4_7_B V c t h0 _).symm)⟩) _)
  iframe H0 H1 H2 H3 H4 H5 H7
  isplitl [H6]; · iexists _; iexact H6
  iintro ⟨H0, H1, H2, H3, H4, H5, H6, H7⟩
  iframe

theorem body_obligation4 : BodyObligation (dat4 (F := F) V c) (defs₀ (F := F)) Variants.none () Set.univ := fun t => by
  rw [bigSep_W4, bigSep_W4]
  have hi : cfg4.idle 7 (cfg4.grid.coords t) = false := hidle4_7 _
  rw [hi]
  exact sound_body4 V c t

end Cert.KernelIdeal.Hand

end
-- ==== Proof.KI.D4.lean ====
import proofs.«411066_j83983790505988_3_alg».proof.Proof.KI.D3
import proofs.«411066_j83983790505988_3_alg».proof.Proof.KI.Reg4

noncomputable section

namespace Cert.KernelIdeal.Hand

open Cert.KernelIdeal.Gen Cert.KernelIdeal.GenP
open Idealize.ShloMosaic Idealize.ShloMosaic.TcCoe Idealize.SL.Sem Chain

variable {F : FTy → Type} [FloatOps F]

variable (m : (ℓ : Loc nD τ sig) → Buf (Elt F) ℓ)

abbrev In4 : VT F := fun c b => V33 m (o30 m) c b
abbrev InVal4 (c : Dev nD) : Valuation τ sig (Elt F) := V33 m (o30 m) c
def o34 : Outs (F := F) := Function.update (o30 m) 34 fun r c =>
  Pipeline.withArrays spec4 c (InVal4 m c) (fun w => (dat4 (In4 m) c).arrAt w cfg4.N) r
abbrev OutVal4 (c : Dev nD) : Valuation τ sig (Elt F) := V34 m (o34 m) c
theorem ag4 : AgreeTo 30 (o30 m) (o34 m) := (agreeTo_update (by decide) _).symm
theorem o34_6 (c : Dev nD) : o34 m 34 main_v80_0 c = (dat4 (In4 m) c).arrAt 6 cfg4.N := by
  rw [o34, Function.update_self]; exact Pipeline.withArrays_arr spec4 launch4.win.arr_inj c _ _ 6
theorem o34_7 (c : Dev nD) : o34 m 34 main_v80_1 c = (dat4 (In4 m) c).arrAt 7 cfg4.N := by
  rw [o34, Function.update_self]; exact Pipeline.withArrays_arr spec4 launch4.win.arr_inj c _ _ 7
theorem hF4 (c : Dev nD) : ∀ w, (dat4 (In4 m) c).arrAt w cfg4.N = OutVal4 m c (Pipeline.arrRef spec4 w) := by
  intro w
  have hi := fun hw hn =>
    ((dat4 (In4 m) c).arrAt_in w hw cfg4.N).trans ((A_eq4 (In4 m) c w).trans (V34_in m c (ag4 m) _ hn).symm)
  fin_cases w <;> try exact hi rfl (by decide)
  · exact (o34_6 m c).symm.trans (V34_a m c).symm
  · exact (o34_7 m c).symm.trans (V34_b m c).symm
theorem hrest4 (c : Dev nD) : ∀ b, b ∉ Finset.univ.image (Pipeline.arrRef spec4) → OutVal4 m c b = In4 m c b := fun b hb =>
  V34_in m c (ag4 m) b (not_mem_of_forall (by decide) hb)

end Cert.KernelIdeal.Hand

end
-- ==== Proof.KI.Reg5.lean ====
import proofs.«411066_j83983790505988_3_alg».proof.Proof.Gen.KernelIdeal.Launch
import proofs.«411066_j83983790505988_3_alg».proof.Proof.Gen.KernelIdeal.Skeleton
import proofs.«411066_j83983790505988_3_alg».proof.Proof.Gen.KernelIdeal.Points
import proofs.«411066_j83983790505988_3_alg».proof.Proof.BodyLib
import proofs.«411066_j83983790505988_3_alg».proof.Proof.BodyLibView
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem hcond5_1 : ∀ t : Fin cfg5.N, k5_cond1 (grid5.coords t) = 1#1 ↔ t.val % 64 = 0 :=
  (by decide +kernel : ∀ t : Fin grid5.N, _)

theorem hcond5_2 : ∀ t : Fin cfg5.N, k5_cond2 (grid5.coords t) = 1#1 ↔ ¬t.val % 64 = 0 :=
  (by decide +kernel : ∀ t : Fin grid5.N, _)

def acc5 (c : Dev nD) : (n : ℕ) → n < cfg5.N → Vec F S8x5 .f32 :=
  BodyLib.accFold 64 (fun t => k5_pay2 (iblk5 V c 0 t) (iblk5 V c 1 t)) fun t => k5_pay3 (iblk5 V c 0 t) (iblk5 V c 1 t)

theorem acc5_first (c : Dev nD) (t : Fin cfg5.N) (h0 : t.val % 64 = 0) :
    acc5 V c t.val t.isLt = k5_pay2 (iblk5 V c 0 t) (iblk5 V c 1 t) := BodyLib.accFold_A _ _ _ t h0

theorem acc5_later (c : Dev nD) (t : Fin cfg5.N) (h0 : ¬t.val % 64 = 0) :
    acc5 V c t.val t.isLt = k5_pay3 (iblk5 V c 0 t) (iblk5 V c 1 t) (acc5 V c (t.val - 1) (Nat.lt_of_le_of_lt (Nat.sub_le _ _) t.isLt)) :=
  BodyLib.accFold_B _ _ _ t h0

def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => k5_pay1 (iblk5 V c 0 t) (iblk5 V c 1 t)
    | ⟨3, _⟩ => acc5 V c t.val t.isLt
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_2 (c : Dev nD) (t : Fin cfg5.N) : (dat5 V c).after 2 t = k5_pay1 (iblk5 V c 0 t) (iblk5 V c 1 t) := by dsimp only [dat5]
theorem after5_3 (c : Dev nD) (t : Fin cfg5.N) : (dat5 V c).after 3 t = acc5 V c t.val t.isLt := by dsimp only [dat5]

theorem hz5 : (![0, 0] : Fin 2 → Nat) = fun _ => 0 := funext fun a => by fin_cases a <;> rfl

section
variable (c : Dev nD) (E : Set ℕ) (i : grid5.Coords) (arg2 : Memref sig .tc .vmem S8192x5 .f32) (harg2 : arg2.IsWhole) (arg3 : Memref sig .tc .vmem S1x5 .f32) (harg3 : arg3.IsWhole) (arg4 : Memref sig .tc .vmem S8192x5 .f32) (harg4 : arg4.IsWhole) (arg5 : Memref sig .tc .vmem S8x5 .f32) (harg5 : arg5.IsWhole) (x0 : Vec F S8192x5 .f32) (x1 : Vec F S1x5 .f32)

set_option maxHeartbeats 400000 in
theorem sound_kernel5_first (hc1 : k5_cond1 i = 1#1) (hc2 : ¬k5_cond2 i = 1#1) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k5_pay1 x0 x1) ∗ owns (c : Thread nD τ) arg5 fullShare (k5_pay2 x0 x1)) -∗ K ⟨⟩))
      ⊢ wp frame (wpE (defs₀ (F := F)) Variants.none c none) E (cc5__softmax_exp_kernel i arg2 harg2 arg3 harg3 arg4 harg4 arg5 harg5) K := by
  simp only [cc5__softmax_exp_kernel_eq_skeleton]; unfold cc5__softmax_exp_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [BodyLib.read_writes_whole _ _ hz5]
    simp only [View.readAt_eq_ld, View.ld_unit_zero (S := S8192x5) hz5, View.ld_unit_zero (S := S1x5) hz5]
  · iexists _; isplitr
    swap; · iexact H3
    ipureintro
    rw [BodyLib.read_writes_whole _ _ hz5]
    simp only [View.readAt_eq_ld, View.ld_unit_zero (S := S8192x5) hz5, View.ld_unit_zero (S := S1x5) hz5]

set_option maxHeartbeats 400000 in
theorem sound_kernel5_later (hc1 : ¬k5_cond1 i = 1#1) (hc2 : k5_cond2 i = 1#1) (xo : Vec F S8x5 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xo
        ∗ (iprop(owns (c : Thread nD τ) arg2 fullShare x0 ∗ owns (c : Thread nD τ) arg3 fullShare x1
            ∗ owns (c : Thread nD τ) arg4 fullShare (k5_pay1 x0 x1) ∗ owns (c : Thread nD τ) arg5 fullShare (k5_pay3 x0 x1 xo)) -∗ K ⟨⟩))
      ⊢ wp frame (wpE (defs₀ (F := F)) Variants.none c none) E (cc5__softmax_exp_kernel i arg2 harg2 arg3 harg3 arg4 harg4 arg5 harg5) K := by
  simp only [cc5__softmax_exp_kernel_eq_skeleton]; unfold cc5__softmax_exp_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [BodyLib.read_writes_whole _ _ hz5]
    simp only [View.readAt_eq_ld, View.ld_unit_zero (S := S8192x5) hz5, View.ld_unit_zero (S := S1x5) hz5]
  · iexists _; isplitr
    swap; · iexact H3
    ipureintro
    rw [BodyLib.read_writes_whole _ _ hz5]
    simp only [View.readAt_eq_ld, View.ld_unit_zero (S := S8192x5) hz5, View.ld_unit_zero (S := S1x5) hz5,
      View.ld_unit_zero (S := S8x5) hz5]

end

variable (c : Dev nD) (t : Fin cfg5.N)

theorem before5_0 (d) : (dat5 V c).before 0 t d = iblk5 V c 0 t :=
  BodyLib.before_in (dat5 V c) 0 t d

theorem before5_1 (d) : (dat5 V c).before 1 t d = iblk5 V c 1 t :=
  BodyLib.before_in (dat5 V c) 1 t d

theorem idle5_3 (i : cfg5.grid.Coords) : cfg5.idle 3 i = false := by
  have key : ∀ j : Fin 64,
      (!(Scalar.cmpi .ne (Scalar.extui (Scalar.cmpi .eq (BitVec.ofNat 32 j.val) 0#32)) 0#32 == 1#1)
        && !(Scalar.cmpi .ne (Scalar.extui (Scalar.cmpi .ne (BitVec.ofNat 32 j.val) 0#32)) 0#32 == 1#1)) = false := by
    decide +kernel
  exact key (i 1)

theorem before5_3_later (h0 : ¬t.val % 64 = 0) (d) :
    (dat5 V c).before 3 t d = acc5 V c (t.val - 1) (Nat.lt_of_le_of_lt (Nat.sub_le _ _) t.isLt) := by
  rw [Dat.before_out_kept _ 3 rfl t (by omega)
    (Bool.eq_false_iff.mpr fun h => by have := (flush5_3 _).mp h; dsimp only at this; omega)
    (idle5_3) (fun _ _ => rfl)]
  dsimp only [dat5]

set_option maxHeartbeats 400000 in
theorem sound_body5 :
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))
    ⊢ wp frame (wpE (defs₀ (F := F)) Variants.none c none) Set.univ (bodyAt5 t) (fun _ =>
  iprop((dat5 V c).Φ t.castSucc ∗ (dat5 V c).owesAt () t.castSucc
    ∗ owns (c : Thread nD τ) (st5_0 t) fullShare (iblk5 V c 0 t)
    ∗ owns (c : Thread nD τ) (st5_1 t) fullShare (iblk5 V c 1 t)
    ∗ owns (c : Thread nD τ) (st5_2 t) fullShare ((dat5 V c).after 2 t)
    ∗ owns (c : Thread nD τ) (st5_3 t) fullShare ((dat5 V c).after 3 t))) := by
  unfold bodyAt5
  simp only [before5_0, before5_1]
  rw [after5_2, after5_3]
  iintro ⟨HΦ, Ho, ⟨%d0, H0⟩, ⟨%d1, H1⟩, ⟨%d2, H2⟩, ⟨%d3, H3⟩⟩
  by_cases h0 : t.val % 64 = 0
  · rw [acc5_first V c t h0]
    iapply (sound_kernel5_first c Set.univ (grid5.coords t) _ _ _ _ _ _ _ _ (iblk5 V c 0 t) (iblk5 V c 1 t) ((hcond5_1 t).mpr h0) (fun h => (hcond5_2 t).mp h h0) _)
    iframe H0 H1
    isplitl [H2]; · iexists _; iexact H2
    isplitl [H3]; · iexists _; iexact H3
    iintro ⟨H0, H1, H2, H3⟩
    iframe
  · rw [acc5_later V c t h0]
    simp only [before5_3_later V c t h0]
    iapply (sound_kernel5_later c Set.univ (grid5.coords t) _ _ _ _ _ _ _ _ (iblk5 V c 0 t) (iblk5 V c 1 t) (fun h => h0 ((hcond5_1 t).mp h)) ((hcond5_2 t).mpr h0) _ _)
    iframe H0 H1 H3
    isplitl [H2]; · iexists _; iexact H2
    iintro ⟨H0, H1, H2, H3⟩
    iframe

theorem body_obligation5 : BodyObligation (dat5 (F := F) V c) (defs₀ (F := F)) Variants.none () Set.univ := fun t => by
  rw [bigSep_W5, bigSep_W5]
  have hi : cfg5.idle 3 (cfg5.grid.coords t) = false := idle5_3 _
  rw [hi]
  exact sound_body5 V c t

end Cert.KernelIdeal.Hand

end
-- ==== Proof.KI.D5.lean ====
import proofs.«411066_j83983790505988_3_alg».proof.Proof.KI.D4
import proofs.«411066_j83983790505988_3_alg».proof.Proof.KI.Reg5

noncomputable section

namespace Cert.KernelIdeal.Hand

open Cert.KernelIdeal.Gen Cert.KernelIdeal.GenP
open Idealize.ShloMosaic Idealize.ShloMosaic.TcCoe Idealize.SL.Sem Chain

variable {F : FTy → Type} [FloatOps F]

variable (m : (ℓ : Loc nD τ sig) → Buf (Elt F) ℓ)

abbrev In5 : VT F := fun c b => V35 m (o34 m) c b
abbrev InVal5 (c : Dev nD) : Valuation τ sig (Elt F) := V35 m (o34 m) c
def o36 : Outs (F := F) := Function.update (o34 m) 36 fun r c =>
  Pipeline.withArrays spec5 c (InVal5 m c) (fun w => (dat5 (In5 m) c).arrAt w cfg5.N) r
abbrev OutVal5 (c : Dev nD) : Valuation τ sig (Elt F) := V36 m (o36 m) c
theorem ag5 : AgreeTo 34 (o34 m) (o36 m) := (agreeTo_update (by decide) _).symm
theorem o36_2 (c : Dev nD) : o36 m 36 main_v83_0 c = (dat5 (In5 m) c).arrAt 2 cfg5.N := by
  rw [o36, Function.update_self]; exact Pipeline.withArrays_arr spec5 launch5.win.arr_inj c _ _ 2
theorem o36_3 (c : Dev nD) : o36 m 36 main_v83_1 c = (dat5 (In5 m) c).arrAt 3 cfg5.N := by
  rw [o36, Function.update_self]; exact Pipeline.withArrays_arr spec5 launch5.win.arr_inj c _ _ 3
theorem hF5 (c : Dev nD) : ∀ w, (dat5 (In5 m) c).arrAt w cfg5.N = OutVal5 m c (Pipeline.arrRef spec5 w) := by
  intro w
  have hi := fun hw hn =>
    ((dat5 (In5 m) c).arrAt_in w hw cfg5.N).trans ((A_eq5 (In5 m) c w).trans (V36_in m c (ag5 m) _ hn).symm)
  fin_cases w <;> try exact hi rfl (by decide)
  · exact (o36_2 m c).symm.trans (V36_a m c).symm
  · exact (o36_3 m c).symm.trans (V36_b m c).symm
theorem hrest5 (c : Dev nD) : ∀ b, b ∉ Finset.univ.image (Pipeline.arrRef spec5) → OutVal5 m c b = In5 m c b := fun b hb =>
  V36_in m c (ag5 m) b (not_mem_of_forall (by decide) hb)

end Cert.KernelIdeal.Hand

end
-- ==== Proof.KI.Reg6.lean ====
import proofs.«411066_j83983790505988_3_alg».proof.Proof.Gen.KernelIdeal.Launch
import proofs.«411066_j83983790505988_3_alg».proof.Proof.Gen.KernelIdeal.Skeleton
import proofs.«411066_j83983790505988_3_alg».proof.Proof.Gen.KernelIdeal.Points
import proofs.«411066_j83983790505988_3_alg».proof.Proof.BodyLibView
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

variable (c : Dev nD) (t : Fin cfg6.N)

abbrev rT6 : Rect S8192x5 := Rect.unit (s := S8192x5) ![0, 0] S8192x5.size inb_S8192x5_S8192x5_0_0
abbrev rS6 : Rect S1x5 := Rect.unit (s := S1x5) ![0, 0] S1x5.size inb_S1x5_S1x5_0_0
abbrev rU6 : Rect S1x1 := Rect.unit (s := S1x1) ![0, 0] S1x1.size inb_S1x1_S1x1_0_0

def out6 (x0 : Vec F S8192x5 .f32) (x1 : Vec F S1x5 .f32) (x2 : Vec F S1x1 .f32) (x3 : Vec F S1x1 .f32) : Vec F S8192x5 .f32 :=
  View.canon [⟨rT6, k6_pay1 (View.ld x2 rU6) (View.ld x3 rU6) (View.ld x0 rT6) (View.ld x1 rS6)⟩]

set_option maxHeartbeats 1000000 in
theorem sound_kernel6 (c : Dev nD) (E : Set ℕ) (i : grid6.Coords)
    (arg1 : Memref sig .tc .vmem S8192x5 .f32) (harg1 : arg1.IsWhole) (arg2 : Memref sig .tc .vmem S1x5 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S8192x5 .f32) (harg5 : arg5.IsWhole)
    (x0 : Vec F S8192x5 .f32) (x1 : Vec F S1x5 .f32) (x2 : Vec F S1x1 .f32) (x3 : Vec F S1x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out6 x0 x1 x2 x3)) -∗ K ⟨⟩))
      ⊢ wp frame (wpE (defs₀ (F := F)) Variants.none c none) E
          (cc6__softmax_final_kernel i arg1 harg1 arg2 harg2 arg3 harg3 arg4 harg4 arg5 harg5) K := by
  simp only [cc6__softmax_final_kernel_eq_skeleton]; unfold cc6__softmax_final_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S8192x5.size (by rfl))

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6 (iblk6 V c 0 t) (iblk6 V c 1 t) (iblk6 V c 2 t) (iblk6 V c 3 t)
  Φ _ := Pipeline.ΦA spec6 c
  q _ := fullShare
  owed _ := 0

theorem A_eq6 (w : Fin cfg6.W) : (dat6 V c).A w = V c (Pipeline.arrRef spec6 w) := by
  dsimp only [dat6]

theorem after6_4 :
    (dat6 V c).after 4 t = out6 (iblk6 V c 0 t) (iblk6 V c 1 t) (iblk6 V c 2 t) (iblk6 V c 3 t) := by dsimp only [dat6]

theorem before6_0 (d) : (dat6 V c).before 0 t d = iblk6 V c 0 t :=
  BodyLib.before_in (dat6 V c) 0 t d
theorem before6_1 (d) : (dat6 V c).before 1 t d = iblk6 V c 1 t :=
  BodyLib.before_in (dat6 V c) 1 t d
theorem before6_2 (d) : (dat6 V c).before 2 t d = iblk6 V c 2 t :=
  BodyLib.before_in (dat6 V c) 2 t d
theorem before6_3 (d) : (dat6 V c).before 3 t d = iblk6 V c 3 t :=
  BodyLib.before_in (dat6 V c) 3 t d

theorem sound_body6 :
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))
    ⊢ wp frame (wpE (defs₀ (F := F)) Variants.none c none) Set.univ (bodyAt6 t) (fun _ =>
  iprop((dat6 V c).Φ t.castSucc ∗ (dat6 V c).owesAt () t.castSucc
    ∗ owns (c : Thread nD τ) (st6_0 t) fullShare (iblk6 V c 0 t)
    ∗ owns (c : Thread nD τ) (st6_1 t) fullShare (iblk6 V c 1 t)
    ∗ owns (c : Thread nD τ) (st6_2 t) fullShare (iblk6 V c 2 t)
    ∗ owns (c : Thread nD τ) (st6_3 t) fullShare (iblk6 V c 3 t)
    ∗ owns (c : Thread nD τ) (st6_4 t) fullShare ((dat6 V c).after 4 t))) := by
  unfold bodyAt6
  simp only [before6_0, before6_1, before6_2, before6_3]
  rw [after6_4]
  iintro ⟨HΦ, Ho, ⟨%d0, H0⟩, ⟨%d1, H1⟩, ⟨%d2, H2⟩, ⟨%d3, H3⟩, ⟨%d4, H4⟩⟩
  iapply (sound_kernel6 c Set.univ (grid6.coords t) _ _ _ _ _ _ _ _ _ _ (iblk6 V c 0 t) (iblk6 V c 1 t) (iblk6 V c 2 t) (iblk6 V c 3 t) _)
  iframe H0 H1 H2 H3
  isplitl [H4]; · iexists _; iexact H4
  iintro ⟨H0, H1, H2, H3, H4⟩
  iframe

theorem body_obligation6 : BodyObligation (dat6 (F := F) V c) (defs₀ (F := F)) Variants.none () Set.univ := fun t => by
  rw [bigSep_W6, bigSep_W6]
  exact sound_body6 V c t

end Cert.KernelIdeal.Hand

end
-- ==== Proof.KI.D6.lean ====
import proofs.«411066_j83983790505988_3_alg».proof.Proof.KI.D5
import proofs.«411066_j83983790505988_3_alg».proof.Proof.KI.Reg6

noncomputable section

namespace Cert.KernelIdeal.Hand

open Cert.KernelIdeal.Gen Cert.KernelIdeal.GenP
open Idealize.ShloMosaic Idealize.ShloMosaic.TcCoe Idealize.SL.Sem Chain

variable {F : FTy → Type} [FloatOps F]

variable (m : (ℓ : Loc nD τ sig) → Buf (Elt F) ℓ)

abbrev In6 : VT F := fun c b => V37 m (o36 m) c b
abbrev InVal6 (c : Dev nD) : Valuation τ sig (Elt F) := V37 m (o36 m) c
def o38 : Outs (F := F) := Function.update (o36 m) 38 fun r c =>
  Pipeline.withArrays spec6 c (InVal6 m c) (fun w => (dat6 (In6 m) c).arrAt w cfg6.N) r
abbrev OutVal6 (c : Dev nD) : Valuation τ sig (Elt F) := V38 m (o38 m) c
theorem ag6 : AgreeTo 36 (o36 m) (o38 m) := (agreeTo_update (by decide) _).symm
theorem o38_4 (c : Dev nD) : o38 m 38 main_v92 c = (dat6 (In6 m) c).arrAt 4 cfg6.N := by
  rw [o38, Function.update_self]; exact Pipeline.withArrays_arr spec6 launch6.win.arr_inj c _ _ 4
theorem hF6 (c : Dev nD) : ∀ w, (dat6 (In6 m) c).arrAt w cfg6.N = OutVal6 m c (Pipeline.arrRef spec6 w) := by
  intro w
  have hi := fun hw hn =>
    ((dat6 (In6 m) c).arrAt_in w hw cfg6.N).trans ((A_eq6 (In6 m) c w).trans (V38_in m c (ag6 m) _ hn).symm)
  fin_cases w <;> try exact hi rfl (by decide)
  exact (o38_4 m c).symm.trans (V38_a m c).symm
theorem hrest6 (c : Dev nD) : ∀ b, b ∉ Finset.univ.image (Pipeline.arrRef spec6) → OutVal6 m c b = In6 m c b := fun b hb =>
  V38_in m c (ag6 m) b (not_mem_of_forall (by decide) hb)

end Cert.KernelIdeal.Hand

end
-- ==== Proof.KI.Fam.lean ====
import proofs.«411066_j83983790505988_3_alg».proof.Proof.KI.D6

noncomputable section

namespace Cert.KernelIdeal.Hand

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

abbrev outs : Outs (F := F) := o38 m

def pdats : (p : Fin 7) → (c : Dev nD) → Dat τ (Elt F) Unit ℕ (Pipeline.UD sig nD τ) ℕ (Pipeline.pin (pcfgs (F := F)) adm p) c
  | ⟨0, _⟩ => fun c => dat0 (In0 m) c
  | ⟨1, _⟩ => fun c => dat1 (In1 m) c
  | ⟨2, _⟩ => fun c => dat2 (In2 m) c
  | ⟨3, _⟩ => fun c => dat3 (In3 m) c
  | ⟨4, _⟩ => fun c => dat4 (In4 m) c
  | ⟨5, _⟩ => fun c => dat5 (In5 m) c
  | ⟨6, _⟩ => fun c => dat6 (In6 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

end Cert.KernelIdeal.Hand

end
-- ==== Proof.KI.Eq.lean ====
import proofs.«411066_j83983790505988_3_alg».proof.Proof.KI.Fam

namespace Cert.KernelIdeal.Hand

open Cert.KernelIdeal.Gen Cert.KernelIdeal.GenP
open Idealize.ShloMosaic Idealize.ShloMosaic.TcCoe Idealize.SL.Sem Chain

variable {F : FTy → Type} [FloatOps F]

variable (m : (ℓ : Loc nD τ sig) → Buf (Elt F) ℓ)

/-- The last table keeps every earlier table's rows: each pass sets only its own row. -/
theorem a36 : AgreeTo 36 (o38 m) (o36 m) := (ag6 m).symm
theorem a34 : AgreeTo 34 (o38 m) (o34 m) := ((a36 m).mono (by decide)).trans (ag5 m).symm
theorem a30 : AgreeTo 30 (o38 m) (o30 m) := ((a34 m).mono (by decide)).trans (ag4 m).symm
theorem a26 : AgreeTo 26 (o38 m) (o26 m) := ((a30 m).mono (by decide)).trans (ag3 m).symm
theorem a22 : AgreeTo 22 (o38 m) (o22 m) := ((a26 m).mono (by decide)).trans (ag2 m).symm
theorem a18 : AgreeTo 18 (o38 m) (o18 m) := ((a22 m).mono (by decide)).trans (ag1 m).symm
theorem o38_at18 (r : Ref sig .tc) (c : Dev nD) : o38 m 18 r c = o18 m 18 r c := by
  rw [a18 m 18 le_rfl]
theorem o38_at22 (r : Ref sig .tc) (c : Dev nD) : o38 m 22 r c = o22 m 22 r c := by
  rw [a22 m 22 le_rfl]
theorem o38_at26 (r : Ref sig .tc) (c : Dev nD) : o38 m 26 r c = o26 m 26 r c := by
  rw [a26 m 26 le_rfl]
theorem o38_at30 (r : Ref sig .tc) (c : Dev nD) : o38 m 30 r c = o30 m 30 r c := by
  rw [a30 m 30 le_rfl]
theorem o38_at34 (r : Ref sig .tc) (c : Dev nD) : o38 m 34 r c = o34 m 34 r c := by
  rw [a34 m 34 le_rfl]
theorem o38_at36 (r : Ref sig .tc) (c : Dev nD) : o38 m 36 r c = o36 m 36 r c := by
  rw [a36 m 36 le_rfl]
theorem eqOut0 (c : Dev nD) : V18 m (outs m) c = OutVal0 m c :=
  V18_congr m c (a18 m)
theorem eqIn1 (c : Dev nD) : V21 m (outs m) c = InVal1 m c :=
  V21_congr m c (a18 m)
theorem eqOut1 (c : Dev nD) : V22 m (outs m) c = OutVal1 m c :=
  V22_congr m c (a22 m)
theorem eqIn2 (c : Dev nD) : V25 m (outs m) c = InVal2 m c :=
  V25_congr m c (a22 m)
theorem eqOut2 (c : Dev nD) : V26 m (outs m) c = OutVal2 m c :=
  V26_congr m c (a26 m)
theorem eqIn3 (c : Dev nD) : V29 m (outs m) c = InVal3 m c :=
  V29_congr m c (a26 m)
theorem eqOut3 (c : Dev nD) : V30 m (outs m) c = OutVal3 m c :=
  V30_congr m c (a30 m)
theorem eqIn4 (c : Dev nD) : V33 m (outs m) c = InVal4 m c :=
  V33_congr m c (a30 m)
theorem eqOut4 (c : Dev nD) : V34 m (outs m) c = OutVal4 m c :=
  V34_congr m c (a34 m)
theorem eqIn5 (c : Dev nD) : V35 m (outs m) c = InVal5 m c :=
  V35_congr m c (a34 m)
theorem eqOut5 (c : Dev nD) : V36 m (outs m) c = OutVal5 m c :=
  V36_congr m c (a36 m)
theorem eqIn6 (c : Dev nD) : V37 m (outs m) c = InVal6 m c :=
  V37_congr m c (a36 m)
theorem eqOut6 (c : Dev nD) : V38 m (outs m) c = OutVal6 m c :=
  rfl

end Cert.KernelIdeal.Hand
-- ==== Proof.KI.S0.lean ====
import proofs.«411066_j83983790505988_3_alg».proof.Proof.KI.Fam
import proofs.«411066_j83983790505988_3_alg».proof.Proof.SegOf

namespace Cert.KernelIdeal.Hand

open Cert.KernelIdeal.Gen Cert.KernelIdeal.GenP
open Idealize.ShloMosaic

variable {F : FTy → Type} [FloatOps F]

variable (m : (ℓ : Loc nD τ sig) → Buf (Elt F) ℓ)

noncomputable def reg0 : Pipeline.RegionSeg (pcfgs (F := F)) adm (pdats m) () defs₀ 𝒱₀ L lv 0 :=
  regionOfHeld cfgs (pdats m) defs₀ 𝒱₀ L lv 0 launch0 (InVal0 m) (OutVal0 m) (body_obligation0 (In0 m))
    (fun _ _ => rfl) (fun _ => rfl) (fun _ _ => rfl) (fun _ _ => rfl) (fun _ _ => rfl) (hF0 m) (hrest0 m)

end Cert.KernelIdeal.Hand
-- ==== Proof.KI.S1.lean ====
import proofs.«411066_j83983790505988_3_alg».proof.Proof.KI.Fam
import proofs.«411066_j83983790505988_3_alg».proof.Proof.SegOf

namespace Cert.KernelIdeal.Hand

open Cert.KernelIdeal.Gen Cert.KernelIdeal.GenP
open Idealize.ShloMosaic

variable {F : FTy → Type} [FloatOps F]

variable (m : (ℓ : Loc nD τ sig) → Buf (Elt F) ℓ)

noncomputable def reg1 : Pipeline.RegionSeg (pcfgs (F := F)) adm (pdats m) () defs₀ 𝒱₀ L lv 1 :=
  regionOfHeld cfgs (pdats m) defs₀ 𝒱₀ L lv 1 launch1 (InVal1 m) (OutVal1 m) (body_obligation1 (In1 m))
    (fun _ _ => rfl) (fun _ => rfl) (fun _ _ => rfl) (fun _ _ => rfl) (fun _ _ => rfl) (hF1 m) (hrest1 m)

end Cert.KernelIdeal.Hand
-- ==== Proof.KI.S2.lean ====
import proofs.«411066_j83983790505988_3_alg».proof.Proof.KI.Fam
import proofs.«411066_j83983790505988_3_alg».proof.Proof.SegOf

namespace Cert.KernelIdeal.Hand

open Cert.KernelIdeal.Gen Cert.KernelIdeal.GenP
open Idealize.ShloMosaic

variable {F : FTy → Type} [FloatOps F]

variable (m : (ℓ : Loc nD τ sig) → Buf (Elt F) ℓ)

noncomputable def reg2 : Pipeline.RegionSeg (pcfgs (F := F)) adm (pdats m) () defs₀ 𝒱₀ L lv 2 :=
  regionOfHeld cfgs (pdats m) defs₀ 𝒱₀ L lv 2 launch2 (InVal2 m) (OutVal2 m) (body_obligation2 (In2 m))
    (fun _ _ => rfl) (fun _ => rfl) (fun _ _ => rfl) (fun _ _ => rfl) (fun _ _ => rfl) (hF2 m) (hrest2 m)

end Cert.KernelIdeal.Hand
-- ==== Proof.KI.S3.lean ====
import proofs.«411066_j83983790505988_3_alg».proof.Proof.KI.Fam
import proofs.«411066_j83983790505988_3_alg».proof.Proof.SegOf

namespace Cert.KernelIdeal.Hand

open Cert.KernelIdeal.Gen Cert.KernelIdeal.GenP
open Idealize.ShloMosaic

variable {F : FTy → Type} [FloatOps F]

variable (m : (ℓ : Loc nD τ sig) → Buf (Elt F) ℓ)

noncomputable def reg3 : Pipeline.RegionSeg (pcfgs (F := F)) adm (pdats m) () defs₀ 𝒱₀ L lv 3 :=
  regionOfHeld cfgs (pdats m) defs₀ 𝒱₀ L lv 3 launch3 (InVal3 m) (OutVal3 m) (body_obligation3 (In3 m))
    (fun _ _ => rfl) (fun _ => rfl) (fun _ _ => rfl) (fun _ _ => rfl) (fun _ _ => rfl) (hF3 m) (hrest3 m)

end Cert.KernelIdeal.Hand
-- ==== Proof.KI.S4.lean ====
import proofs.«411066_j83983790505988_3_alg».proof.Proof.KI.Fam
import proofs.«411066_j83983790505988_3_alg».proof.Proof.SegOf

namespace Cert.KernelIdeal.Hand

open Cert.KernelIdeal.Gen Cert.KernelIdeal.GenP
open Idealize.ShloMosaic

variable {F : FTy → Type} [FloatOps F]

variable (m : (ℓ : Loc nD τ sig) → Buf (Elt F) ℓ)

noncomputable def reg4 : Pipeline.RegionSeg (pcfgs (F := F)) adm (pdats m) () defs₀ 𝒱₀ L lv 4 :=
  regionOfHeld cfgs (pdats m) defs₀ 𝒱₀ L lv 4 launch4 (InVal4 m) (OutVal4 m) (body_obligation4 (In4 m))
    (fun _ _ => rfl) (fun _ => rfl) (fun _ _ => rfl) (fun _ _ => rfl) (fun _ _ => rfl) (hF4 m) (hrest4 m)

end Cert.KernelIdeal.Hand
-- ==== Proof.KI.S5.lean ====
import proofs.«411066_j83983790505988_3_alg».proof.Proof.KI.Fam
import proofs.«411066_j83983790505988_3_alg».proof.Proof.SegOf

namespace Cert.KernelIdeal.Hand

open Cert.KernelIdeal.Gen Cert.KernelIdeal.GenP
open Idealize.ShloMosaic

variable {F : FTy → Type} [FloatOps F]

variable (m : (ℓ : Loc nD τ sig) → Buf (Elt F) ℓ)

noncomputable def reg5 : Pipeline.RegionSeg (pcfgs (F := F)) adm (pdats m) () defs₀ 𝒱₀ L lv 5 :=
  regionOfHeld cfgs (pdats m) defs₀ 𝒱₀ L lv 5 launch5 (InVal5 m) (OutVal5 m) (body_obligation5 (In5 m))
    (fun _ _ => rfl) (fun _ => rfl) (fun _ _ => rfl) (fun _ _ => rfl) (fun _ _ => rfl) (hF5 m) (hrest5 m)

end Cert.KernelIdeal.Hand
-- ==== Proof.KI.S6.lean ====
import proofs.«411066_j83983790505988_3_alg».proof.Proof.KI.Fam
import proofs.«411066_j83983790505988_3_alg».proof.Proof.SegOf

namespace Cert.KernelIdeal.Hand

open Cert.KernelIdeal.Gen Cert.KernelIdeal.GenP
open Idealize.ShloMosaic

variable {F : FTy → Type} [FloatOps F]

variable (m : (ℓ : Loc nD τ sig) → Buf (Elt F) ℓ)

noncomputable def reg6 : Pipeline.RegionSeg (pcfgs (F := F)) adm (pdats m) () defs₀ 𝒱₀ L lv 6 :=
  regionOfHeld cfgs (pdats m) defs₀ 𝒱₀ L lv 6 launch6 (InVal6 m) (OutVal6 m) (body_obligation6 (In6 m))
    (fun _ _ => rfl) (fun _ => rfl) (fun _ _ => rfl) (fun _ _ => rfl) (fun _ _ => rfl) (hF6 m) (hrest6 m)

end Cert.KernelIdeal.Hand
-- ==== Proof.KI.Run.lean ====
import proofs.«411066_j83983790505988_3_alg».proof.Proof.KI.Eq
import proofs.«411066_j83983790505988_3_alg».proof.Proof.KI.S0
import proofs.«411066_j83983790505988_3_alg».proof.Proof.KI.S1
import proofs.«411066_j83983790505988_3_alg».proof.Proof.KI.S2
import proofs.«411066_j83983790505988_3_alg».proof.Proof.KI.S3
import proofs.«411066_j83983790505988_3_alg».proof.Proof.KI.S4
import proofs.«411066_j83983790505988_3_alg».proof.Proof.KI.S5
import proofs.«411066_j83983790505988_3_alg».proof.Proof.KI.S6

namespace Cert.KernelIdeal.Hand

open Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V38 m (outs m) c b) := by
  refine Pipeline.θ_run_regions_kit_dev (pcfgs (F := F)) adm (pdats m) () cellOf_inj embL defs₀ 𝒱₀ L lv m ρ main
    (segs m (outs m) 𝒱₀ L lv (fun _ c => R c) () (pdats m) (reg0 m) (reg1 m) (reg2 m) (reg3 m) (reg4 m) (reg5 m) (reg6 m))
    (fun c Q => by
      rewrite [main_chain c, Seg.run_eq_chain,
        show (segs m (outs m) 𝒱₀ L lv (fun _ c => R c) () (pdats m) (reg0 m) (reg1 m) (reg2 m) (reg3 m) (reg4 m) (reg5 m) (reg6 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      with_reducible exact .rfl)
    (fun c => by simp only [segs, Seg.pipes_host, Seg.pipes_region, Seg.pipes_nil]; decide) (O₀ := 0) (hL := fun _ _ => rfl)
    (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V38 m (outs m) c) ∗ ∃ r, prngReg c r))
    (hch := fun c => ⟨.rfl, .rfl, .rfl, .rfl, .rfl, .rfl, .rfl, .rfl, .rfl, .rfl, .rfl, .rfl, .rfl, .rfl, .rfl, .rfl, .rfl,
      .rfl, held_congr (eqOut0 m c).symm, .rfl, .rfl, held_congr (eqIn1 m c), held_congr (eqOut1 m c).symm, .rfl, .rfl,
      held_congr (eqIn2 m c), held_congr (eqOut2 m c).symm, .rfl, .rfl, held_congr (eqIn3 m c), held_congr (eqOut3 m c).symm, .rfl, .rfl,
      held_congr (eqIn4 m c), held_congr (eqOut4 m c).symm, held_congr (eqIn5 m c), held_congr (eqOut5 m c).symm, held_congr (eqIn6 m c),
      (held_congr (eqOut6 m c).symm).trans BI.sep_assoc'⟩)
    (hinit := ?_)
    (QY := fun c s => ∀ b ∈ Pipeline.ucRefs τ sig, s.mem ((c : Thread nD τ).1, b) = V38 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (V38 m (outs m) c) s')
    isplitl [Hh] <;> iassumption

theorem run_value (ρ : Dev nD → PrngReg) :
    θ_run defs (onTc (τ := τ) (main (F := F))) ⟨m, fun _ => 0, ρ⟩ (fun r => ∀ c : Dev nD,
      r.2.mem ((c.tc : Thread nD τ).loc main_v92) = V38 m (outs m) c main_v92
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v92 (by decide)),
     (h c _ (mem_uc main_arg0 (by decide))).trans (V38_main_arg0 m (outs m) c),
     (h c _ (mem_uc main_arg1 (by decide))).trans (V38_main_arg1 m (outs m) c),
     (h c _ (mem_uc main_arg2 (by decide))).trans (V38_main_arg2 m (outs m) c),
     (h c _ (mem_uc main_arg3 (by decide))).trans (V38_main_arg3 m (outs m) c),
     (h c _ (mem_uc main_arg4 (by decide))).trans (V38_main_arg4 m (outs m) c),
     (h c _ (mem_uc main_arg5 (by decide))).trans (V38_main_arg5 m (outs m) c),
     (h c _ (mem_uc main_arg6 (by decide))).trans (V38_main_arg6 m (outs m) c),
     (h c _ (mem_uc main_arg7 (by decide))).trans (V38_main_arg7 m (outs m) c),
     (h c _ (mem_uc main_arg8 (by decide))).trans (V38_main_arg8 m (outs m) c)⟩) (run_all m ρ)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_value m ρ)

end Cert.KernelIdeal.Hand
-- ==== Proof.Spec.lean ====
import Idealize.ShloMosaic.PureOps.Ideal
import Idealize.ShloMosaic.Lib.ValueIdx
import Mathlib.Order.CompleteLattice.Basic
import Mathlib.Algebra.BigOperators.Group.Finset.Basic

noncomputable section

namespace Cert.Spec

open Idealize.ShloMosaic Idealize.ShloMosaic.ValueIdx

abbrev Mat (n m : ℕ) : Type := (⟨2, ![n, m]⟩ : Shape).Idx → EReal
abbrev Vc (n : ℕ) : Type := (⟨1, ![n]⟩ : Shape).Idx → EReal

abbrev B : ℕ := 1048576
def rowOf (t : Fin 128) (r : Fin 8192) : Fin B := ⟨t.val * 8192 + r.val, by have := t.isLt; have := r.isLt; unfold B; omega⟩
def tileOf (c : Fin 2) (j : Fin 64) : Fin 128 := ⟨c.val * 64 + j.val, by have := c.isLt; have := j.isLt; omega⟩
def coreOf (r : Fin 16) : Fin 2 := ⟨r.val / 8, by have := r.isLt; omega⟩

def mk {n m : ℕ} (f : Fin n → Fin m → EReal) : Mat n m := fun y => f (y 0) (y 1)

def absE (x : EReal) : EReal := max x (-x)
def rnd (x : EReal) : EReal := Ideal.liftRound Ideal.roundHalfEven x
def clipE (lo hi x : EReal) : EReal := min hi (max lo x)
def amax {S : Shape} (x : S.Idx → EReal) : EReal := ⨆ i, absE (x i)

def nA : EReal := ((32767 : ℝ) : EReal)
def nAlo : EReal := ((-32768 : ℝ) : EReal)
def nW : EReal := ((127 : ℝ) : EReal)
def nWlo : EReal := ((-128 : ℝ) : EReal)
def six : EReal := ((6 : ℝ) : EReal)
def zero : EReal := ((0 : ℝ) : EReal)
def one : EReal := ((1 : ℝ) : EReal)

def relu6 (x : EReal) : EReal := clipE zero six x

def wsf {n m : ℕ} (W : Mat n m) : EReal := Ideal.div (amax W) nW
def wT {n m : ℕ} (W : Mat n m) : Mat m n := mk fun k j => clipE nWlo nW (rnd (Ideal.div (W (ix2 j k)) (wsf W)))
def bI {n : ℕ} (b : Vc n) (bsf : EReal) : Mat 1 n := mk fun _ j => rnd (Ideal.div (b (ix1 j)) bsf)

def lin {K N : ℕ} (v : Fin B → Fin K → EReal) (w : Mat K N) (bias : Mat 1 N) (bsf : EReal) (i : Fin B) (j : Fin N) : EReal :=
  ((∑ k : Fin K, v i k * w (ix2 k j)) + bias (ix2 0 j)) * bsf
def qfresh (x : Mat B 16) (a : EReal) (i : Fin B) (k : Fin 16) : EReal :=
  clipE nAlo nA (rnd (Ideal.div (x (ix2 i k)) a))
def requant {D : ℕ} (h : Mat B D) (pre a : EReal) (i : Fin B) (k : Fin D) : EReal :=
  clipE nAlo nA (rnd (rnd (Ideal.div (h (ix2 i k)) pre) * Ideal.div pre a))

def coreAmax {D : ℕ} (h : Mat B D) (c : Fin 2) : EReal :=
  ⨆ j : Fin 64, ⨆ r : Fin 8192, ⨆ k : Fin D, absE (h (ix2 (rowOf (tileOf c j) r) k))
def satArr {D : ℕ} (h : Mat B D) : Mat 16 1 := mk fun r _ => coreAmax h (coreOf r)
def cmArr (l : Mat B 5) : Mat 16 5 := mk fun r k => ⨆ j : Fin 64, ⨆ q : Fin 8192, l (ix2 (rowOf (tileOf (coreOf r) j) q) k)
def csArr (e : Mat B 5) : Mat 16 5 := mk fun r k => ∑ j : Fin 64, ∑ q : Fin 8192, e (ix2 (rowOf (tileOf (coreOf r) j) q) k)

def pass1 (x : Mat B 16) (a bs : EReal) (w : Mat 16 64) (bias : Mat 1 64) : Mat B 64 :=
  mk fun i j => relu6 (lin (qfresh x a) w bias bs i j)
def passMid {K N : ℕ} (h : Mat B K) (pre a bs : EReal) (w : Mat K N) (bias : Mat 1 N) : Mat B N :=
  mk fun i j => relu6 (lin (requant h pre a) w bias bs i j)
def pass4 (h : Mat B 32) (pre a bs : EReal) (w : Mat 32 5) (bias : Mat 1 5) : Mat B 5 :=
  mk fun i j => lin (requant h pre a) w bias bs i j
def pass5 (l : Mat B 5) (cm : Mat 1 5) : Mat B 5 := mk fun i j => Ideal.exp (l (ix2 i j) - cm (ix2 0 j))
def pass6 (e : Mat B 5) (cs : Mat 1 5) (pre a : EReal) : Mat B 5 :=
  mk fun i j => clipE nAlo nA (rnd (rnd (Ideal.div (Ideal.div (e (ix2 i j)) (cs (ix2 0 j))) pre) * Ideal.div pre a)) * a

def satMax (s : Mat 16 1) : EReal := ⨆ r : Fin 16, s (ix2 r 0)
def cmRow (m : Mat 16 5) : Mat 1 5 := mk fun _ j => ⨆ r : Fin 16, m (ix2 r j)
def csRow (m : Mat 16 5) : Mat 1 5 := mk fun _ j => m (ix2 0 j) + m (ix2 8 j)

section Net
variable (x : Mat B 16) (W1 : Mat 64 16) (b1 : Vc 64) (W2 : Mat 32 64) (b2 : Vc 32) (W3 : Mat 32 32) (b3 : Vc 32)
  (W4 : Mat 5 32) (b4 : Vc 5)

def kA0 : EReal := Ideal.div (satMax (satArr x)) nA
def kBs1 : EReal := wsf W1 * kA0 x
def kH1 : Mat B 64 := pass1 x (kA0 x) (kBs1 x W1) (wT W1) (bI b1 (kBs1 x W1))
def kA1 : EReal := Ideal.div (satMax (satArr (kH1 x W1 b1))) nA
def kBs2 : EReal := wsf W2 * kA1 x W1 b1
def kH2 : Mat B 32 := passMid (kH1 x W1 b1) (kBs1 x W1) (kA1 x W1 b1) (kBs2 x W1 b1 W2) (wT W2) (bI b2 (kBs2 x W1 b1 W2))
def kA2 : EReal := Ideal.div (satMax (satArr (kH2 x W1 b1 W2 b2))) nA
def kBs3 : EReal := wsf W3 * kA2 x W1 b1 W2 b2
def kH3 : Mat B 32 := passMid (kH2 x W1 b1 W2 b2) (kBs2 x W1 b1 W2) (kA2 x W1 b1 W2 b2) (kBs3 x W1 b1 W2 b2 W3) (wT W3) (bI b3 (kBs3 x W1 b1 W2 b2 W3))
def kA3 : EReal := Ideal.div (satMax (satArr (kH3 x W1 b1 W2 b2 W3 b3))) nA
def kBs4 : EReal := wsf W4 * kA3 x W1 b1 W2 b2 W3 b3
def kLogits : Mat B 5 := pass4 (kH3 x W1 b1 W2 b2 W3 b3) (kBs3 x W1 b1 W2 b2 W3) (kA3 x W1 b1 W2 b2 W3 b3) (kBs4 x W1 b1 W2 b2 W3 b3 W4) (wT W4) (bI b4 (kBs4 x W1 b1 W2 b2 W3 b3 W4))
def kExp : Mat B 5 := pass5 (kLogits x W1 b1 W2 b2 W3 b3 W4 b4) (cmRow (cmArr (kLogits x W1 b1 W2 b2 W3 b3 W4 b4)))
def kCs : Mat 1 5 := csRow (csArr (kExp x W1 b1 W2 b2 W3 b3 W4 b4))
def kAf : EReal := Ideal.div (⨆ j : Fin 5, Ideal.div one (kCs x W1 b1 W2 b2 W3 b3 W4 b4 (ix2 0 j))) nA
def kerOut : Mat B 5 :=
  pass6 (kExp x W1 b1 W2 b2 W3 b3 W4 b4) (kCs x W1 b1 W2 b2 W3 b3 W4 b4) (kBs4 x W1 b1 W2 b2 W3 b3 W4) (kAf x W1 b1 W2 b2 W3 b3 W4 b4)

def asf {S : Shape} (h : S.Idx → EReal) : EReal := Ideal.div (amax h) nA
def roundTrip {K : ℕ} (n : Fin B → Fin K → EReal) (s : EReal) (i : Fin B) (k : Fin K) : EReal := Ideal.div (n i k * s) s

def rA0 : EReal := asf x
def rBs1 : EReal := wsf W1 * rA0 x
def rH1 : Mat B 64 := mk fun i j => relu6 (lin (roundTrip (qfresh x (rA0 x)) (rA0 x)) (wT W1) (bI b1 (rBs1 x W1)) (rBs1 x W1) i j)
def rA1 : EReal := asf (rH1 x W1 b1)
def rPre1 : EReal := rA0 x * wsf W1
def rBs2 : EReal := wsf W2 * rA1 x W1 b1
def rH2 : Mat B 32 := mk fun i j => relu6 (lin (roundTrip (requant (rH1 x W1 b1) (rPre1 x W1) (rA1 x W1 b1)) (rA1 x W1 b1)) (wT W2)
  (bI b2 (rBs2 x W1 b1 W2)) (rBs2 x W1 b1 W2) i j)
def rA2 : EReal := asf (rH2 x W1 b1 W2 b2)
def rPre2 : EReal := rA1 x W1 b1 * wsf W2
def rBs3 : EReal := wsf W3 * rA2 x W1 b1 W2 b2
def rH3 : Mat B 32 := mk fun i j => relu6 (lin (roundTrip (requant (rH2 x W1 b1 W2 b2) (rPre2 x W1 b1 W2) (rA2 x W1 b1 W2 b2)) (rA2 x W1 b1 W2 b2)) (wT W3)
  (bI b3 (rBs3 x W1 b1 W2 b2 W3)) (rBs3 x W1 b1 W2 b2 W3) i j)
def rA3 : EReal := asf (rH3 x W1 b1 W2 b2 W3 b3)
def rPre3 : EReal := rA2 x W1 b1 W2 b2 * wsf W3
def rBs4 : EReal := wsf W4 * rA3 x W1 b1 W2 b2 W3 b3
def rLogits : Mat B 5 := mk fun i j => lin (roundTrip (requant (rH3 x W1 b1 W2 b2 W3 b3) (rPre3 x W1 b1 W2 b2 W3) (rA3 x W1 b1 W2 b2 W3 b3)) (rA3 x W1 b1 W2 b2 W3 b3)) (wT W4)
  (bI b4 (rBs4 x W1 b1 W2 b2 W3 b3 W4)) (rBs4 x W1 b1 W2 b2 W3 b3 W4) i j
def rPre4 : EReal := rA3 x W1 b1 W2 b2 W3 b3 * wsf W4
def colmax (l : Mat B 5) : Mat 1 5 := mk fun _ j => ⨆ i : Fin B, l (ix2 i j)
def rExp : Mat B 5 := pass5 (rLogits x W1 b1 W2 b2 W3 b3 W4 b4) (colmax (rLogits x W1 b1 W2 b2 W3 b3 W4 b4))
def colsum (e : Mat B 5) : Mat 1 5 := mk fun _ j => ∑ i : Fin B, e (ix2 i j)
def rSm : Mat B 5 := mk fun i j => Ideal.div (rExp x W1 b1 W2 b2 W3 b3 W4 b4 (ix2 i j)) (colsum (rExp x W1 b1 W2 b2 W3 b3 W4 b4) (ix2 0 j))
def rAf : EReal := asf (rSm x W1 b1 W2 b2 W3 b3 W4 b4)
def refOut : Mat B 5 :=
  pass6 (rExp x W1 b1 W2 b2 W3 b3 W4 b4) (colsum (rExp x W1 b1 W2 b2 W3 b3 W4 b4)) (rPre4 x W1 b1 W2 b2 W3 b3 W4) (rAf x W1 b1 W2 b2 W3 b3 W4 b4)

end Net

end Cert.Spec

end
-- ==== Proof.KI.KVChain.lean ====
import proofs.«411066_j83983790505988_3_alg».proof.Proof.KIRegions
import proofs.«411066_j83983790505988_3_alg».proof.Proof.Spec
import Idealize.ShloMosaic.Lib.ValueIdx

noncomputable section

namespace Cert.KernelIdeal.Hand

open Cert.KernelIdeal.Gen Cert.KernelIdeal.GenP
open Idealize.ShloMosaic Idealize.ShloMosaic.TcCoe Idealize.ShloMosaic.ValueIdx
open Idealize.SL.Sem

section KvChain

variable (m : (ℓ : Loc nD τ sig) → Buf (Elt Ideal) ℓ) (outs : Outs (F := Ideal)) (c : Dev nD)

abbrev kvX : Cert.Spec.Mat 1048576 16 := m ((c.tc : Thread nD τ).loc main_arg0)
abbrev kvW1 : Cert.Spec.Mat 64 16 := m ((c.tc : Thread nD τ).loc main_arg1)
abbrev kvB1 : Cert.Spec.Vc 64 := m ((c.tc : Thread nD τ).loc main_arg2)
abbrev kvW2 : Cert.Spec.Mat 32 64 := m ((c.tc : Thread nD τ).loc main_arg3)
abbrev kvB2 : Cert.Spec.Vc 32 := m ((c.tc : Thread nD τ).loc main_arg4)
abbrev kvW3 : Cert.Spec.Mat 32 32 := m ((c.tc : Thread nD τ).loc main_arg5)
abbrev kvB3 : Cert.Spec.Vc 32 := m ((c.tc : Thread nD τ).loc main_arg6)
abbrev kvW4 : Cert.Spec.Mat 5 32 := m ((c.tc : Thread nD τ).loc main_arg7)
abbrev kvB4 : Cert.Spec.Vc 5 := m ((c.tc : Thread nD τ).loc main_arg8)

abbrev kvScal (v : S_.Idx → EReal) : EReal := v ix0
abbrev kvAt00 (v : Cert.Spec.Mat 1 1) : EReal := v (ix2 (0 : Fin 1) (0 : Fin 1))
abbrev kvAs (s : Cert.Spec.Mat 16 1) : EReal := Ideal.div (Cert.Spec.satMax s) Cert.Spec.nA

structure KvFacts : Prop where
  w1s : (kvScal (V17 m c main_v2)) = Cert.Spec.wsf (kvW1 m c)
  w1t : (V17 m c main_v7 : Cert.Spec.Mat 16 64) = Cert.Spec.wT (kvW1 m c)
  w2s : (kvScal (V17 m c main_v10)) = Cert.Spec.wsf (kvW2 m c)
  w2t : (V17 m c main_v15 : Cert.Spec.Mat 64 32) = Cert.Spec.wT (kvW2 m c)
  w3s : (kvScal (V17 m c main_v18)) = Cert.Spec.wsf (kvW3 m c)
  w3t : (V17 m c main_v23 : Cert.Spec.Mat 32 32) = Cert.Spec.wT (kvW3 m c)
  w4s : (kvScal (V17 m c main_v26)) = Cert.Spec.wsf (kvW4 m c)
  w4t : (V17 m c main_v31 : Cert.Spec.Mat 32 5) = Cert.Spec.wT (kvW4 m c)
  p0 : (outs 18 main_v32 c : Cert.Spec.Mat 16 1) = Cert.Spec.satArr (V17 m c main_arg0 : Cert.Spec.Mat 1048576 16)
  g1a : (kvAt00 (V21 m outs c main_v36)) = (kvAs (V18 m outs c main_v32))
  g1b : (kvAt00 (V21 m outs c main_v38)) = (kvScal (V18 m outs c main_v2)) * (kvAs (V18 m outs c main_v32))
  g1c : (V21 m outs c main_v43 : Cert.Spec.Mat 1 64) = Cert.Spec.bI (V18 m outs c main_arg2 : Cert.Spec.Vc 64) ((kvScal (V18 m outs c main_v2)) * (kvAs (V18 m outs c main_v32)))
  p1h : (outs 22 main_v44_0 c : Cert.Spec.Mat 1048576 64) = (Cert.Spec.pass1 (V21 m outs c main_arg0 : Cert.Spec.Mat 1048576 16) (kvAt00 (V21 m outs c main_v36)) (kvAt00 (V21 m outs c main_v38)) (V21 m outs c main_v7 : Cert.Spec.Mat 16 64) (V21 m outs c main_v43 : Cert.Spec.Mat 1 64))
  p1s : (outs 22 main_v44_1 c : Cert.Spec.Mat 16 1) = Cert.Spec.satArr (outs 22 main_v44_0 c : Cert.Spec.Mat 1048576 64)
  g2a : (kvAt00 (V25 m outs c main_v48)) = (kvAs (V22 m outs c main_v44_1))
  g2b : (kvAt00 (V25 m outs c main_v50)) = (kvScal (V22 m outs c main_v10)) * (kvAs (V22 m outs c main_v44_1))
  g2c : (V25 m outs c main_v55 : Cert.Spec.Mat 1 32) = Cert.Spec.bI (V22 m outs c main_arg4 : Cert.Spec.Vc 32) ((kvScal (V22 m outs c main_v10)) * (kvAs (V22 m outs c main_v44_1)))
  p2h : (outs 26 main_v56_0 c : Cert.Spec.Mat 1048576 32) = (Cert.Spec.passMid (V25 m outs c main_v44_0 : Cert.Spec.Mat 1048576 64) (kvAt00 (V25 m outs c main_v38)) (kvAt00 (V25 m outs c main_v48)) (kvAt00 (V25 m outs c main_v50)) (V25 m outs c main_v15 : Cert.Spec.Mat 64 32) (V25 m outs c main_v55 : Cert.Spec.Mat 1 32))
  p2s : (outs 26 main_v56_1 c : Cert.Spec.Mat 16 1) = Cert.Spec.satArr (outs 26 main_v56_0 c : Cert.Spec.Mat 1048576 32)
  g3a : (kvAt00 (V29 m outs c main_v60)) = (kvAs (V26 m outs c main_v56_1))
  g3b : (kvAt00 (V29 m outs c main_v62)) = (kvScal (V26 m outs c main_v18)) * (kvAs (V26 m outs c main_v56_1))
  g3c : (V29 m outs c main_v67 : Cert.Spec.Mat 1 32) = Cert.Spec.bI (V26 m outs c main_arg6 : Cert.Spec.Vc 32) ((kvScal (V26 m outs c main_v18)) * (kvAs (V26 m outs c main_v56_1)))
  p3h : (outs 30 main_v68_0 c : Cert.Spec.Mat 1048576 32) = (Cert.Spec.passMid (V29 m outs c main_v56_0 : Cert.Spec.Mat 1048576 32) (kvAt00 (V29 m outs c main_v50)) (kvAt00 (V29 m outs c main_v60)) (kvAt00 (V29 m outs c main_v62)) (V29 m outs c main_v23 : Cert.Spec.Mat 32 32) (V29 m outs c main_v67 : Cert.Spec.Mat 1 32))
  p3s : (outs 30 main_v68_1 c : Cert.Spec.Mat 16 1) = Cert.Spec.satArr (outs 30 main_v68_0 c : Cert.Spec.Mat 1048576 32)
  g4a : (kvAt00 (V33 m outs c main_v72)) = (kvAs (V30 m outs c main_v68_1))
  g4b : (kvAt00 (V33 m outs c main_v74)) = (kvScal (V30 m outs c main_v26)) * (kvAs (V30 m outs c main_v68_1))
  g4c : (V33 m outs c main_v79 : Cert.Spec.Mat 1 5) = Cert.Spec.bI (V30 m outs c main_arg8 : Cert.Spec.Vc 5) ((kvScal (V30 m outs c main_v26)) * (kvAs (V30 m outs c main_v68_1)))
  p4l : (outs 34 main_v80_0 c : Cert.Spec.Mat 1048576 5) = (Cert.Spec.pass4 (V33 m outs c main_v68_0 : Cert.Spec.Mat 1048576 32) (kvAt00 (V33 m outs c main_v62)) (kvAt00 (V33 m outs c main_v72)) (kvAt00 (V33 m outs c main_v74)) (V33 m outs c main_v31 : Cert.Spec.Mat 32 5) (V33 m outs c main_v79 : Cert.Spec.Mat 1 5))
  p4m : (outs 34 main_v80_1 c : Cert.Spec.Mat 16 5) = Cert.Spec.cmArr (outs 34 main_v80_0 c : Cert.Spec.Mat 1048576 5)
  g5 : (V35 m outs c main_v82 : Cert.Spec.Mat 1 5) = Cert.Spec.cmRow (V34 m outs c main_v80_1 : Cert.Spec.Mat 16 5)
  p5e : (outs 36 main_v83_0 c : Cert.Spec.Mat 1048576 5) = (Cert.Spec.pass5 (V35 m outs c main_v80_0 : Cert.Spec.Mat 1048576 5) (V35 m outs c main_v82 : Cert.Spec.Mat 1 5))
  p5s : (outs 36 main_v83_1 c : Cert.Spec.Mat 16 5) = Cert.Spec.csArr (outs 36 main_v83_0 c : Cert.Spec.Mat 1048576 5)
  g6a : (V37 m outs c main_v86 : Cert.Spec.Mat 1 5) = Cert.Spec.csRow (V36 m outs c main_v83_1 : Cert.Spec.Mat 16 5)
  g6b : (kvAt00 (V37 m outs c main_v91)) = Ideal.div (⨆ j : Fin 5, Ideal.div Cert.Spec.one (Cert.Spec.csRow (V36 m outs c main_v83_1 : Cert.Spec.Mat 16 5) (ix2 (0 : Fin 1) j))) Cert.Spec.nA
  p6 : (outs 38 main_v92 c : Cert.Spec.Mat 1048576 5) = (Cert.Spec.pass6 (V37 m outs c main_v83_0 : Cert.Spec.Mat 1048576 5) (V37 m outs c main_v86 : Cert.Spec.Mat 1 5) (kvAt00 (V37 m outs c main_v74)) (kvAt00 (V37 m outs c main_v91)))

theorem kv17 (r : Ref sig .tc) (h : r ∉ hostOps0_W ∧ r ∉ hostOps0_1_W ∧ r ∉ hostOps0_2_W ∧ r ∉ hostOps0_3_W ∧ r ∉ hostOps0_4_W ∧ r ∉ hostOps0_5_W ∧ r ∉ hostOps0_6_W ∧ r ∉ hostOps0_7_W ∧ r ∉ hostOps0_8_W ∧ r ∉ hostOps0_9_W ∧ r ∉ hostOps0_10_W ∧ r ∉ hostOps0_11_W ∧ r ∉ hostOps0_12_W ∧ r ∉ hostOps0_13_W ∧ r ∉ hostOps0_14_W ∧ r ∉ hostOps0_15_W ∧ r ∉ hostOps0_16_W) : V17 m c r = V0 m c r := by
  obtain ⟨h1, h2, h3, h4, h5, h6, h7, h8, h9, h10, h11, h12, h13, h14, h15, h16, h17⟩ := h
  exact (V17_of m c r h17).trans <| (V16_of m c r h16).trans <| (V15_of m c r h15).trans <| (V14_of m c r h14).trans <| (V13_of m c r h13).trans <| (V12_of m c r h12).trans <| (V11_of m c r h11).trans <| (V10_of m c r h10).trans <| (V9_of m c r h9).trans <| (V8_of m c r h8).trans <| (V7_of m c r h7).trans <| (V6_of m c r h6).trans <| (V5_of m c r h5).trans <| (V4_of m c r h4).trans <| (V3_of m c r h3).trans <| (V2_of m c r h2).trans <| V1_of m c r h1
theorem kvA (r : Ref sig .tc) (h : r ∉ ([main_v32] : List (Ref sig .tc)) ∧ r ∉ hostOps1_W ∧ r ∉ hostOps1_1_W ∧ r ∉ hostOps1_2_W) : V21 m outs c r = V17 m c r := by
  obtain ⟨h18, h19, h20, h21⟩ := h
  exact (V21_of m outs c r h21).trans <| (V20_of m outs c r h20).trans <| (V19_of m outs c r h19).trans <| V18_of m outs c r h18
theorem kvB (r : Ref sig .tc) (h : r ∉ ([main_v44_0, main_v44_1] : List (Ref sig .tc)) ∧ r ∉ hostOps2_W ∧ r ∉ hostOps2_1_W ∧ r ∉ hostOps2_2_W) : V25 m outs c r = V21 m outs c r := by
  obtain ⟨h22, h23, h24, h25⟩ := h
  exact (V25_of m outs c r h25).trans <| (V24_of m outs c r h24).trans <| (V23_of m outs c r h23).trans <| V22_of m outs c r h22
theorem kvC (r : Ref sig .tc) (h : r ∉ ([main_v56_0, main_v56_1] : List (Ref sig .tc)) ∧ r ∉ hostOps3_W ∧ r ∉ hostOps3_1_W ∧ r ∉ hostOps3_2_W) : V29 m outs c r = V25 m outs c r := by
  obtain ⟨h26, h27, h28, h29⟩ := h
  exact (V29_of m outs c r h29).trans <| (V28_of m outs c r h28).trans <| (V27_of m outs c r h27).trans <| V26_of m outs c r h26
theorem kvD (r : Ref sig .tc) (h : r ∉ ([main_v68_0, main_v68_1] : List (Ref sig .tc)) ∧ r ∉ hostOps4_W ∧ r ∉ hostOps4_1_W ∧ r ∉ hostOps4_2_W) : V33 m outs c r = V29 m outs c r := by
  obtain ⟨h30, h31, h32, h33⟩ := h
  exact (V33_of m outs c r h33).trans <| (V32_of m outs c r h32).trans <| (V31_of m outs c r h31).trans <| V30_of m outs c r h30
theorem kv_v32_18 : (V18 m outs c main_v32 : Cert.Spec.Mat 16 1) = (outs 18 main_v32 c : Cert.Spec.Mat 16 1) :=
  Function.update_self ..

theorem kv_v44_0_22 : (V22 m outs c main_v44_0 : Cert.Spec.Mat 1048576 64) = (outs 22 main_v44_0 c : Cert.Spec.Mat 1048576 64) :=
  (Function.update_of_ne (StableHlo.devRef_ne_of_ne (by decide : (main_v44_0 : Ref sig .tc) ≠ main_v44_1)) ..).trans (Function.update_self ..)

theorem kv_v44_1_22 : (V22 m outs c main_v44_1 : Cert.Spec.Mat 16 1) = (outs 22 main_v44_1 c : Cert.Spec.Mat 16 1) :=
  Function.update_self ..

theorem kv_v56_0_26 : (V26 m outs c main_v56_0 : Cert.Spec.Mat 1048576 32) = (outs 26 main_v56_0 c : Cert.Spec.Mat 1048576 32) :=
  (Function.update_of_ne (StableHlo.devRef_ne_of_ne (by decide : (main_v56_0 : Ref sig .tc) ≠ main_v56_1)) ..).trans (Function.update_self ..)

theorem kv_v56_1_26 : (V26 m outs c main_v56_1 : Cert.Spec.Mat 16 1) = (outs 26 main_v56_1 c : Cert.Spec.Mat 16 1) :=
  Function.update_self ..

theorem kv_v68_0_30 : (V30 m outs c main_v68_0 : Cert.Spec.Mat 1048576 32) = (outs 30 main_v68_0 c : Cert.Spec.Mat 1048576 32) :=
  (Function.update_of_ne (StableHlo.devRef_ne_of_ne (by decide : (main_v68_0 : Ref sig .tc) ≠ main_v68_1)) ..).trans (Function.update_self ..)

theorem kv_v68_1_30 : (V30 m outs c main_v68_1 : Cert.Spec.Mat 16 1) = (outs 30 main_v68_1 c : Cert.Spec.Mat 16 1) :=
  Function.update_self ..

theorem kv_v80_0_34 : (V34 m outs c main_v80_0 : Cert.Spec.Mat 1048576 5) = (outs 34 main_v80_0 c : Cert.Spec.Mat 1048576 5) :=
  (Function.update_of_ne (StableHlo.devRef_ne_of_ne (by decide : (main_v80_0 : Ref sig .tc) ≠ main_v80_1)) ..).trans (Function.update_self ..)

theorem kv_v80_1_34 : (V34 m outs c main_v80_1 : Cert.Spec.Mat 16 5) = (outs 34 main_v80_1 c : Cert.Spec.Mat 16 5) :=
  Function.update_self ..

theorem kv_v83_0_36 : (V36 m outs c main_v83_0 : Cert.Spec.Mat 1048576 5) = (outs 36 main_v83_0 c : Cert.Spec.Mat 1048576 5) :=
  (Function.update_of_ne (StableHlo.devRef_ne_of_ne (by decide : (main_v83_0 : Ref sig .tc) ≠ main_v83_1)) ..).trans (Function.update_self ..)

theorem kv_v83_1_36 : (V36 m outs c main_v83_1 : Cert.Spec.Mat 16 5) = (outs 36 main_v83_1 c : Cert.Spec.Mat 16 5) :=
  Function.update_self ..

theorem kv_v92_38 : (V38 m outs c main_v92 : Cert.Spec.Mat 1048576 5) = (outs 38 main_v92 c : Cert.Spec.Mat 1048576 5) :=
  Function.update_self ..

variable {m outs c} (H : KvFacts m outs c)
include H

theorem kv_a0 : (kvAt00 (V21 m outs c main_v36)) = (Cert.Spec.kA0 (kvX m c)) := by
  rw [H.g1a, kv_v32_18 m outs c, H.p0]
  rw [kv17 m c main_arg0 (by decide)]
  rfl

theorem kv_bs1 : (kvAt00 (V21 m outs c main_v38)) = (Cert.Spec.kBs1 (kvX m c) (kvW1 m c)) := by
  rw [H.g1b, ← H.g1a, kv_a0 H, V18_of m outs c main_v2 (by decide), H.w1s]
  rfl

theorem kv_h1 : (outs 22 main_v44_0 c : Cert.Spec.Mat 1048576 64) = (Cert.Spec.kH1 (kvX m c) (kvW1 m c) (kvB1 m c)) := by
  rw [H.p1h, kvA m outs c main_arg0 (by decide), kv17 m c main_arg0 (by decide), kv_a0 H, kvA m outs c main_v7 (by decide), H.w1t, H.g1c, ← H.g1b, kv_bs1 H, V18_of m outs c main_arg2 (by decide), kv17 m c main_arg2 (by decide)]
  rfl

theorem kv_a1 : (kvAt00 (V25 m outs c main_v48)) = (Cert.Spec.kA1 (kvX m c) (kvW1 m c) (kvB1 m c)) := by
  rw [H.g2a, kv_v44_1_22 m outs c, H.p1s, kv_h1 H]
  rfl

theorem kv_bs2 : (kvAt00 (V25 m outs c main_v50)) = (Cert.Spec.kBs2 (kvX m c) (kvW1 m c) (kvB1 m c) (kvW2 m c)) := by
  rw [H.g2b, ← H.g2a, kv_a1 H, V22_of m outs c main_v10 (by decide), kvA m outs c main_v10 (by decide), H.w2s]
  rfl

theorem kv_h2 : (outs 26 main_v56_0 c : Cert.Spec.Mat 1048576 32) = (Cert.Spec.kH2 (kvX m c) (kvW1 m c) (kvB1 m c) (kvW2 m c) (kvB2 m c)) := by
  rw [H.p2h, V25_of m outs c main_v44_0 (by decide), V24_of m outs c main_v44_0 (by decide), V23_of m outs c main_v44_0 (by decide), kv_v44_0_22 m outs c, kv_h1 H, kvB m outs c main_v38 (by decide), kv_bs1 H, kv_a1 H, kvB m outs c main_v15 (by decide), kvA m outs c main_v15 (by decide), H.w2t, H.g2c, ← H.g2b, kv_bs2 H, V22_of m outs c main_arg4 (by decide), kvA m outs c main_arg4 (by decide), kv17 m c main_arg4 (by decide)]
  rfl

theorem kv_a2 : (kvAt00 (V29 m outs c main_v60)) = (Cert.Spec.kA2 (kvX m c) (kvW1 m c) (kvB1 m c) (kvW2 m c) (kvB2 m c)) := by
  rw [H.g3a, kv_v56_1_26 m outs c, H.p2s, kv_h2 H]
  rfl

theorem kv_bs3 : (kvAt00 (V29 m outs c main_v62)) = (Cert.Spec.kBs3 (kvX m c) (kvW1 m c) (kvB1 m c) (kvW2 m c) (kvB2 m c) (kvW3 m c)) := by
  rw [H.g3b, ← H.g3a, kv_a2 H, V26_of m outs c main_v18 (by decide), kvB m outs c main_v18 (by decide), kvA m outs c main_v18 (by decide), H.w3s]
  rfl

theorem kv_h3 : (outs 30 main_v68_0 c : Cert.Spec.Mat 1048576 32) = (Cert.Spec.kH3 (kvX m c) (kvW1 m c) (kvB1 m c) (kvW2 m c) (kvB2 m c) (kvW3 m c) (kvB3 m c)) := by
  rw [H.p3h, V29_of m outs c main_v56_0 (by decide), V28_of m outs c main_v56_0 (by decide), V27_of m outs c main_v56_0 (by decide), kv_v56_0_26 m outs c, kv_h2 H, kvC m outs c main_v50 (by decide), kv_bs2 H, kv_a2 H, kvC m outs c main_v23 (by decide), kvB m outs c main_v23 (by decide), kvA m outs c main_v23 (by decide), H.w3t, H.g3c, ← H.g3b, kv_bs3 H, V26_of m outs c main_arg6 (by decide), kvB m outs c main_arg6 (by decide), kvA m outs c main_arg6 (by decide), kv17 m c main_arg6 (by decide)]
  rfl

theorem kv_a3 : (kvAt00 (V33 m outs c main_v72)) = (Cert.Spec.kA3 (kvX m c) (kvW1 m c) (kvB1 m c) (kvW2 m c) (kvB2 m c) (kvW3 m c) (kvB3 m c)) := by
  rw [H.g4a, kv_v68_1_30 m outs c, H.p3s, kv_h3 H]
  rfl

theorem kv_bs4 : (kvAt00 (V33 m outs c main_v74)) = (Cert.Spec.kBs4 (kvX m c) (kvW1 m c) (kvB1 m c) (kvW2 m c) (kvB2 m c) (kvW3 m c) (kvB3 m c) (kvW4 m c)) := by
  rw [H.g4b, ← H.g4a, kv_a3 H, V30_of m outs c main_v26 (by decide), kvC m outs c main_v26 (by decide), kvB m outs c main_v26 (by decide), kvA m outs c main_v26 (by decide), H.w4s]
  rfl

theorem kv_lg : (outs 34 main_v80_0 c : Cert.Spec.Mat 1048576 5) = (Cert.Spec.kLogits (kvX m c) (kvW1 m c) (kvB1 m c) (kvW2 m c) (kvB2 m c) (kvW3 m c) (kvB3 m c) (kvW4 m c) (kvB4 m c)) := by
  rw [H.p4l, V33_of m outs c main_v68_0 (by decide), V32_of m outs c main_v68_0 (by decide), V31_of m outs c main_v68_0 (by decide), kv_v68_0_30 m outs c, kv_h3 H, kvD m outs c main_v62 (by decide), kv_bs3 H, kv_a3 H, kvD m outs c main_v31 (by decide), kvC m outs c main_v31 (by decide), kvB m outs c main_v31 (by decide), kvA m outs c main_v31 (by decide), H.w4t, H.g4c, ← H.g4b, kv_bs4 H, V30_of m outs c main_arg8 (by decide), kvC m outs c main_arg8 (by decide), kvB m outs c main_arg8 (by decide), kvA m outs c main_arg8 (by decide), kv17 m c main_arg8 (by decide)]
  rfl

theorem kv_ex : (outs 36 main_v83_0 c : Cert.Spec.Mat 1048576 5) = (Cert.Spec.kExp (kvX m c) (kvW1 m c) (kvB1 m c) (kvW2 m c) (kvB2 m c) (kvW3 m c) (kvB3 m c) (kvW4 m c) (kvB4 m c)) := by
  rw [H.p5e, V35_of m outs c main_v80_0 (by decide), kv_v80_0_34 m outs c, H.g5, kv_v80_1_34 m outs c, H.p4m, kv_lg H]
  rfl

theorem kv_cs : (outs 36 main_v83_1 c : Cert.Spec.Mat 16 5) = Cert.Spec.csArr (Cert.Spec.kExp (kvX m c) (kvW1 m c) (kvB1 m c) (kvW2 m c) (kvB2 m c) (kvW3 m c) (kvB3 m c) (kvW4 m c) (kvB4 m c)) := by
  rw [H.p5s, kv_ex H]

theorem kv_csr : (V37 m outs c main_v86 : Cert.Spec.Mat 1 5) = (Cert.Spec.kCs (kvX m c) (kvW1 m c) (kvB1 m c) (kvW2 m c) (kvB2 m c) (kvW3 m c) (kvB3 m c) (kvW4 m c) (kvB4 m c)) := by
  rw [H.g6a, kv_v83_1_36 m outs c, kv_cs H]
  rfl

theorem kv_af : (kvAt00 (V37 m outs c main_v91)) = (Cert.Spec.kAf (kvX m c) (kvW1 m c) (kvB1 m c) (kvW2 m c) (kvB2 m c) (kvW3 m c) (kvB3 m c) (kvW4 m c) (kvB4 m c)) := by
  rw [H.g6b, kv_v83_1_36 m outs c, kv_cs H]
  rfl

theorem kv_out : (outs 38 main_v92 c : Cert.Spec.Mat 1048576 5) = (Cert.Spec.kerOut (kvX m c) (kvW1 m c) (kvB1 m c) (kvW2 m c) (kvB2 m c) (kvW3 m c) (kvB3 m c) (kvW4 m c) (kvB4 m c)) := by
  rw [H.p6, V37_of m outs c main_v83_0 (by decide), kv_v83_0_36 m outs c, kv_ex H, kv_csr H, V37_of m outs c main_v74 (by decide), V36_of m outs c main_v74 (by decide), V35_of m outs c main_v74 (by decide), V34_of m outs c main_v74 (by decide), kv_bs4 H, kv_af H]
  rfl

theorem kv_chain : (V38 m outs c main_v92 : Cert.Spec.Mat 1048576 5) = (Cert.Spec.kerOut (kvX m c) (kvW1 m c) (kvB1 m c) (kvW2 m c) (kvB2 m c) (kvW3 m c) (kvB3 m c) (kvW4 m c) (kvB4 m c)) :=
  (kv_v92_38 m outs c).trans (kv_out H)

omit H

end KvChain

end Cert.KernelIdeal.Hand

end
-- ==== Proof.Consts.lean ====
import proofs.«411066_j83983790505988_3_alg».proof.Proof.Spec

noncomputable section

namespace Cert.Consts

open Idealize.ShloMosaic

theorem ofBits_nA : Ideal.ofBits .f32 0x46FFFE00#32 = Cert.Spec.nA := by
  simp [Ideal.ofBits, Ideal.ieee, Cert.Spec.nA, -EReal.coe_mul]; norm_num
theorem ofBits_nAlo : Ideal.ofBits .f32 0xC7000000#32 = Cert.Spec.nAlo := by
  simp [Ideal.ofBits, Ideal.ieee, Cert.Spec.nAlo, -EReal.coe_mul]; norm_num
theorem ofBits_nW : Ideal.ofBits .f32 0x42FE0000#32 = Cert.Spec.nW := by
  simp [Ideal.ofBits, Ideal.ieee, Cert.Spec.nW, -EReal.coe_mul]; norm_num
theorem ofBits_nWlo : Ideal.ofBits .f32 0xC3000000#32 = Cert.Spec.nWlo := by
  simp [Ideal.ofBits, Ideal.ieee, Cert.Spec.nWlo, -EReal.coe_mul]; norm_num
theorem ofBits_zero : Ideal.ofBits .f32 0x00000000#32 = Cert.Spec.zero := by
  simp [Ideal.ofBits, Ideal.ieee, Cert.Spec.zero]
theorem ofBits_six : Ideal.ofBits .f32 0x40C00000#32 = Cert.Spec.six := by
  simp [Ideal.ofBits, Ideal.ieee, Cert.Spec.six, -EReal.coe_mul]; norm_num
theorem ofBits_one : Ideal.ofBits .f32 0x3F800000#32 = Cert.Spec.one := by
  simp [Ideal.ofBits, Ideal.ieee, Cert.Spec.one, -EReal.coe_mul]; norm_num
theorem ofBits_ninf : Ideal.ofBits .f32 0xFF800000#32 = (⊥ : EReal) := by
  simp [Ideal.ofBits, Ideal.ieee]

end Cert.Consts

end
-- ==== Proof.ValLib.lean ====
import proofs.«411066_j83983790505988_3_alg».proof.Proof.Consts
import Idealize.ShloMosaic.Lib.ValueIdx
import Idealize.ShloMosaic.Lib.ValueLayout
import Idealize.ShloMosaic.Lib.Pipeline.Value
import Idealize.ShloMosaic.PureOps.Ideal.Laws
import Mathlib.Order.CompleteLattice.Finset
import Mathlib.Data.Finset.Fold

noncomputable section

namespace Cert.ValLib

open Idealize.ShloMosaic Idealize.ShloMosaic.ValueIdx

-- A maximum folded from the bottom over all indices is their supremum.
theorem fold_max_bot {ι : Type} [Fintype ι] (f : ι → EReal) : (Finset.univ : Finset ι).fold max ⊥ f = ⨆ i, f i := by
  rw [← Finset.sup_univ_eq_iSup]
  rfl

theorem range_sup_eq_iSup (n : ℕ) (f : ℕ → EReal) : (Finset.range n).sup f = ⨆ j : Fin n, f j.val :=
  le_antisymm (Finset.sup_le fun a ha => le_iSup_of_le ⟨a, Finset.mem_range.mp ha⟩ le_rfl)
    (iSup_le fun j => Finset.le_sup (f := f) (Finset.mem_range.mpr j.isLt))

-- A running maximum that restarts at the multiples of J is, at offset j of a run, the maximum of the run's first j + 1 terms.
theorem runmax (J N : ℕ) (T A : ℕ → EReal) (h0 : ∀ n, n < N → n % J = 0 → A n = T n)
    (hs : ∀ n, n + 1 < N → (n + 1) % J ≠ 0 → A (n + 1) = max (A n) (T (n + 1))) (q : ℕ) :
    ∀ j, j < J → J * q + j < N → A (J * q + j) = (Finset.range (j + 1)).sup fun i => T (J * q + i)
  | 0, _, hN => by
    rw [Finset.range_one, Finset.sup_singleton]
    exact h0 _ hN (Nat.mul_mod_right J q)
  | j + 1, hj, hN => by
    rw [Finset.range_add_one, Finset.sup_insert, ← runmax J N T A h0 hs q j (by omega) (by omega),
      show J * q + (j + 1) = J * q + j + 1 from rfl,
      hs (J * q + j) hN (by rw [Nat.add_assoc, Nat.mul_add_mod, Nat.mod_eq_of_lt hj]; exact Nat.succ_ne_zero j), max_comm]

-- The indices of a [1, a, b] array are its rows and columns.
theorem iSup_idx3 {a b : ℕ} (g : (⟨3, ![1, a, b]⟩ : Shape).Idx → EReal) :
    (⨆ i, g i) = ⨆ r : Fin a, ⨆ k : Fin b, g (ix3 (0 : Fin 1) r k) := by
  have hs : Function.Surjective fun p : Fin a × Fin b => (ix3 (0 : Fin 1) p.1 p.2 : (⟨3, ![1, a, b]⟩ : Shape).Idx) := fun i =>
    ⟨((i 1 : Fin a), (i 2 : Fin b)), by
      have h0 : (i 0 : Fin 1) = (0 : Fin 1) := Fin.ext (by have h := (i 0).isLt; change (i 0).val < 1 at h; change (i 0).val = 0; omega)
      exact (congrArg (fun z : Fin 1 => (ix3 z (i 1 : Fin a) (i 2 : Fin b) : (⟨3, ![1, a, b]⟩ : Shape).Idx)) h0.symm).trans (eq_ix3 i).symm⟩
  rw [← hs.iSup_comp, iSup_prod]

-- A rows-by-columns product into the zero accumulator, at an entry, is the sum over the contracted axis.
theorem matmul_plain_apply (M K N : ℕ) (prec : Option ContractPrecision) (l : FVec Ideal ⟨2, ![M, K]⟩ .f32)
    (r : FVec Ideal ⟨2, ![K, N]⟩ .f32) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  rw [show (DotDims.plain M K N).lhsIdx (ix2 p q) ((contrEquiv1 (DotDims.plain M K N) K rfl rfl).symm k) = ix2 p k from
      Shape.idx_ext₂ rfl hk,
    show (DotDims.plain M K N).rhsIdx (ix2 p q) ((contrEquiv1 (DotDims.plain M K N) K rfl rfl).symm k) = ix2 k q from
      Shape.idx_ext₂ hk rfl]

-- A one-entry index has one value.
theorem idx1_unique (x y : (⟨1, ![1]⟩ : Shape).Idx) : x = y := funext fun b => Fin.ext (by
  have h1 := (x b).isLt
  have h2 := (y b).isLt
  have hb : (⟨1, ![1]⟩ : Shape).size b = 1 := by match b with | ⟨0, _⟩ => rfl
  omega)

-- The largest magnitude of an [a, b] array, taken by one reduction of its [1, a, b] reshape over both long axes.
theorem peak_apply {a b : ℕ} (T : FVec Ideal ⟨2, ![a, b]⟩ .f32) (hc : (⟨2, ![a, b]⟩ : Shape).ShapeCasts ⟨3, ![1, a, b]⟩)
    (hr : (⟨3, ![1, a, b]⟩ : Shape).Reduces [1, 2] ⟨1, ![1]⟩) (hc' : (⟨1, ![1]⟩ : Shape).ShapeCasts ⟨3, ![1, 1, 1]⟩)
    (j : (⟨3, ![1, 1, 1]⟩ : Shape).Idx) :
    shapeCast ⟨3, ![1, 1, 1]⟩ (multiReduction .maximumf [1, 2] ⟨1, ![1]⟩ (shapeCast ⟨3, ![1, a, b]⟩ (absf T) hc) 0xFF800000#32 hr (.inl rfl) rfl) hc' j
      = ⨆ p : Fin a, ⨆ q : Fin b, Cert.Spec.absE (T (ix2 p q)) := by
  refine (multiReduction_maximumf_eq_fold _ _ hr _ _ _).trans ?_
  rw [Finset.filter_true_of_mem fun i _ => idx1_unique _ _,
    show (FloatOps.ofBits .f32 0xFF800000#32 : Ideal .f32) = (⊥ : EReal) from Cert.Consts.ofBits_ninf]
  refine (fold_max_bot _).trans ((iSup_idx3 _).trans (iSup_congr fun p => iSup_congr fun q => ?_))
  rw [shapeCast_ab_1ab_apply]
  rfl

end Cert.ValLib

end
-- ==== Proof.KI.Val0.lean ====
import proofs.«411066_j83983790505988_3_alg».proof.Proof.KI.Reg0
import proofs.«411066_j83983790505988_3_alg».proof.Proof.Consts
import proofs.«411066_j83983790505988_3_alg».proof.Proof.ValLib
import proofs.«411066_j83983790505988_3_alg».proof.Proof.Spec
import Idealize.ShloMosaic.PureOps.Ideal.Laws
import Idealize.ShloMosaic.Lib.ValueIdx
import Idealize.ShloMosaic.Lib.ValueLayout
import Idealize.ShloMosaic.Lib.Pipeline.Value
import Mathlib.Data.Finset.Fold

set_option maxRecDepth 16384

noncomputable section

namespace Cert.KernelIdeal.Hand

open Cert.ValLib

open Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

def tileMax0 (x0 : Vec Ideal S8192x16 .f32) : EReal :=
  ⨆ r : Fin 8192, ⨆ k : Fin 16, Cert.Spec.absE (x0 (ix2 r k))

theorem pay0_1_apply (x0 : Vec Ideal S8192x16 .f32) (y : S8x1.Idx) :
    k0_pay1 (F := Ideal) x0 y = tileMax0 x0 := by
  unfold k0_pay1
  dsimp only []
  rw [broadcastTo_apply _ _ y (ix2 (0 : Fin 1) (0 : Fin 1)) (by intro a; match a with | ⟨0, _⟩ => rfl | ⟨1, _⟩ => rfl)]
  rw [shapeCast_self, broadcast_apply]
  exact peak_apply x0 _ _ _ _

theorem outA0_apply (x0 : Vec Ideal S8192x16 .f32) (y : S8x1.Idx) : outA0 (F := Ideal) x0 y = tileMax0 x0 := by
  unfold outA0
  rw [View.canon_unit_zero hz0, View.ld_unit_zero (S := S8192x16) hz0]
  exact pay0_1_apply x0 y

theorem outB0_apply (x0 : Vec Ideal S8192x16 .f32) (xo : Vec Ideal S8x1 .f32) (y : S8x1.Idx) :
    outB0 (F := Ideal) x0 xo y = max (xo y) (tileMax0 x0) := by
  unfold outB0
  rw [View.canon_unit_zero hz0, View.ld_unit_zero (S := S8192x16) hz0, View.ld_unit_zero (S := S8x1) hz0]
  unfold k0_pay2
  rw [shapeCast_self, maximumf_apply, pay0_1_apply]

def tileAt0 (c : Dev nD) (n : ℕ) : EReal :=
  if h : n < cfg0.N then tileMax0 (iblk0 V c 0 ⟨n, h⟩) else ⊥

private theorem acc0_congr (c : Dev nD) {n n' : ℕ} (e : n = n') (h : n < cfg0.N) (h' : n' < cfg0.N) :
    acc0 V c n h = acc0 V c n' h' := by subst e; rfl

theorem acc0_apply (c : Dev nD) (q : ℕ) : ∀ (j : ℕ) (hj : j < 64) (h : q * 64 + j < cfg0.N) (y : S8x1.Idx),
    acc0 V c (q * 64 + j) h y = (Finset.range (j + 1)).sup fun j' => tileAt0 V c (q * 64 + j')
  | 0, _, h, y => by
    rw [acc0_A V c ⟨q * 64 + 0, h⟩ (by show (q * 64 + 0) % 64 = 0; omega), outA0_apply]
    rw [Finset.range_one, Finset.sup_singleton]
    unfold tileAt0; rw [dif_pos h]
  | j + 1, hj, h, y => by
    have hN : cfg0.N = 128 := N_0
    have hB : ¬ (⟨q * 64 + (j + 1), h⟩ : Fin cfg0.N).val % 64 = 0 := by show ¬ (q * 64 + (j + 1)) % 64 = 0; omega
    rw [acc0_B V c ⟨q * 64 + (j + 1), h⟩ hB, outB0_apply]
    rw [acc0_congr V c (show (⟨q * 64 + (j + 1), h⟩ : Fin cfg0.N).val - 1 = q * 64 + j from by show q * 64 + (j + 1) - 1 = q * 64 + j; omega) _ (by omega)]
    rw [acc0_apply c q j (by omega) _ y, Finset.range_add_one (n := j + 1), Finset.sup_insert]
    have e : tileAt0 V c (q * 64 + (j + 1)) = tileMax0 (iblk0 V c 0 ⟨q * 64 + (j + 1), h⟩) := by unfold tileAt0; rw [dif_pos h]
    rw [e]
    exact max_comm _ _

theorem idx_facts0 : ∀ t : Fin cfg0.N, win0_0.index t (0 : Fin 2) = t.val ∧ win0_0.index t (1 : Fin 2) = 0
    ∧ win0_1.index t (0 : Fin 2) = t.val / 64 ∧ win0_1.index t (1 : Fin 2) = 0 :=
  (by decide +kernel : ∀ t : Fin grid0.N, _)

theorem iblk0_apply (c : Dev nD) (t : Fin cfg0.N) (r : Fin 8192) (k : Fin 16) (i : Fin 1048576) (hi : i.val = t.val * 8192 + r.val) :
    (iblk0 V c 0 t : Vec Ideal S8192x16 .f32) (ix2 r k) = (V c main_arg0 : Cert.Spec.Mat 1048576 16) (ix2 i k) :=
  congrArg (V c main_arg0) (Shape.idx_ext₂ ((win0_0.rect_emb_val t _ 0).trans (by rw [(idx_facts0 t).1, hi]; rfl))
    (win0_0.rect_emb_val_of_index_zero t 1 (idx_facts0 t).2.1 _))

theorem tileAt0_eq (c : Dev nD) (q : Fin 2) (j : Fin 64) :
    tileAt0 V c (q.val * 64 + j.val) = ⨆ r : Fin 8192, ⨆ k : Fin 16,
      Cert.Spec.absE ((V c main_arg0 : Cert.Spec.Mat 1048576 16) (ix2 (Cert.Spec.rowOf (Cert.Spec.tileOf q j) r) k)) := by
  have hN : cfg0.N = 128 := N_0
  have h : q.val * 64 + j.val < cfg0.N := by have := q.isLt; have := j.isLt; omega
  unfold tileAt0; rw [dif_pos h]
  unfold tileMax0
  refine iSup_congr fun r => iSup_congr fun k => ?_
  rw [iblk0_apply V c ⟨_, h⟩ r k (Cert.Spec.rowOf (Cert.Spec.tileOf q j) r) rfl]

theorem satArr0_apply (h : Cert.Spec.Mat 1048576 16) (i : (⟨2, ![16, 1]⟩ : Shape).Idx) (q : Fin 2) (hq : q.val = (i 0).val / 8) :
    Cert.Spec.satArr h i = ⨆ j : Fin 64, ⨆ r : Fin 8192, ⨆ k : Fin 16,
      Cert.Spec.absE (h (ix2 (Cert.Spec.rowOf (Cert.Spec.tileOf q j) r) k)) := by
  have e : Cert.Spec.coreOf (i 0) = q := Fin.ext hq.symm
  show Cert.Spec.coreAmax h (Cert.Spec.coreOf (i 0)) = _
  rw [e]
  rfl

theorem flushed0_eq (c : Dev nD) (t : Fin cfg0.N) (hf : (cfg0.win 1).flush t = true) :
    (dat0 (F := Ideal) V c).flushed 1 t
      = ((cfg0.win 1).blk t).view.read (Elt Ideal) (Cert.Spec.satArr (V c main_arg0 : Cert.Spec.Mat 1048576 16)) := by
  have hN : cfg0.N = 128 := N_0
  have h63 : t.val % 64 = 63 := (flush0_1 t).mp hf
  have ht := t.isLt
  obtain ⟨-, -, e2, e3⟩ := idx_facts0 t
  show (cfg0.win 1).cut (grid0.coords t) ((dat0 V c).after 1 t) = _
  rw [after0_1]
  funext y
  show acc0 V c t.val t.isLt y = Cert.Spec.satArr (V c main_arg0 : Cert.Spec.Mat 1048576 16) (((cfg0.win 1).blk t).view.emb y)
  have hq : t.val / 64 < 2 := by omega
  rw [acc0_congr V c (show t.val = (t.val / 64) * 64 + 63 by omega) t.isLt (by omega)]
  rw [acc0_apply V c (t.val / 64) 63 (by omega) _ y, range_sup_eq_iSup]
  refine Eq.trans ?_ (satArr0_apply (V c main_arg0 : Cert.Spec.Mat 1048576 16) (((cfg0.win 1).blk t).view.emb y) ⟨t.val / 64, hq⟩ ?_).symm
  · exact iSup_congr fun j => tileAt0_eq V c ⟨t.val / 64, hq⟩ j
  · show t.val / 64 = (win0_1.index t (0 : Fin 2) * 8 + 1 * (y 0).val) / 8
    have : (y 0).val < 8 := (y 0).isLt
    rw [e2]; omega

theorem cover0 (c : Dev nD) (i : ((cfg0.win 1).arr.view.loc (c.tc : Thread nD τ)).2.ty.Idx) :
    ∃ t : Fin cfg0.N, (cfg0.win 1).flush t = true ∧ i ∈ ((cfg0.win 1).blk t).view.set := by
  have h0 : (i 0).val < 16 := (i 0).isLt
  obtain ⟨t, ht⟩ : ∃ t : Fin cfg0.N, t.val = 64 * ((i 0).val / 8) + 63 := ⟨⟨_, by rw [show cfg0.N = 128 from N_0]; omega⟩, rfl⟩
  exact ⟨t, (flush0_1 t).mpr (by rw [ht]; omega), Finset.mem_map.mpr ⟨ix2 ⟨(i 0).val % 8, Nat.mod_lt _ (by decide)⟩ (i 1), Finset.mem_univ _,
    Shape.idx_ext₂ ((win0_1.rect_emb_val t _ 0).trans (by
        rw [(idx_facts0 t).2.2.1, ht]; show (64 * ((i 0).val / 8) + 63) / 64 * 8 + (i 0).val % 8 = _; omega))
      (win0_1.rect_emb_val_of_index_zero t 1 (idx_facts0 t).2.2.2 _)⟩⟩

theorem val0_sat (c : Dev nD) :
    (dat0 (F := Ideal) V c).arrAt 1 cfg0.N = Cert.Spec.satArr (V c main_arg0 : Cert.Spec.Mat 1048576 16) :=
  (dat0 (F := Ideal) V c).arrAt_eq_of_cover 1 (Cert.Spec.satArr (V c main_arg0 : Cert.Spec.Mat 1048576 16))
    (flushed0_eq V c) (cover0 c)

end Cert.KernelIdeal.Hand

end
-- ==== Proof.KI.Val1.lean ====
import proofs.«411066_j83983790505988_3_alg».proof.Proof.KI.Reg1
import proofs.«411066_j83983790505988_3_alg».proof.Proof.ValLib
import proofs.«411066_j83983790505988_3_alg».proof.Proof.Spec
import proofs.«411066_j83983790505988_3_alg».proof.Proof.Consts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.ValLib

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem hz2_1 : (![0, 0] : Fin 2 → Nat) = fun _ => 0 := funext fun a => by fin_cases a <;> rfl

abbrev D1 := dot_S8192x16_S16x64_S8192x64_1_0_0_1_n_n

theorem matmul1_apply (prec : Option ContractPrecision) (l : FVec Ideal S8192x16 .f32) (r : FVec Ideal S16x64 .f32) (p : Fin 8192) (q : Fin 64) :
    FloatOps.matmul D1 prec l r (constant S8192x64 .f32 0x00000000#32) (ix2 p q) = ∑ k : Fin 16, l (ix2 p k) * r (ix2 k q) :=
  matmul_plain_apply 8192 16 64 prec l r p q

theorem act1_apply (x0 : Vec Ideal S8192x16 .f32) (x1 x2 : Vec Ideal S1x1 .f32) (x3 : Vec Ideal S16x64 .f32) (x4 : Vec Ideal S1x64 .f32)
    (r : Fin 8192) (j : Fin 64) :
    act1 x0 x1 x2 x3 x4 (ix2 r j)
      = Cert.Spec.relu6 (((∑ k : Fin 16, Cert.Spec.clipE Cert.Spec.nAlo Cert.Spec.nA (Cert.Spec.rnd (Ideal.div (x0 (ix2 r k)) (x1 (ix2 0 0)))) * x3 (ix2 k j))
          + x4 (ix2 0 j)) * x2 (ix2 0 0)) := by
  unfold act1 k1_pay2
  simp only [View.ld_unit_zero (S := S8192x16) hz2_1, View.ld_unit_zero (S := S1x1) hz2_1, View.ld_unit_zero (S := S16x64) hz2_1,
    View.ld_unit_zero (S := S1x64) hz2_1, shapeCast_self]
  rw [minimumf_apply, maximumf_apply, mulf_apply, addf_apply]
  simp only [broadcast_apply, matmul]
  rw [matmul1_apply, broadcastTo_1b_ab_apply]
  unfold Cert.Spec.relu6 Cert.Spec.clipE
  rw [← Cert.Consts.ofBits_six, ← Cert.Consts.ofBits_zero]
  have hx1 : extractAt ![0, 0] x1 inpos_S1x1_p0_0 = x1 (ix2 0 0) := congrArg x1 (Shape.idx_ext₂ rfl rfl)
  have hx2 : extractAt ![0, 0] x2 inpos_S1x1_p0_0 = x2 (ix2 0 0) := congrArg x2 (Shape.idx_ext₂ rfl rfl)
  rw [hx2]
  refine congrArg (fun s => min _ (max _ ((s + _) * _))) (Finset.sum_congr rfl fun k _ => ?_)
  rw [minimumf_apply, maximumf_apply]
  simp only [broadcast_apply]
  rw [hx1, ← Cert.Consts.ofBits_nA, ← Cert.Consts.ofBits_nAlo]
  rfl

theorem tile1_apply (x0 : Vec Ideal S8192x16 .f32) (x1 x2 : Vec Ideal S1x1 .f32) (x3 : Vec Ideal S16x64 .f32) (x4 : Vec Ideal S1x64 .f32)
    (y : S8x1.Idx) :
    tile1 x0 x1 x2 x3 x4 y = ⨆ r : Fin 8192, ⨆ k : Fin 64, Cert.Spec.absE (act1 x0 x1 x2 x3 x4 (ix2 r k)) := by
  unfold tile1 k1_pay3
  obtain ⟨p, q, rfl⟩ : ∃ (p : Fin 8) (q : Fin 1), y = ix2 p q := ⟨y 0, y 1, eq_ix2 y⟩
  rw [broadcastTo_1b_ab_apply, shapeCast_self, broadcast_apply]
  exact peak_apply _ _ _ _ (ix3 0 0 0)

theorem idx1_0 : ∀ t : Fin cfg1.N, win1_0.index t 0 = t.val ∧ win1_0.index t 1 = 0 :=
  (by decide +kernel : ∀ t : Fin grid1.N, win1_0.index t 0 = t.val ∧ win1_0.index t 1 = 0)
theorem idxZ1 : ∀ (t : Fin cfg1.N) (a : Fin 2), win1_1.index t a = 0 ∧ win1_2.index t a = 0 ∧ win1_3.index t a = 0 ∧ win1_4.index t a = 0 :=
  (by decide +kernel : ∀ (t : Fin grid1.N) (a : Fin 2), _)
theorem idx1_5 : ∀ t : Fin cfg1.N, win1_5.index t 0 = t.val ∧ win1_5.index t 1 = 0 :=
  (by decide +kernel : ∀ t : Fin grid1.N, win1_5.index t 0 = t.val ∧ win1_5.index t 1 = 0)
theorem idx1_6 : ∀ t : Fin cfg1.N, win1_6.index t 0 = t.val / 64 ∧ win1_6.index t 1 = 0 :=
  (by decide +kernel : ∀ t : Fin grid1.N, win1_6.index t 0 = t.val / 64 ∧ win1_6.index t 1 = 0)

theorem lt1_rows (t : Fin cfg1.N) (r : Fin 8192) : t.val * 8192 + r.val < 1048576 := by
  have hN : t.val < 128 := lt_of_lt_of_eq t.isLt (show cfg1.N = 128 from N_1)
  have := r.isLt; omega

theorem blk1_5_apply (c : Dev nD) (A : Buf (Elt Ideal) ((c : Thread nD τ).loc main_v44_0)) (t : Fin cfg1.N) (r : Fin 8192) (k : Fin 64) :
    (((cfg1.win 5).blk t).view.read (Elt Ideal) A : Vec Ideal S8192x64 .f32) (ix2 r k) = (A : Cert.Spec.Mat 1048576 64) (ix2 ⟨t.val * 8192 + r.val, lt1_rows t r⟩ k) :=
  congrArg A (Shape.idx_ext₂ ((win1_5.rect_emb_val t _ 0).trans (by rw [(idx1_5 t).1]; rfl))
    (win1_5.rect_emb_val_of_index_zero t 1 (idx1_5 t).2 _))

theorem lt1_acc (t : Fin cfg1.N) (r : Fin 8) : t.val / 64 * 8 + r.val < 16 := by
  have hN : t.val < 128 := lt_of_lt_of_eq t.isLt (show cfg1.N = 128 from N_1)
  have := r.isLt; omega

theorem blk1_6_apply (c : Dev nD) (A : Buf (Elt Ideal) ((c : Thread nD τ).loc main_v44_1)) (t : Fin cfg1.N) (r : Fin 8) (k : Fin 1) :
    (((cfg1.win 6).blk t).view.read (Elt Ideal) A : Vec Ideal S8x1 .f32) (ix2 r k) = (A : Cert.Spec.Mat 16 1) (ix2 ⟨t.val / 64 * 8 + r.val, lt1_acc t r⟩ k) :=
  congrArg A (Shape.idx_ext₂ ((win1_6.rect_emb_val t _ 0).trans (by rw [(idx1_6 t).1]; rfl))
    (win1_6.rect_emb_val_of_index_zero t 1 (idx1_6 t).2 _))

variable (V : (c : Dev nD) → (b : Ref sig .tc) → Buf (Elt Ideal) ((c : Thread nD τ).loc b))

abbrev H1 (c : Dev nD) : Cert.Spec.Mat Cert.Spec.B 64 :=
  Cert.Spec.pass1 (V c main_arg0) (V c main_v36 (ix2 0 0)) (V c main_v38 (ix2 0 0)) (V c main_v7) (V c main_v43)

theorem iblk1_0_apply (c : Dev nD) (t : Fin cfg1.N) (r : Fin 8192) (k : Fin 16) :
    (iblk1 V c 0 t : Vec Ideal S8192x16 .f32) (ix2 r k) = (V c main_arg0 : Cert.Spec.Mat 1048576 16) (ix2 ⟨t.val * 8192 + r.val, lt1_rows t r⟩ k) :=
  congrArg (V c main_arg0) (Shape.idx_ext₂ ((win1_0.rect_emb_val t _ 0).trans (by rw [(idx1_0 t).1]; rfl))
    (win1_0.rect_emb_val_of_index_zero t 1 (idx1_0 t).2 _))
theorem iblk1_1_apply (c : Dev nD) (t : Fin cfg1.N) (r : Fin 1) (k : Fin 1) :
    (iblk1 V c 1 t : Vec Ideal S1x1 .f32) (ix2 r k) = (V c main_v36 : Cert.Spec.Mat 1 1) (ix2 r k) :=
  congrArg (V c main_v36) (funext fun a => Fin.ext (win1_1.rect_emb_val_of_index_zero t a (idxZ1 t a).1 _))
theorem iblk1_2_apply (c : Dev nD) (t : Fin cfg1.N) (r : Fin 1) (k : Fin 1) :
    (iblk1 V c 2 t : Vec Ideal S1x1 .f32) (ix2 r k) = (V c main_v38 : Cert.Spec.Mat 1 1) (ix2 r k) :=
  congrArg (V c main_v38) (funext fun a => Fin.ext (win1_2.rect_emb_val_of_index_zero t a (idxZ1 t a).2.1 _))
theorem iblk1_3_apply (c : Dev nD) (t : Fin cfg1.N) (r : Fin 16) (k : Fin 64) :
    (iblk1 V c 3 t : Vec Ideal S16x64 .f32) (ix2 r k) = (V c main_v7 : Cert.Spec.Mat 16 64) (ix2 r k) :=
  congrArg (V c main_v7) (funext fun a => Fin.ext (win1_3.rect_emb_val_of_index_zero t a (idxZ1 t a).2.2.1 _))
theorem iblk1_4_apply (c : Dev nD) (t : Fin cfg1.N) (r : Fin 1) (k : Fin 64) :
    (iblk1 V c 4 t : Vec Ideal S1x64 .f32) (ix2 r k) = (V c main_v43 : Cert.Spec.Mat 1 64) (ix2 r k) :=
  congrArg (V c main_v43) (funext fun a => Fin.ext (win1_4.rect_emb_val_of_index_zero t a (idxZ1 t a).2.2.2 _))

theorem act1_blocks_apply (c : Dev nD) (t : Fin cfg1.N) (r : Fin 8192) (j : Fin 64) :
    act1 (iblk1 V c 0 t) (iblk1 V c 1 t) (iblk1 V c 2 t) (iblk1 V c 3 t) (iblk1 V c 4 t) (ix2 r j)
      = H1 V c (ix2 ⟨t.val * 8192 + r.val, lt1_rows t r⟩ j) := by
  rw [act1_apply]
  simp only [iblk1_0_apply, iblk1_1_apply, iblk1_2_apply, iblk1_3_apply, iblk1_4_apply]
  rfl

theorem actAt1_apply (c : Dev nD) (t : Fin cfg1.N) (r : Fin 8192) (j : Fin 64) :
    actAt1 V c t (ix2 r j) = H1 V c (ix2 ⟨t.val * 8192 + r.val, lt1_rows t r⟩ j) := by
  unfold actAt1 out1_5
  rw [View.canon_unit_zero hz2_1]
  exact act1_blocks_apply V c t r j

theorem flushed1_5 (c : Dev nD) (t : Fin cfg1.N) (hf : (cfg1.win 5).flush t = true) :
    (dat1 V c).flushed 5 t = ((cfg1.win 5).blk t).view.read (Elt Ideal) (H1 V c) := by
  funext y
  obtain ⟨r, j, rfl⟩ : ∃ (r : Fin 8192) (j : Fin 64), y = ix2 r j := ⟨y 0, y 1, eq_ix2 y⟩
  show (cfg1.win 5).cut (grid1.coords t) ((dat1 V c).after 5 t) (ix2 r j) = _
  rw [after1_5]
  show actAt1 V c t (ix2 r j) = _
  rw [actAt1_apply]
  exact (blk1_5_apply c (H1 V c) t r j).symm

theorem cover1_5_arr (c : Dev nD) (i : ((cfg1.win 5).arr.view.loc (c.tc : Thread nD τ)).2.ty.Idx) :
    ∃ t : Fin cfg1.N, (cfg1.win 5).flush t = true ∧ i ∈ ((cfg1.win 5).blk t).view.set := by
  have h0 : (i 0).val < 1048576 := (i 0).isLt
  obtain ⟨t, ht⟩ : ∃ t : Fin cfg1.N, t.val = (i 0).val / 8192 := ⟨⟨_, by rw [show cfg1.N = 128 from N_1]; omega⟩, rfl⟩
  exact ⟨t, flush1_5 t, Finset.mem_map.mpr ⟨ix2 ⟨(i 0).val % 8192, Nat.mod_lt _ (by decide)⟩ (i 1), Finset.mem_univ _,
    Shape.idx_ext₂ ((win1_5.rect_emb_val t _ 0).trans (by
        rw [(idx1_5 t).1, ht]; show (i 0).val / 8192 * 8192 + (i 0).val % 8192 = _; omega))
      (win1_5.rect_emb_val_of_index_zero t 1 (idx1_5 t).2 _)⟩⟩

theorem val1_h (c : Dev nD) : (dat1 (F := Ideal) V c).arrAt 5 cfg1.N
    = Cert.Spec.pass1 (V c main_arg0) (V c main_v36 (ix2 0 0)) (V c main_v38 (ix2 0 0)) (V c main_v7) (V c main_v43) :=
  (dat1 V c).arrAt_eq_of_cover 5 (H1 V c) (flushed1_5 V c) (cover1_5_arr c)

def tv1 (c : Dev nD) (n : ℕ) : EReal :=
  if h : n < cfg1.N then ⨆ r : Fin 8192, ⨆ k : Fin 64, Cert.Spec.absE (H1 V c (ix2 ⟨n * 8192 + r.val, lt1_rows ⟨n, h⟩ r⟩ k)) else ⊥

def accv1 (c : Dev nD) (y : S8x1.Idx) (n : ℕ) : EReal :=
  if h : n < cfg1.N then accAt1 V c n h y else ⊥

theorem tileAt1_apply (c : Dev nD) (t : Fin cfg1.N) (y : S8x1.Idx) : tileAt1 V c t y = tv1 V c t.val := by
  unfold tileAt1 tv1
  rw [tile1_apply, dif_pos t.isLt]
  exact iSup_congr fun r => iSup_congr fun k => congrArg Cert.Spec.absE (act1_blocks_apply V c t r k)

theorem accv1_reset (c : Dev nD) (y : S8x1.Idx) (n : ℕ) (hn : n < cfg1.N) (h0 : n % 64 = 0) : accv1 V c y n = tv1 V c n := by
  unfold accv1
  rw [dif_pos hn, accAt1_A V c ⟨n, hn⟩ h0]
  unfold out1_6A
  rw [View.canon_unit_zero hz2_1]
  exact tileAt1_apply V c ⟨n, hn⟩ y

theorem accv1_step (c : Dev nD) (y : S8x1.Idx) (n : ℕ) (hn : n + 1 < cfg1.N) (h0 : (n + 1) % 64 ≠ 0) :
    accv1 V c y (n + 1) = max (accv1 V c y n) (tv1 V c (n + 1)) := by
  unfold accv1
  rw [dif_pos hn, dif_pos (Nat.lt_of_succ_lt hn), accAt1_B V c ⟨n + 1, hn⟩ h0]
  unfold out1_6B
  rw [View.canon_unit_zero hz2_1]
  unfold k1_pay1
  rw [maximumf_apply, shapeCast_self, View.ld_unit_zero (S := S8x1) hz2_1]
  exact congrArg (max _) (tileAt1_apply V c ⟨n + 1, hn⟩ y)

theorem accAt1_last (c : Dev nD) (t : Fin cfg1.N) (h63 : t.val % 64 = 63) (y : S8x1.Idx) :
    accAt1 V c t.val t.isLt y = ⨆ j : Fin 64, tv1 V c (64 * (t.val / 64) + j.val) := by
  have hN : t.val < 128 := lt_of_lt_of_eq t.isLt (show cfg1.N = 128 from N_1)
  have ht : t.val = 64 * (t.val / 64) + 63 := by omega
  have h := runmax 64 cfg1.N (tv1 V c) (accv1 V c y) (accv1_reset V c y) (accv1_step V c y) (t.val / 64) 63 (by omega)
    (by rw [← ht]; exact t.isLt)
  rw [← ht, range_sup_eq_iSup 64 (fun i => tv1 V c (64 * (t.val / 64) + i))] at h
  rw [← h]
  unfold accv1
  rw [dif_pos t.isLt]

theorem lt1_tile (q : ℕ) (hq : q < 2) (j : Fin 64) : 64 * q + j.val < cfg1.N := by
  rw [show cfg1.N = 128 from N_1]; have := j.isLt; omega

theorem flushed1_6 (c : Dev nD) (t : Fin cfg1.N) (hf : (cfg1.win 6).flush t = true) :
    (dat1 V c).flushed 6 t = ((cfg1.win 6).blk t).view.read (Elt Ideal) (Cert.Spec.satArr (H1 V c)) := by
  have hN : t.val < 128 := lt_of_lt_of_eq t.isLt (show cfg1.N = 128 from N_1)
  have h63 : t.val % 64 = 63 := (flush1_6 t).mp hf
  funext y
  obtain ⟨r, k, rfl⟩ : ∃ (r : Fin 8) (k : Fin 1), y = ix2 r k := ⟨y 0, y 1, eq_ix2 y⟩
  show (cfg1.win 6).cut (grid1.coords t) ((dat1 V c).after 6 t) (ix2 r k) = _
  rw [after1_6]
  show accAt1 V c t.val t.isLt (ix2 r k) = _
  rw [accAt1_last V c t h63]
  refine Eq.trans ?_ (blk1_6_apply c (Cert.Spec.satArr (H1 V c)) t r k).symm
  show _ = Cert.Spec.coreAmax (H1 V c) (Cert.Spec.coreOf ⟨t.val / 64 * 8 + r.val, lt1_acc t r⟩)
  unfold Cert.Spec.coreAmax
  refine iSup_congr fun j => ?_
  unfold tv1
  rw [dif_pos (lt1_tile (t.val / 64) (by omega) j)]
  refine iSup_congr fun r' => iSup_congr fun k' => congrArg (fun i => Cert.Spec.absE (H1 V c (ix2 i k'))) (Fin.ext ?_)
  show (64 * (t.val / 64) + j.val) * 8192 + r'.val = ((t.val / 64 * 8 + r.val) / 8 * 64 + j.val) * 8192 + r'.val
  have := r.isLt
  have : (t.val / 64 * 8 + r.val) / 8 = t.val / 64 := by omega
  rw [this]; ring

theorem cover1_6_arr (c : Dev nD) (i : ((cfg1.win 6).arr.view.loc (c.tc : Thread nD τ)).2.ty.Idx) :
    ∃ t : Fin cfg1.N, (cfg1.win 6).flush t = true ∧ i ∈ ((cfg1.win 6).blk t).view.set := by
  have h0 : (i 0).val < 16 := (i 0).isLt
  obtain ⟨t, ht⟩ : ∃ t : Fin cfg1.N, t.val = 64 * ((i 0).val / 8) + 63 := ⟨⟨_, by rw [show cfg1.N = 128 from N_1]; omega⟩, rfl⟩
  exact ⟨t, (flush1_6 t).mpr (by rw [ht]; omega), Finset.mem_map.mpr ⟨ix2 ⟨(i 0).val % 8, Nat.mod_lt _ (by decide)⟩ (i 1), Finset.mem_univ _,
    Shape.idx_ext₂ ((win1_6.rect_emb_val t _ 0).trans (by
        rw [(idx1_6 t).1, ht]; show (64 * ((i 0).val / 8) + 63) / 64 * 8 + (i 0).val % 8 = _; omega))
      (win1_6.rect_emb_val_of_index_zero t 1 (idx1_6 t).2 _)⟩⟩

theorem val1_sat (c : Dev nD) : (dat1 (F := Ideal) V c).arrAt 6 cfg1.N
    = Cert.Spec.satArr (Cert.Spec.pass1 (V c main_arg0) (V c main_v36 (ix2 0 0)) (V c main_v38 (ix2 0 0)) (V c main_v7) (V c main_v43)) :=
  (dat1 V c).arrAt_eq_of_cover 6 (Cert.Spec.satArr (H1 V c)) (flushed1_6 V c) (cover1_6_arr c)

end Cert.KernelIdeal.Hand

end
-- ==== Proof.KI.Val2.lean ====
import proofs.«411066_j83983790505988_3_alg».proof.Proof.KI.Reg2
import proofs.«411066_j83983790505988_3_alg».proof.Proof.ValLib
import proofs.«411066_j83983790505988_3_alg».proof.Proof.Spec
import proofs.«411066_j83983790505988_3_alg».proof.Proof.Consts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.ValLib

open Cert.KernelIdeal.Gen
open Idealize.ShloMosaic Idealize.ShloMosaic.TcCoe Idealize.ShloMosaic.ValueIdx
open Idealize.SL.Sem
open Idealize.ShloMosaic.Pipeline (Dat)
open Cert.Spec (nA nAlo six zero rnd clipE relu6 absE)

theorem matmul2_apply (l : FVec Ideal S8192x64 .f32) (r : FVec Ideal S64x32 .f32) (p : Fin 8192) (q : Fin 32) :
    matmul dot_S8192x64_S64x32_S8192x32_1_0_0_1_n_n (some .fp32) l r (constant S8192x32 .f32 0x00000000#32) (ix2 p q)
      = ∑ k : Fin 64, l (ix2 p k) * r (ix2 k q) :=
  matmul_plain_apply 8192 64 32 _ l r p q

private theorem roundeven_apply {s : Shape} (a : FVec Ideal s .f32) (i : s.Idx) : roundeven a i = rnd (a i) := rfl
private theorem extract1x1 (x : Vec Ideal S1x1 .f32) (h : ∀ a, (![0, 0] : Fin 2 → Nat) a < S1x1.size a) :
    extractAt ![0, 0] x h = x (ix2 0 0) :=
  congrArg x (funext fun a => by match a with | ⟨0, _⟩ => rfl | ⟨1, _⟩ => rfl)

def tileSpec2 (x0 : Vec Ideal S8192x64 .f32) (x1 x2 x3 : Vec Ideal S1x1 .f32) (x4 : Vec Ideal S64x32 .f32) (x5 : Vec Ideal S1x32 .f32)
    (p : Fin 8192) (q : Fin 32) : EReal :=
  relu6 (((∑ k : Fin 64, clipE nAlo nA (rnd (rnd (Ideal.div (x0 (ix2 p k)) (x1 (ix2 0 0))) * Ideal.div (x1 (ix2 0 0)) (x2 (ix2 0 0)))) * x4 (ix2 k q))
    + x5 (ix2 0 q)) * x3 (ix2 0 0))

theorem k2_pay3_apply (x0 : Vec Ideal S8192x64 .f32) (x1 x2 x3 : Vec Ideal S1x1 .f32) (x4 : Vec Ideal S64x32 .f32) (x5 : Vec Ideal S1x32 .f32)
    (p : Fin 8192) (q : Fin 32) :
    k2_pay3 x1 x2 x3 x0 x4 x5 (ix2 p q) = tileSpec2 x0 x1 x2 x3 x4 x5 p q := by
  unfold k2_pay3 tileSpec2
  simp only [minimumf_apply, maximumf_apply, mulf_apply, addf_apply, broadcast_apply, shapeCast_self, matmul2_apply, extract1x1,
    broadcastTo_1b_ab_apply]
  simp only [minimumf_apply, maximumf_apply, mulf_apply, divf_apply, broadcast_apply, roundeven_apply]
  rw [extract1x1 x1, extract1x1 x2, extract1x1 x3]
  unfold relu6 clipE
  rw [← Cert.Consts.ofBits_six, ← Cert.Consts.ofBits_zero, ← Cert.Consts.ofBits_nA, ← Cert.Consts.ofBits_nAlo]
  rfl

def peakSpec2 (x0 : Vec Ideal S8192x64 .f32) (x1 x2 x3 : Vec Ideal S1x1 .f32) (x4 : Vec Ideal S64x32 .f32) (x5 : Vec Ideal S1x32 .f32) : EReal :=
  ⨆ p : Fin 8192, ⨆ q : Fin 32, absE (tileSpec2 x0 x1 x2 x3 x4 x5 p q)

theorem k2_pay4_apply (x0 : Vec Ideal S8192x64 .f32) (x1 x2 x3 : Vec Ideal S1x1 .f32) (x4 : Vec Ideal S64x32 .f32) (x5 : Vec Ideal S1x32 .f32)
    (j : S1x1x1.Idx) : k2_pay4 x1 x2 x3 x0 x4 x5 j = peakSpec2 x0 x1 x2 x3 x4 x5 :=
  (peak_apply (k2_pay3 x1 x2 x3 x0 x4 x5) _ _ _ j).trans
    (iSup_congr fun p => iSup_congr fun q => congrArg absE (k2_pay3_apply x0 x1 x2 x3 x4 x5 p q))

theorem k2_pay1_apply (P : FVec Ideal S1x1x1 .f32) (y : S8x1.Idx) : k2_pay1 P y = P (ix3 0 0 0) := by
  unfold k2_pay1
  rw [shapeCast_self]
  exact congrArg P (funext fun a => by match a with | ⟨0, _⟩ => rfl | ⟨1, _⟩ => rfl | ⟨2, _⟩ => rfl)
theorem k2_pay2_apply (P : FVec Ideal S1x1x1 .f32) (xo : Vec Ideal S8x1 .f32) (y : S8x1.Idx) :
    k2_pay2 P xo y = max (xo y) (P (ix3 0 0 0)) := by
  unfold k2_pay2
  rw [shapeCast_self, maximumf_apply, k2_pay1_apply]

variable (V : (c : Dev nD) → (b : Ref sig .tc) → Buf (Elt Ideal) ((c : Thread nD τ).loc b))

private theorem hz2 : (![0, 0] : Fin 2 → Nat) = fun _ => 0 := funext fun a => by fin_cases a <;> rfl

theorem tile2_eq (x0 : Vec Ideal S8192x64 .f32) (x1 x2 x3 : Vec Ideal S1x1 .f32) (x4 : Vec Ideal S64x32 .f32) (x5 : Vec Ideal S1x32 .f32) :
    tile2 x0 x1 x2 x3 x4 x5 = k2_pay3 x1 x2 x3 x0 x4 x5 := by
  unfold tile2
  simp only [View.ld_unit_zero (S := S8192x64) hz2, View.ld_unit_zero (S := S1x1) hz2, View.ld_unit_zero (S := S64x32) hz2,
    View.ld_unit_zero (S := S1x32) hz2]
theorem peak2_eq (x0 : Vec Ideal S8192x64 .f32) (x1 x2 x3 : Vec Ideal S1x1 .f32) (x4 : Vec Ideal S64x32 .f32) (x5 : Vec Ideal S1x32 .f32) :
    peak2 x0 x1 x2 x3 x4 x5 = k2_pay4 x1 x2 x3 x0 x4 x5 := by
  unfold peak2
  simp only [View.ld_unit_zero (S := S8192x64) hz2, View.ld_unit_zero (S := S1x1) hz2, View.ld_unit_zero (S := S64x32) hz2,
    View.ld_unit_zero (S := S1x32) hz2]
theorem out2_6_eq (x0 : Vec Ideal S8192x64 .f32) (x1 x2 x3 : Vec Ideal S1x1 .f32) (x4 : Vec Ideal S64x32 .f32) (x5 : Vec Ideal S1x32 .f32) :
    out2_6 x0 x1 x2 x3 x4 x5 = k2_pay3 x1 x2 x3 x0 x4 x5 := by
  unfold out2_6; rw [View.canon_unit_zero hz2, tile2_eq]
theorem accA2_eq (P : FVec Ideal S1x1x1 .f32) : accA2 P = k2_pay1 P := by
  unfold accA2; rw [View.canon_unit_zero hz2]
theorem accB2_eq (P : FVec Ideal S1x1x1 .f32) (xo : Vec Ideal S8x1 .f32) : accB2 P xo = k2_pay2 P xo := by
  unfold accB2; rw [View.canon_unit_zero hz2, View.ld_unit_zero (S := S8x1) hz2]

theorem hN2 : cfg2.N = 128 := N_2

theorem idx_facts2 : ∀ t : Fin cfg2.N,
    win2_0.index t (0 : Fin 2) = t.val ∧ win2_0.index t (1 : Fin 2) = 0
    ∧ win2_6.index t (0 : Fin 2) = t.val ∧ win2_6.index t (1 : Fin 2) = 0
    ∧ win2_7.index t (0 : Fin 2) = t.val / 64 ∧ win2_7.index t (1 : Fin 2) = 0 :=
  (by decide +kernel : ∀ t : Fin grid2.N, _)
theorem idxZ2 : ∀ (t : Fin cfg2.N) (a : Fin 2), win2_1.index t a = 0 ∧ win2_2.index t a = 0 ∧ win2_3.index t a = 0 ∧ win2_4.index t a = 0 ∧ win2_5.index t a = 0 :=
  (by decide +kernel : ∀ (t : Fin grid2.N) (a : Fin 2), _)

def row2 (t : Fin cfg2.N) (p : Fin 8192) : Fin 1048576 :=
  ⟨t.val * 8192 + p.val, by have h : t.val < 128 := lt_of_lt_of_eq t.isLt hN2; have := p.isLt; omega⟩

theorem iblk2_0_apply (c : Dev nD) (t : Fin cfg2.N) (p : Fin 8192) (k : Fin 64) :
    (iblk2 V c 0 t : Vec Ideal S8192x64 .f32) (ix2 p k) = (V c main_v44_0 : S1048576x64.Idx → EReal) (ix2 (row2 t p) k) :=
  congrArg (V c main_v44_0) (Shape.idx_ext₂ ((win2_0.rect_emb_val t _ 0).trans (by rw [(idx_facts2 t).1]; rfl))
    (win2_0.rect_emb_val_of_index_zero t 1 (idx_facts2 t).2.1 _))
theorem iblk2_1_apply (c : Dev nD) (t : Fin cfg2.N) :
    (iblk2 V c 1 t : Vec Ideal S1x1 .f32) (ix2 0 0) = (V c main_v38 : S1x1.Idx → EReal) (ix2 0 0) :=
  congrArg (V c main_v38) (funext fun a => Fin.ext (win2_1.rect_emb_val_of_index_zero t a (idxZ2 t a).1 _))
theorem iblk2_2_apply (c : Dev nD) (t : Fin cfg2.N) :
    (iblk2 V c 2 t : Vec Ideal S1x1 .f32) (ix2 0 0) = (V c main_v48 : S1x1.Idx → EReal) (ix2 0 0) :=
  congrArg (V c main_v48) (funext fun a => Fin.ext (win2_2.rect_emb_val_of_index_zero t a (idxZ2 t a).2.1 _))
theorem iblk2_3_apply (c : Dev nD) (t : Fin cfg2.N) :
    (iblk2 V c 3 t : Vec Ideal S1x1 .f32) (ix2 0 0) = (V c main_v50 : S1x1.Idx → EReal) (ix2 0 0) :=
  congrArg (V c main_v50) (funext fun a => Fin.ext (win2_3.rect_emb_val_of_index_zero t a (idxZ2 t a).2.2.1 _))
theorem iblk2_4_apply (c : Dev nD) (t : Fin cfg2.N) (k : Fin 64) (q : Fin 32) :
    (iblk2 V c 4 t : Vec Ideal S64x32 .f32) (ix2 k q) = (V c main_v15 : S64x32.Idx → EReal) (ix2 k q) :=
  congrArg (V c main_v15) (funext fun a => Fin.ext (win2_4.rect_emb_val_of_index_zero t a (idxZ2 t a).2.2.2.1 _))
theorem iblk2_5_apply (c : Dev nD) (t : Fin cfg2.N) (q : Fin 32) :
    (iblk2 V c 5 t : Vec Ideal S1x32 .f32) (ix2 0 q) = (V c main_v55 : S1x32.Idx → EReal) (ix2 0 q) :=
  congrArg (V c main_v55) (funext fun a => Fin.ext (win2_5.rect_emb_val_of_index_zero t a (idxZ2 t a).2.2.2.2 _))
abbrev G2 (c : Dev nD) : Cert.Spec.Mat 1048576 32 :=
  Cert.Spec.passMid (V c main_v44_0) (V c main_v38 (ix2 0 0)) (V c main_v48 (ix2 0 0)) (V c main_v50 (ix2 0 0)) (V c main_v15) (V c main_v55)

theorem tileSpec2_blocks (c : Dev nD) (t : Fin cfg2.N) (p : Fin 8192) (q : Fin 32) :
    tileSpec2 (iblk2 V c 0 t) (iblk2 V c 1 t) (iblk2 V c 2 t) (iblk2 V c 3 t) (iblk2 V c 4 t) (iblk2 V c 5 t) p q = G2 V c (ix2 (row2 t p) q) := by
  unfold tileSpec2 G2 Cert.Spec.passMid Cert.Spec.mk Cert.Spec.lin Cert.Spec.requant
  simp only [iblk2_0_apply, iblk2_1_apply, iblk2_2_apply, iblk2_3_apply, iblk2_4_apply, iblk2_5_apply]

theorem flushed2_6_eq (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6, out2_6_eq]
  obtain ⟨-, -, e0, e1, -⟩ := idx_facts2 t
  refine funext fun (y : S8192x32.Idx) => ?_
  obtain ⟨p, q, rfl⟩ : ∃ (p : Fin 8192) (q : Fin 32), y = ix2 p q := ⟨y 0, y 1, eq_ix2 y⟩
  rw [View.read_apply]
  show k2_pay3 (iblk2 V c 1 t) (iblk2 V c 2 t) (iblk2 V c 3 t) (iblk2 V c 0 t) (iblk2 V c 4 t) (iblk2 V c 5 t) (ix2 p q)
    = G2 V c (((cfg2.win 6).blk t).view.emb (ix2 p q))
  rw [k2_pay3_apply, tileSpec2_blocks]
  exact congrArg (G2 V c) (Shape.idx_ext₂ ((win2_6.rect_emb_val t _ 0).trans (by rw [e0]; rfl))
    (win2_6.rect_emb_val_of_index_zero t 1 e1 _)).symm

theorem val2_h (c : Dev nD) : (dat2 (F := Ideal) V c).arrAt 6 cfg2.N = Cert.Spec.passMid (V c main_v44_0) (V c main_v38 (ix2 0 0)) (V c main_v48 (ix2 0 0)) (V c main_v50 (ix2 0 0)) (V c main_v15) (V c main_v55) :=
  (dat2 V c).arrAt_eq_of_cover 6 (G2 V c) (fun t _ => flushed2_6_eq V c t) fun i => by
    have h0 : (i 0).val < 1048576 := (i 0).isLt
    obtain ⟨t, ht⟩ : ∃ t : Fin cfg2.N, t.val = (i 0).val / 8192 := ⟨⟨_, by rw [hN2]; omega⟩, rfl⟩
    exact ⟨t, flush2_6 t, Finset.mem_map.mpr ⟨ix2 ⟨(i 0).val % 8192, Nat.mod_lt _ (by decide)⟩ (i 1), Finset.mem_univ _,
      Shape.idx_ext₂ ((win2_6.rect_emb_val t _ 0).trans (by
          rw [(idx_facts2 t).2.2.1, ht]; show (i 0).val / 8192 * 8192 + (i 0).val % 8192 = _; omega))
        (win2_6.rect_emb_val_of_index_zero t 1 (idx_facts2 t).2.2.2.1 _)⟩⟩

def tilePeak2 (c : Dev nD) (n : ℕ) : EReal :=
  if h : n < cfg2.N then peakSpec2 (iblk2 V c 0 ⟨n, h⟩) (iblk2 V c 1 ⟨n, h⟩) (iblk2 V c 2 ⟨n, h⟩) (iblk2 V c 3 ⟨n, h⟩) (iblk2 V c 4 ⟨n, h⟩) (iblk2 V c 5 ⟨n, h⟩) else ⊥

theorem peakAt2_apply (c : Dev nD) (t : Fin cfg2.N) (j : S1x1x1.Idx) :
    peakAt2 V c t j = peakSpec2 (iblk2 V c 0 t) (iblk2 V c 1 t) (iblk2 V c 2 t) (iblk2 V c 3 t) (iblk2 V c 4 t) (iblk2 V c 5 t) := by
  unfold peakAt2; rw [peak2_eq]; exact k2_pay4_apply _ _ _ _ _ _ j

theorem acc2_apply (c : Dev nD) : ∀ (n : ℕ) (h : n < cfg2.N) (y : S8x1.Idx),
    acc2 V c n h y = (Finset.range (n % 64 + 1)).sup (fun s => tilePeak2 V c (64 * (n / 64) + s))
  | 0, h, y => by
    rw [acc2_A V c ⟨0, h⟩ rfl, accA2_eq, k2_pay1_apply, peakAt2_apply]
    show _ = (Finset.range 1).sup _
    rw [Finset.range_one, Finset.sup_singleton]
    show _ = tilePeak2 V c 0
    unfold tilePeak2; rw [dif_pos h]
  | n + 1, h, y => by
    by_cases h0 : (n + 1) % 64 = 0
    · rw [acc2_A V c ⟨n + 1, h⟩ h0, accA2_eq, k2_pay1_apply, peakAt2_apply, h0]
      show _ = (Finset.range 1).sup _
      rw [Finset.range_one, Finset.sup_singleton, show 64 * ((n + 1) / 64) + 0 = n + 1 from by omega]
      unfold tilePeak2; rw [dif_pos h]
    · rw [acc2_B V c ⟨n + 1, h⟩ h0, accB2_eq, k2_pay2_apply, peakAt2_apply]
      show max (acc2 V c n (Nat.lt_of_succ_lt h) y) _ = _
      rw [acc2_apply c n (Nat.lt_of_succ_lt h) y, show (n + 1) % 64 = n % 64 + 1 from by omega, show (n + 1) / 64 = n / 64 from by omega,
        Finset.range_add_one (n := n % 64 + 1), Finset.sup_insert, show 64 * (n / 64) + (n % 64 + 1) = n + 1 from by omega]
      rw [show tilePeak2 V c (n + 1) = peakSpec2 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) from by unfold tilePeak2; rw [dif_pos h]]
      exact max_comm _ _

theorem corePeak2 (c : Dev nD) (k : Fin 2) :
    (Finset.range 64).sup (fun s => tilePeak2 V c (64 * k.val + s)) = Cert.Spec.coreAmax (G2 V c) k := by
  have hk := k.isLt
  rw [range_sup_eq_iSup]
  unfold Cert.Spec.coreAmax
  refine iSup_congr fun j => ?_
  have hj := j.isLt
  have hlt : 64 * k.val + j.val < cfg2.N := by rw [hN2]; omega
  unfold tilePeak2 peakSpec2; rw [dif_pos hlt]
  refine iSup_congr fun r => iSup_congr fun q => ?_
  rw [tileSpec2_blocks]
  refine congrArg (fun i => absE (G2 V c (ix2 i q))) (Fin.ext ?_)
  show (64 * k.val + j.val) * 8192 + r.val = (k.val * 64 + j.val) * 8192 + r.val
  omega

theorem flushed2_7_eq (c : Dev nD) (t : Fin cfg2.N) (hf : (cfg2.win 7).flush t = true) :
    (dat2 V c).flushed 7 t = ((cfg2.win 7).blk t).view.read (Elt Ideal) (Cert.Spec.satArr (G2 V c)) := by
  have hN : t.val < 128 := lt_of_lt_of_eq t.isLt hN2
  have h63 : t.val % 64 = 63 := (flush2_7 t).mp hf
  obtain ⟨-, -, -, -, e0, e1⟩ := idx_facts2 t
  show (cfg2.win 7).cut (grid2.coords t) ((dat2 V c).after 7 t) = _
  rw [after2_7]
  refine funext fun (y : S8x1.Idx) => ?_
  rw [View.read_apply]
  show acc2 V c t.val t.isLt y = Cert.Spec.satArr (G2 V c) (((cfg2.win 7).blk t).view.emb y)
  rw [acc2_apply, h63]
  have hy : (y 0).val < 8 := (y 0).isLt
  have hc : ((((cfg2.win 7).blk t).view.emb y) 0).val = t.val / 64 * 8 + (y 0).val :=
    (win2_7.rect_emb_val t y 0).trans (by rw [e0]; rfl)
  unfold Cert.Spec.satArr Cert.Spec.mk
  show _ = Cert.Spec.coreAmax (G2 V c) (Cert.Spec.coreOf ((((cfg2.win 7).blk t).view.emb y) 0))
  have hcore : Cert.Spec.coreOf ((((cfg2.win 7).blk t).view.emb y) 0) = ⟨t.val / 64, by omega⟩ :=
    Fin.ext (by show ((((cfg2.win 7).blk t).view.emb y) 0).val / 8 = t.val / 64; rw [hc]; omega)
  rw [hcore]
  exact corePeak2 V c ⟨t.val / 64, by omega⟩

theorem val2_sat (c : Dev nD) : (dat2 (F := Ideal) V c).arrAt 7 cfg2.N = Cert.Spec.satArr (Cert.Spec.passMid (V c main_v44_0) (V c main_v38 (ix2 0 0)) (V c main_v48 (ix2 0 0)) (V c main_v50 (ix2 0 0)) (V c main_v15) (V c main_v55)) :=
  (dat2 V c).arrAt_eq_of_cover 7 (Cert.Spec.satArr (G2 V c)) (fun t hf => flushed2_7_eq V c t hf) fun i => by
    have h0 : (i 0).val < 16 := (i 0).isLt
    obtain ⟨t, ht⟩ : ∃ t : Fin cfg2.N, t.val = 64 * ((i 0).val / 8) + 63 := ⟨⟨_, by rw [hN2]; omega⟩, rfl⟩
    exact ⟨t, (flush2_7 t).mpr (by rw [ht]; omega), Finset.mem_map.mpr ⟨ix2 ⟨(i 0).val % 8, Nat.mod_lt _ (by decide)⟩ (i 1), Finset.mem_univ _,
      Shape.idx_ext₂ ((win2_7.rect_emb_val t _ 0).trans (by
          rw [(idx_facts2 t).2.2.2.2.1, ht]; show (64 * ((i 0).val / 8) + 63) / 64 * 8 + (i 0).val % 8 = _; omega))
        (win2_7.rect_emb_val_of_index_zero t 1 (idx_facts2 t).2.2.2.2.2 _)⟩⟩

end Cert.KernelIdeal.Hand

end
-- ==== Proof.KI.Val3.lean ====
import proofs.«411066_j83983790505988_3_alg».proof.Proof.KI.Reg3
import proofs.«411066_j83983790505988_3_alg».proof.Proof.ValLib
import proofs.«411066_j83983790505988_3_alg».proof.Proof.Spec
import proofs.«411066_j83983790505988_3_alg».proof.Proof.Consts
import Idealize.ShloMosaic.Lib.Pipeline.Value
import Idealize.ShloMosaic.PureOps.Ideal.Laws
import Idealize.ShloMosaic.Lib.ValueIdx
import Idealize.ShloMosaic.Lib.ValueLayout
import Mathlib.Order.CompleteLattice.Finset

set_option maxRecDepth 16384

noncomputable section

namespace Cert.KernelIdeal.Hand

open Cert.ValLib

open Cert.KernelIdeal Cert.KernelIdeal.Gen
open Idealize.ShloMosaic Idealize.ShloMosaic.TcCoe Idealize.ShloMosaic.ValueIdx
open Idealize.ShloMosaic.Pipeline (Dat)
open Cert.Spec (absE rnd clipE nA nAlo six zero relu6)

theorem matmul3_apply (prec : Option ContractPrecision) (l : FVec Ideal S8192x32 .f32) (r : FVec Ideal S32x32 .f32) (p : Fin 8192) (q : Fin 32) :
    FloatOps.matmul dot_S8192x32_S32x32_S8192x32_1_0_0_1_n_n prec l r (constant S8192x32 .f32 0x00000000#32) (ix2 p q)
      = ∑ k : Fin 32, l (ix2 p k) * r (ix2 k q) :=
  matmul_plain_apply 8192 32 32 prec l r p q
theorem roundeven_apply3 {s : Shape} {φ : FTy} (x : FVec Ideal s φ) (i : s.Idx) : roundeven x i = rnd (x i) := rfl

theorem extract00_3 (v : Vec Ideal S1x1 .f32) (h : ∀ a, (![0, 0] : Fin 2 → Nat) a < S1x1.size a) : extractAt ![0, 0] v h = v (ix2 0 0) :=
  congrArg v (funext fun a => by match a with | ⟨0, _⟩ => rfl | ⟨1, _⟩ => rfl)

theorem k3_pay3_apply (v0 v2 v4 : Vec Ideal S1x1 .f32) (v6 : Vec Ideal S8192x32 .f32) (v19 : Vec Ideal S32x32 .f32) (v22 : Vec Ideal S1x32 .f32)
    (r : Fin 8192) (q : Fin 32) :
    k3_pay3 (F := Ideal) v0 v2 v4 v6 v19 v22 (ix2 r q)
      = relu6 (((∑ k : Fin 32, clipE nAlo nA (rnd (rnd (Ideal.div (v6 (ix2 r k)) (v0 (ix2 0 0))) * Ideal.div (v0 (ix2 0 0)) (v2 (ix2 0 0))))
            * v19 (ix2 k q)) + v22 (ix2 0 q)) * v4 (ix2 0 0)) := by
  unfold k3_pay3
  simp only [minimumf_apply, maximumf_apply, mulf_apply, addf_apply, broadcast_apply, matmul, shapeCast_self, extract00_3,
    broadcastTo_1b_ab_apply]
  rw [matmul3_apply]
  simp only [minimumf_apply, maximumf_apply, mulf_apply, divf_apply, broadcast_apply, roundeven_apply3]
  rw [extract00_3 v0, extract00_3 v2, extract00_3 v4]
  unfold relu6 clipE
  rw [← Cert.Consts.ofBits_six, ← Cert.Consts.ofBits_zero, ← Cert.Consts.ofBits_nA, ← Cert.Consts.ofBits_nAlo]
  rfl

theorem k3_pay4_apply (v0 v2 v4 : Vec Ideal S1x1 .f32) (v6 : Vec Ideal S8192x32 .f32) (v19 : Vec Ideal S32x32 .f32) (v22 : Vec Ideal S1x32 .f32)
    (a b c : Fin 1) :
    k3_pay4 (F := Ideal) v0 v2 v4 v6 v19 v22 (ix3 a b c)
      = ⨆ r : Fin 8192, ⨆ k : Fin 32, absE (k3_pay3 (F := Ideal) v0 v2 v4 v6 v19 v22 (ix2 r k)) :=
  peak_apply (k3_pay3 (F := Ideal) v0 v2 v4 v6 v19 v22) _ _ _ (ix3 a b c)
theorem k3_pay1_apply (v36 : FVec Ideal S1x1x1 .f32) (p : Fin 8) (z : Fin 1) :
    k3_pay1 (F := Ideal) v36 (ix2 p z) = v36 (ix3 0 0 0) := by
  unfold k3_pay1
  rw [broadcastTo_1b_ab_apply, shapeCast_self, broadcast_apply]
  exact congrArg v36 (funext fun a => by match a with | ⟨0, _⟩ => rfl | ⟨1, _⟩ => rfl | ⟨2, _⟩ => rfl)

theorem k3_pay2_apply (v36 : FVec Ideal S1x1x1 .f32) (v47 : Vec Ideal S8x1 .f32) (p : Fin 8) (z : Fin 1) :
    k3_pay2 (F := Ideal) v36 v47 (ix2 p z) = max (v47 (ix2 p z)) (v36 (ix3 0 0 0)) := by
  unfold k3_pay2
  rw [maximumf_apply, shapeCast_self, k3_pay1_apply]

variable (V : (c : Dev nD) → (b : Ref sig .tc) → Buf (Elt Ideal) ((c : Thread nD τ).loc b))

theorem hz3 : (![0, 0] : Fin 2 → Nat) = fun _ => 0 := funext fun a => by fin_cases a <;> rfl

theorem out3_6_eq (x0 : Vec Ideal S8192x32 .f32) (x1 x2 x3 : Vec Ideal S1x1 .f32) (x4 : Vec Ideal S32x32 .f32) (x5 : Vec Ideal S1x32 .f32) :
    out3_6 x0 x1 x2 x3 x4 x5 = k3_pay3 x1 x2 x3 x0 x4 x5 := by
  unfold out3_6
  rw [View.canon_unit_zero hz3]
  simp only [View.ld_unit_zero (S := S1x1) hz3, View.ld_unit_zero (S := S8192x32) hz3, View.ld_unit_zero (S := S32x32) hz3, View.ld_unit_zero (S := S1x32) hz3]

theorem tile3_eq (x0 : Vec Ideal S8192x32 .f32) (x1 x2 x3 : Vec Ideal S1x1 .f32) (x4 : Vec Ideal S32x32 .f32) (x5 : Vec Ideal S1x32 .f32) :
    tile3 x0 x1 x2 x3 x4 x5 = k3_pay4 x1 x2 x3 x0 x4 x5 := by
  unfold tile3
  simp only [View.ld_unit_zero (S := S1x1) hz3, View.ld_unit_zero (S := S8192x32) hz3, View.ld_unit_zero (S := S32x32) hz3, View.ld_unit_zero (S := S1x32) hz3]

theorem out3_7A_eq (x0 : Vec Ideal S8192x32 .f32) (x1 x2 x3 : Vec Ideal S1x1 .f32) (x4 : Vec Ideal S32x32 .f32) (x5 : Vec Ideal S1x32 .f32) :
    out3_7A x0 x1 x2 x3 x4 x5 = k3_pay1 (tile3 x0 x1 x2 x3 x4 x5) := by
  unfold out3_7A
  rw [View.canon_unit_zero hz3]

theorem out3_7B_eq (x0 : Vec Ideal S8192x32 .f32) (x1 x2 x3 : Vec Ideal S1x1 .f32) (x4 : Vec Ideal S32x32 .f32) (x5 : Vec Ideal S1x32 .f32) (acc : Vec Ideal S8x1 .f32) :
    out3_7B x0 x1 x2 x3 x4 x5 acc = k3_pay2 (tile3 x0 x1 x2 x3 x4 x5) acc := by
  unfold out3_7B
  rw [View.canon_unit_zero hz3, View.ld_unit_zero (S := S8x1) hz3]

theorem hidx3_0 : ∀ t : Fin cfg3.N, win3_0.index t 0 = t.val ∧ win3_0.index t 1 = 0 :=
  (by decide +kernel : ∀ t : Fin grid3.N, win3_0.index t 0 = t.val ∧ win3_0.index t 1 = 0)
theorem hidx3_6 : ∀ t : Fin cfg3.N, win3_6.index t 0 = t.val ∧ win3_6.index t 1 = 0 :=
  (by decide +kernel : ∀ t : Fin grid3.N, win3_6.index t 0 = t.val ∧ win3_6.index t 1 = 0)
theorem hidx3_7 : ∀ t : Fin cfg3.N, win3_7.index t 0 = t.val / 64 ∧ win3_7.index t 1 = 0 :=
  (by decide +kernel : ∀ t : Fin grid3.N, win3_7.index t 0 = t.val / 64 ∧ win3_7.index t 1 = 0)
theorem idxZ3 : ∀ (t : Fin cfg3.N) (a : Fin 2), win3_1.index t a = 0 ∧ win3_2.index t a = 0 ∧ win3_3.index t a = 0 ∧ win3_4.index t a = 0 ∧ win3_5.index t a = 0 :=
  (by decide +kernel : ∀ (t : Fin grid3.N) (a : Fin 2), _)

theorem iblk3_0_apply (c : Dev nD) (t : Fin cfg3.N) (r : Fin 8192) (q : Fin 32) (k : Fin 1048576) (hk : k.val = t.val * 8192 + r.val) :
    (iblk3 V c 0 t : Vec Ideal S8192x32 .f32) (ix2 r q) = (V c main_v56_0 : S1048576x32.Idx → Ideal .f32) (ix2 k q) :=
  congrArg (V c main_v56_0) (Shape.idx_ext₂ ((win3_0.rect_emb_val t _ 0).trans (by rw [(hidx3_0 t).1, hk]; rfl))
    (win3_0.rect_emb_val_of_index_zero t 1 (hidx3_0 t).2 _))
theorem iblk3_1_eq (c : Dev nD) (t : Fin cfg3.N) : (iblk3 V c 1 t : Vec Ideal S1x1 .f32) = (V c main_v50 : S1x1.Idx → Ideal .f32) :=
  funext fun y => congrArg (V c main_v50) (funext fun a => Fin.ext (win3_1.rect_emb_val_of_index_zero t a (idxZ3 t a).1 y))
theorem iblk3_2_eq (c : Dev nD) (t : Fin cfg3.N) : (iblk3 V c 2 t : Vec Ideal S1x1 .f32) = (V c main_v60 : S1x1.Idx → Ideal .f32) :=
  funext fun y => congrArg (V c main_v60) (funext fun a => Fin.ext (win3_2.rect_emb_val_of_index_zero t a (idxZ3 t a).2.1 y))
theorem iblk3_3_eq (c : Dev nD) (t : Fin cfg3.N) : (iblk3 V c 3 t : Vec Ideal S1x1 .f32) = (V c main_v62 : S1x1.Idx → Ideal .f32) :=
  funext fun y => congrArg (V c main_v62) (funext fun a => Fin.ext (win3_3.rect_emb_val_of_index_zero t a (idxZ3 t a).2.2.1 y))
theorem iblk3_4_eq (c : Dev nD) (t : Fin cfg3.N) : (iblk3 V c 4 t : Vec Ideal S32x32 .f32) = (V c main_v23 : S32x32.Idx → Ideal .f32) :=
  funext fun y => congrArg (V c main_v23) (funext fun a => Fin.ext (win3_4.rect_emb_val_of_index_zero t a (idxZ3 t a).2.2.2.1 y))
theorem iblk3_5_eq (c : Dev nD) (t : Fin cfg3.N) : (iblk3 V c 5 t : Vec Ideal S1x32 .f32) = (V c main_v67 : S1x32.Idx → Ideal .f32) :=
  funext fun y => congrArg (V c main_v67) (funext fun a => Fin.ext (win3_5.rect_emb_val_of_index_zero t a (idxZ3 t a).2.2.2.2 y))
abbrev G3 (c : Dev nD) : Cert.Spec.Mat 1048576 32 :=
  Cert.Spec.passMid (V c main_v56_0 : Cert.Spec.Mat 1048576 32) (V c main_v50 (ix2 0 0)) (V c main_v60 (ix2 0 0)) (V c main_v62 (ix2 0 0))
    (V c main_v23 : Cert.Spec.Mat 32 32) (V c main_v67 : Cert.Spec.Mat 1 32)

theorem k3_pay3_blocks (c : Dev nD) (t : Fin cfg3.N) (r : Fin 8192) (q : Fin 32) (k : Fin 1048576) (hk : k.val = t.val * 8192 + r.val) :
    k3_pay3 (F := Ideal) (iblk3 V c 1 t) (iblk3 V c 2 t) (iblk3 V c 3 t) (iblk3 V c 0 t) (iblk3 V c 4 t) (iblk3 V c 5 t) (ix2 r q) = G3 V c (ix2 k q) := by
  rw [k3_pay3_apply, iblk3_1_eq, iblk3_2_eq, iblk3_3_eq, iblk3_4_eq, iblk3_5_eq]
  simp only [fun x => iblk3_0_apply V c t r x k hk]
  rfl

theorem read3_6 (c : Dev nD) (G : Buf (Elt Ideal) ((c : Thread nD τ).loc main_v68_0)) (t : Fin cfg3.N) (r : Fin 8192) (q : Fin 32)
    (k : Fin 1048576) (hk : k.val = t.val * 8192 + r.val) :
    (((cfg3.win 6).blk t).view.read (Elt Ideal) G : Vec Ideal S8192x32 .f32) (ix2 r q) = (G : S1048576x32.Idx → Ideal .f32) (ix2 k q) :=
  congrArg G (Shape.idx_ext₂ ((win3_6.rect_emb_val t _ 0).trans (by rw [(hidx3_6 t).1, hk]; rfl))
    (win3_6.rect_emb_val_of_index_zero t 1 (hidx3_6 t).2 _))
theorem flushed3_6 (c : Dev nD) (t : Fin cfg3.N) (hf : (cfg3.win 6).flush t = true) :
    (dat3 V c).flushed 6 t = ((cfg3.win 6).blk t).view.read (Elt Ideal) (G3 V c) := by
  have hN : t.val < 128 := lt_of_lt_of_eq t.isLt (show cfg3.N = 128 from N_3)
  show (cfg3.win 6).cut (grid3.coords t) ((dat3 V c).after 6 t) = _
  rw [after3_6, out3_6_eq]
  funext y
  obtain ⟨r, q, rfl⟩ : ∃ (r : Fin 8192) (q : Fin 32), y = ix2 r q := ⟨y 0, y 1, eq_ix2 y⟩
  have hk : t.val * 8192 + r.val < 1048576 := by have := r.isLt; omega
  exact (k3_pay3_blocks V c t r q ⟨t.val * 8192 + r.val, hk⟩ rfl).trans (read3_6 c (G3 V c) t r q ⟨t.val * 8192 + r.val, hk⟩ rfl).symm

theorem val3_h (c : Dev nD) : (dat3 (F := Ideal) V c).arrAt 6 cfg3.N
    = Cert.Spec.passMid (V c main_v56_0 : Cert.Spec.Mat 1048576 32) (V c main_v50 (ix2 0 0)) (V c main_v60 (ix2 0 0)) (V c main_v62 (ix2 0 0))
        (V c main_v23 : Cert.Spec.Mat 32 32) (V c main_v67 : Cert.Spec.Mat 1 32) :=
  (dat3 V c).arrAt_eq_of_cover 6 (G3 V c) (flushed3_6 V c) fun i => by
    have h0 : (i 0).val < 1048576 := (i 0).isLt
    obtain ⟨t, ht⟩ : ∃ t : Fin cfg3.N, t.val = (i 0).val / 8192 := ⟨⟨_, by rw [show cfg3.N = 128 from N_3]; omega⟩, rfl⟩
    exact ⟨t, flush3_6 t, Finset.mem_map.mpr ⟨ix2 ⟨(i 0).val % 8192, Nat.mod_lt _ (by decide)⟩ (i 1), Finset.mem_univ _,
      Shape.idx_ext₂ ((win3_6.rect_emb_val t _ 0).trans (by
          rw [(hidx3_6 t).1, ht]; show (i 0).val / 8192 * 8192 + (i 0).val % 8192 = _; omega))
        (win3_6.rect_emb_val_of_index_zero t 1 (hidx3_6 t).2 _)⟩⟩
def tv3 (c : Dev nD) (n : ℕ) : EReal :=
  if h : n < 128 then ⨆ r : Fin 8192, ⨆ k : Fin 32, absE (G3 V c (ix2 (⟨n * 8192 + r.val, by have := r.isLt; omega⟩ : Fin 1048576) k)) else ⊥

theorem tile3_blocks (c : Dev nD) (t : Fin cfg3.N) (a b d : Fin 1) :
    tile3 (iblk3 V c 0 t) (iblk3 V c 1 t) (iblk3 V c 2 t) (iblk3 V c 3 t) (iblk3 V c 4 t) (iblk3 V c 5 t) (ix3 a b d) = tv3 V c t.val := by
  have hN : t.val < 128 := lt_of_lt_of_eq t.isLt (show cfg3.N = 128 from N_3)
  rw [tile3_eq, k3_pay4_apply]
  unfold tv3
  rw [dif_pos hN]
  refine iSup_congr fun r => iSup_congr fun k => ?_
  rw [k3_pay3_blocks V c t r k ⟨t.val * 8192 + r.val, by have := r.isLt; omega⟩ rfl]

theorem acc3_last (c : Dev nD) (t : Fin cfg3.N) (h63 : t.val % 64 = 63) (p : Fin 8) (z : Fin 1) :
    acc3 V c t.val t.isLt (ix2 p z) = ⨆ j : Fin 64, tv3 V c (64 * (t.val / 64) + j.val) := by
  have ht : t.val = 64 * (t.val / 64) + 63 := by omega
  have h := runmax 64 cfg3.N (tv3 V c) (fun n => if h : n < cfg3.N then acc3 V c n h (ix2 p z) else ⊥)
    (fun n hn h0 => by
      show (if h : n < cfg3.N then acc3 V c n h (ix2 p z) else ⊥) = tv3 V c n
      rw [dif_pos hn, acc3_A V c ⟨n, hn⟩ h0, out3_7A_eq, k3_pay1_apply, tile3_blocks])
    (fun n hn h0 => by
      show (if h : n + 1 < cfg3.N then acc3 V c (n + 1) h (ix2 p z) else ⊥)
        = max (if h : n < cfg3.N then acc3 V c n h (ix2 p z) else ⊥) (tv3 V c (n + 1))
      rw [dif_pos hn, dif_pos (Nat.lt_of_succ_lt hn), acc3_B V c ⟨n + 1, hn⟩ h0, out3_7B_eq, k3_pay2_apply, tile3_blocks]
      rfl)
    (t.val / 64) 63 (by omega) (by rw [← ht]; exact t.isLt)
  rw [← ht, range_sup_eq_iSup 64 fun i => tv3 V c (64 * (t.val / 64) + i)] at h
  rw [← h]
  show _ = if h : t.val < cfg3.N then acc3 V c t.val h (ix2 p z) else ⊥
  rw [dif_pos t.isLt]
theorem read3_7 (c : Dev nD) (G : Buf (Elt Ideal) ((c : Thread nD τ).loc main_v68_1)) (t : Fin cfg3.N) (p : Fin 8) (z : Fin 1)
    (k : Fin 16) (hk : k.val = t.val / 64 * 8 + p.val) :
    (((cfg3.win 7).blk t).view.read (Elt Ideal) G : Vec Ideal S8x1 .f32) (ix2 p z) = (G : S16x1.Idx → Ideal .f32) (ix2 k z) :=
  congrArg G (Shape.idx_ext₂ ((win3_7.rect_emb_val t _ 0).trans (by rw [(hidx3_7 t).1, hk]; rfl))
    (win3_7.rect_emb_val_of_index_zero t 1 (hidx3_7 t).2 _))
theorem flushed3_7 (c : Dev nD) (t : Fin cfg3.N) (hf : (cfg3.win 7).flush t = true) :
    (dat3 V c).flushed 7 t = ((cfg3.win 7).blk t).view.read (Elt Ideal) (Cert.Spec.satArr (G3 V c)) := by
  have hN : t.val < 128 := lt_of_lt_of_eq t.isLt (show cfg3.N = 128 from N_3)
  have h63 : t.val % 64 = 63 := (flush3_7 t).mp hf
  show (cfg3.win 7).cut (grid3.coords t) ((dat3 V c).after 7 t) = _
  rw [after3_7]
  funext y
  obtain ⟨p, z, rfl⟩ : ∃ (p : Fin 8) (z : Fin 1), y = ix2 p z := ⟨y 0, y 1, eq_ix2 y⟩
  have hp := p.isLt
  have hk : t.val / 64 * 8 + p.val < 16 := by omega
  refine Eq.trans ?_ (read3_7 c (Cert.Spec.satArr (G3 V c)) t p z ⟨t.val / 64 * 8 + p.val, hk⟩ rfl).symm
  show acc3 V c t.val t.isLt (ix2 p z) = Cert.Spec.coreAmax (G3 V c) (Cert.Spec.coreOf ⟨t.val / 64 * 8 + p.val, hk⟩)
  have hcore : Cert.Spec.coreOf ⟨t.val / 64 * 8 + p.val, hk⟩ = (⟨t.val / 64, by omega⟩ : Fin 2) := Fin.ext (by
    show (t.val / 64 * 8 + p.val) / 8 = t.val / 64
    omega)
  rw [hcore, acc3_last V c t h63]
  unfold Cert.Spec.coreAmax
  refine iSup_congr fun j => ?_
  have hj := j.isLt
  unfold tv3
  rw [dif_pos (by omega)]
  refine iSup_congr fun r => iSup_congr fun k => congrArg (fun i => absE (G3 V c (ix2 i k))) (Fin.ext ?_)
  show (64 * (t.val / 64) + j.val) * 8192 + r.val = (t.val / 64 * 64 + j.val) * 8192 + r.val
  omega

theorem val3_sat (c : Dev nD) : (dat3 (F := Ideal) V c).arrAt 7 cfg3.N
    = Cert.Spec.satArr (Cert.Spec.passMid (V c main_v56_0 : Cert.Spec.Mat 1048576 32) (V c main_v50 (ix2 0 0)) (V c main_v60 (ix2 0 0)) (V c main_v62 (ix2 0 0))
        (V c main_v23 : Cert.Spec.Mat 32 32) (V c main_v67 : Cert.Spec.Mat 1 32)) :=
  (dat3 V c).arrAt_eq_of_cover 7 (Cert.Spec.satArr (G3 V c)) (flushed3_7 V c) fun i => by
    have h0 : (i 0).val < 16 := (i 0).isLt
    obtain ⟨t, ht⟩ : ∃ t : Fin cfg3.N, t.val = 64 * ((i 0).val / 8) + 63 := ⟨⟨_, by rw [show cfg3.N = 128 from N_3]; omega⟩, rfl⟩
    exact ⟨t, (flush3_7 t).mpr (by rw [ht]; omega), Finset.mem_map.mpr ⟨ix2 ⟨(i 0).val % 8, Nat.mod_lt _ (by decide)⟩ (i 1), Finset.mem_univ _,
      Shape.idx_ext₂ ((win3_7.rect_emb_val t _ 0).trans (by
          rw [(hidx3_7 t).1, ht]; show (64 * ((i 0).val / 8) + 63) / 64 * 8 + (i 0).val % 8 = _; omega))
        (win3_7.rect_emb_val_of_index_zero t 1 (hidx3_7 t).2 _)⟩⟩
end Cert.KernelIdeal.Hand

end
-- ==== Proof.KI.Val4.lean ====
import proofs.«411066_j83983790505988_3_alg».proof.Proof.KI.Reg4
import proofs.«411066_j83983790505988_3_alg».proof.Proof.ValLib
import proofs.«411066_j83983790505988_3_alg».proof.Proof.Spec
import proofs.«411066_j83983790505988_3_alg».proof.Proof.Consts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.ValLib

open Cert.KernelIdeal.Gen
open Idealize.ShloMosaic Idealize.ShloMosaic.TcCoe Idealize.SL.Sem
open Idealize.ShloMosaic.Pipeline (Dat)
open Idealize.ShloMosaic.ValueIdx
open Cert.Spec (nA nAlo clipE rnd)

abbrev D4 : DotDims S8192x32 S32x5 S8192x5 := dot_S8192x32_S32x5_S8192x5_1_0_0_1_n_n

theorem matmul4_apply (prec : Option ContractPrecision) (l : FVec Ideal S8192x32 .f32) (r : FVec Ideal S32x5 .f32) (p : Fin 8192) (q : Fin 5) :
    FloatOps.matmul D4 prec l r (constant S8192x5 .f32 0x00000000#32) (ix2 p q) = ∑ k : Fin 32, l (ix2 p k) * r (ix2 k q) :=
  matmul_plain_apply 8192 32 5 prec l r p q

def rq4 (h pre a : EReal) : EReal := clipE nAlo nA (rnd (rnd (Ideal.div h pre) * Ideal.div pre a))

theorem pay2_4_apply (x1 x2 x3 : Vec Ideal S1x1 .f32) (x0 : Vec Ideal S8192x32 .f32) (x4 : Vec Ideal S32x5 .f32) (x5 : Vec Ideal S1x5 .f32)
    (p : Fin 8192) (q : Fin 5) :
    k4_pay2 (F := Ideal) x1 x2 x3 x0 x4 x5 (ix2 p q)
      = ((∑ k : Fin 32, rq4 (x0 (ix2 p k)) (x1 (ix2 0 0)) (x2 (ix2 0 0)) * x4 (ix2 k q)) + x5 (ix2 0 q)) * x3 (ix2 0 0) := by
  unfold k4_pay2
  have hx : ∀ x : Vec Ideal S1x1 .f32, extractAt ![0, 0] x inpos_S1x1_p0_0 = x (ix2 0 0) := fun x => congrArg x (Shape.idx_ext₂ rfl rfl)
  rw [hx x1, hx x2, hx x3, shapeCast_self, shapeCast_self, shapeCast_self, mulf_apply, addf_apply, broadcast_apply,
    broadcastTo_1b_ab_apply]
  simp only [matmul]
  rw [matmul4_apply]
  refine congrArg (fun s => (s + x5 (ix2 0 q)) * x3 (ix2 0 0)) (Finset.sum_congr rfl fun k _ => ?_)
  show min (Ideal.ofBits .f32 0x46FFFE00#32) (max (Ideal.ofBits .f32 0xC7000000#32)
      (Ideal.liftRound Ideal.roundHalfEven (Ideal.liftRound Ideal.roundHalfEven (Ideal.div (x0 (ix2 p k)) (x1 (ix2 0 0)))
        * Ideal.div (x1 (ix2 0 0)) (x2 (ix2 0 0))))) * x4 (ix2 k q) = _
  rw [Cert.Consts.ofBits_nA, Cert.Consts.ofBits_nAlo]
  rfl

theorem lift4 (k : Fin 5) (p : Fin 8192) : reduces_S8192x5_S5.lift (ix1 k) p = ix2 p k := by
  funext a; apply Fin.ext
  match a with
  | ⟨0, _⟩ => rfl
  | ⟨1, _⟩ => rfl

theorem colmax4_apply (src : FVec Ideal S8192x5 .f32) (r : Fin 8) (k : Fin 5) :
    broadcastTo S8x5 (shapeCast S1x5 (shapeCast S1x5
        (multiReduction .maximumf [0] S5 src 0xFF800000#32 reduces_S8192x5_S5 (.inl rfl) rfl) shapeCasts_S5_S1x5) shapeCasts_S1x5_S1x5)
      broadcasts_S1x5_S8x5 (ix2 r k) = ⨆ p : Fin 8192, src (ix2 p k) := by
  rw [broadcastTo_apply _ broadcasts_S1x5_S8x5 (ix2 r k) (ix2 0 k) (by intro a; match a with | ⟨0, _⟩ => rfl | ⟨1, _⟩ => rfl),
    shapeCast_self]
  refine (shapeCast_apply _ shapeCasts_S5_S1x5 (ix2 0 k) (ix1 k) (by
    rw [Shape.rowMajor_val_one, Shape.rowMajor_val_two]; show k.val = (0 : Fin 1).val * 5 + k.val; simp)).trans ?_
  refine (Ideal.multiReduction_maximumf_single src 0xFF800000#32 reduces_S8192x5_S5 (.inl rfl) rfl (ix1 k)).trans ?_
  rw [show FloatOps.ofBits (F := Ideal) .f32 0xFF800000#32 = (⊥ : EReal) from Cert.Consts.ofBits_ninf]
  refine (fold_max_bot _).trans ?_
  show (⨆ p : Fin 8192, src (reduces_S8192x5_S5.lift (ix1 k) p)) = _
  exact iSup_congr fun p => congrArg src (lift4 k p)

theorem pay3_4_apply (x1 x2 x3 : Vec Ideal S1x1 .f32) (x0 : Vec Ideal S8192x32 .f32) (x4 : Vec Ideal S32x5 .f32) (x5 : Vec Ideal S1x5 .f32)
    (r : Fin 8) (k : Fin 5) :
    k4_pay3 (F := Ideal) x1 x2 x3 x0 x4 x5 (ix2 r k) = ⨆ p : Fin 8192, k4_pay2 (F := Ideal) x1 x2 x3 x0 x4 x5 (ix2 p k) := by
  unfold k4_pay3
  exact colmax4_apply (k4_pay2 (F := Ideal) x1 x2 x3 x0 x4 x5) r k

theorem pay1_4_apply (v32 : FVec Ideal S8x5 .f32) (v39 : Vec Ideal S8x5 .f32) (i : S8x5.Idx) :
    k4_pay1 (F := Ideal) v32 v39 i = max (v39 i) (v32 i) := by
  unfold k4_pay1
  rw [shapeCast_self]
  rfl

variable (V : (c : Dev nD) → (b : Ref sig .tc) → Buf (Elt Ideal) ((c : Thread nD τ).loc b))

abbrev arrH4 (c : Dev nD) : Cert.Spec.Mat 1048576 32 := V c main_v68_0
abbrev sPre4 (c : Dev nD) : EReal := V c main_v62 (ix2 0 0)
abbrev sA4 (c : Dev nD) : EReal := V c main_v72 (ix2 0 0)
abbrev sBs4 (c : Dev nD) : EReal := V c main_v74 (ix2 0 0)
abbrev arrW4 (c : Dev nD) : Cert.Spec.Mat 32 5 := V c main_v31
abbrev arrB4 (c : Dev nD) : Cert.Spec.Mat 1 5 := V c main_v79

abbrev arrL4 (c : Dev nD) : Cert.Spec.Mat 1048576 5 :=
  Cert.Spec.pass4 (arrH4 V c) (sPre4 V c) (sA4 V c) (sBs4 V c) (arrW4 V c) (arrB4 V c)

def tl4 (t : Fin cfg4.N) : Fin 128 := ⟨t.val, lt_of_lt_of_eq t.isLt N_4⟩

theorem idx4_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = t.val / 64 ∧ win4_7.index t (1 : Fin 2) = 0 :=
  (by decide +kernel : ∀ t : Fin grid4.N, _)

theorem idxZ4 : ∀ (t : Fin cfg4.N) (a : Fin 2), win4_1.index t a = 0 ∧ win4_2.index t a = 0 ∧ win4_3.index t a = 0 ∧ win4_4.index t a = 0 ∧ win4_5.index t a = 0 :=
  (by decide +kernel : ∀ (t : Fin grid4.N) (a : Fin 2), _)

theorem blk4_0 (c : Dev nD) (t : Fin cfg4.N) (p : Fin 8192) (k : Fin 32) :
    (iblk4 V c 0 t : Vec Ideal S8192x32 .f32) (ix2 p k) = arrH4 V c (ix2 (Cert.Spec.rowOf (tl4 t) p) k) :=
  congrArg (V c main_v68_0) (Shape.idx_ext₂ ((win4_0.rect_emb_val t _ 0).trans (by rw [(idx4_facts t).1]; rfl))
    (win4_0.rect_emb_val_of_index_zero t 1 (idx4_facts t).2.1 _))

theorem blk4_1 (c : Dev nD) (t : Fin cfg4.N) : (iblk4 V c 1 t : Vec Ideal S1x1 .f32) (ix2 0 0) = sPre4 V c :=
  congrArg (V c main_v62) (funext fun a => Fin.ext (win4_1.rect_emb_val_of_index_zero t a (idxZ4 t a).1 _))

theorem blk4_2 (c : Dev nD) (t : Fin cfg4.N) : (iblk4 V c 2 t : Vec Ideal S1x1 .f32) (ix2 0 0) = sA4 V c :=
  congrArg (V c main_v72) (funext fun a => Fin.ext (win4_2.rect_emb_val_of_index_zero t a (idxZ4 t a).2.1 _))

theorem blk4_3 (c : Dev nD) (t : Fin cfg4.N) : (iblk4 V c 3 t : Vec Ideal S1x1 .f32) (ix2 0 0) = sBs4 V c :=
  congrArg (V c main_v74) (funext fun a => Fin.ext (win4_3.rect_emb_val_of_index_zero t a (idxZ4 t a).2.2.1 _))

theorem blk4_4 (c : Dev nD) (t : Fin cfg4.N) (k : Fin 32) (q : Fin 5) :
    (iblk4 V c 4 t : Vec Ideal S32x5 .f32) (ix2 k q) = arrW4 V c (ix2 k q) :=
  congrArg (V c main_v31) (funext fun a => Fin.ext (win4_4.rect_emb_val_of_index_zero t a (idxZ4 t a).2.2.2.1 _))

theorem blk4_5 (c : Dev nD) (t : Fin cfg4.N) (q : Fin 5) :
    (iblk4 V c 5 t : Vec Ideal S1x5 .f32) (ix2 0 q) = arrB4 V c (ix2 0 q) :=
  congrArg (V c main_v79) (funext fun a => Fin.ext (win4_5.rect_emb_val_of_index_zero t a (idxZ4 t a).2.2.2.2 _))

theorem logits4_apply (c : Dev nD) (t : Fin cfg4.N) (p : Fin 8192) (q : Fin 5) :
    logits4 V c t (ix2 p q) = arrL4 V c (ix2 (Cert.Spec.rowOf (tl4 t) p) q) := by
  unfold logits4
  refine (pay2_4_apply (iblk4 V c 1 t) (iblk4 V c 2 t) (iblk4 V c 3 t) (iblk4 V c 0 t) (iblk4 V c 4 t) (iblk4 V c 5 t) p q).trans ?_
  rw [blk4_1, blk4_2, blk4_3, blk4_5]
  simp only [blk4_0, blk4_4]
  rfl

theorem flushed4_6_eq (c : Dev nD) (t : Fin cfg4.N) :
    (dat4 V c).flushed 6 t = ((cfg4.win 6).blk t).view.read (Elt Ideal) (arrL4 V c) := by
  show (cfg4.win 6).cut (grid4.coords t) ((dat4 V c).after 6 t) = _
  rw [after4_6]
  funext y
  obtain ⟨p, q, rfl⟩ : ∃ (p : Fin 8192) (q : Fin 5), y = ix2 p q := ⟨y 0, y 1, eq_ix2 y⟩
  show logits4 V c t (ix2 p q) = arrL4 V c (((cfg4.win 6).blk t).view.emb (ix2 p q))
  have hemb : ((cfg4.win 6).blk t).view.emb (ix2 p q) = ix2 (Cert.Spec.rowOf (tl4 t) p) q :=
    Shape.idx_ext₂ ((win4_6.rect_emb_val t _ 0).trans (by rw [(idx4_facts t).2.2.2.2.2.2.2.2.2.2.2.2.1]; rfl))
      (win4_6.rect_emb_val_of_index_zero t 1 (idx4_facts t).2.2.2.2.2.2.2.2.2.2.2.2.2.1 _)
  rw [hemb]
  exact logits4_apply V c t p q

theorem cover4_6 (i : S1048576x5.Idx) : ∃ t : Fin cfg4.N, (cfg4.win 6).flush t = true ∧ i ∈ ((cfg4.win 6).blk t).view.set := by
  have h0 : (i 0).val < 1048576 := (i 0).isLt
  obtain ⟨t, ht⟩ : ∃ t : Fin cfg4.N, t.val = (i 0).val / 8192 := ⟨⟨_, by rw [show cfg4.N = 128 from N_4]; omega⟩, rfl⟩
  exact ⟨t, flush4_6 t, Finset.mem_map.mpr ⟨ix2 ⟨(i 0).val % 8192, Nat.mod_lt _ (by decide)⟩ (i 1), Finset.mem_univ _,
    Shape.idx_ext₂ ((win4_6.rect_emb_val t _ 0).trans (by
        rw [(idx4_facts t).2.2.2.2.2.2.2.2.2.2.2.2.1, ht]; show (i 0).val / 8192 * 8192 + (i 0).val % 8192 = _; omega))
      (win4_6.rect_emb_val_of_index_zero t 1 (idx4_facts t).2.2.2.2.2.2.2.2.2.2.2.2.2.1 _)⟩⟩

theorem val4_l (c : Dev nD) : (dat4 (F := Ideal) V c).arrAt 6 cfg4.N
    = Cert.Spec.pass4 (V c main_v68_0) (V c main_v62 (ix2 0 0)) (V c main_v72 (ix2 0 0)) (V c main_v74 (ix2 0 0)) (V c main_v31) (V c main_v79) :=
  (dat4 V c).arrAt_eq_of_cover 6 (arrL4 V c) (fun t _ => flushed4_6_eq V c t) cover4_6

def cm4 (c : Dev nD) (n : ℕ) (k : Fin 5) : EReal :=
  if h : n < 128 then ⨆ p : Fin 8192, arrL4 V c (ix2 (Cert.Spec.rowOf ⟨n, h⟩ p) k) else ⊥

theorem tile4_apply (c : Dev nD) (t : Fin cfg4.N) (r : Fin 8) (k : Fin 5) : tile4 V c t (ix2 r k) = cm4 V c t.val k := by
  unfold tile4
  refine (pay3_4_apply (iblk4 V c 1 t) (iblk4 V c 2 t) (iblk4 V c 3 t) (iblk4 V c 0 t) (iblk4 V c 4 t) (iblk4 V c 5 t) r k).trans ?_
  unfold cm4
  rw [dif_pos (lt_of_lt_of_eq t.isLt N_4)]
  show (⨆ p : Fin 8192, logits4 V c t (ix2 p k)) = _
  exact iSup_congr fun p => logits4_apply V c t p k

theorem acc4_last (c : Dev nD) (r : Fin 8) (k : Fin 5) (t : Fin cfg4.N) (h63 : t.val % 64 = 63) :
    acc4 V c t.val t.isLt (ix2 r k) = ⨆ j : Fin 64, cm4 V c (64 * (t.val / 64) + j.val) k := by
  have ht : t.val = 64 * (t.val / 64) + 63 := by omega
  have h := runmax 64 cfg4.N (fun n => cm4 V c n k) (fun n => if h : n < cfg4.N then acc4 V c n h (ix2 r k) else ⊥)
    (fun n hn h0 => by
      show (if h : n < cfg4.N then acc4 V c n h (ix2 r k) else ⊥) = cm4 V c n k
      rw [dif_pos hn, acc4_A V c ⟨n, hn⟩ h0, tile4_apply])
    (fun n hn h0 => by
      show (if h : n + 1 < cfg4.N then acc4 V c (n + 1) h (ix2 r k) else ⊥)
        = max (if h : n < cfg4.N then acc4 V c n h (ix2 r k) else ⊥) (cm4 V c (n + 1) k)
      have hB : acc4 V c (n + 1) hn = k4_pay1 (tile4 V c ⟨n + 1, hn⟩) (acc4 V c n (Nat.lt_of_succ_lt hn)) := acc4_B V c ⟨n + 1, hn⟩ h0
      rw [dif_pos hn, dif_pos (Nat.lt_of_succ_lt hn), hB, pay1_4_apply, tile4_apply])
    (t.val / 64) 63 (by omega) (by rw [← ht]; exact t.isLt)
  rw [← ht, range_sup_eq_iSup 64 fun i => cm4 V c (64 * (t.val / 64) + i) k] at h
  rw [← h]
  show _ = if h : t.val < cfg4.N then acc4 V c t.val h (ix2 r k) else ⊥
  rw [dif_pos t.isLt]

theorem flushed4_7_eq (c : Dev nD) (t : Fin cfg4.N) (hf : (cfg4.win 7).flush t = true) :
    (dat4 V c).flushed 7 t = ((cfg4.win 7).blk t).view.read (Elt Ideal) (Cert.Spec.cmArr (arrL4 V c)) := by
  have h63 : t.val % 64 = 63 := (flush4_7 t).mp hf
  have hN : t.val < 128 := lt_of_lt_of_eq t.isLt N_4
  show (cfg4.win 7).cut (grid4.coords t) ((dat4 V c).after 7 t) = _
  rw [after4_7]
  funext y
  obtain ⟨r, k, rfl⟩ : ∃ (r : Fin 8) (k : Fin 5), y = ix2 r k := ⟨y 0, y 1, eq_ix2 y⟩
  have hr : r.val < 8 := r.isLt
  show acc4 V c t.val t.isLt (ix2 r k) = Cert.Spec.cmArr (arrL4 V c) (((cfg4.win 7).blk t).view.emb (ix2 r k))
  have hemb : ((cfg4.win 7).blk t).view.emb (ix2 r k) = ix2 (⟨8 * (t.val / 64) + r.val, by omega⟩ : Fin 16) k := by
    funext a; apply Fin.ext
    match a with
    | ⟨0, _⟩ => show win4_7.index t (0 : Fin 2) * 8 + 1 * r.val = 8 * (t.val / 64) + r.val; rw [(idx4_facts t).2.2.2.2.2.2.2.2.2.2.2.2.2.2.1]; omega
    | ⟨1, _⟩ => show win4_7.index t (1 : Fin 2) * 5 + 1 * k.val = k.val; rw [(idx4_facts t).2.2.2.2.2.2.2.2.2.2.2.2.2.2.2]; omega
  rw [hemb, acc4_last V c r k t h63]
  show (⨆ j : Fin 64, cm4 V c (64 * (t.val / 64) + j.val) k)
    = ⨆ j : Fin 64, ⨆ q : Fin 8192, arrL4 V c (ix2 (Cert.Spec.rowOf (Cert.Spec.tileOf (Cert.Spec.coreOf ⟨8 * (t.val / 64) + r.val, by omega⟩) j) q) k)
  refine iSup_congr fun j => ?_
  have hj : j.val < 64 := j.isLt
  unfold cm4
  rw [dif_pos (by omega)]
  refine iSup_congr fun q => congrArg (fun i => arrL4 V c (ix2 i k)) (Fin.ext ?_)
  show (64 * (t.val / 64) + j.val) * 8192 + q.val = ((8 * (t.val / 64) + r.val) / 8 * 64 + j.val) * 8192 + q.val
  omega

theorem cover4_7 (i : S16x5.Idx) : ∃ t : Fin cfg4.N, (cfg4.win 7).flush t = true ∧ i ∈ ((cfg4.win 7).blk t).view.set := by
  have h0 : (i 0).val < 16 := (i 0).isLt
  obtain ⟨t, ht⟩ : ∃ t : Fin cfg4.N, t.val = 64 * ((i 0).val / 8) + 63 := ⟨⟨_, by rw [show cfg4.N = 128 from N_4]; omega⟩, rfl⟩
  exact ⟨t, (flush4_7 t).mpr (by rw [ht]; omega), Finset.mem_map.mpr ⟨ix2 ⟨(i 0).val % 8, Nat.mod_lt _ (by decide)⟩ (i 1), Finset.mem_univ _,
    Shape.idx_ext₂ ((win4_7.rect_emb_val t _ 0).trans (by
        rw [(idx4_facts t).2.2.2.2.2.2.2.2.2.2.2.2.2.2.1, ht]; show (64 * ((i 0).val / 8) + 63) / 64 * 8 + (i 0).val % 8 = _; omega))
      (win4_7.rect_emb_val_of_index_zero t 1 (idx4_facts t).2.2.2.2.2.2.2.2.2.2.2.2.2.2.2 _)⟩⟩

theorem val4_cm (c : Dev nD) : (dat4 (F := Ideal) V c).arrAt 7 cfg4.N
    = Cert.Spec.cmArr (Cert.Spec.pass4 (V c main_v68_0) (V c main_v62 (ix2 0 0)) (V c main_v72 (ix2 0 0)) (V c main_v74 (ix2 0 0)) (V c main_v31) (V c main_v79)) :=
  (dat4 V c).arrAt_eq_of_cover 7 (Cert.Spec.cmArr (arrL4 V c)) (flushed4_7_eq V c) cover4_7

end Cert.KernelIdeal.Hand
end
-- ==== Proof.KI.Val5.lean ====
import proofs.«411066_j83983790505988_3_alg».proof.Proof.KI.Reg5
import proofs.«411066_j83983790505988_3_alg».proof.Proof.Spec
import proofs.«411066_j83983790505988_3_alg».proof.Proof.Consts
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

theorem pay1_apply5 (x0 : Vec Ideal S8192x5 .f32) (x1 : Vec Ideal S1x5 .f32) (r : Fin 8192) (k : Fin 5) :
    k5_pay1 x0 x1 (ix2 r k) = Ideal.exp (x0 (ix2 r k) - x1 (ix2 (0 : Fin 1) k)) := by
  unfold k5_pay1
  show Ideal.exp ((shapeCast S8192x5 x0 shapeCasts_S8192x5_S8192x5) (ix2 r k)
    - (broadcastTo S8192x5 (shapeCast S1x5 x1 shapeCasts_S1x5_S1x5) broadcasts_S1x5_S8192x5) (ix2 r k)) = _
  rw [shapeCast_self, shapeCast_self, broadcastTo_1b_ab_apply]

theorem pay2_apply5 (x0 : Vec Ideal S8192x5 .f32) (x1 : Vec Ideal S1x5 .f32) (p : Fin 8) (k : Fin 5) :
    k5_pay2 x0 x1 (ix2 p k) = ∑ r : Fin 8192, k5_pay1 x0 x1 (ix2 r k) := by
  unfold k5_pay2
  show (broadcastTo S8x5 (shapeCast S1x5 (shapeCast S1x5 (multiReduction (F := Ideal) .add [0] S5 (k5_pay1 x0 x1) 0x00000000#32
    reduces_S8192x5_S5 (.inl rfl) rfl) shapeCasts_S5_S1x5) shapeCasts_S1x5_S1x5) broadcasts_S1x5_S8x5) (ix2 p k) = _
  rw [broadcastTo_1b_ab_apply, shapeCast_self, shapeCast_a_1a_apply]
  refine (Ideal.multiReduction_add_single (k5_pay1 x0 x1) 0x00000000#32 reduces_S8192x5_S5 (.inl rfl) rfl (ix1 k)).trans ?_
  refine Finset.sum_congr rfl fun r _ => congrArg _ ?_
  funext a; match a with | ⟨0, _⟩ => rfl | ⟨1, _⟩ => rfl

theorem pay3_apply5 (x0 : Vec Ideal S8192x5 .f32) (x1 : Vec Ideal S1x5 .f32) (xo : Vec Ideal S8x5 .f32) (j : S8x5.Idx) :
    k5_pay3 x0 x1 xo j = xo j + k5_pay2 x0 x1 j := by
  unfold k5_pay3
  show (shapeCast S8x5 xo shapeCasts_S8x5_S8x5) j + _ = _
  rw [shapeCast_self]

def pt5 (t : Fin cfg5.N) : Fin 128 := ⟨t.val, lt_of_lt_of_eq t.isLt N_5⟩

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val / 64 ∧ win5_3.index t (1 : Fin 2) = 0 :=
  (by decide +kernel : ∀ t : Fin grid5.N, _)

theorem emb5_0 (t : Fin cfg5.N) (r : Fin 8192) (k : Fin 5) :
    (((cfg5.win 0).blk t).view.emb (ix2 r k) : S1048576x5.Idx) = ix2 (Cert.Spec.rowOf (pt5 t) r) k :=
  Shape.idx_ext₂ ((win5_0.rect_emb_val t _ 0).trans (by rw [(idx_facts5 t).1]; rfl))
    (win5_0.rect_emb_val_of_index_zero t 1 (idx_facts5 t).2.1 _)

theorem emb5_2 (t : Fin cfg5.N) (r : Fin 8192) (k : Fin 5) :
    (((cfg5.win 2).blk t).view.emb (ix2 r k) : S1048576x5.Idx) = ix2 (Cert.Spec.rowOf (pt5 t) r) k :=
  Shape.idx_ext₂ ((win5_2.rect_emb_val t _ 0).trans (by rw [(idx_facts5 t).2.2.2.2.1]; rfl))
    (win5_2.rect_emb_val_of_index_zero t 1 (idx_facts5 t).2.2.2.2.2.1 _)

theorem emb5_1 (t : Fin cfg5.N) (u : Fin 1) (k : Fin 5) :
    (((cfg5.win 1).blk t).view.emb (ix2 u k) : S1x5.Idx) = ix2 (0 : Fin 1) k :=
  Shape.idx_ext₂ ((win5_1.rect_emb_val_of_index_zero t 0 (idx_facts5 t).2.2.1 _).trans (Fin.val_eq_zero u))
    (win5_1.rect_emb_val_of_index_zero t 1 (idx_facts5 t).2.2.2.1 _)

theorem iblk5_0_apply (c : Dev nD) (t : Fin cfg5.N) (r : Fin 8192) (k : Fin 5) :
    (iblk5 V c 0 t : Vec Ideal S8192x5 .f32) (ix2 r k) = (V c main_v80_0 : Cert.Spec.Mat Cert.Spec.B 5) (ix2 (Cert.Spec.rowOf (pt5 t) r) k) := by
  unfold iblk5
  rw [View.read_apply]
  show V c main_v80_0 (((cfg5.win 0).blk t).view.emb (ix2 r k)) = _
  rw [emb5_0]

theorem iblk5_1_apply (c : Dev nD) (t : Fin cfg5.N) (u : Fin 1) (k : Fin 5) :
    (iblk5 V c 1 t : Vec Ideal S1x5 .f32) (ix2 u k) = (V c main_v82 : Cert.Spec.Mat 1 5) (ix2 (0 : Fin 1) k) := by
  unfold iblk5
  rw [View.read_apply]
  show V c main_v82 (((cfg5.win 1).blk t).view.emb (ix2 u k)) = _
  rw [emb5_1]

theorem flushed5_2 (c : Dev nD) (t : Fin cfg5.N) :
    (dat5 (F := Ideal) V c).flushed 2 t
      = ((cfg5.win 2).blk t).view.read (Elt Ideal) (Cert.Spec.pass5 (V c main_v80_0) (V c main_v82)) := by
  show (cfg5.win 2).cut (grid5.coords t) ((dat5 V c).after 2 t) = _
  rw [after5_2]
  funext j
  obtain ⟨r, k, rfl⟩ : ∃ (r : Fin 8192) (k : Fin 5), (j : S8192x5.Idx) = ix2 r k := ⟨j 0, j 1, eq_ix2 (n0 := 8192) (n1 := 5) j⟩
  rw [View.read_apply]
  show k5_pay1 (iblk5 V c 0 t) (iblk5 V c 1 t) (ix2 r k)
    = Cert.Spec.pass5 (V c main_v80_0) (V c main_v82) (((cfg5.win 2).blk t).view.emb (ix2 r k))
  rw [pay1_apply5, iblk5_0_apply, iblk5_1_apply, emb5_2]
  rfl

theorem val5_e (c : Dev nD) :
    (dat5 (F := Ideal) V c).arrAt 2 cfg5.N = Cert.Spec.pass5 (V c main_v80_0) (V c main_v82) :=
  (dat5 (F := Ideal) V c).arrAt_eq_of_cover 2 (Cert.Spec.pass5 (V c main_v80_0) (V c main_v82)) (fun t _ => flushed5_2 V c t) fun i => by
    have h0 : (i 0).val < 1048576 := (i 0).isLt
    obtain ⟨t, ht⟩ : ∃ t : Fin cfg5.N, t.val = (i 0).val / 8192 := ⟨⟨_, by rw [show cfg5.N = 128 from N_5]; omega⟩, rfl⟩
    exact ⟨t, flush5_2 t, Finset.mem_map.mpr ⟨ix2 ⟨(i 0).val % 8192, Nat.mod_lt _ (by decide)⟩ (i 1), Finset.mem_univ _,
      Shape.idx_ext₂ ((win5_2.rect_emb_val t _ 0).trans (by
          rw [(idx_facts5 t).2.2.2.2.1, ht]; show (i 0).val / 8192 * 8192 + (i 0).val % 8192 = _; omega))
        (win5_2.rect_emb_val_of_index_zero t 1 (idx_facts5 t).2.2.2.2.2.1 _)⟩⟩

def tsum5 (c : Dev nD) (m : ℕ) (k : Fin 5) : EReal :=
  if h : m < 128 then ∑ q : Fin 8192, Cert.Spec.pass5 (V c main_v80_0) (V c main_v82) (ix2 (Cert.Spec.rowOf ⟨m, h⟩ q) k) else 0

theorem pay2_tile5 (c : Dev nD) (t : Fin cfg5.N) (p : Fin 8) (k : Fin 5) :
    k5_pay2 (iblk5 V c 0 t) (iblk5 V c 1 t) (ix2 p k) = tsum5 V c t.val k := by
  have ht : t.val < 128 := lt_of_lt_of_eq t.isLt N_5
  rw [pay2_apply5, tsum5, dif_pos ht]
  refine Finset.sum_congr rfl fun r _ => ?_
  rw [pay1_apply5, iblk5_0_apply, iblk5_1_apply]
  rfl

theorem acc5_eq (c : Dev nD) : ∀ (n : ℕ) (hn : n < cfg5.N) (p : Fin 8) (k : Fin 5),
    acc5 V c n hn (ix2 p k) = ∑ s ∈ Finset.range (n % 64 + 1), tsum5 V c (n / 64 * 64 + s) k
  | 0, hn, p, k => by
    rw [acc5_first V c ⟨0, hn⟩ rfl, pay2_tile5]
    simp
  | n + 1, hn, p, k => by
    by_cases h0 : (n + 1) % 64 = 0
    · rw [acc5_first V c ⟨n + 1, hn⟩ h0, pay2_tile5, h0, Finset.sum_range_one]
      show tsum5 V c (n + 1) k = tsum5 V c ((n + 1) / 64 * 64 + 0) k
      have e : (n + 1) / 64 * 64 + 0 = n + 1 := by omega
      rw [e]
    · rw [acc5_later V c ⟨n + 1, hn⟩ h0, pay3_apply5, pay2_tile5]
      show acc5 V c n _ (ix2 p k) + _ = _
      rw [acc5_eq c n _ p k]
      have h1 : (n + 1) % 64 = n % 64 + 1 := by omega
      have h2 : (n + 1) / 64 = n / 64 := by omega
      rw [h1, h2, Finset.sum_range_succ _ (n % 64 + 1)]
      show _ + tsum5 V c (n + 1) k = _ + tsum5 V c (n / 64 * 64 + (n % 64 + 1)) k
      have e : n / 64 * 64 + (n % 64 + 1) = n + 1 := by omega
      rw [e]

theorem emb5_3 (t : Fin cfg5.N) (p : Fin 8) (k : Fin 5) :
    (((cfg5.win 3).blk t).view.emb (ix2 p k) : S16x5.Idx)
      = ix2 (⟨t.val / 64 * 8 + p.val, by have := lt_of_lt_of_eq t.isLt N_5; have := p.isLt; omega⟩ : Fin 16) k :=
  Shape.idx_ext₂ ((win5_3.rect_emb_val t _ 0).trans (by rw [(idx_facts5 t).2.2.2.2.2.2.1]; rfl))
    (win5_3.rect_emb_val_of_index_zero t 1 (idx_facts5 t).2.2.2.2.2.2.2 _)

theorem flushed5_3 (c : Dev nD) (t : Fin cfg5.N) (hf : (cfg5.win 3).flush t = true) :
    (dat5 (F := Ideal) V c).flushed 3 t
      = ((cfg5.win 3).blk t).view.read (Elt Ideal) (Cert.Spec.csArr (Cert.Spec.pass5 (V c main_v80_0) (V c main_v82))) := by
  have h63 : t.val % 64 = 63 := (flush5_3 t).mp hf
  have ht : t.val < 128 := lt_of_lt_of_eq t.isLt N_5
  show (cfg5.win 3).cut (grid5.coords t) ((dat5 V c).after 3 t) = _
  rw [after5_3]
  funext j
  obtain ⟨p, k, rfl⟩ : ∃ (p : Fin 8) (k : Fin 5), (j : S8x5.Idx) = ix2 p k := ⟨j 0, j 1, eq_ix2 (n0 := 8) (n1 := 5) j⟩
  rw [View.read_apply]
  show acc5 V c t.val t.isLt (ix2 p k)
    = Cert.Spec.csArr (Cert.Spec.pass5 (V c main_v80_0) (V c main_v82)) (((cfg5.win 3).blk t).view.emb (ix2 p k))
  have e64 : t.val % 64 + 1 = 64 := by omega
  rw [acc5_eq, emb5_3, e64, Finset.sum_range]
  show _ = ∑ j : Fin 64, ∑ q : Fin 8192, Cert.Spec.pass5 (V c main_v80_0) (V c main_v82)
    (ix2 (Cert.Spec.rowOf (Cert.Spec.tileOf (Cert.Spec.coreOf ⟨t.val / 64 * 8 + p.val, _⟩) j) q) k)
  refine Finset.sum_congr rfl fun j _ => ?_
  have hj : j.val < 64 := j.isLt
  have hp : p.val < 8 := p.isLt
  rw [tsum5, dif_pos (by omega)]
  refine Finset.sum_congr rfl fun q _ => ?_
  refine congrArg (fun x => Cert.Spec.pass5 (V c main_v80_0) (V c main_v82) (ix2 x k)) (Fin.ext ?_)
  show (t.val / 64 * 64 + j.val) * 8192 + q.val = ((t.val / 64 * 8 + p.val) / 8 * 64 + j.val) * 8192 + q.val
  have e8 : (t.val / 64 * 8 + p.val) / 8 = t.val / 64 := by omega
  rw [e8]

theorem val5_cs (c : Dev nD) :
    (dat5 (F := Ideal) V c).arrAt 3 cfg5.N = Cert.Spec.csArr (Cert.Spec.pass5 (V c main_v80_0) (V c main_v82)) :=
  (dat5 (F := Ideal) V c).arrAt_eq_of_cover 3 (Cert.Spec.csArr (Cert.Spec.pass5 (V c main_v80_0) (V c main_v82))) (flushed5_3 V c) fun i => by
    have h0 : (i 0).val < 16 := (i 0).isLt
    obtain ⟨t, ht⟩ : ∃ t : Fin cfg5.N, t.val = 64 * ((i 0).val / 8) + 63 := ⟨⟨_, by rw [show cfg5.N = 128 from N_5]; omega⟩, rfl⟩
    exact ⟨t, (flush5_3 t).mpr (by rw [ht]; omega), Finset.mem_map.mpr ⟨ix2 ⟨(i 0).val % 8, Nat.mod_lt _ (by decide)⟩ (i 1), Finset.mem_univ _,
      Shape.idx_ext₂ ((win5_3.rect_emb_val t _ 0).trans (by
          rw [(idx_facts5 t).2.2.2.2.2.2.1, ht]; show (64 * ((i 0).val / 8) + 63) / 64 * 8 + (i 0).val % 8 = _; omega))
        (win5_3.rect_emb_val_of_index_zero t 1 (idx_facts5 t).2.2.2.2.2.2.2 _)⟩⟩

end Cert.KernelIdeal.Hand

end
-- ==== Proof.KI.Val6.lean ====
import proofs.«411066_j83983790505988_3_alg».proof.Proof.KI.Reg6
import proofs.«411066_j83983790505988_3_alg».proof.Proof.Spec
import proofs.«411066_j83983790505988_3_alg».proof.Proof.Consts
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz6 : (![0, 0] : Fin 2 → Nat) = fun _ => 0 := funext fun a => by fin_cases a <;> rfl

theorem ext6_00 (x : Vec Ideal S1x1 .f32) : extractAt ![0, 0] x inpos_S1x1_p0_0 = x (ix2 0 0) :=
  congrArg x (funext fun a => by match a with | ⟨0, _⟩ => rfl | ⟨1, _⟩ => rfl)

theorem bc6_15 (x1 : Vec Ideal S1x5 .f32) (r : Fin 8192) (k : Fin 5) :
    broadcastTo S8192x5 x1 broadcasts_S1x5_S8192x5 (ix2 r k) = x1 (ix2 0 k) :=
  broadcastTo_apply x1 _ (ix2 r k) (ix2 0 k) (fun a => by match a with | ⟨0, _⟩ => rfl | ⟨1, _⟩ => rfl)

theorem pay6_apply (x2 x3 : Vec Ideal S1x1 .f32) (x0 : Vec Ideal S8192x5 .f32) (x1 : Vec Ideal S1x5 .f32)
    (r : Fin 8192) (k : Fin 5) :
    (k6_pay1 (F := Ideal) x2 x3 x0 x1 : Vec Ideal S8192x5 .f32) (ix2 r k)
      = Cert.Spec.clipE Cert.Spec.nAlo Cert.Spec.nA
          (Cert.Spec.rnd (Cert.Spec.rnd (Ideal.div (Ideal.div (x0 (ix2 r k)) (x1 (ix2 0 k))) (x2 (ix2 0 0)))
            * Ideal.div (x2 (ix2 0 0)) (x3 (ix2 0 0)))) * x3 (ix2 0 0) := by
  unfold k6_pay1
  rw [shapeCast_self, shapeCast_self, ext6_00, ext6_00]
  show min (Ideal.ofBits .f32 0x46FFFE00#32) (max (Ideal.ofBits .f32 0xC7000000#32) (Cert.Spec.rnd (Cert.Spec.rnd (Ideal.div (Ideal.div (x0 (ix2 r k))
    (broadcastTo S8192x5 x1 broadcasts_S1x5_S8192x5 (ix2 r k))) _) * _))) * _ = _
  rw [bc6_15, Cert.Consts.ofBits_nA, Cert.Consts.ofBits_nAlo]
  rfl

theorem out6_apply (x0 : Vec Ideal S8192x5 .f32) (x1 : Vec Ideal S1x5 .f32) (x2 x3 : Vec Ideal S1x1 .f32)
    (r : Fin 8192) (k : Fin 5) :
    out6 (F := Ideal) x0 x1 x2 x3 (ix2 r k)
      = Cert.Spec.clipE Cert.Spec.nAlo Cert.Spec.nA
          (Cert.Spec.rnd (Cert.Spec.rnd (Ideal.div (Ideal.div (x0 (ix2 r k)) (x1 (ix2 0 k))) (x2 (ix2 0 0)))
            * Ideal.div (x2 (ix2 0 0)) (x3 (ix2 0 0)))) * x3 (ix2 0 0) := by
  unfold out6
  rw [View.canon_unit_zero hz6, View.ld_unit_zero (S := S1x1) hz6, View.ld_unit_zero (S := S1x1) hz6,
    View.ld_unit_zero (S := S8192x5) hz6, View.ld_unit_zero (S := S1x5) hz6]
  exact pay6_apply x2 x3 x0 x1 r k

theorem index6 : ∀ t : Fin grid6.N,
    (win6_0.index t 0 = t.val ∧ win6_0.index t 1 = 0) ∧ (win6_1.index t 0 = 0 ∧ win6_1.index t 1 = 0)
      ∧ (win6_2.index t 0 = 0 ∧ win6_2.index t 1 = 0) ∧ (win6_3.index t 0 = 0 ∧ win6_3.index t 1 = 0)
      ∧ (win6_4.index t 0 = t.val ∧ win6_4.index t 1 = 0) := by decide +kernel

theorem idxZ6 : ∀ (t : Fin grid6.N) (a : Fin 2), win6_1.index t a = 0 ∧ win6_2.index t a = 0 ∧ win6_3.index t a = 0 := by decide +kernel

theorem iblk6_0_apply (c : Dev nD) (t : Fin cfg6.N) (r : Fin 8192) (k : Fin 5) (i : Fin 1048576)
    (hi : i.val = t.val * 8192 + r.val) :
    (iblk6 V c 0 t : Vec Ideal S8192x5 .f32) (ix2 r k) = (V c main_v83_0 : S1048576x5.Idx → Elt Ideal .f32) (ix2 i k) :=
  congrArg (V c main_v83_0) (Shape.idx_ext₂ ((win6_0.rect_emb_val t _ 0).trans (by rw [(index6 t).1.1, hi]; rfl))
    (win6_0.rect_emb_val_of_index_zero t 1 (index6 t).1.2 _))

theorem iblk6_1_apply (c : Dev nD) (t : Fin cfg6.N) (k : Fin 5) :
    (iblk6 V c 1 t : Vec Ideal S1x5 .f32) (ix2 0 k) = (V c main_v86 : S1x5.Idx → Elt Ideal .f32) (ix2 0 k) :=
  congrArg (V c main_v86) (funext fun a => Fin.ext (win6_1.rect_emb_val_of_index_zero t a (idxZ6 t a).1 _))

theorem iblk6_2_apply (c : Dev nD) (t : Fin cfg6.N) :
    (iblk6 V c 2 t : Vec Ideal S1x1 .f32) (ix2 0 0) = (V c main_v74 : S1x1.Idx → Elt Ideal .f32) (ix2 0 0) :=
  congrArg (V c main_v74) (funext fun a => Fin.ext (win6_2.rect_emb_val_of_index_zero t a (idxZ6 t a).2.1 _))

theorem iblk6_3_apply (c : Dev nD) (t : Fin cfg6.N) :
    (iblk6 V c 3 t : Vec Ideal S1x1 .f32) (ix2 0 0) = (V c main_v91 : S1x1.Idx → Elt Ideal .f32) (ix2 0 0) :=
  congrArg (V c main_v91) (funext fun a => Fin.ext (win6_3.rect_emb_val_of_index_zero t a (idxZ6 t a).2.2 _))

abbrev G6 (c : Dev nD) : Cert.Spec.Mat 1048576 5 :=
  Cert.Spec.pass6 (V c main_v83_0 : Cert.Spec.Mat 1048576 5) (V c main_v86 : Cert.Spec.Mat 1 5) (V c main_v74 (ix2 0 0)) (V c main_v91 (ix2 0 0))

theorem after6_4_apply (c : Dev nD) (t : Fin cfg6.N) (r : Fin 8192) (k : Fin 5) (i : Fin 1048576)
    (hi : i.val = t.val * 8192 + r.val) :
    ((dat6 V c).after 4 t : Vec Ideal S8192x5 .f32) (ix2 r k) = G6 V c (ix2 i k) := by
  rw [after6_4, out6_apply, iblk6_0_apply V c t r k i hi, iblk6_1_apply, iblk6_2_apply, iblk6_3_apply]
  rfl

theorem flushed6_eq (c : Dev nD) (t : Fin cfg6.N) (hf : (cfg6.win 4).flush t = true) :
    (dat6 V c).flushed 4 t = ((cfg6.win 4).blk t).view.read (Elt Ideal) (G6 V c) := by
  have h := (index6 t).2.2.2.2
  funext y
  rw [View.read_apply]
  obtain ⟨r, k, rfl⟩ : ∃ (r : Fin 8192) (k : Fin 5), y = ix2 r k := ⟨y 0, y 1, eq_ix2 y⟩
  have ht : t.val < 128 := t.isLt
  have hlt : t.val * 8192 + r.val < 1048576 := by have := r.isLt; omega
  show ((dat6 V c).after 4 t : Vec Ideal S8192x5 .f32) (ix2 r k) = G6 V c _
  rw [after6_4_apply V c t r k ⟨t.val * 8192 + r.val, hlt⟩ rfl]
  congr 1
  funext a
  apply Fin.ext
  match a with
  | ⟨0, _⟩ => show t.val * 8192 + r.val = win6_4.index t 0 * 8192 + 1 * r.val; rw [h.1]; omega
  | ⟨1, _⟩ => show k.val = win6_4.index t 1 * 5 + 1 * k.val; rw [h.2]; omega

theorem cover6_4 (i : S1048576x5.Idx) :
    ∃ t : Fin cfg6.N, (cfg6.win 4).flush t = true ∧ i ∈ ((cfg6.win 4).blk t).view.set := by
  have h0 : (i 0).val < 1048576 := (i 0).isLt
  obtain ⟨t, ht⟩ : ∃ t : Fin cfg6.N, t.val = (i 0).val / 8192 := ⟨⟨_, by rw [show cfg6.N = 128 from rfl]; omega⟩, rfl⟩
  exact ⟨t, flush6_4 t, Finset.mem_map.mpr ⟨ix2 ⟨(i 0).val % 8192, Nat.mod_lt _ (by decide)⟩ (i 1), Finset.mem_univ _,
    Shape.idx_ext₂ ((win6_4.rect_emb_val t _ 0).trans (by
        rw [(index6 t).2.2.2.2.1, ht]; show (i 0).val / 8192 * 8192 + (i 0).val % 8192 = _; omega))
      (win6_4.rect_emb_val_of_index_zero t 1 (index6 t).2.2.2.2.2 _)⟩⟩

theorem val6_out (c : Dev nD) : (dat6 (F := Ideal) V c).arrAt 4 cfg6.N
    = Cert.Spec.pass6 (V c main_v83_0 : Cert.Spec.Mat 1048576 5) (V c main_v86 : Cert.Spec.Mat 1 5) (V c main_v74 (ix2 0 0)) (V c main_v91 (ix2 0 0)) :=
  (dat6 V c).arrAt_eq_of_cover 4 (G6 V c) (flushed6_eq V c) cover6_4

end Cert.KernelIdeal.Hand

end
-- ==== Proof.ChainGlue.lean ====
import proofs.«411066_j83983790505988_3_alg».proof.Proof.ValLib
import proofs.«411066_j83983790505988_3_alg».proof.Proof.Spec
import proofs.«411066_j83983790505988_3_alg».proof.Proof.Consts
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Mathlib.Data.Finset.Fold

noncomputable section

namespace Cert.ChainGlue

open Cert.ValLib
open Idealize.ShloMosaic Idealize.ShloMosaic.TcCoe Idealize.ShloMosaic.ValueIdx
open Idealize.ShloMosaic.StableHlo

abbrev S0 : Shape := ⟨0, ![]⟩

theorem reduce_amaxW {S : Shape} {axes : List (Fin S.rank)} (X : FVec Ideal S .f32) (h : S.ReducesTo axes S0)
    (hu : 0 < S0.numel) (j : S0.Idx) :
    Host.reduce (FloatOps.maximumf (F := Ideal) (φ := .f32)) (Host.absf X) (constant (F := Ideal) S0 .f32 0xFF800000#32) h hu j = Cert.Spec.amax X := by
  rw [Host.reduce_eq_fold]
  rw [Finset.filter_true_of_mem (fun i _ => (eq_ix0 _).trans (eq_ix0 _).symm)]
  show Finset.fold max (Ideal.ofBits .f32 0xFF800000#32) _ _ = _
  rw [Cert.Consts.ofBits_ninf, fold_max_bot]
  rfl

theorem wsf_chainW {n m : ℕ} {axes : List (Fin (⟨2, ![n, m]⟩ : Shape).rank)} (X : FVec Ideal ⟨2, ![n, m]⟩ .f32)
    (h : (⟨2, ![n, m]⟩ : Shape).ReducesTo axes S0) (hu : 0 < S0.numel) :
    Host.divf (Host.reduce (FloatOps.maximumf (F := Ideal) (φ := .f32)) (Host.absf X) (constant (F := Ideal) S0 .f32 0xFF800000#32) h hu)
        (constant (F := Ideal) S0 .f32 0x42FE0000#32)
      = fun _ => Cert.Spec.wsf X := by
  funext j
  show Ideal.div (Host.reduce (FloatOps.maximumf (F := Ideal) (φ := .f32)) (Host.absf X) (constant (F := Ideal) S0 .f32 0xFF800000#32) h hu j)
    (Ideal.ofBits .f32 0x42FE0000#32) = _
  rw [reduce_amaxW, Cert.Consts.ofBits_nW]
  rfl

theorem bcast_scalarW {α : Type} {t : Shape} (dims : Fin S0.rank → Fin t.rank) (h : S0.BroadcastsInDim t dims) (x : S0.Idx → α) (j : t.Idx) :
    broadcastInDim t dims h x j = x ix0 :=
  broadcastInDim_apply dims h x j ix0 (fun a => a.elim0)

theorem wT_chainW {n m : ℕ} (X : FVec Ideal ⟨2, ![n, m]⟩ .f32) (s lo hi : FVec Ideal S0 .f32)
    (dims : Fin S0.rank → Fin (⟨2, ![n, m]⟩ : Shape).rank) (hb : S0.BroadcastsInDim ⟨2, ![n, m]⟩ dims)
    (ht : (⟨2, ![n, m]⟩ : Shape).Transposes [1, 0] ⟨2, ![m, n]⟩) :
    transpose ⟨2, ![m, n]⟩ [1, 0]
      (minimumf (broadcastInDim ⟨2, ![n, m]⟩ dims hb hi)
        (maximumf (broadcastInDim ⟨2, ![n, m]⟩ dims hb lo)
          (Host.roundeven (Host.divf X (broadcastInDim ⟨2, ![n, m]⟩ dims hb s))))) ht
      = Cert.Spec.mk fun k j => Cert.Spec.clipE (lo ix0) (hi ix0) (Cert.Spec.rnd (Ideal.div (X (ix2 j k)) (s ix0))) := by
  funext y
  obtain ⟨k, j, rfl⟩ : ∃ k j, y = ix2 k j := ⟨y 0, y 1, eq_ix2 y⟩
  rw [transpose_ix2_apply]
  show min (broadcastInDim _ dims hb hi (ix2 j k)) (max (broadcastInDim _ dims hb lo (ix2 j k))
    (Ideal.liftRound Ideal.roundHalfEven (Ideal.div (X (ix2 j k)) (broadcastInDim _ dims hb s (ix2 j k))))) = _
  rw [bcast_scalarW, bcast_scalarW, bcast_scalarW]
  rfl

theorem wT_fullW {n m : ℕ} {axes : List (Fin (⟨2, ![n, m]⟩ : Shape).rank)} (X : FVec Ideal ⟨2, ![n, m]⟩ .f32)
    (h : (⟨2, ![n, m]⟩ : Shape).ReducesTo axes S0) (hu : 0 < S0.numel)
    (dims : Fin S0.rank → Fin (⟨2, ![n, m]⟩ : Shape).rank) (hb : S0.BroadcastsInDim ⟨2, ![n, m]⟩ dims)
    (ht : (⟨2, ![n, m]⟩ : Shape).Transposes [1, 0] ⟨2, ![m, n]⟩) :
    transpose ⟨2, ![m, n]⟩ [1, 0]
      (minimumf (broadcastInDim ⟨2, ![n, m]⟩ dims hb (id (constant (F := Ideal) S0 .f32 0x42FE0000#32)))
        (maximumf (broadcastInDim ⟨2, ![n, m]⟩ dims hb (id (constant (F := Ideal) S0 .f32 0xC3000000#32)))
          (Host.roundeven (Host.divf X (broadcastInDim ⟨2, ![n, m]⟩ dims hb
            (Host.divf (Host.reduce (FloatOps.maximumf (F := Ideal) (φ := .f32)) (Host.absf X) (constant (F := Ideal) S0 .f32 0xFF800000#32) h hu)
              (constant (F := Ideal) S0 .f32 0x42FE0000#32))))))) ht
      = Cert.Spec.wT X := by
  rw [wsf_chainW]
  refine (wT_chainW X _ _ _ dims hb ht).trans ?_
  show Cert.Spec.mk (fun k j => Cert.Spec.clipE (Ideal.ofBits .f32 0xC3000000#32) (Ideal.ofBits .f32 0x42FE0000#32)
    (Cert.Spec.rnd (Ideal.div (X (ix2 j k)) (Cert.Spec.wsf X)))) = _
  rw [Cert.Consts.ofBits_nWlo, Cert.Consts.ofBits_nW]
  rfl

theorem lift_rowS {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c
  apply Fin.ext
  fin_cases c <;> rfl

theorem reduceRowsS {m n : Nat} (x : FVec Ideal ⟨2, ![m, n]⟩ .f32)
    (h' : (⟨2, ![m, n]⟩ : Shape).ReducesTo [0] (⟨1, ![n]⟩ : Shape)) (h : (⟨2, ![m, n]⟩ : Shape).Reduces [0] (⟨1, ![n]⟩ : Shape))
    (hu : 0 < (⟨0, ![]⟩ : Shape).numel) (t : Fin n) :
    Host.reduce FloatOps.maximumf x (constant (F := Ideal) (⟨0, ![]⟩ : Shape) .f32 0xFF800000#32) h' hu (ix1 t)
      = ⨆ r : Fin m, x (ix2 r t) := by
  rw [Host.reduce_eq_fold_single FloatOps.maximumf x _ h' h hu]
  have hf : (x ∘ h.lift (ix1 t)) = fun k : Fin m => x (ix2 k t) := funext fun k => congrArg x (lift_rowS h t k)
  show Finset.fold max (Ideal.ofBits .f32 0xFF800000#32) (x ∘ h.lift (ix1 t)) (Finset.univ : Finset (Fin m)) = _
  rw [Cert.Consts.ofBits_ninf, hf]
  exact fold_max_bot _

theorem bcastRowS {n : Nat} (h : (⟨1, ![n]⟩ : Shape).BroadcastsInDim (⟨2, ![1, n]⟩ : Shape) ![1])
    (v : (⟨1, ![n]⟩ : Shape).Idx → EReal) (a : Fin 1) (t : Fin n) :
    broadcastInDim (⟨2, ![1, n]⟩ : Shape) ![1] h v (ix2 a t) = v (ix1 t) := by
  refine broadcastInDim_apply _ h v _ (ix1 t) fun c => ?_
  match c with
  | ⟨0, _⟩ =>
    show t.val = if n = 1 then 0 else t.val
    have := t.isLt
    split <;> omega

theorem shapeCastUnitS {s t : Shape} (hs : s.numel = 1) (ht : t.numel = 1) (v : s.Idx → EReal) (h : s.ShapeCasts t) (j : t.Idx) (k : s.Idx) :
    shapeCast t v h j = v k := by
  refine shapeCast_apply v h j k ?_
  have h1 := (s.rowMajor k).isLt
  have h2 := (t.rowMajor j).isLt
  omega

theorem shapeCastRowS {n : Nat} (h : (⟨1, ![n]⟩ : Shape).ShapeCasts (⟨2, ![1, n]⟩ : Shape)) (v : (⟨1, ![n]⟩ : Shape).Idx → EReal)
    (a : Fin 1) (t : Fin n) : shapeCast (⟨2, ![1, n]⟩ : Shape) v h (ix2 a t) = v (ix1 t) := by
  refine shapeCast_apply v h _ (ix1 t) ?_
  rw [Shape.rowMajor_val_one, Shape.rowMajor_val_two]
  show t.val = a.val * n + t.val
  have := a.isLt
  simp [Fin.val_eq_zero a]

theorem hostDivf_applyS {s : Shape} (a b : FVec Ideal s .f32) (i : s.Idx) : Host.divf a b i = Ideal.div (a i) (b i) := rfl
theorem roundeven_applyS {s : Shape} (a : FVec Ideal s .f32) (i : s.Idx) : Host.roundeven a i = Cert.Spec.rnd (a i) := rfl

theorem scale_termS (x : FVec Ideal ⟨2, ![16, 1]⟩ .f32) (hr : (⟨2, ![16, 1]⟩ : Shape).ReducesTo [0] (⟨1, ![1]⟩ : Shape))
    (hu : 0 < (⟨0, ![]⟩ : Shape).numel) (hb1 : (⟨1, ![1]⟩ : Shape).BroadcastsInDim (⟨2, ![1, 1]⟩ : Shape) ![1])
    (hb0 : (⟨0, ![]⟩ : Shape).BroadcastsInDim (⟨2, ![1, 1]⟩ : Shape) ![]) :
    Host.divf (F := Ideal) (φ := .f32)
        (broadcastInDim (⟨2, ![1, 1]⟩ : Shape) ![1] hb1
          (Host.reduce FloatOps.maximumf x (constant (F := Ideal) (⟨0, ![]⟩ : Shape) .f32 0xFF800000#32) hr hu))
        (broadcastInDim (⟨2, ![1, 1]⟩ : Shape) ![] hb0 (constant (F := Ideal) (⟨0, ![]⟩ : Shape) .f32 0x46FFFE00#32)) (ix2 0 0)
      = Ideal.div (Cert.Spec.satMax x) Cert.Spec.nA := by
  rw [hostDivf_applyS, bcastRowS, bcast_scalarW, reduceRowsS x hr (by decide) hu 0, constant_apply, Cert.Consts.ofBits_nA]
  rfl

theorem bscale_termS (w : FVec Ideal ⟨0, ![]⟩ .f32) (sc : FVec Ideal ⟨2, ![1, 1]⟩ .f32)
    (hb0 : (⟨0, ![]⟩ : Shape).BroadcastsInDim (⟨2, ![1, 1]⟩ : Shape) ![]) :
    mulf (F := Ideal) (φ := .f32) (broadcastInDim (⟨2, ![1, 1]⟩ : Shape) ![] hb0 w) sc (ix2 0 0) = w ix0 * sc (ix2 0 0) := by
  rw [mulf_apply, bcast_scalarW]

theorem bias_termS {n : Nat} (b : FVec Ideal ⟨1, ![n]⟩ .f32) (bs : FVec Ideal ⟨2, ![1, 1]⟩ .f32)
    (hc1 : (⟨2, ![1, 1]⟩ : Shape).ShapeCasts (⟨0, ![]⟩ : Shape)) (hb : (⟨0, ![]⟩ : Shape).BroadcastsInDim (⟨1, ![n]⟩ : Shape) ![])
    (hc2 : (⟨1, ![n]⟩ : Shape).ShapeCasts (⟨2, ![1, n]⟩ : Shape)) :
    shapeCast (⟨2, ![1, n]⟩ : Shape)
        (Host.roundeven (F := Ideal) (φ := .f32)
          (Host.divf (F := Ideal) (φ := .f32) b (broadcastInDim (⟨1, ![n]⟩ : Shape) ![] hb (shapeCast (⟨0, ![]⟩ : Shape) bs hc1)))) hc2
      = Cert.Spec.bI b (bs (ix2 0 0)) := by
  funext y
  obtain ⟨a, t, rfl⟩ : ∃ a t, y = ix2 a t := ⟨y 0, y 1, eq_ix2 y⟩
  rw [shapeCastRowS, roundeven_applyS, hostDivf_applyS, bcast_scalarW, shapeCastUnitS (by decide) (by decide) bs hc1 ix0 (ix2 0 0)]
  rfl

instance subsingleton0S : Subsingleton (⟨0, ![]⟩ : Shape).Idx := ⟨fun a b => funext fun d => d.elim0⟩

theorem reduceAllRowS {n : Nat} (z : FVec Ideal ⟨2, ![1, n]⟩ .f32)
    (hr : (⟨2, ![1, n]⟩ : Shape).ReducesTo [0, 1] (⟨0, ![]⟩ : Shape)) (hu : 0 < (⟨0, ![]⟩ : Shape).numel) (j : (⟨0, ![]⟩ : Shape).Idx) :
    Host.reduce FloatOps.maximumf z (constant (F := Ideal) (⟨0, ![]⟩ : Shape) .f32 0xFF800000#32) hr hu j
      = ⨆ t : Fin n, z (ix2 0 t) := by
  rw [Host.reduce_eq_fold]
  have hall : (Finset.univ.filter fun i => hr.drop i = j) = Finset.univ :=
    Finset.filter_true_of_mem fun i _ => Subsingleton.elim _ _
  rw [hall, constant_apply, Cert.Consts.ofBits_ninf]
  refine (fold_max_bot z).trans ?_
  refine (Function.Surjective.iSup_comp (f := fun t : Fin n => (ix2 (0 : Fin 1) t)) (fun i => ⟨i 1, ?_⟩) z).symm
  show ix2 (0 : Fin 1) (i 1) = i
  have h0 : i 0 = (0 : Fin 1) := Fin.ext (by have h : (i 0).val < 1 := (i 0).isLt; show (i 0).val = 0; omega)
  have e := eq_ix2 i
  rw [h0] at e
  exact e.symm

theorem cm_termS (x : FVec Ideal ⟨2, ![16, 5]⟩ .f32) (hr : (⟨2, ![16, 5]⟩ : Shape).ReducesTo [0] (⟨1, ![5]⟩ : Shape))
    (hu : 0 < (⟨0, ![]⟩ : Shape).numel) (hb1 : (⟨1, ![5]⟩ : Shape).BroadcastsInDim (⟨2, ![1, 5]⟩ : Shape) ![1]) :
    broadcastInDim (⟨2, ![1, 5]⟩ : Shape) ![1] hb1
        (Host.reduce FloatOps.maximumf x (constant (F := Ideal) (⟨0, ![]⟩ : Shape) .f32 0xFF800000#32) hr hu)
      = Cert.Spec.cmRow x := by
  funext y
  obtain ⟨a, t, rfl⟩ : ∃ a t, y = ix2 a t := ⟨y 0, y 1, eq_ix2 y⟩
  rw [bcastRowS, reduceRowsS x hr (by decide) hu t]
  rfl

theorem cs_termS (x : FVec Ideal ⟨2, ![16, 5]⟩ .f32) (h0 : (⟨2, ![16, 5]⟩ : Shape).Slices ![0, 0] (⟨2, ![1, 5]⟩ : Shape))
    (h8 : (⟨2, ![16, 5]⟩ : Shape).Slices ![8, 0] (⟨2, ![1, 5]⟩ : Shape)) :
    addf (F := Ideal) (φ := .f32) (extractStridedSlice (⟨2, ![1, 5]⟩ : Shape) ![0, 0] x h0)
        (extractStridedSlice (⟨2, ![1, 5]⟩ : Shape) ![8, 0] x h8)
      = Cert.Spec.csRow x := by
  funext y
  obtain ⟨a, t, rfl⟩ : ∃ a t, y = ix2 a t := ⟨y 0, y 1, eq_ix2 y⟩
  have ha : a.val = 0 := by have := a.isLt; omega
  rw [addf_apply,
    extractStridedSlice_apply ![0, 0] x h0 (ix2 a t) (ix2 0 t) (fun c => by
      match c with
      | ⟨0, _⟩ => show (0 : Nat) = 0 + a.val; omega
      | ⟨1, _⟩ => show t.val = 0 + t.val; omega),
    extractStridedSlice_apply ![8, 0] x h8 (ix2 a t) (ix2 8 t) (fun c => by
      match c with
      | ⟨0, _⟩ => show (8 : Nat) = 8 + a.val; omega
      | ⟨1, _⟩ => show t.val = 0 + t.val; omega)]
  rfl

theorem sm_termS (cs : FVec Ideal ⟨2, ![1, 5]⟩ .f32) (hb0 : (⟨0, ![]⟩ : Shape).BroadcastsInDim (⟨2, ![1, 5]⟩ : Shape) ![])
    (hr : (⟨2, ![1, 5]⟩ : Shape).ReducesTo [0, 1] (⟨0, ![]⟩ : Shape)) (hu : 0 < (⟨0, ![]⟩ : Shape).numel)
    (hc : (⟨0, ![]⟩ : Shape).ShapeCasts (⟨2, ![1, 1]⟩ : Shape)) :
    shapeCast (⟨2, ![1, 1]⟩ : Shape)
        (Host.divf (F := Ideal) (φ := .f32)
          (Host.reduce FloatOps.maximumf
            (Host.divf (F := Ideal) (φ := .f32)
              (broadcastInDim (⟨2, ![1, 5]⟩ : Shape) ![] hb0 (constant (F := Ideal) (⟨0, ![]⟩ : Shape) .f32 0x3F800000#32)) cs)
            (constant (F := Ideal) (⟨0, ![]⟩ : Shape) .f32 0xFF800000#32) hr hu)
          (constant (F := Ideal) (⟨0, ![]⟩ : Shape) .f32 0x46FFFE00#32)) hc (ix2 0 0)
      = Ideal.div (⨆ j : Fin 5, Ideal.div Cert.Spec.one (cs (ix2 0 j))) Cert.Spec.nA := by
  rw [shapeCastUnitS (by decide) (by decide) _ hc (ix2 0 0) ix0, hostDivf_applyS, constant_apply, Cert.Consts.ofBits_nA, reduceAllRowS]
  congr 2
  funext t
  rw [hostDivf_applyS, bcast_scalarW, constant_apply, Cert.Consts.ofBits_one]

end Cert.ChainGlue

end
-- ==== Proof.KI.GlueW.lean ====
import proofs.«411066_j83983790505988_3_alg».proof.Proof.KIRegions
import proofs.«411066_j83983790505988_3_alg».proof.Proof.ChainGlue

set_option maxRecDepth 16384

noncomputable section

namespace Cert.KernelIdeal.Hand

open Cert.ChainGlue

open Cert.KernelIdeal.Gen Cert.KernelIdeal.GenP
open Idealize.ShloMosaic Idealize.ShloMosaic.TcCoe Idealize.ShloMosaic.ValueIdx
open Idealize.ShloMosaic.StableHlo

section Stretches
variable (W : Valuation τ sig (Elt Ideal))

theorem m1_v2W : StableHlo.after (hostOps0 (F := Ideal)) W (Proc.devRef .tc main_v2)
    = fun _ => Cert.Spec.wsf (W (Proc.devRef .tc main_arg1)) := by
  after_results
  exact wsf_chainW _ _ _

set_option maxHeartbeats 1000000 in

theorem m1_v7W : StableHlo.after (hostOps0_4 (F := Ideal)) (StableHlo.after (hostOps0_3 (F := Ideal)) (StableHlo.after (hostOps0_2 (F := Ideal))
      (StableHlo.after (hostOps0_1 (F := Ideal)) (StableHlo.after (hostOps0 (F := Ideal)) W)))) (Proc.devRef .tc main_v7)
    = Cert.Spec.wT (W (Proc.devRef .tc main_arg1)) := by
  after_results
  simp only [TRef.ofBuf, TRef.toBuf, cast_eq]
  exact wT_fullW _ _ _ _ _ _

theorem m2_v10W : StableHlo.after (hostOps0_4 (F := Ideal)) W (Proc.devRef .tc main_v10)
    = fun _ => Cert.Spec.wsf (W (Proc.devRef .tc main_arg3)) := by
  after_results
  exact wsf_chainW _ _ _

set_option maxHeartbeats 1000000 in

theorem m2_v15W : StableHlo.after (hostOps0_8 (F := Ideal)) (StableHlo.after (hostOps0_7 (F := Ideal)) (StableHlo.after (hostOps0_6 (F := Ideal))
      (StableHlo.after (hostOps0_5 (F := Ideal)) (StableHlo.after (hostOps0_4 (F := Ideal)) W)))) (Proc.devRef .tc main_v15)
    = Cert.Spec.wT (W (Proc.devRef .tc main_arg3)) := by
  after_results
  simp only [TRef.ofBuf, TRef.toBuf, cast_eq]
  exact wT_fullW _ _ _ _ _ _

theorem m3_v18W : StableHlo.after (hostOps0_8 (F := Ideal)) W (Proc.devRef .tc main_v18)
    = fun _ => Cert.Spec.wsf (W (Proc.devRef .tc main_arg5)) := by
  after_results
  exact wsf_chainW _ _ _

set_option maxHeartbeats 1000000 in

theorem m3_v23W : StableHlo.after (hostOps0_12 (F := Ideal)) (StableHlo.after (hostOps0_11 (F := Ideal)) (StableHlo.after (hostOps0_10 (F := Ideal))
      (StableHlo.after (hostOps0_9 (F := Ideal)) (StableHlo.after (hostOps0_8 (F := Ideal)) W)))) (Proc.devRef .tc main_v23)
    = Cert.Spec.wT (W (Proc.devRef .tc main_arg5)) := by
  after_results
  simp only [TRef.ofBuf, TRef.toBuf, cast_eq]
  exact wT_fullW _ _ _ _ _ _

theorem m4_v26W : StableHlo.after (hostOps0_12 (F := Ideal)) W (Proc.devRef .tc main_v26)
    = fun _ => Cert.Spec.wsf (W (Proc.devRef .tc main_arg7)) := by
  after_results
  exact wsf_chainW _ _ _

set_option maxHeartbeats 1000000 in

theorem m4_v31W : StableHlo.after (hostOps0_16 (F := Ideal)) (StableHlo.after (hostOps0_15 (F := Ideal)) (StableHlo.after (hostOps0_14 (F := Ideal))
      (StableHlo.after (hostOps0_13 (F := Ideal)) (StableHlo.after (hostOps0_12 (F := Ideal)) W)))) (Proc.devRef .tc main_v31)
    = Cert.Spec.wT (W (Proc.devRef .tc main_arg7)) := by
  after_results
  simp only [TRef.ofBuf, TRef.toBuf, cast_eq]
  exact wT_fullW _ _ _ _ _ _

end Stretches

section Walk
variable (m : (ℓ : Loc nD τ sig) → Buf (Elt Ideal) ℓ) (c : Dev nD)

theorem d17_13W (r : Ref sig .tc) (h : r ∉ hostOps0_13_W ∧ r ∉ hostOps0_14_W ∧ r ∉ hostOps0_15_W ∧ r ∉ hostOps0_16_W) :
    V17 m c r = V13 m c r :=
  (V17_of m c r h.2.2.2).trans <| (V16_of m c r h.2.2.1).trans <| (V15_of m c r h.2.1).trans (V14_of m c r h.1)
theorem d13_9W (r : Ref sig .tc) (h : r ∉ hostOps0_9_W ∧ r ∉ hostOps0_10_W ∧ r ∉ hostOps0_11_W ∧ r ∉ hostOps0_12_W) :
    V13 m c r = V9 m c r :=
  (V13_of m c r h.2.2.2).trans <| (V12_of m c r h.2.2.1).trans <| (V11_of m c r h.2.1).trans (V10_of m c r h.1)
theorem d9_5W (r : Ref sig .tc) (h : r ∉ hostOps0_5_W ∧ r ∉ hostOps0_6_W ∧ r ∉ hostOps0_7_W ∧ r ∉ hostOps0_8_W) :
    V9 m c r = V5 m c r :=
  (V9_of m c r h.2.2.2).trans <| (V8_of m c r h.2.2.1).trans <| (V7_of m c r h.2.1).trans (V6_of m c r h.1)
theorem d5_1W (r : Ref sig .tc) (h : r ∉ hostOps0_1_W ∧ r ∉ hostOps0_2_W ∧ r ∉ hostOps0_3_W ∧ r ∉ hostOps0_4_W) :
    V5 m c r = V1 m c r :=
  (V5_of m c r h.2.2.2).trans <| (V4_of m c r h.2.2.1).trans <| (V3_of m c r h.2.1).trans (V2_of m c r h.1)
theorem d12_8W (r : Ref sig .tc) (h : r ∉ hostOps0_8_W ∧ r ∉ hostOps0_9_W ∧ r ∉ hostOps0_10_W ∧ r ∉ hostOps0_11_W) :
    V12 m c r = V8 m c r :=
  (V12_of m c r h.2.2.2).trans <| (V11_of m c r h.2.2.1).trans <| (V10_of m c r h.2.1).trans (V9_of m c r h.1)
theorem d8_4W (r : Ref sig .tc) (h : r ∉ hostOps0_4_W ∧ r ∉ hostOps0_5_W ∧ r ∉ hostOps0_6_W ∧ r ∉ hostOps0_7_W) :
    V8 m c r = V4 m c r :=
  (V8_of m c r h.2.2.2).trans <| (V7_of m c r h.2.2.1).trans <| (V6_of m c r h.2.1).trans (V5_of m c r h.1)
theorem d4_0W (r : Ref sig .tc) (h : r ∉ hostOps0_W ∧ r ∉ hostOps0_1_W ∧ r ∉ hostOps0_2_W ∧ r ∉ hostOps0_3_W) :
    V4 m c r = V0 m c r :=
  (V4_of m c r h.2.2.2).trans <| (V3_of m c r h.2.2.1).trans <| (V2_of m c r h.2.1).trans (V1_of m c r h.1)

theorem V4_arg3W : V4 m c main_arg3 = V0 m c main_arg3 := d4_0W m c main_arg3 (by decide)
theorem V8_arg5W : V8 m c main_arg5 = V0 m c main_arg5 :=
  (d8_4W m c main_arg5 (by decide)).trans (d4_0W m c main_arg5 (by decide))
theorem V12_arg7W : V12 m c main_arg7 = V0 m c main_arg7 :=
  (d12_8W m c main_arg7 (by decide)).trans <|
    (d8_4W m c main_arg7 (by decide)).trans (d4_0W m c main_arg7 (by decide))

theorem V17_v2W : V17 m c main_v2 = fun _ => Cert.Spec.wsf (V0 m c main_arg1) :=
  (d17_13W m c main_v2 (by decide)).trans <|
    (d13_9W m c main_v2 (by decide)).trans <|
    (d9_5W m c main_v2 (by decide)).trans <|
    (d5_1W m c main_v2 (by decide)).trans (m1_v2W (V0 m c))
theorem V17_v7W : V17 m c main_v7 = Cert.Spec.wT (V0 m c main_arg1) :=
  (d17_13W m c main_v7 (by decide)).trans <|
    (d13_9W m c main_v7 (by decide)).trans <|
    (d9_5W m c main_v7 (by decide)).trans (m1_v7W (V0 m c))

theorem V17_v10W : V17 m c main_v10 = fun _ => Cert.Spec.wsf (V0 m c main_arg3) :=
  (d17_13W m c main_v10 (by decide)).trans <|
    (d13_9W m c main_v10 (by decide)).trans <|
    (d9_5W m c main_v10 (by decide)).trans <|
    (m2_v10W (V4 m c)).trans (congrArg (fun X : Cert.Spec.Mat 32 64 => fun _ : S_.Idx => Cert.Spec.wsf X) (V4_arg3W m c))
theorem V17_v15W : V17 m c main_v15 = Cert.Spec.wT (V0 m c main_arg3) :=
  (d17_13W m c main_v15 (by decide)).trans <|
    (d13_9W m c main_v15 (by decide)).trans <|
    (m2_v15W (V4 m c)).trans (congrArg (fun X : Cert.Spec.Mat 32 64 => Cert.Spec.wT X) (V4_arg3W m c))

theorem V17_v18W : V17 m c main_v18 = fun _ => Cert.Spec.wsf (V0 m c main_arg5) :=
  (d17_13W m c main_v18 (by decide)).trans <|
    (d13_9W m c main_v18 (by decide)).trans <|
    (m3_v18W (V8 m c)).trans (congrArg (fun X : Cert.Spec.Mat 32 32 => fun _ : S_.Idx => Cert.Spec.wsf X) (V8_arg5W m c))
theorem V17_v23W : V17 m c main_v23 = Cert.Spec.wT (V0 m c main_arg5) :=
  (d17_13W m c main_v23 (by decide)).trans <|
    (m3_v23W (V8 m c)).trans (congrArg (fun X : Cert.Spec.Mat 32 32 => Cert.Spec.wT X) (V8_arg5W m c))

theorem V17_v26W : V17 m c main_v26 = fun _ => Cert.Spec.wsf (V0 m c main_arg7) :=
  (d17_13W m c main_v26 (by decide)).trans <|
    (m4_v26W (V12 m c)).trans (congrArg (fun X : Cert.Spec.Mat 5 32 => fun _ : S_.Idx => Cert.Spec.wsf X) (V12_arg7W m c))
theorem V17_v31W : V17 m c main_v31 = Cert.Spec.wT (V0 m c main_arg7) :=
  (m4_v31W (V12 m c)).trans (congrArg (fun X : Cert.Spec.Mat 5 32 => Cert.Spec.wT X) (V12_arg7W m c))

end Walk

end Cert.KernelIdeal.Hand

end
-- ==== Proof.KI.GlueS.lean ====
import proofs.«411066_j83983790505988_3_alg».proof.Proof.Gen.KernelIdeal.Launch
import proofs.«411066_j83983790505988_3_alg».proof.Proof.ChainGlue

set_option maxRecDepth 16384

noncomputable section

namespace Cert.KernelIdeal.Hand

open Cert.ChainGlue

open Cert.KernelIdeal.Gen
open Idealize.ShloMosaic Idealize.ShloMosaic.TcCoe Idealize.ShloMosaic.ValueIdx
open Idealize.SL.Sem

variable (W : Valuation τ sig (Elt Ideal))

abbrev valS (x : (⟨0, ![]⟩ : Shape).Idx → EReal) : EReal := x ix0

theorem scaleS1 :
    (StableHlo.after (hostOps1_2 (F := Ideal)) (StableHlo.after (hostOps1_1 (F := Ideal)) (StableHlo.after (hostOps1 (F := Ideal)) W))
        (Proc.devRef .tc main_v36) : Cert.Spec.Mat 1 1) (ix2 0 0)
      = Ideal.div (Cert.Spec.satMax (W (Proc.devRef .tc main_v32))) Cert.Spec.nA := by
  after_results
  exact scale_termS _ _ _ _ _

theorem bscaleS1 :
    (StableHlo.after (hostOps1_2 (F := Ideal)) (StableHlo.after (hostOps1_1 (F := Ideal)) (StableHlo.after (hostOps1 (F := Ideal)) W))
        (Proc.devRef .tc main_v38) : Cert.Spec.Mat 1 1) (ix2 0 0)
      = valS (W (Proc.devRef .tc main_v2)) * Ideal.div (Cert.Spec.satMax (W (Proc.devRef .tc main_v32))) Cert.Spec.nA := by
  after_results
  rw [bscale_termS, scale_termS]

theorem biasS1 :
    (StableHlo.after (hostOps1_2 (F := Ideal)) (StableHlo.after (hostOps1_1 (F := Ideal)) (StableHlo.after (hostOps1 (F := Ideal)) W))
        (Proc.devRef .tc main_v43) : Cert.Spec.Mat 1 64)
      = Cert.Spec.bI (W (Proc.devRef .tc main_arg2))
          (valS (W (Proc.devRef .tc main_v2)) * Ideal.div (Cert.Spec.satMax (W (Proc.devRef .tc main_v32))) Cert.Spec.nA) := by
  after_results
  refine (bias_termS _ _ _ _ _).trans ?_
  rw [bscale_termS, scale_termS]

theorem scaleS2 :
    (StableHlo.after (hostOps2_2 (F := Ideal)) (StableHlo.after (hostOps2_1 (F := Ideal)) (StableHlo.after (hostOps2 (F := Ideal)) W))
        (Proc.devRef .tc main_v48) : Cert.Spec.Mat 1 1) (ix2 0 0)
      = Ideal.div (Cert.Spec.satMax (W (Proc.devRef .tc main_v44_1))) Cert.Spec.nA := by
  after_results
  exact scale_termS _ _ _ _ _

theorem bscaleS2 :
    (StableHlo.after (hostOps2_2 (F := Ideal)) (StableHlo.after (hostOps2_1 (F := Ideal)) (StableHlo.after (hostOps2 (F := Ideal)) W))
        (Proc.devRef .tc main_v50) : Cert.Spec.Mat 1 1) (ix2 0 0)
      = valS (W (Proc.devRef .tc main_v10)) * Ideal.div (Cert.Spec.satMax (W (Proc.devRef .tc main_v44_1))) Cert.Spec.nA := by
  after_results
  rw [bscale_termS, scale_termS]

theorem biasS2 :
    (StableHlo.after (hostOps2_2 (F := Ideal)) (StableHlo.after (hostOps2_1 (F := Ideal)) (StableHlo.after (hostOps2 (F := Ideal)) W))
        (Proc.devRef .tc main_v55) : Cert.Spec.Mat 1 32)
      = Cert.Spec.bI (W (Proc.devRef .tc main_arg4))
          (valS (W (Proc.devRef .tc main_v10)) * Ideal.div (Cert.Spec.satMax (W (Proc.devRef .tc main_v44_1))) Cert.Spec.nA) := by
  after_results
  refine (bias_termS _ _ _ _ _).trans ?_
  rw [bscale_termS, scale_termS]

theorem scaleS3 :
    (StableHlo.after (hostOps3_2 (F := Ideal)) (StableHlo.after (hostOps3_1 (F := Ideal)) (StableHlo.after (hostOps3 (F := Ideal)) W))
        (Proc.devRef .tc main_v60) : Cert.Spec.Mat 1 1) (ix2 0 0)
      = Ideal.div (Cert.Spec.satMax (W (Proc.devRef .tc main_v56_1))) Cert.Spec.nA := by
  after_results
  exact scale_termS _ _ _ _ _

theorem bscaleS3 :
    (StableHlo.after (hostOps3_2 (F := Ideal)) (StableHlo.after (hostOps3_1 (F := Ideal)) (StableHlo.after (hostOps3 (F := Ideal)) W))
        (Proc.devRef .tc main_v62) : Cert.Spec.Mat 1 1) (ix2 0 0)
      = valS (W (Proc.devRef .tc main_v18)) * Ideal.div (Cert.Spec.satMax (W (Proc.devRef .tc main_v56_1))) Cert.Spec.nA := by
  after_results
  rw [bscale_termS, scale_termS]

theorem biasS3 :
    (StableHlo.after (hostOps3_2 (F := Ideal)) (StableHlo.after (hostOps3_1 (F := Ideal)) (StableHlo.after (hostOps3 (F := Ideal)) W))
        (Proc.devRef .tc main_v67) : Cert.Spec.Mat 1 32)
      = Cert.Spec.bI (W (Proc.devRef .tc main_arg6))
          (valS (W (Proc.devRef .tc main_v18)) * Ideal.div (Cert.Spec.satMax (W (Proc.devRef .tc main_v56_1))) Cert.Spec.nA) := by
  after_results
  refine (bias_termS _ _ _ _ _).trans ?_
  rw [bscale_termS, scale_termS]

theorem scaleS4 :
    (StableHlo.after (hostOps4_2 (F := Ideal)) (StableHlo.after (hostOps4_1 (F := Ideal)) (StableHlo.after (hostOps4 (F := Ideal)) W))
        (Proc.devRef .tc main_v72) : Cert.Spec.Mat 1 1) (ix2 0 0)
      = Ideal.div (Cert.Spec.satMax (W (Proc.devRef .tc main_v68_1))) Cert.Spec.nA := by
  after_results
  exact scale_termS _ _ _ _ _

theorem bscaleS4 :
    (StableHlo.after (hostOps4_2 (F := Ideal)) (StableHlo.after (hostOps4_1 (F := Ideal)) (StableHlo.after (hostOps4 (F := Ideal)) W))
        (Proc.devRef .tc main_v74) : Cert.Spec.Mat 1 1) (ix2 0 0)
      = valS (W (Proc.devRef .tc main_v26)) * Ideal.div (Cert.Spec.satMax (W (Proc.devRef .tc main_v68_1))) Cert.Spec.nA := by
  after_results
  rw [bscale_termS, scale_termS]

theorem biasS4 :
    (StableHlo.after (hostOps4_2 (F := Ideal)) (StableHlo.after (hostOps4_1 (F := Ideal)) (StableHlo.after (hostOps4 (F := Ideal)) W))
        (Proc.devRef .tc main_v79) : Cert.Spec.Mat 1 5)
      = Cert.Spec.bI (W (Proc.devRef .tc main_arg8))
          (valS (W (Proc.devRef .tc main_v26)) * Ideal.div (Cert.Spec.satMax (W (Proc.devRef .tc main_v68_1))) Cert.Spec.nA) := by
  after_results
  refine (bias_termS _ _ _ _ _).trans ?_
  rw [bscale_termS, scale_termS]

theorem cmRowS5 :
    (StableHlo.after (hostOps5 (F := Ideal)) W (Proc.devRef .tc main_v82) : Cert.Spec.Mat 1 5)
      = Cert.Spec.cmRow (W (Proc.devRef .tc main_v80_1)) := by
  after_results
  exact cm_termS _ _ _ _

theorem csRowS6 :
    (StableHlo.after (hostOps6 (F := Ideal)) W (Proc.devRef .tc main_v86) : Cert.Spec.Mat 1 5)
      = Cert.Spec.csRow (W (Proc.devRef .tc main_v83_1)) := by
  after_results
  exact cs_termS _ _ _

theorem smScaleS6 :
    (StableHlo.after (hostOps6 (F := Ideal)) W (Proc.devRef .tc main_v91) : Cert.Spec.Mat 1 1) (ix2 0 0)
      = Ideal.div (⨆ j : Fin 5, Ideal.div Cert.Spec.one (Cert.Spec.csRow (W (Proc.devRef .tc main_v83_1)) (ix2 0 j))) Cert.Spec.nA := by
  after_results
  refine (sm_termS _ _ _ _ _).trans ?_
  rw [cs_termS]

end Cert.KernelIdeal.Hand

end
-- ==== Proof.KI.KValue.lean ====
import proofs.«411066_j83983790505988_3_alg».proof.Proof.KI.KVChain
import proofs.«411066_j83983790505988_3_alg».proof.Proof.KI.Fam
import proofs.«411066_j83983790505988_3_alg».proof.Proof.KI.Eq
import proofs.«411066_j83983790505988_3_alg».proof.Proof.KI.Val0
import proofs.«411066_j83983790505988_3_alg».proof.Proof.KI.Val1
import proofs.«411066_j83983790505988_3_alg».proof.Proof.KI.Val2
import proofs.«411066_j83983790505988_3_alg».proof.Proof.KI.Val3
import proofs.«411066_j83983790505988_3_alg».proof.Proof.KI.Val4
import proofs.«411066_j83983790505988_3_alg».proof.Proof.KI.Val5
import proofs.«411066_j83983790505988_3_alg».proof.Proof.KI.Val6
import proofs.«411066_j83983790505988_3_alg».proof.Proof.KI.GlueW
import proofs.«411066_j83983790505988_3_alg».proof.Proof.KI.GlueS

noncomputable section

namespace Cert.KernelIdeal.Hand

open Cert.KernelIdeal.Gen Cert.KernelIdeal.GenP
open Idealize.ShloMosaic Idealize.ShloMosaic.TcCoe Idealize.ShloMosaic.ValueIdx
open Idealize.SL.Sem

variable (m : (ℓ : Loc nD τ sig) → Buf (Elt Ideal) ℓ) (c : Dev nD)

theorem kv_facts : KvFacts m (outs m) c :=
  have h1 := (o38_at22 m main_v44_0 c).trans ((o22_5 m c).trans (val1_h (In1 m) c))
  have h2 := (o38_at26 m main_v56_0 c).trans ((o26_6 m c).trans (val2_h (In2 m) c))
  have h3 := (o38_at30 m main_v68_0 c).trans ((o30_6 m c).trans (val3_h (In3 m) c))
  have h4 := (o38_at34 m main_v80_0 c).trans ((o34_6 m c).trans (val4_l (In4 m) c))
  have h5 := (o38_at36 m main_v83_0 c).trans ((o36_2 m c).trans (val5_e (In5 m) c))
  {
    w1s := congrFun (V17_v2W m c) ix0
    w1t := V17_v7W m c
    w2s := congrFun (V17_v10W m c) ix0
    w2t := V17_v15W m c
    w3s := congrFun (V17_v18W m c) ix0
    w3t := V17_v23W m c
    w4s := congrFun (V17_v26W m c) ix0
    w4t := V17_v31W m c
    p0 := (o38_at18 m main_v32 c).trans ((o18_1 m c).trans (val0_sat (In0 m) c))
    g1a := scaleS1 (V18 m (outs m) c)
    g1b := bscaleS1 (V18 m (outs m) c)
    g1c := biasS1 (V18 m (outs m) c)
    p1h := by rw [eqIn1 m c]; exact h1
    p1s := ((o38_at22 m main_v44_1 c).trans ((o22_6 m c).trans (val1_sat (In1 m) c))).trans (congrArg Cert.Spec.satArr h1.symm)
    g2a := scaleS2 (V22 m (outs m) c)
    g2b := bscaleS2 (V22 m (outs m) c)
    g2c := biasS2 (V22 m (outs m) c)
    p2h := by rw [eqIn2 m c]; exact h2
    p2s := ((o38_at26 m main_v56_1 c).trans ((o26_7 m c).trans (val2_sat (In2 m) c))).trans (congrArg Cert.Spec.satArr h2.symm)
    g3a := scaleS3 (V26 m (outs m) c)
    g3b := bscaleS3 (V26 m (outs m) c)
    g3c := biasS3 (V26 m (outs m) c)
    p3h := by rw [eqIn3 m c]; exact h3
    p3s := ((o38_at30 m main_v68_1 c).trans ((o30_7 m c).trans (val3_sat (In3 m) c))).trans (congrArg Cert.Spec.satArr h3.symm)
    g4a := scaleS4 (V30 m (outs m) c)
    g4b := bscaleS4 (V30 m (outs m) c)
    g4c := biasS4 (V30 m (outs m) c)
    p4l := by rw [eqIn4 m c]; exact h4
    p4m := ((o38_at34 m main_v80_1 c).trans ((o34_7 m c).trans (val4_cm (In4 m) c))).trans (congrArg Cert.Spec.cmArr h4.symm)
    g5 := cmRowS5 (V34 m (outs m) c)
    p5e := by rw [eqIn5 m c]; exact h5
    p5s := ((o38_at36 m main_v83_1 c).trans ((o36_3 m c).trans (val5_cs (In5 m) c))).trans (congrArg Cert.Spec.csArr h5.symm)
    g6a := csRowS6 (V36 m (outs m) c)
    g6b := smScaleS6 (V36 m (outs m) c)
    p6 := by
      rw [eqIn6 m c]
      exact (o38_4 m c).trans (val6_out (In6 m) c) }

theorem kernel_value :
    (V38 m (outs m) c main_v92 : Cert.Spec.Mat 1048576 5)
      = Cert.Spec.kerOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  kv_chain (kv_facts m c)

end Cert.KernelIdeal.Hand

end
-- ==== Proof.Ref.Ops0.lean ====
/-
  Window 0 of the reference program's @main (operations 1 … 80 of its 264) as a list of host operations, and what
  the window computes: from any buffer contents that hold the arguments, each buffer a later
  window reads ends at its stage, the value `val_‹buffer›` of the nine arguments; the arguments are left as they were.
-/
import proofs.«411066_j83983790505988_3_alg».proof.Proof.Ref.Read
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's window 0 (operations 1 … 80 of 264), in order; a called function's operations stand in its call's place. -/
abbrev ops0 : List (HloOp τ sig (Elt F)) :=
  [ unary main_arg0 main_v0 (Host.absf : (⟨S1048576x16, .f32⟩ : BufTy).Contents (Elt F) → (⟨S1048576x16, .f32⟩ : BufTy).Contents (Elt F)),
    nullary main_cst (constant S_ .f32 0xFF800000#32),
    binary main_v0 main_cst main_v1 ((fun x v => Host.reduce FloatOps.maximumf x v reducesTo_S1048576x16_S_d0_1 h_S_) : (⟨S1048576x16, .f32⟩ : BufTy).Contents (Elt F) → (⟨S_, .f32⟩ : BufTy).Contents (Elt F) → (⟨S_, .f32⟩ : BufTy).Contents (Elt F)),
    nullary main_cst_0 (constant S_ .f32 0x46FFFE00#32),
    binary main_v1 main_cst_0 main_v2 (Host.divf : (⟨S_, .f32⟩ : BufTy).Contents (Elt F) → (⟨S_, .f32⟩ : BufTy).Contents (Elt F) → (⟨S_, .f32⟩ : BufTy).Contents (Elt F)),
    unary main_v2 main_v3 (broadcastInDim S1048576x16 ![] bcast_S_S1048576x16 : (⟨S_, .f32⟩ : BufTy).Contents (Elt F) → (⟨S1048576x16, .f32⟩ : BufTy).Contents (Elt F)),
    binary main_arg0 main_v3 main_v4 (Host.divf : (⟨S1048576x16, .f32⟩ : BufTy).Contents (Elt F) → (⟨S1048576x16, .f32⟩ : BufTy).Contents (Elt F) → (⟨S1048576x16, .f32⟩ : BufTy).Contents (Elt F)),
    TRef.unary (TRef.of (T := ⟨S1048576x16, .f32⟩) main_v4) (TRef.of (T := ⟨S1048576x16, .f32⟩) main_v5) Host.roundeven,
    nullary main_cst_1 (constant S_ .f32 0xC7000000#32),
    nullary main_cst_2 (constant S_ .f32 0x46FFFE00#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S1048576x16, .f32⟩) main_call1_v1) (broadcastInDim S1048576x16 ![] bcast_S_S1048576x16),
    TRef.binary (TRef.of (T := ⟨S1048576x16, .f32⟩) main_call1_v1) (TRef.of (T := ⟨S1048576x16, .f32⟩) main_v5) (TRef.of (T := ⟨S1048576x16, .f32⟩) main_call1_v2) maximumf,
    TRef.unary (TRef.of (T := ⟨S_, .f32⟩) main_cst_2) (TRef.of (T := ⟨S_, .f32⟩) main_call1_v3) id,
    TRef.unary (TRef.of (T := ⟨S_, .f32⟩) main_call1_v3) (TRef.of (T := ⟨S1048576x16, .f32⟩) main_call1_v4) (broadcastInDim S1048576x16 ![] bcast_S_S1048576x16),
    TRef.binary (TRef.of (T := ⟨S1048576x16, .f32⟩) main_call1_v4) (TRef.of (T := ⟨S1048576x16, .f32⟩) main_call1_v2) (TRef.of (T := ⟨S1048576x16, .f32⟩) main_v6) minimumf,
    unary main_v2 main_v7 (broadcastInDim S1048576x16 ![] bcast_S_S1048576x16 : (⟨S_, .f32⟩ : BufTy).Contents (Elt F) → (⟨S1048576x16, .f32⟩ : BufTy).Contents (Elt F)),
    binary main_v6 main_v7 main_v8 (mulf : (⟨S1048576x16, .f32⟩ : BufTy).Contents (Elt F) → (⟨S1048576x16, .f32⟩ : BufTy).Contents (Elt F) → (⟨S1048576x16, .f32⟩ : BufTy).Contents (Elt F)),
    unary main_arg1 main_v9 (Host.absf : (⟨S64x16, .f32⟩ : BufTy).Contents (Elt F) → (⟨S64x16, .f32⟩ : BufTy).Contents (Elt F)),
    nullary main_cst_3 (constant S_ .f32 0xFF800000#32),
    binary main_v9 main_cst_3 main_v10 ((fun x v => Host.reduce FloatOps.maximumf x v reducesTo_S64x16_S_d0_1 h_S_) : (⟨S64x16, .f32⟩ : BufTy).Contents (Elt F) → (⟨S_, .f32⟩ : BufTy).Contents (Elt F) → (⟨S_, .f32⟩ : BufTy).Contents (Elt F)),
    nullary main_cst_4 (constant S_ .f32 0x42FE0000#32),
    binary main_v10 main_cst_4 main_v11 (Host.divf : (⟨S_, .f32⟩ : BufTy).Contents (Elt F) → (⟨S_, .f32⟩ : BufTy).Contents (Elt F) → (⟨S_, .f32⟩ : BufTy).Contents (Elt F)),
    unary main_v11 main_v12 (broadcastInDim S64x16 ![] bcast_S_S64x16 : (⟨S_, .f32⟩ : BufTy).Contents (Elt F) → (⟨S64x16, .f32⟩ : BufTy).Contents (Elt F)),
    binary main_arg1 main_v12 main_v13 (Host.divf : (⟨S64x16, .f32⟩ : BufTy).Contents (Elt F) → (⟨S64x16, .f32⟩ : BufTy).Contents (Elt F) → (⟨S64x16, .f32⟩ : BufTy).Contents (Elt F)),
    TRef.unary (TRef.of (T := ⟨S64x16, .f32⟩) main_v13) (TRef.of (T := ⟨S64x16, .f32⟩) main_v14) Host.roundeven,
    nullary main_cst_5 (constant S_ .f32 0xC3000000#32),
    nullary main_cst_6 (constant S_ .f32 0x42FE0000#32),
    TRef.unary (TRef.of (T := ⟨S_, .f32⟩) main_cst_5) (TRef.of (T := ⟨S_, .f32⟩) main_call3_v0) id,
    TRef.unary (TRef.of (T := ⟨S_, .f32⟩) main_call3_v0) (TRef.of (T := ⟨S64x16, .f32⟩) main_call3_v1) (broadcastInDim S64x16 ![] bcast_S_S64x16),
    TRef.binary (TRef.of (T := ⟨S64x16, .f32⟩) main_call3_v1) (TRef.of (T := ⟨S64x16, .f32⟩) main_v14) (TRef.of (T := ⟨S64x16, .f32⟩) main_call3_v2) maximumf,
    TRef.unary (TRef.of (T := ⟨S_, .f32⟩) main_cst_6) (TRef.of (T := ⟨S_, .f32⟩) main_call3_v3) id,
    TRef.unary (TRef.of (T := ⟨S_, .f32⟩) main_call3_v3) (TRef.of (T := ⟨S64x16, .f32⟩) main_call3_v4) (broadcastInDim S64x16 ![] bcast_S_S64x16),
    TRef.binary (TRef.of (T := ⟨S64x16, .f32⟩) main_call3_v4) (TRef.of (T := ⟨S64x16, .f32⟩) main_call3_v2) (TRef.of (T := ⟨S64x16, .f32⟩) main_v15) minimumf,
    binary main_v11 main_v2 main_v16 (mulf : (⟨S_, .f32⟩ : BufTy).Contents (Elt F) → (⟨S_, .f32⟩ : BufTy).Contents (Elt F) → (⟨S_, .f32⟩ : BufTy).Contents (Elt F)),
    unary main_v16 main_v17 (broadcastInDim S64 ![] bcast_S_S64 : (⟨S_, .f32⟩ : BufTy).Contents (Elt F) → (⟨S64, .f32⟩ : BufTy).Contents (Elt F)),
    binary main_arg2 main_v17 main_v18 (Host.divf : (⟨S64, .f32⟩ : BufTy).Contents (Elt F) → (⟨S64, .f32⟩ : BufTy).Contents (Elt F) → (⟨S64, .f32⟩ : BufTy).Contents (Elt F)),
    TRef.unary (TRef.of (T := ⟨S64, .f32⟩) main_v18) (TRef.of (T := ⟨S64, .f32⟩) main_v19) Host.roundeven,
    unary main_v2 main_v20 (broadcastInDim S1048576x16 ![] bcast_S_S1048576x16 : (⟨S_, .f32⟩ : BufTy).Contents (Elt F) → (⟨S1048576x16, .f32⟩ : BufTy).Contents (Elt F)),
    binary main_v8 main_v20 main_v21 (Host.divf : (⟨S1048576x16, .f32⟩ : BufTy).Contents (Elt F) → (⟨S1048576x16, .f32⟩ : BufTy).Contents (Elt F) → (⟨S1048576x16, .f32⟩ : BufTy).Contents (Elt F)),
    unary main_v15 main_v22 ((transpose S16x64 [1, 0] · transposes_S64x16_S16x64_1_0) : (⟨S64x16, .f32⟩ : BufTy).Contents (Elt F) → (⟨S16x64, .f32⟩ : BufTy).Contents (Elt F)),
    binary main_v21 main_v22 main_v23 ((fun l r => Host.dotGeneral dot_S1048576x16_S16x64_S1048576x64_1_0_0_1_n_n none l r) : (⟨S1048576x16, .f32⟩ : BufTy).Contents (Elt F) → (⟨S16x64, .f32⟩ : BufTy).Contents (Elt F) → (⟨S1048576x64, .f32⟩ : BufTy).Contents (Elt F)),
    unary main_v19 main_v24 (broadcastInDim S1x64 ![1] bcast_S64_S1x64_1 : (⟨S64, .f32⟩ : BufTy).Contents (Elt F) → (⟨S1x64, .f32⟩ : BufTy).Contents (Elt F)),
    unary main_v24 main_v25 (broadcastInDim S1048576x64 ![0, 1] bcast_S1x64_S1048576x64_0_1 : (⟨S1x64, .f32⟩ : BufTy).Contents (Elt F) → (⟨S1048576x64, .f32⟩ : BufTy).Contents (Elt F)),
    binary main_v23 main_v25 main_v26 (addf : (⟨S1048576x64, .f32⟩ : BufTy).Contents (Elt F) → (⟨S1048576x64, .f32⟩ : BufTy).Contents (Elt F) → (⟨S1048576x64, .f32⟩ : BufTy).Contents (Elt F)),
    unary main_v16 main_v27 (broadcastInDim S1048576x64 ![] bcast_S_S1048576x64 : (⟨S_, .f32⟩ : BufTy).Contents (Elt F) → (⟨S1048576x64, .f32⟩ : BufTy).Contents (Elt F)),
    binary main_v26 main_v27 main_v28 (mulf : (⟨S1048576x64, .f32⟩ : BufTy).Contents (Elt F) → (⟨S1048576x64, .f32⟩ : BufTy).Contents (Elt F) → (⟨S1048576x64, .f32⟩ : BufTy).Contents (Elt F)),
    nullary main_cst_7 (constant S_ .f32 0x00000000#32),
    nullary main_cst_8 (constant S_ .f32 0x40C00000#32),
    TRef.unary (TRef.of (T := ⟨S_, .f32⟩) main_cst_7) (TRef.of (T := ⟨S_, .f32⟩) main_call5_v0) id,
    TRef.unary (TRef.of (T := ⟨S_, .f32⟩) main_call5_v0) (TRef.of (T := ⟨S1048576x64, .f32⟩) main_call5_v1) (broadcastInDim S1048576x64 ![] bcast_S_S1048576x64),
    TRef.binary (TRef.of (T := ⟨S1048576x64, .f32⟩) main_call5_v1) (TRef.of (T := ⟨S1048576x64, .f32⟩) main_v28) (TRef.of (T := ⟨S1048576x64, .f32⟩) main_call5_v2) maximumf,
    TRef.unary (TRef.of (T := ⟨S_, .f32⟩) main_cst_8) (TRef.of (T := ⟨S_, .f32⟩) main_call5_v3) id,
    TRef.unary (TRef.of (T := ⟨S_, .f32⟩) main_call5_v3) (TRef.of (T := ⟨S1048576x64, .f32⟩) main_call5_v4) (broadcastInDim S1048576x64 ![] bcast_S_S1048576x64),
    TRef.binary (TRef.of (T := ⟨S1048576x64, .f32⟩) main_call5_v4) (TRef.of (T := ⟨S1048576x64, .f32⟩) main_call5_v2) (TRef.of (T := ⟨S1048576x64, .f32⟩) main_v29) minimumf,
    unary main_v29 main_v30 (Host.absf : (⟨S1048576x64, .f32⟩ : BufTy).Contents (Elt F) → (⟨S1048576x64, .f32⟩ : BufTy).Contents (Elt F)),
    nullary main_cst_9 (constant S_ .f32 0xFF800000#32),
    binary main_v30 main_cst_9 main_v31 ((fun x v => Host.reduce FloatOps.maximumf x v reducesTo_S1048576x64_S_d0_1 h_S_) : (⟨S1048576x64, .f32⟩ : BufTy).Contents (Elt F) → (⟨S_, .f32⟩ : BufTy).Contents (Elt F) → (⟨S_, .f32⟩ : BufTy).Contents (Elt F)),
    nullary main_cst_10 (constant S_ .f32 0x46FFFE00#32),
    binary main_v31 main_cst_10 main_v32 (Host.divf : (⟨S_, .f32⟩ : BufTy).Contents (Elt F) → (⟨S_, .f32⟩ : BufTy).Contents (Elt F) → (⟨S_, .f32⟩ : BufTy).Contents (Elt F)),
    binary main_v2 main_v11 main_v33 (mulf : (⟨S_, .f32⟩ : BufTy).Contents (Elt F) → (⟨S_, .f32⟩ : BufTy).Contents (Elt F) → (⟨S_, .f32⟩ : BufTy).Contents (Elt F)),
    unary main_v33 main_v34 (broadcastInDim S1048576x64 ![] bcast_S_S1048576x64 : (⟨S_, .f32⟩ : BufTy).Contents (Elt F) → (⟨S1048576x64, .f32⟩ : BufTy).Contents (Elt F)),
    binary main_v29 main_v34 main_v35 (Host.divf : (⟨S1048576x64, .f32⟩ : BufTy).Contents (Elt F) → (⟨S1048576x64, .f32⟩ : BufTy).Contents (Elt F) → (⟨S1048576x64, .f32⟩ : BufTy).Contents (Elt F)),
    TRef.unary (TRef.of (T := ⟨S1048576x64, .f32⟩) main_v35) (TRef.of (T := ⟨S1048576x64, .f32⟩) main_v36) Host.roundeven,
    binary main_v33 main_v32 main_v37 (Host.divf : (⟨S_, .f32⟩ : BufTy).Contents (Elt F) → (⟨S_, .f32⟩ : BufTy).Contents (Elt F) → (⟨S_, .f32⟩ : BufTy).Contents (Elt F)),
    unary main_v37 main_v38 (broadcastInDim S1048576x64 ![] bcast_S_S1048576x64 : (⟨S_, .f32⟩ : BufTy).Contents (Elt F) → (⟨S1048576x64, .f32⟩ : BufTy).Contents (Elt F)),
    binary main_v36 main_v38 main_v39 (mulf : (⟨S1048576x64, .f32⟩ : BufTy).Contents (Elt F) → (⟨S1048576x64, .f32⟩ : BufTy).Contents (Elt F) → (⟨S1048576x64, .f32⟩ : BufTy).Contents (Elt F)),
    TRef.unary (TRef.of (T := ⟨S1048576x64, .f32⟩) main_v39) (TRef.of (T := ⟨S1048576x64, .f32⟩) main_v40) Host.roundeven,
    nullary main_cst_11 (constant S_ .f32 0xC7000000#32),
    nullary main_cst_12 (constant S_ .f32 0x46FFFE00#32),
    TRef.unary (TRef.of (T := ⟨S_, .f32⟩) main_cst_11) (TRef.of (T := ⟨S_, .f32⟩) main_call8_v0) id,
    TRef.unary (TRef.of (T := ⟨S_, .f32⟩) main_call8_v0) (TRef.of (T := ⟨S1048576x64, .f32⟩) main_call8_v1) (broadcastInDim S1048576x64 ![] bcast_S_S1048576x64),
    TRef.binary (TRef.of (T := ⟨S1048576x64, .f32⟩) main_call8_v1) (TRef.of (T := ⟨S1048576x64, .f32⟩) main_v40) (TRef.of (T := ⟨S1048576x64, .f32⟩) main_call8_v2) maximumf,
    TRef.unary (TRef.of (T := ⟨S_, .f32⟩) main_cst_12) (TRef.of (T := ⟨S_, .f32⟩) main_call8_v3) id,
    TRef.unary (TRef.of (T := ⟨S_, .f32⟩) main_call8_v3) (TRef.of (T := ⟨S1048576x64, .f32⟩) main_call8_v4) (broadcastInDim S1048576x64 ![] bcast_S_S1048576x64),
    TRef.binary (TRef.of (T := ⟨S1048576x64, .f32⟩) main_call8_v4) (TRef.of (T := ⟨S1048576x64, .f32⟩) main_call8_v2) (TRef.of (T := ⟨S1048576x64, .f32⟩) main_v41) minimumf,
    unary main_v32 main_v42 (broadcastInDim S1048576x64 ![] bcast_S_S1048576x64 : (⟨S_, .f32⟩ : BufTy).Contents (Elt F) → (⟨S1048576x64, .f32⟩ : BufTy).Contents (Elt F)),
    binary main_v41 main_v42 main_v43 (mulf : (⟨S1048576x64, .f32⟩ : BufTy).Contents (Elt F) → (⟨S1048576x64, .f32⟩ : BufTy).Contents (Elt F) → (⟨S1048576x64, .f32⟩ : BufTy).Contents (Elt F)),
    unary main_arg3 main_v44 (Host.absf : (⟨S32x64, .f32⟩ : BufTy).Contents (Elt F) → (⟨S32x64, .f32⟩ : BufTy).Contents (Elt F)),
    nullary main_cst_13 (constant S_ .f32 0xFF800000#32) ]

set_option maxRecDepth 8192 in
set_option maxHeartbeats 4000000 in
theorem main_part0_eq (c : Dev nD) : main_part0 (F := F) c = seq ops0 := rfl

set_option maxRecDepth 8192 in
theorem ops0_sub : (ops0 : List (HloOp τ sig (Elt F))).Forall fun op => op.bufs ⊆ tcRefs τ sig :=
  ⟨unary_bufs_sub .., nullary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., nullary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., binary_bufs_sub .., nullary_bufs_sub .., binary_bufs_sub .., binary_bufs_sub .., unary_bufs_sub .., binary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., nullary_bufs_sub ..⟩

set_option maxRecDepth 8192 in
set_option maxHeartbeats 4000000 in
theorem ops0_fresh : ∀ op ∈ (ops0 : List (HloOp τ sig (Elt F))), op.fresh = ∅ := by
  intro _ h; (repeat (cases h with | head => rfl | tail _ h => ?_)); exact nomatch h

set_option maxHeartbeats 4000000 in
/-- What window 0 leaves in the buffers later windows read, as the stages of the nine arguments: from any contents `W`
    that hold the arguments. -/
theorem after0 (W : Valuation τ sig (Elt F)) (x0 : (⟨S1048576x16, .f32⟩ : BufTy).Contents (Elt F)) (x1 : (⟨S64x16, .f32⟩ : BufTy).Contents (Elt F)) (x2 : (⟨S64, .f32⟩ : BufTy).Contents (Elt F)) (x3 : (⟨S32x64, .f32⟩ : BufTy).Contents (Elt F))
    (ha0 : W (Proc.devRef .tc main_arg0) = x0)
    (ha1 : W (Proc.devRef .tc main_arg1) = x1)
    (ha2 : W (Proc.devRef .tc main_arg2) = x2)
    (ha3 : W (Proc.devRef .tc main_arg3) = x3) :
    after ops0 W (Proc.devRef .tc main_v44) = RefRead.val_main_v44 (F := F) x3
      ∧ after ops0 W (Proc.devRef .tc main_cst_13) = RefRead.val_main_cst_13 (F := F)
      ∧ after ops0 W (Proc.devRef .tc main_v32) = RefRead.val_main_v32 (F := F) x0 x1 x2
      ∧ after ops0 W (Proc.devRef .tc main_v43) = RefRead.val_main_v43 (F := F) x0 x1 x2 := by
  refine ⟨?_, ?_, ?_, ?_⟩
  · after_results_simp; (try simp only [ha0, ha1, ha2, ha3]); rfl
  · after_results_simp; (try simp only [ha0, ha1, ha2, ha3]); rfl
  · after_results_simp; (try simp only [ha0, ha1, ha2, ha3]); rfl
  · after_results_simp; (try simp only [ha0, ha1, ha2, ha3]); rfl

set_option maxHeartbeats 4000000 in
/-- Window 0 writes none of the nine arguments. -/
theorem after0_args (W : Valuation τ sig (Elt F)) :
    after ops0 W (Proc.devRef .tc main_arg0) = W (Proc.devRef .tc main_arg0)
      ∧ after ops0 W (Proc.devRef .tc main_arg1) = W (Proc.devRef .tc main_arg1)
      ∧ after ops0 W (Proc.devRef .tc main_arg2) = W (Proc.devRef .tc main_arg2)
      ∧ after ops0 W (Proc.devRef .tc main_arg3) = W (Proc.devRef .tc main_arg3)
      ∧ after ops0 W (Proc.devRef .tc main_arg4) = W (Proc.devRef .tc main_arg4)
      ∧ after ops0 W (Proc.devRef .tc main_arg5) = W (Proc.devRef .tc main_arg5)
      ∧ after ops0 W (Proc.devRef .tc main_arg6) = W (Proc.devRef .tc main_arg6)
      ∧ after ops0 W (Proc.devRef .tc main_arg7) = W (Proc.devRef .tc main_arg7)
      ∧ after ops0 W (Proc.devRef .tc main_arg8) = W (Proc.devRef .tc main_arg8) := by
  refine ⟨?_, ?_, ?_, ?_, ?_, ?_, ?_, ?_, ?_⟩ <;> after_results_simp

end Cert.ReferenceIdeal.RefRun

end
-- ==== Proof.Ref.Ops1.lean ====
/-
  Window 1 of the reference program's @main (operations 81 … 160 of its 264) as a list of host operations, and what
  the window computes: from any buffer contents that hold the arguments and the earlier stages it reads, each buffer a later
  window reads ends at its stage, the value `val_‹buffer›` of the nine arguments; the arguments are left as they were.
-/
import proofs.«411066_j83983790505988_3_alg».proof.Proof.Ref.Read
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's window 1 (operations 81 … 160 of 264), in order; a called function's operations stand in its call's place. -/
abbrev ops1 : List (HloOp τ sig (Elt F)) :=
  [ binary main_v44 main_cst_13 main_v45 ((fun x v => Host.reduce FloatOps.maximumf x v reducesTo_S32x64_S_d0_1 h_S_) : (⟨S32x64, .f32⟩ : BufTy).Contents (Elt F) → (⟨S_, .f32⟩ : BufTy).Contents (Elt F) → (⟨S_, .f32⟩ : BufTy).Contents (Elt F)),
    nullary main_cst_14 (constant S_ .f32 0x42FE0000#32),
    binary main_v45 main_cst_14 main_v46 (Host.divf : (⟨S_, .f32⟩ : BufTy).Contents (Elt F) → (⟨S_, .f32⟩ : BufTy).Contents (Elt F) → (⟨S_, .f32⟩ : BufTy).Contents (Elt F)),
    unary main_v46 main_v47 (broadcastInDim S32x64 ![] bcast_S_S32x64 : (⟨S_, .f32⟩ : BufTy).Contents (Elt F) → (⟨S32x64, .f32⟩ : BufTy).Contents (Elt F)),
    binary main_arg3 main_v47 main_v48 (Host.divf : (⟨S32x64, .f32⟩ : BufTy).Contents (Elt F) → (⟨S32x64, .f32⟩ : BufTy).Contents (Elt F) → (⟨S32x64, .f32⟩ : BufTy).Contents (Elt F)),
    TRef.unary (TRef.of (T := ⟨S32x64, .f32⟩) main_v48) (TRef.of (T := ⟨S32x64, .f32⟩) main_v49) Host.roundeven,
    nullary main_cst_15 (constant S_ .f32 0xC3000000#32),
    nullary main_cst_16 (constant S_ .f32 0x42FE0000#32),
    TRef.unary (TRef.of (T := ⟨S_, .f32⟩) main_cst_15) (TRef.of (T := ⟨S_, .f32⟩) main_call10_v0) id,
    TRef.unary (TRef.of (T := ⟨S_, .f32⟩) main_call10_v0) (TRef.of (T := ⟨S32x64, .f32⟩) main_call10_v1) (broadcastInDim S32x64 ![] bcast_S_S32x64),
    TRef.binary (TRef.of (T := ⟨S32x64, .f32⟩) main_call10_v1) (TRef.of (T := ⟨S32x64, .f32⟩) main_v49) (TRef.of (T := ⟨S32x64, .f32⟩) main_call10_v2) maximumf,
    TRef.unary (TRef.of (T := ⟨S_, .f32⟩) main_cst_16) (TRef.of (T := ⟨S_, .f32⟩) main_call10_v3) id,
    TRef.unary (TRef.of (T := ⟨S_, .f32⟩) main_call10_v3) (TRef.of (T := ⟨S32x64, .f32⟩) main_call10_v4) (broadcastInDim S32x64 ![] bcast_S_S32x64),
    TRef.binary (TRef.of (T := ⟨S32x64, .f32⟩) main_call10_v4) (TRef.of (T := ⟨S32x64, .f32⟩) main_call10_v2) (TRef.of (T := ⟨S32x64, .f32⟩) main_v50) minimumf,
    binary main_v46 main_v32 main_v51 (mulf : (⟨S_, .f32⟩ : BufTy).Contents (Elt F) → (⟨S_, .f32⟩ : BufTy).Contents (Elt F) → (⟨S_, .f32⟩ : BufTy).Contents (Elt F)),
    unary main_v51 main_v52 (broadcastInDim S32 ![] bcast_S_S32 : (⟨S_, .f32⟩ : BufTy).Contents (Elt F) → (⟨S32, .f32⟩ : BufTy).Contents (Elt F)),
    binary main_arg4 main_v52 main_v53 (Host.divf : (⟨S32, .f32⟩ : BufTy).Contents (Elt F) → (⟨S32, .f32⟩ : BufTy).Contents (Elt F) → (⟨S32, .f32⟩ : BufTy).Contents (Elt F)),
    TRef.unary (TRef.of (T := ⟨S32, .f32⟩) main_v53) (TRef.of (T := ⟨S32, .f32⟩) main_v54) Host.roundeven,
    unary main_v32 main_v55 (broadcastInDim S1048576x64 ![] bcast_S_S1048576x64 : (⟨S_, .f32⟩ : BufTy).Contents (Elt F) → (⟨S1048576x64, .f32⟩ : BufTy).Contents (Elt F)),
    binary main_v43 main_v55 main_v56 (Host.divf : (⟨S1048576x64, .f32⟩ : BufTy).Contents (Elt F) → (⟨S1048576x64, .f32⟩ : BufTy).Contents (Elt F) → (⟨S1048576x64, .f32⟩ : BufTy).Contents (Elt F)),
    unary main_v50 main_v57 ((transpose S64x32 [1, 0] · transposes_S32x64_S64x32_1_0) : (⟨S32x64, .f32⟩ : BufTy).Contents (Elt F) → (⟨S64x32, .f32⟩ : BufTy).Contents (Elt F)),
    binary main_v56 main_v57 main_v58 ((fun l r => Host.dotGeneral dot_S1048576x64_S64x32_S1048576x32_1_0_0_1_n_n none l r) : (⟨S1048576x64, .f32⟩ : BufTy).Contents (Elt F) → (⟨S64x32, .f32⟩ : BufTy).Contents (Elt F) → (⟨S1048576x32, .f32⟩ : BufTy).Contents (Elt F)),
    unary main_v54 main_v59 (broadcastInDim S1x32 ![1] bcast_S32_S1x32_1 : (⟨S32, .f32⟩ : BufTy).Contents (Elt F) → (⟨S1x32, .f32⟩ : BufTy).Contents (Elt F)),
    unary main_v59 main_v60 (broadcastInDim S1048576x32 ![0, 1] bcast_S1x32_S1048576x32_0_1 : (⟨S1x32, .f32⟩ : BufTy).Contents (Elt F) → (⟨S1048576x32, .f32⟩ : BufTy).Contents (Elt F)),
    binary main_v58 main_v60 main_v61 (addf : (⟨S1048576x32, .f32⟩ : BufTy).Contents (Elt F) → (⟨S1048576x32, .f32⟩ : BufTy).Contents (Elt F) → (⟨S1048576x32, .f32⟩ : BufTy).Contents (Elt F)),
    unary main_v51 main_v62 (broadcastInDim S1048576x32 ![] bcast_S_S1048576x32 : (⟨S_, .f32⟩ : BufTy).Contents (Elt F) → (⟨S1048576x32, .f32⟩ : BufTy).Contents (Elt F)),
    binary main_v61 main_v62 main_v63 (mulf : (⟨S1048576x32, .f32⟩ : BufTy).Contents (Elt F) → (⟨S1048576x32, .f32⟩ : BufTy).Contents (Elt F) → (⟨S1048576x32, .f32⟩ : BufTy).Contents (Elt F)),
    nullary main_cst_17 (constant S_ .f32 0x00000000#32),
    nullary main_cst_18 (constant S_ .f32 0x40C00000#32),
    TRef.unary (TRef.of (T := ⟨S_, .f32⟩) main_cst_17) (TRef.of (T := ⟨S_, .f32⟩) main_call12_v0) id,
    TRef.unary (TRef.of (T := ⟨S_, .f32⟩) main_call12_v0) (TRef.of (T := ⟨S1048576x32, .f32⟩) main_call12_v1) (broadcastInDim S1048576x32 ![] bcast_S_S1048576x32),
    TRef.binary (TRef.of (T := ⟨S1048576x32, .f32⟩) main_call12_v1) (TRef.of (T := ⟨S1048576x32, .f32⟩) main_v63) (TRef.of (T := ⟨S1048576x32, .f32⟩) main_call12_v2) maximumf,
    TRef.unary (TRef.of (T := ⟨S_, .f32⟩) main_cst_18) (TRef.of (T := ⟨S_, .f32⟩) main_call12_v3) id,
    TRef.unary (TRef.of (T := ⟨S_, .f32⟩) main_call12_v3) (TRef.of (T := ⟨S1048576x32, .f32⟩) main_call12_v4) (broadcastInDim S1048576x32 ![] bcast_S_S1048576x32),
    TRef.binary (TRef.of (T := ⟨S1048576x32, .f32⟩) main_call12_v4) (TRef.of (T := ⟨S1048576x32, .f32⟩) main_call12_v2) (TRef.of (T := ⟨S1048576x32, .f32⟩) main_v64) minimumf,
    unary main_v64 main_v65 (Host.absf : (⟨S1048576x32, .f32⟩ : BufTy).Contents (Elt F) → (⟨S1048576x32, .f32⟩ : BufTy).Contents (Elt F)),
    nullary main_cst_19 (constant S_ .f32 0xFF800000#32),
    binary main_v65 main_cst_19 main_v66 ((fun x v => Host.reduce FloatOps.maximumf x v reducesTo_S1048576x32_S_d0_1 h_S_) : (⟨S1048576x32, .f32⟩ : BufTy).Contents (Elt F) → (⟨S_, .f32⟩ : BufTy).Contents (Elt F) → (⟨S_, .f32⟩ : BufTy).Contents (Elt F)),
    nullary main_cst_20 (constant S_ .f32 0x46FFFE00#32),
    binary main_v66 main_cst_20 main_v67 (Host.divf : (⟨S_, .f32⟩ : BufTy).Contents (Elt F) → (⟨S_, .f32⟩ : BufTy).Contents (Elt F) → (⟨S_, .f32⟩ : BufTy).Contents (Elt F)),
    binary main_v32 main_v46 main_v68 (mulf : (⟨S_, .f32⟩ : BufTy).Contents (Elt F) → (⟨S_, .f32⟩ : BufTy).Contents (Elt F) → (⟨S_, .f32⟩ : BufTy).Contents (Elt F)),
    unary main_v68 main_v69 (broadcastInDim S1048576x32 ![] bcast_S_S1048576x32 : (⟨S_, .f32⟩ : BufTy).Contents (Elt F) → (⟨S1048576x32, .f32⟩ : BufTy).Contents (Elt F)),
    binary main_v64 main_v69 main_v70 (Host.divf : (⟨S1048576x32, .f32⟩ : BufTy).Contents (Elt F) → (⟨S1048576x32, .f32⟩ : BufTy).Contents (Elt F) → (⟨S1048576x32, .f32⟩ : BufTy).Contents (Elt F)),
    TRef.unary (TRef.of (T := ⟨S1048576x32, .f32⟩) main_v70) (TRef.of (T := ⟨S1048576x32, .f32⟩) main_v71) Host.roundeven,
    binary main_v68 main_v67 main_v72 (Host.divf : (⟨S_, .f32⟩ : BufTy).Contents (Elt F) → (⟨S_, .f32⟩ : BufTy).Contents (Elt F) → (⟨S_, .f32⟩ : BufTy).Contents (Elt F)),
    unary main_v72 main_v73 (broadcastInDim S1048576x32 ![] bcast_S_S1048576x32 : (⟨S_, .f32⟩ : BufTy).Contents (Elt F) → (⟨S1048576x32, .f32⟩ : BufTy).Contents (Elt F)),
    binary main_v71 main_v73 main_v74 (mulf : (⟨S1048576x32, .f32⟩ : BufTy).Contents (Elt F) → (⟨S1048576x32, .f32⟩ : BufTy).Contents (Elt F) → (⟨S1048576x32, .f32⟩ : BufTy).Contents (Elt F)),
    TRef.unary (TRef.of (T := ⟨S1048576x32, .f32⟩) main_v74) (TRef.of (T := ⟨S1048576x32, .f32⟩) main_v75) Host.roundeven,
    nullary main_cst_21 (constant S_ .f32 0xC7000000#32),
    nullary main_cst_22 (constant S_ .f32 0x46FFFE00#32),
    TRef.unary (TRef.of (T := ⟨S_, .f32⟩) main_cst_21) (TRef.of (T := ⟨S_, .f32⟩) main_call15_v0) id,
    TRef.unary (TRef.of (T := ⟨S_, .f32⟩) main_call15_v0) (TRef.of (T := ⟨S1048576x32, .f32⟩) main_call15_v1) (broadcastInDim S1048576x32 ![] bcast_S_S1048576x32),
    TRef.binary (TRef.of (T := ⟨S1048576x32, .f32⟩) main_call15_v1) (TRef.of (T := ⟨S1048576x32, .f32⟩) main_v75) (TRef.of (T := ⟨S1048576x32, .f32⟩) main_call15_v2) maximumf,
    TRef.unary (TRef.of (T := ⟨S_, .f32⟩) main_cst_22) (TRef.of (T := ⟨S_, .f32⟩) main_call15_v3) id,
    TRef.unary (TRef.of (T := ⟨S_, .f32⟩) main_call15_v3) (TRef.of (T := ⟨S1048576x32, .f32⟩) main_call15_v4) (broadcastInDim S1048576x32 ![] bcast_S_S1048576x32),
    TRef.binary (TRef.of (T := ⟨S1048576x32, .f32⟩) main_call15_v4) (TRef.of (T := ⟨S1048576x32, .f32⟩) main_call15_v2) (TRef.of (T := ⟨S1048576x32, .f32⟩) main_v76) minimumf,
    unary main_v67 main_v77 (broadcastInDim S1048576x32 ![] bcast_S_S1048576x32 : (⟨S_, .f32⟩ : BufTy).Contents (Elt F) → (⟨S1048576x32, .f32⟩ : BufTy).Contents (Elt F)),
    binary main_v76 main_v77 main_v78 (mulf : (⟨S1048576x32, .f32⟩ : BufTy).Contents (Elt F) → (⟨S1048576x32, .f32⟩ : BufTy).Contents (Elt F) → (⟨S1048576x32, .f32⟩ : BufTy).Contents (Elt F)),
    unary main_arg5 main_v79 (Host.absf : (⟨S32x32, .f32⟩ : BufTy).Contents (Elt F) → (⟨S32x32, .f32⟩ : BufTy).Contents (Elt F)),
    nullary main_cst_23 (constant S_ .f32 0xFF800000#32),
    binary main_v79 main_cst_23 main_v80 ((fun x v => Host.reduce FloatOps.maximumf x v reducesTo_S32x32_S_d0_1 h_S_) : (⟨S32x32, .f32⟩ : BufTy).Contents (Elt F) → (⟨S_, .f32⟩ : BufTy).Contents (Elt F) → (⟨S_, .f32⟩ : BufTy).Contents (Elt F)),
    nullary main_cst_24 (constant S_ .f32 0x42FE0000#32),
    binary main_v80 main_cst_24 main_v81 (Host.divf : (⟨S_, .f32⟩ : BufTy).Contents (Elt F) → (⟨S_, .f32⟩ : BufTy).Contents (Elt F) → (⟨S_, .f32⟩ : BufTy).Contents (Elt F)),
    unary main_v81 main_v82 (broadcastInDim S32x32 ![] bcast_S_S32x32 : (⟨S_, .f32⟩ : BufTy).Contents (Elt F) → (⟨S32x32, .f32⟩ : BufTy).Contents (Elt F)),
    binary main_arg5 main_v82 main_v83 (Host.divf : (⟨S32x32, .f32⟩ : BufTy).Contents (Elt F) → (⟨S32x32, .f32⟩ : BufTy).Contents (Elt F) → (⟨S32x32, .f32⟩ : BufTy).Contents (Elt F)),
    TRef.unary (TRef.of (T := ⟨S32x32, .f32⟩) main_v83) (TRef.of (T := ⟨S32x32, .f32⟩) main_v84) Host.roundeven,
    nullary main_cst_25 (constant S_ .f32 0xC3000000#32),
    nullary main_cst_26 (constant S_ .f32 0x42FE0000#32),
    TRef.unary (TRef.of (T := ⟨S_, .f32⟩) main_cst_25) (TRef.of (T := ⟨S_, .f32⟩) main_call17_v0) id,
    TRef.unary (TRef.of (T := ⟨S_, .f32⟩) main_call17_v0) (TRef.of (T := ⟨S32x32, .f32⟩) main_call17_v1) (broadcastInDim S32x32 ![] bcast_S_S32x32),
    TRef.binary (TRef.of (T := ⟨S32x32, .f32⟩) main_call17_v1) (TRef.of (T := ⟨S32x32, .f32⟩) main_v84) (TRef.of (T := ⟨S32x32, .f32⟩) main_call17_v2) maximumf,
    TRef.unary (TRef.of (T := ⟨S_, .f32⟩) main_cst_26) (TRef.of (T := ⟨S_, .f32⟩) main_call17_v3) id,
    TRef.unary (TRef.of (T := ⟨S_, .f32⟩) main_call17_v3) (TRef.of (T := ⟨S32x32, .f32⟩) main_call17_v4) (broadcastInDim S32x32 ![] bcast_S_S32x32),
    TRef.binary (TRef.of (T := ⟨S32x32, .f32⟩) main_call17_v4) (TRef.of (T := ⟨S32x32, .f32⟩) main_call17_v2) (TRef.of (T := ⟨S32x32, .f32⟩) main_v85) minimumf,
    binary main_v81 main_v67 main_v86 (mulf : (⟨S_, .f32⟩ : BufTy).Contents (Elt F) → (⟨S_, .f32⟩ : BufTy).Contents (Elt F) → (⟨S_, .f32⟩ : BufTy).Contents (Elt F)),
    unary main_v86 main_v87 (broadcastInDim S32 ![] bcast_S_S32 : (⟨S_, .f32⟩ : BufTy).Contents (Elt F) → (⟨S32, .f32⟩ : BufTy).Contents (Elt F)),
    binary main_arg6 main_v87 main_v88 (Host.divf : (⟨S32, .f32⟩ : BufTy).Contents (Elt F) → (⟨S32, .f32⟩ : BufTy).Contents (Elt F) → (⟨S32, .f32⟩ : BufTy).Contents (Elt F)),
    TRef.unary (TRef.of (T := ⟨S32, .f32⟩) main_v88) (TRef.of (T := ⟨S32, .f32⟩) main_v89) Host.roundeven,
    unary main_v67 main_v90 (broadcastInDim S1048576x32 ![] bcast_S_S1048576x32 : (⟨S_, .f32⟩ : BufTy).Contents (Elt F) → (⟨S1048576x32, .f32⟩ : BufTy).Contents (Elt F)),
    binary main_v78 main_v90 main_v91 (Host.divf : (⟨S1048576x32, .f32⟩ : BufTy).Contents (Elt F) → (⟨S1048576x32, .f32⟩ : BufTy).Contents (Elt F) → (⟨S1048576x32, .f32⟩ : BufTy).Contents (Elt F)) ]

set_option maxRecDepth 8192 in
set_option maxHeartbeats 4000000 in
theorem main_part1_eq (c : Dev nD) : main_part1 (F := F) c = seq ops1 := rfl

set_option maxRecDepth 8192 in
theorem ops1_sub : (ops1 : List (HloOp τ sig (Elt F))).Forall fun op => op.bufs ⊆ tcRefs τ sig :=
  ⟨binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., binary_bufs_sub .., nullary_bufs_sub .., binary_bufs_sub .., binary_bufs_sub .., unary_bufs_sub .., binary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., nullary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub ..⟩

set_option maxRecDepth 8192 in
set_option maxHeartbeats 4000000 in
theorem ops1_fresh : ∀ op ∈ (ops1 : List (HloOp τ sig (Elt F))), op.fresh = ∅ := by
  intro _ h; (repeat (cases h with | head => rfl | tail _ h => ?_)); exact nomatch h

set_option maxHeartbeats 4000000 in
/-- What window 1 leaves in the buffers later windows read, as the stages of the nine arguments: from any contents `W`
    that hold the arguments and the stages window 1 reads. -/
theorem after1 (W : Valuation τ sig (Elt F)) (x0 : (⟨S1048576x16, .f32⟩ : BufTy).Contents (Elt F)) (x1 : (⟨S64x16, .f32⟩ : BufTy).Contents (Elt F)) (x2 : (⟨S64, .f32⟩ : BufTy).Contents (Elt F)) (x3 : (⟨S32x64, .f32⟩ : BufTy).Contents (Elt F)) (x4 : (⟨S32, .f32⟩ : BufTy).Contents (Elt F)) (x5 : (⟨S32x32, .f32⟩ : BufTy).Contents (Elt F)) (x6 : (⟨S32, .f32⟩ : BufTy).Contents (Elt F))
    (ha3 : W (Proc.devRef .tc main_arg3) = x3)
    (ha4 : W (Proc.devRef .tc main_arg4) = x4)
    (ha5 : W (Proc.devRef .tc main_arg5) = x5)
    (ha6 : W (Proc.devRef .tc main_arg6) = x6)
    (h_v44 : W (Proc.devRef .tc main_v44) = RefRead.val_main_v44 (F := F) x3)
    (h_cst_13 : W (Proc.devRef .tc main_cst_13) = RefRead.val_main_cst_13 (F := F))
    (h_v32 : W (Proc.devRef .tc main_v32) = RefRead.val_main_v32 (F := F) x0 x1 x2)
    (h_v43 : W (Proc.devRef .tc main_v43) = RefRead.val_main_v43 (F := F) x0 x1 x2) :
    after ops1 W (Proc.devRef .tc main_v85) = RefRead.val_main_v85 (F := F) x5
      ∧ after ops1 W (Proc.devRef .tc main_v91) = RefRead.val_main_v91 (F := F) x0 x1 x2 x3 x4
      ∧ after ops1 W (Proc.devRef .tc main_v89) = RefRead.val_main_v89 (F := F) x0 x1 x2 x3 x4 x5 x6
      ∧ after ops1 W (Proc.devRef .tc main_v86) = RefRead.val_main_v86 (F := F) x0 x1 x2 x3 x4 x5
      ∧ after ops1 W (Proc.devRef .tc main_v67) = RefRead.val_main_v67 (F := F) x0 x1 x2 x3 x4
      ∧ after ops1 W (Proc.devRef .tc main_v81) = RefRead.val_main_v81 (F := F) x5 := by
  refine ⟨?_, ?_, ?_, ?_, ?_, ?_⟩
  · after_results_simp; (try simp only [ha3, ha4, ha5, ha6, h_v44, h_cst_13, h_v32, h_v43]); rfl
  · after_results_simp; (try simp only [ha3, ha4, ha5, ha6, h_v44, h_cst_13, h_v32, h_v43]); rfl
  · after_results_simp; (try simp only [ha3, ha4, ha5, ha6, h_v44, h_cst_13, h_v32, h_v43]); rfl
  · after_results_simp; (try simp only [ha3, ha4, ha5, ha6, h_v44, h_cst_13, h_v32, h_v43]); rfl
  · after_results_simp; (try simp only [ha3, ha4, ha5, ha6, h_v44, h_cst_13, h_v32, h_v43]); rfl
  · after_results_simp; (try simp only [ha3, ha4, ha5, ha6, h_v44, h_cst_13, h_v32, h_v43]); rfl

set_option maxHeartbeats 4000000 in
/-- Window 1 writes none of the nine arguments. -/
theorem after1_args (W : Valuation τ sig (Elt F)) :
    after ops1 W (Proc.devRef .tc main_arg0) = W (Proc.devRef .tc main_arg0)
      ∧ after ops1 W (Proc.devRef .tc main_arg1) = W (Proc.devRef .tc main_arg1)
      ∧ after ops1 W (Proc.devRef .tc main_arg2) = W (Proc.devRef .tc main_arg2)
      ∧ after ops1 W (Proc.devRef .tc main_arg3) = W (Proc.devRef .tc main_arg3)
      ∧ after ops1 W (Proc.devRef .tc main_arg4) = W (Proc.devRef .tc main_arg4)
      ∧ after ops1 W (Proc.devRef .tc main_arg5) = W (Proc.devRef .tc main_arg5)
      ∧ after ops1 W (Proc.devRef .tc main_arg6) = W (Proc.devRef .tc main_arg6)
      ∧ after ops1 W (Proc.devRef .tc main_arg7) = W (Proc.devRef .tc main_arg7)
      ∧ after ops1 W (Proc.devRef .tc main_arg8) = W (Proc.devRef .tc main_arg8) := by
  refine ⟨?_, ?_, ?_, ?_, ?_, ?_, ?_, ?_, ?_⟩ <;> after_results_simp

end Cert.ReferenceIdeal.RefRun

end
-- ==== Proof.Ref.Ops2.lean ====
/-
  Window 2 of the reference program's @main (operations 161 … 235 of its 264) as a list of host operations, and what
  the window computes: from any buffer contents that hold the arguments and the earlier stages it reads, each buffer a later
  window reads ends at its stage, the value `val_‹buffer›` of the nine arguments; the arguments are left as they were.
-/
import proofs.«411066_j83983790505988_3_alg».proof.Proof.Ref.Read
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's window 2 (operations 161 … 235 of 264), in order; a called function's operations stand in its call's place. -/
abbrev ops2 : List (HloOp τ sig (Elt F)) :=
  [ unary main_v85 main_v92 ((transpose S32x32 [1, 0] · transposes_S32x32_S32x32_1_0) : (⟨S32x32, .f32⟩ : BufTy).Contents (Elt F) → (⟨S32x32, .f32⟩ : BufTy).Contents (Elt F)),
    binary main_v91 main_v92 main_v93 ((fun l r => Host.dotGeneral dot_S1048576x32_S32x32_S1048576x32_1_0_0_1_n_n none l r) : (⟨S1048576x32, .f32⟩ : BufTy).Contents (Elt F) → (⟨S32x32, .f32⟩ : BufTy).Contents (Elt F) → (⟨S1048576x32, .f32⟩ : BufTy).Contents (Elt F)),
    unary main_v89 main_v94 (broadcastInDim S1x32 ![1] bcast_S32_S1x32_1 : (⟨S32, .f32⟩ : BufTy).Contents (Elt F) → (⟨S1x32, .f32⟩ : BufTy).Contents (Elt F)),
    unary main_v94 main_v95 (broadcastInDim S1048576x32 ![0, 1] bcast_S1x32_S1048576x32_0_1 : (⟨S1x32, .f32⟩ : BufTy).Contents (Elt F) → (⟨S1048576x32, .f32⟩ : BufTy).Contents (Elt F)),
    binary main_v93 main_v95 main_v96 (addf : (⟨S1048576x32, .f32⟩ : BufTy).Contents (Elt F) → (⟨S1048576x32, .f32⟩ : BufTy).Contents (Elt F) → (⟨S1048576x32, .f32⟩ : BufTy).Contents (Elt F)),
    unary main_v86 main_v97 (broadcastInDim S1048576x32 ![] bcast_S_S1048576x32 : (⟨S_, .f32⟩ : BufTy).Contents (Elt F) → (⟨S1048576x32, .f32⟩ : BufTy).Contents (Elt F)),
    binary main_v96 main_v97 main_v98 (mulf : (⟨S1048576x32, .f32⟩ : BufTy).Contents (Elt F) → (⟨S1048576x32, .f32⟩ : BufTy).Contents (Elt F) → (⟨S1048576x32, .f32⟩ : BufTy).Contents (Elt F)),
    nullary main_cst_27 (constant S_ .f32 0x00000000#32),
    nullary main_cst_28 (constant S_ .f32 0x40C00000#32),
    TRef.unary (TRef.of (T := ⟨S_, .f32⟩) main_cst_27) (TRef.of (T := ⟨S_, .f32⟩) main_call19_v0) id,
    TRef.unary (TRef.of (T := ⟨S_, .f32⟩) main_call19_v0) (TRef.of (T := ⟨S1048576x32, .f32⟩) main_call19_v1) (broadcastInDim S1048576x32 ![] bcast_S_S1048576x32),
    TRef.binary (TRef.of (T := ⟨S1048576x32, .f32⟩) main_call19_v1) (TRef.of (T := ⟨S1048576x32, .f32⟩) main_v98) (TRef.of (T := ⟨S1048576x32, .f32⟩) main_call19_v2) maximumf,
    TRef.unary (TRef.of (T := ⟨S_, .f32⟩) main_cst_28) (TRef.of (T := ⟨S_, .f32⟩) main_call19_v3) id,
    TRef.unary (TRef.of (T := ⟨S_, .f32⟩) main_call19_v3) (TRef.of (T := ⟨S1048576x32, .f32⟩) main_call19_v4) (broadcastInDim S1048576x32 ![] bcast_S_S1048576x32),
    TRef.binary (TRef.of (T := ⟨S1048576x32, .f32⟩) main_call19_v4) (TRef.of (T := ⟨S1048576x32, .f32⟩) main_call19_v2) (TRef.of (T := ⟨S1048576x32, .f32⟩) main_v99) minimumf,
    unary main_v99 main_v100 (Host.absf : (⟨S1048576x32, .f32⟩ : BufTy).Contents (Elt F) → (⟨S1048576x32, .f32⟩ : BufTy).Contents (Elt F)),
    nullary main_cst_29 (constant S_ .f32 0xFF800000#32),
    binary main_v100 main_cst_29 main_v101 ((fun x v => Host.reduce FloatOps.maximumf x v reducesTo_S1048576x32_S_d0_1 h_S_) : (⟨S1048576x32, .f32⟩ : BufTy).Contents (Elt F) → (⟨S_, .f32⟩ : BufTy).Contents (Elt F) → (⟨S_, .f32⟩ : BufTy).Contents (Elt F)),
    nullary main_cst_30 (constant S_ .f32 0x46FFFE00#32),
    binary main_v101 main_cst_30 main_v102 (Host.divf : (⟨S_, .f32⟩ : BufTy).Contents (Elt F) → (⟨S_, .f32⟩ : BufTy).Contents (Elt F) → (⟨S_, .f32⟩ : BufTy).Contents (Elt F)),
    binary main_v67 main_v81 main_v103 (mulf : (⟨S_, .f32⟩ : BufTy).Contents (Elt F) → (⟨S_, .f32⟩ : BufTy).Contents (Elt F) → (⟨S_, .f32⟩ : BufTy).Contents (Elt F)),
    unary main_v103 main_v104 (broadcastInDim S1048576x32 ![] bcast_S_S1048576x32 : (⟨S_, .f32⟩ : BufTy).Contents (Elt F) → (⟨S1048576x32, .f32⟩ : BufTy).Contents (Elt F)),
    binary main_v99 main_v104 main_v105 (Host.divf : (⟨S1048576x32, .f32⟩ : BufTy).Contents (Elt F) → (⟨S1048576x32, .f32⟩ : BufTy).Contents (Elt F) → (⟨S1048576x32, .f32⟩ : BufTy).Contents (Elt F)),
    TRef.unary (TRef.of (T := ⟨S1048576x32, .f32⟩) main_v105) (TRef.of (T := ⟨S1048576x32, .f32⟩) main_v106) Host.roundeven,
    binary main_v103 main_v102 main_v107 (Host.divf : (⟨S_, .f32⟩ : BufTy).Contents (Elt F) → (⟨S_, .f32⟩ : BufTy).Contents (Elt F) → (⟨S_, .f32⟩ : BufTy).Contents (Elt F)),
    unary main_v107 main_v108 (broadcastInDim S1048576x32 ![] bcast_S_S1048576x32 : (⟨S_, .f32⟩ : BufTy).Contents (Elt F) → (⟨S1048576x32, .f32⟩ : BufTy).Contents (Elt F)),
    binary main_v106 main_v108 main_v109 (mulf : (⟨S1048576x32, .f32⟩ : BufTy).Contents (Elt F) → (⟨S1048576x32, .f32⟩ : BufTy).Contents (Elt F) → (⟨S1048576x32, .f32⟩ : BufTy).Contents (Elt F)),
    TRef.unary (TRef.of (T := ⟨S1048576x32, .f32⟩) main_v109) (TRef.of (T := ⟨S1048576x32, .f32⟩) main_v110) Host.roundeven,
    nullary main_cst_31 (constant S_ .f32 0xC7000000#32),
    nullary main_cst_32 (constant S_ .f32 0x46FFFE00#32),
    TRef.unary (TRef.of (T := ⟨S_, .f32⟩) main_cst_31) (TRef.of (T := ⟨S_, .f32⟩) main_call22_v0) id,
    TRef.unary (TRef.of (T := ⟨S_, .f32⟩) main_call22_v0) (TRef.of (T := ⟨S1048576x32, .f32⟩) main_call22_v1) (broadcastInDim S1048576x32 ![] bcast_S_S1048576x32),
    TRef.binary (TRef.of (T := ⟨S1048576x32, .f32⟩) main_call22_v1) (TRef.of (T := ⟨S1048576x32, .f32⟩) main_v110) (TRef.of (T := ⟨S1048576x32, .f32⟩) main_call22_v2) maximumf,
    TRef.unary (TRef.of (T := ⟨S_, .f32⟩) main_cst_32) (TRef.of (T := ⟨S_, .f32⟩) main_call22_v3) id,
    TRef.unary (TRef.of (T := ⟨S_, .f32⟩) main_call22_v3) (TRef.of (T := ⟨S1048576x32, .f32⟩) main_call22_v4) (broadcastInDim S1048576x32 ![] bcast_S_S1048576x32),
    TRef.binary (TRef.of (T := ⟨S1048576x32, .f32⟩) main_call22_v4) (TRef.of (T := ⟨S1048576x32, .f32⟩) main_call22_v2) (TRef.of (T := ⟨S1048576x32, .f32⟩) main_v111) minimumf,
    unary main_v102 main_v112 (broadcastInDim S1048576x32 ![] bcast_S_S1048576x32 : (⟨S_, .f32⟩ : BufTy).Contents (Elt F) → (⟨S1048576x32, .f32⟩ : BufTy).Contents (Elt F)),
    binary main_v111 main_v112 main_v113 (mulf : (⟨S1048576x32, .f32⟩ : BufTy).Contents (Elt F) → (⟨S1048576x32, .f32⟩ : BufTy).Contents (Elt F) → (⟨S1048576x32, .f32⟩ : BufTy).Contents (Elt F)),
    unary main_arg7 main_v114 (Host.absf : (⟨S5x32, .f32⟩ : BufTy).Contents (Elt F) → (⟨S5x32, .f32⟩ : BufTy).Contents (Elt F)),
    nullary main_cst_33 (constant S_ .f32 0xFF800000#32),
    binary main_v114 main_cst_33 main_v115 ((fun x v => Host.reduce FloatOps.maximumf x v reducesTo_S5x32_S_d0_1 h_S_) : (⟨S5x32, .f32⟩ : BufTy).Contents (Elt F) → (⟨S_, .f32⟩ : BufTy).Contents (Elt F) → (⟨S_, .f32⟩ : BufTy).Contents (Elt F)),
    nullary main_cst_34 (constant S_ .f32 0x42FE0000#32),
    binary main_v115 main_cst_34 main_v116 (Host.divf : (⟨S_, .f32⟩ : BufTy).Contents (Elt F) → (⟨S_, .f32⟩ : BufTy).Contents (Elt F) → (⟨S_, .f32⟩ : BufTy).Contents (Elt F)),
    unary main_v116 main_v117 (broadcastInDim S5x32 ![] bcast_S_S5x32 : (⟨S_, .f32⟩ : BufTy).Contents (Elt F) → (⟨S5x32, .f32⟩ : BufTy).Contents (Elt F)),
    binary main_arg7 main_v117 main_v118 (Host.divf : (⟨S5x32, .f32⟩ : BufTy).Contents (Elt F) → (⟨S5x32, .f32⟩ : BufTy).Contents (Elt F) → (⟨S5x32, .f32⟩ : BufTy).Contents (Elt F)),
    TRef.unary (TRef.of (T := ⟨S5x32, .f32⟩) main_v118) (TRef.of (T := ⟨S5x32, .f32⟩) main_v119) Host.roundeven,
    nullary main_cst_35 (constant S_ .f32 0xC3000000#32),
    nullary main_cst_36 (constant S_ .f32 0x42FE0000#32),
    TRef.unary (TRef.of (T := ⟨S_, .f32⟩) main_cst_35) (TRef.of (T := ⟨S_, .f32⟩) main_call24_v0) id,
    TRef.unary (TRef.of (T := ⟨S_, .f32⟩) main_call24_v0) (TRef.of (T := ⟨S5x32, .f32⟩) main_call24_v1) (broadcastInDim S5x32 ![] bcast_S_S5x32),
    TRef.binary (TRef.of (T := ⟨S5x32, .f32⟩) main_call24_v1) (TRef.of (T := ⟨S5x32, .f32⟩) main_v119) (TRef.of (T := ⟨S5x32, .f32⟩) main_call24_v2) maximumf,
    TRef.unary (TRef.of (T := ⟨S_, .f32⟩) main_cst_36) (TRef.of (T := ⟨S_, .f32⟩) main_call24_v3) id,
    TRef.unary (TRef.of (T := ⟨S_, .f32⟩) main_call24_v3) (TRef.of (T := ⟨S5x32, .f32⟩) main_call24_v4) (broadcastInDim S5x32 ![] bcast_S_S5x32),
    TRef.binary (TRef.of (T := ⟨S5x32, .f32⟩) main_call24_v4) (TRef.of (T := ⟨S5x32, .f32⟩) main_call24_v2) (TRef.of (T := ⟨S5x32, .f32⟩) main_v120) minimumf,
    binary main_v116 main_v102 main_v121 (mulf : (⟨S_, .f32⟩ : BufTy).Contents (Elt F) → (⟨S_, .f32⟩ : BufTy).Contents (Elt F) → (⟨S_, .f32⟩ : BufTy).Contents (Elt F)),
    unary main_v121 main_v122 (broadcastInDim S5 ![] bcast_S_S5 : (⟨S_, .f32⟩ : BufTy).Contents (Elt F) → (⟨S5, .f32⟩ : BufTy).Contents (Elt F)),
    binary main_arg8 main_v122 main_v123 (Host.divf : (⟨S5, .f32⟩ : BufTy).Contents (Elt F) → (⟨S5, .f32⟩ : BufTy).Contents (Elt F) → (⟨S5, .f32⟩ : BufTy).Contents (Elt F)),
    TRef.unary (TRef.of (T := ⟨S5, .f32⟩) main_v123) (TRef.of (T := ⟨S5, .f32⟩) main_v124) Host.roundeven,
    unary main_v102 main_v125 (broadcastInDim S1048576x32 ![] bcast_S_S1048576x32 : (⟨S_, .f32⟩ : BufTy).Contents (Elt F) → (⟨S1048576x32, .f32⟩ : BufTy).Contents (Elt F)),
    binary main_v113 main_v125 main_v126 (Host.divf : (⟨S1048576x32, .f32⟩ : BufTy).Contents (Elt F) → (⟨S1048576x32, .f32⟩ : BufTy).Contents (Elt F) → (⟨S1048576x32, .f32⟩ : BufTy).Contents (Elt F)),
    unary main_v120 main_v127 ((transpose S32x5 [1, 0] · transposes_S5x32_S32x5_1_0) : (⟨S5x32, .f32⟩ : BufTy).Contents (Elt F) → (⟨S32x5, .f32⟩ : BufTy).Contents (Elt F)),
    binary main_v126 main_v127 main_v128 ((fun l r => Host.dotGeneral dot_S1048576x32_S32x5_S1048576x5_1_0_0_1_n_n none l r) : (⟨S1048576x32, .f32⟩ : BufTy).Contents (Elt F) → (⟨S32x5, .f32⟩ : BufTy).Contents (Elt F) → (⟨S1048576x5, .f32⟩ : BufTy).Contents (Elt F)),
    unary main_v124 main_v129 (broadcastInDim S1x5 ![1] bcast_S5_S1x5_1 : (⟨S5, .f32⟩ : BufTy).Contents (Elt F) → (⟨S1x5, .f32⟩ : BufTy).Contents (Elt F)),
    unary main_v129 main_v130 (broadcastInDim S1048576x5 ![0, 1] bcast_S1x5_S1048576x5_0_1 : (⟨S1x5, .f32⟩ : BufTy).Contents (Elt F) → (⟨S1048576x5, .f32⟩ : BufTy).Contents (Elt F)),
    binary main_v128 main_v130 main_v131 (addf : (⟨S1048576x5, .f32⟩ : BufTy).Contents (Elt F) → (⟨S1048576x5, .f32⟩ : BufTy).Contents (Elt F) → (⟨S1048576x5, .f32⟩ : BufTy).Contents (Elt F)),
    unary main_v121 main_v132 (broadcastInDim S1048576x5 ![] bcast_S_S1048576x5 : (⟨S_, .f32⟩ : BufTy).Contents (Elt F) → (⟨S1048576x5, .f32⟩ : BufTy).Contents (Elt F)),
    binary main_v131 main_v132 main_v133 (mulf : (⟨S1048576x5, .f32⟩ : BufTy).Contents (Elt F) → (⟨S1048576x5, .f32⟩ : BufTy).Contents (Elt F) → (⟨S1048576x5, .f32⟩ : BufTy).Contents (Elt F)),
    nullary main_cst_37 (constant S_ .f32 0xFF800000#32),
    binary main_v133 main_cst_37 main_v134 ((fun x v => Host.reduce FloatOps.maximumf x v reducesTo_S1048576x5_S5_d0 h_S_) : (⟨S1048576x5, .f32⟩ : BufTy).Contents (Elt F) → (⟨S_, .f32⟩ : BufTy).Contents (Elt F) → (⟨S5, .f32⟩ : BufTy).Contents (Elt F)),
    nullary main_cst_38 (constant S_ .f32 0xFF800000#32),
    unary main_cst_38 main_v135 (broadcastInDim S5 ![] bcast_S_S5 : (⟨S_, .f32⟩ : BufTy).Contents (Elt F) → (⟨S5, .f32⟩ : BufTy).Contents (Elt F)),
    binary main_v135 main_v134 main_v136 (maximumf : (⟨S5, .f32⟩ : BufTy).Contents (Elt F) → (⟨S5, .f32⟩ : BufTy).Contents (Elt F) → (⟨S5, .f32⟩ : BufTy).Contents (Elt F)),
    unary main_v136 main_v137 (broadcastInDim S1x5 ![1] bcast_S5_S1x5_1 : (⟨S5, .f32⟩ : BufTy).Contents (Elt F) → (⟨S1x5, .f32⟩ : BufTy).Contents (Elt F)),
    unary main_v137 main_v138 (broadcastInDim S1048576x5 ![0, 1] bcast_S1x5_S1048576x5_0_1 : (⟨S1x5, .f32⟩ : BufTy).Contents (Elt F) → (⟨S1048576x5, .f32⟩ : BufTy).Contents (Elt F)),
    binary main_v133 main_v138 main_v139 (subf : (⟨S1048576x5, .f32⟩ : BufTy).Contents (Elt F) → (⟨S1048576x5, .f32⟩ : BufTy).Contents (Elt F) → (⟨S1048576x5, .f32⟩ : BufTy).Contents (Elt F)) ]

set_option maxRecDepth 8192 in
set_option maxHeartbeats 4000000 in
theorem main_part2_eq (c : Dev nD) : main_part2 (F := F) c = seq ops2 := rfl

set_option maxRecDepth 8192 in
theorem ops2_sub : (ops2 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., binary_bufs_sub .., nullary_bufs_sub .., binary_bufs_sub .., binary_bufs_sub .., unary_bufs_sub .., binary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., nullary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub ..⟩

set_option maxRecDepth 8192 in
set_option maxHeartbeats 4000000 in
theorem ops2_fresh : ∀ op ∈ (ops2 : List (HloOp τ sig (Elt F))), op.fresh = ∅ := by
  intro _ h; (repeat (cases h with | head => rfl | tail _ h => ?_)); exact nomatch h

set_option maxHeartbeats 4000000 in
/-- What window 2 leaves in the buffers later windows read, as the stages of the nine arguments: from any contents `W`
    that hold the arguments and the stages window 2 reads. -/
theorem after2 (W : Valuation τ sig (Elt F)) (x0 : (⟨S1048576x16, .f32⟩ : BufTy).Contents (Elt F)) (x1 : (⟨S64x16, .f32⟩ : BufTy).Contents (Elt F)) (x2 : (⟨S64, .f32⟩ : BufTy).Contents (Elt F)) (x3 : (⟨S32x64, .f32⟩ : BufTy).Contents (Elt F)) (x4 : (⟨S32, .f32⟩ : BufTy).Contents (Elt F)) (x5 : (⟨S32x32, .f32⟩ : BufTy).Contents (Elt F)) (x6 : (⟨S32, .f32⟩ : BufTy).Contents (Elt F)) (x7 : (⟨S5x32, .f32⟩ : BufTy).Contents (Elt F)) (x8 : (⟨S5, .f32⟩ : BufTy).Contents (Elt F))
    (ha7 : W (Proc.devRef .tc main_arg7) = x7)
    (ha8 : W (Proc.devRef .tc main_arg8) = x8)
    (h_v85 : W (Proc.devRef .tc main_v85) = RefRead.val_main_v85 (F := F) x5)
    (h_v91 : W (Proc.devRef .tc main_v91) = RefRead.val_main_v91 (F := F) x0 x1 x2 x3 x4)
    (h_v89 : W (Proc.devRef .tc main_v89) = RefRead.val_main_v89 (F := F) x0 x1 x2 x3 x4 x5 x6)
    (h_v86 : W (Proc.devRef .tc main_v86) = RefRead.val_main_v86 (F := F) x0 x1 x2 x3 x4 x5)
    (h_v67 : W (Proc.devRef .tc main_v67) = RefRead.val_main_v67 (F := F) x0 x1 x2 x3 x4)
    (h_v81 : W (Proc.devRef .tc main_v81) = RefRead.val_main_v81 (F := F) x5) :
    after ops2 W (Proc.devRef .tc main_v139) = RefRead.val_main_v139 (F := F) x0 x1 x2 x3 x4 x5 x6 x7 x8
      ∧ after ops2 W (Proc.devRef .tc main_v102) = RefRead.val_main_v102 (F := F) x0 x1 x2 x3 x4 x5 x6
      ∧ after ops2 W (Proc.devRef .tc main_v116) = RefRead.val_main_v116 (F := F) x7 := by
  refine ⟨?_, ?_, ?_⟩
  · after_results_simp; (try simp only [ha7, ha8, h_v85, h_v91, h_v89, h_v86, h_v67, h_v81]); rfl
  · after_results_simp; (try simp only [ha7, ha8, h_v85, h_v91, h_v89, h_v86, h_v67, h_v81]); rfl
  · after_results_simp; (try simp only [ha7, ha8, h_v85, h_v91, h_v89, h_v86, h_v67, h_v81]); rfl

set_option maxHeartbeats 4000000 in
/-- Window 2 writes none of the nine arguments. -/
theorem after2_args (W : Valuation τ sig (Elt F)) :
    after ops2 W (Proc.devRef .tc main_arg0) = W (Proc.devRef .tc main_arg0)
      ∧ after ops2 W (Proc.devRef .tc main_arg1) = W (Proc.devRef .tc main_arg1)
      ∧ after ops2 W (Proc.devRef .tc main_arg2) = W (Proc.devRef .tc main_arg2)
      ∧ after ops2 W (Proc.devRef .tc main_arg3) = W (Proc.devRef .tc main_arg3)
      ∧ after ops2 W (Proc.devRef .tc main_arg4) = W (Proc.devRef .tc main_arg4)
      ∧ after ops2 W (Proc.devRef .tc main_arg5) = W (Proc.devRef .tc main_arg5)
      ∧ after ops2 W (Proc.devRef .tc main_arg6) = W (Proc.devRef .tc main_arg6)
      ∧ after ops2 W (Proc.devRef .tc main_arg7) = W (Proc.devRef .tc main_arg7)
      ∧ after ops2 W (Proc.devRef .tc main_arg8) = W (Proc.devRef .tc main_arg8) := by
  refine ⟨?_, ?_, ?_, ?_, ?_, ?_, ?_, ?_, ?_⟩ <;> after_results_simp

end Cert.ReferenceIdeal.RefRun

end
-- ==== Proof.Ref.Ops3.lean ====
/-
  Window 3 of the reference program's @main (operations 236 … 264 of its 264) as a list of host operations, and what
  the window computes: from any buffer contents that hold the arguments and the earlier stages it reads, each buffer a later
  window reads ends at its stage, the value `val_‹buffer›` of the nine arguments; the arguments are left as they were.
-/
import proofs.«411066_j83983790505988_3_alg».proof.Proof.Ref.Read
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's window 3 (operations 236 … 264 of 264), in order; a called function's operations stand in its call's place. -/
abbrev ops3 : List (HloOp τ sig (Elt F)) :=
  [ unary main_v139 main_v140 (Host.exp : (⟨S1048576x5, .f32⟩ : BufTy).Contents (Elt F) → (⟨S1048576x5, .f32⟩ : BufTy).Contents (Elt F)),
    nullary main_cst_39 (constant S_ .f32 0x00000000#32),
    binary main_v140 main_cst_39 main_v141 ((fun x v => Host.reduceAdd x v reducesTo_S1048576x5_S5_d0 h_S_) : (⟨S1048576x5, .f32⟩ : BufTy).Contents (Elt F) → (⟨S_, .f32⟩ : BufTy).Contents (Elt F) → (⟨S5, .f32⟩ : BufTy).Contents (Elt F)),
    unary main_v141 main_v142 (broadcastInDim S1x5 ![1] bcast_S5_S1x5_1 : (⟨S5, .f32⟩ : BufTy).Contents (Elt F) → (⟨S1x5, .f32⟩ : BufTy).Contents (Elt F)),
    unary main_v142 main_v143 (broadcastInDim S1048576x5 ![0, 1] bcast_S1x5_S1048576x5_0_1 : (⟨S1x5, .f32⟩ : BufTy).Contents (Elt F) → (⟨S1048576x5, .f32⟩ : BufTy).Contents (Elt F)),
    binary main_v140 main_v143 main_v144 (Host.divf : (⟨S1048576x5, .f32⟩ : BufTy).Contents (Elt F) → (⟨S1048576x5, .f32⟩ : BufTy).Contents (Elt F) → (⟨S1048576x5, .f32⟩ : BufTy).Contents (Elt F)),
    unary main_v144 main_v145 (Host.absf : (⟨S1048576x5, .f32⟩ : BufTy).Contents (Elt F) → (⟨S1048576x5, .f32⟩ : BufTy).Contents (Elt F)),
    nullary main_cst_40 (constant S_ .f32 0xFF800000#32),
    binary main_v145 main_cst_40 main_v146 ((fun x v => Host.reduce FloatOps.maximumf x v reducesTo_S1048576x5_S_d0_1 h_S_) : (⟨S1048576x5, .f32⟩ : BufTy).Contents (Elt F) → (⟨S_, .f32⟩ : BufTy).Contents (Elt F) → (⟨S_, .f32⟩ : BufTy).Contents (Elt F)),
    nullary main_cst_41 (constant S_ .f32 0x46FFFE00#32),
    binary main_v146 main_cst_41 main_v147 (Host.divf : (⟨S_, .f32⟩ : BufTy).Contents (Elt F) → (⟨S_, .f32⟩ : BufTy).Contents (Elt F) → (⟨S_, .f32⟩ : BufTy).Contents (Elt F)),
    binary main_v102 main_v116 main_v148 (mulf : (⟨S_, .f32⟩ : BufTy).Contents (Elt F) → (⟨S_, .f32⟩ : BufTy).Contents (Elt F) → (⟨S_, .f32⟩ : BufTy).Contents (Elt F)),
    unary main_v148 main_v149 (broadcastInDim S1048576x5 ![] bcast_S_S1048576x5 : (⟨S_, .f32⟩ : BufTy).Contents (Elt F) → (⟨S1048576x5, .f32⟩ : BufTy).Contents (Elt F)),
    binary main_v144 main_v149 main_v150 (Host.divf : (⟨S1048576x5, .f32⟩ : BufTy).Contents (Elt F) → (⟨S1048576x5, .f32⟩ : BufTy).Contents (Elt F) → (⟨S1048576x5, .f32⟩ : BufTy).Contents (Elt F)),
    TRef.unary (TRef.of (T := ⟨S1048576x5, .f32⟩) main_v150) (TRef.of (T := ⟨S1048576x5, .f32⟩) main_v151) Host.roundeven,
    binary main_v148 main_v147 main_v152 (Host.divf : (⟨S_, .f32⟩ : BufTy).Contents (Elt F) → (⟨S_, .f32⟩ : BufTy).Contents (Elt F) → (⟨S_, .f32⟩ : BufTy).Contents (Elt F)),
    unary main_v152 main_v153 (broadcastInDim S1048576x5 ![] bcast_S_S1048576x5 : (⟨S_, .f32⟩ : BufTy).Contents (Elt F) → (⟨S1048576x5, .f32⟩ : BufTy).Contents (Elt F)),
    binary main_v151 main_v153 main_v154 (mulf : (⟨S1048576x5, .f32⟩ : BufTy).Contents (Elt F) → (⟨S1048576x5, .f32⟩ : BufTy).Contents (Elt F) → (⟨S1048576x5, .f32⟩ : BufTy).Contents (Elt F)),
    TRef.unary (TRef.of (T := ⟨S1048576x5, .f32⟩) main_v154) (TRef.of (T := ⟨S1048576x5, .f32⟩) main_v155) Host.roundeven,
    nullary main_cst_42 (constant S_ .f32 0xC7000000#32),
    nullary main_cst_43 (constant S_ .f32 0x46FFFE00#32),
    TRef.unary (TRef.of (T := ⟨S_, .f32⟩) main_cst_42) (TRef.of (T := ⟨S_, .f32⟩) main_call28_v0) id,
    TRef.unary (TRef.of (T := ⟨S_, .f32⟩) main_call28_v0) (TRef.of (T := ⟨S1048576x5, .f32⟩) main_call28_v1) (broadcastInDim S1048576x5 ![] bcast_S_S1048576x5),
    TRef.binary (TRef.of (T := ⟨S1048576x5, .f32⟩) main_call28_v1) (TRef.of (T := ⟨S1048576x5, .f32⟩) main_v155) (TRef.of (T := ⟨S1048576x5, .f32⟩) main_call28_v2) maximumf,
    TRef.unary (TRef.of (T := ⟨S_, .f32⟩) main_cst_43) (TRef.of (T := ⟨S_, .f32⟩) main_call28_v3) id,
    TRef.unary (TRef.of (T := ⟨S_, .f32⟩) main_call28_v3) (TRef.of (T := ⟨S1048576x5, .f32⟩) main_call28_v4) (broadcastInDim S1048576x5 ![] bcast_S_S1048576x5),
    TRef.binary (TRef.of (T := ⟨S1048576x5, .f32⟩) main_call28_v4) (TRef.of (T := ⟨S1048576x5, .f32⟩) main_call28_v2) (TRef.of (T := ⟨S1048576x5, .f32⟩) main_v156) minimumf,
    unary main_v147 main_v157 (broadcastInDim S1048576x5 ![] bcast_S_S1048576x5 : (⟨S_, .f32⟩ : BufTy).Contents (Elt F) → (⟨S1048576x5, .f32⟩ : BufTy).Contents (Elt F)),
    binary main_v156 main_v157 main_v158 (mulf : (⟨S1048576x5, .f32⟩ : BufTy).Contents (Elt F) → (⟨S1048576x5, .f32⟩ : BufTy).Contents (Elt F) → (⟨S1048576x5, .f32⟩ : BufTy).Contents (Elt F)) ]

set_option maxRecDepth 8192 in
set_option maxHeartbeats 4000000 in
theorem main_part3_eq (c : Dev nD) : main_part3 (F := F) c = seq ops3 := rfl

set_option maxRecDepth 8192 in
theorem ops3_sub : (ops3 : List (HloOp τ sig (Elt F))).Forall fun op => op.bufs ⊆ tcRefs τ sig :=
  ⟨unary_bufs_sub .., nullary_bufs_sub .., binary_bufs_sub .., unary_bufs_sub .., unary_bufs_sub .., binary_bufs_sub .., unary_bufs_sub .., nullary_bufs_sub .., binary_bufs_sub .., nullary_bufs_sub .., binary_bufs_sub .., binary_bufs_sub .., unary_bufs_sub .., binary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub ..⟩

set_option maxRecDepth 8192 in
set_option maxHeartbeats 4000000 in
theorem ops3_fresh : ∀ op ∈ (ops3 : List (HloOp τ sig (Elt F))), op.fresh = ∅ := by
  intro _ h; (repeat (cases h with | head => rfl | tail _ h => ?_)); exact nomatch h

set_option maxHeartbeats 4000000 in
/-- What window 3 leaves in the buffers later windows read, as the stages of the nine arguments: from any contents `W`
    that hold the arguments and the stages window 3 reads. -/
theorem after3 (W : Valuation τ sig (Elt F)) (x0 : (⟨S1048576x16, .f32⟩ : BufTy).Contents (Elt F)) (x1 : (⟨S64x16, .f32⟩ : BufTy).Contents (Elt F)) (x2 : (⟨S64, .f32⟩ : BufTy).Contents (Elt F)) (x3 : (⟨S32x64, .f32⟩ : BufTy).Contents (Elt F)) (x4 : (⟨S32, .f32⟩ : BufTy).Contents (Elt F)) (x5 : (⟨S32x32, .f32⟩ : BufTy).Contents (Elt F)) (x6 : (⟨S32, .f32⟩ : BufTy).Contents (Elt F)) (x7 : (⟨S5x32, .f32⟩ : BufTy).Contents (Elt F)) (x8 : (⟨S5, .f32⟩ : BufTy).Contents (Elt F))
    (h_v139 : W (Proc.devRef .tc main_v139) = RefRead.val_main_v139 (F := F) x0 x1 x2 x3 x4 x5 x6 x7 x8)
    (h_v102 : W (Proc.devRef .tc main_v102) = RefRead.val_main_v102 (F := F) x0 x1 x2 x3 x4 x5 x6)
    (h_v116 : W (Proc.devRef .tc main_v116) = RefRead.val_main_v116 (F := F) x7) :
    after ops3 W (Proc.devRef .tc main_v158) = RefRead.val_main_v158 (F := F) x0 x1 x2 x3 x4 x5 x6 x7 x8 := by
  after_results_simp; (try simp only [h_v139, h_v102, h_v116]); rfl

set_option maxHeartbeats 4000000 in
/-- Window 3 writes none of the nine arguments. -/
theorem after3_args (W : Valuation τ sig (Elt F)) :
    after ops3 W (Proc.devRef .tc main_arg0) = W (Proc.devRef .tc main_arg0)
      ∧ after ops3 W (Proc.devRef .tc main_arg1) = W (Proc.devRef .tc main_arg1)
      ∧ after ops3 W (Proc.devRef .tc main_arg2) = W (Proc.devRef .tc main_arg2)
      ∧ after ops3 W (Proc.devRef .tc main_arg3) = W (Proc.devRef .tc main_arg3)
      ∧ after ops3 W (Proc.devRef .tc main_arg4) = W (Proc.devRef .tc main_arg4)
      ∧ after ops3 W (Proc.devRef .tc main_arg5) = W (Proc.devRef .tc main_arg5)
      ∧ after ops3 W (Proc.devRef .tc main_arg6) = W (Proc.devRef .tc main_arg6)
      ∧ after ops3 W (Proc.devRef .tc main_arg7) = W (Proc.devRef .tc main_arg7)
      ∧ after ops3 W (Proc.devRef .tc main_arg8) = W (Proc.devRef .tc main_arg8) := by
  refine ⟨?_, ?_, ?_, ?_, ?_, ?_, ?_, ?_, ?_⟩ <;> after_results_simp

end Cert.ReferenceIdeal.RefRun

end
-- ==== Proof.Ref.Run.lean ====
import proofs.«411066_j83983790505988_3_alg».proof.Proof.Ref.Ops0
import proofs.«411066_j83983790505988_3_alg».proof.Proof.Ref.Ops1
import proofs.«411066_j83983790505988_3_alg».proof.Proof.Ref.Ops2
import proofs.«411066_j83983790505988_3_alg».proof.Proof.Ref.Ops3
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := ops0 ++ (ops1 ++ (ops2 ++ ops3))

theorem main_eq (c : Dev nD) : main (F := F) c = seq ops := by
  show main (F := F) c = seq (ops0 ++ (ops1 ++ (ops2 ++ ops3)))
  rw [seq_append, seq_append, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨ops0_sub, List.forall_append.mpr ⟨ops1_sub, List.forall_append.mpr ⟨ops2_sub, ops3_sub⟩⟩⟩

theorem ops_fresh : ∀ op ∈ (ops : List (HloOp τ sig (Elt F))), op.fresh = ∅ := fun op h =>
  (List.mem_append.mp h).elim (ops0_fresh op) fun h => (List.mem_append.mp h).elim (ops1_fresh op) fun h =>
    (List.mem_append.mp h).elim (ops2_fresh op) (ops3_fresh op)

/-- The nine arguments of `W` are those of `V`. -/
def Same (V W : Valuation τ sig (Elt F)) : Prop :=
  W (Proc.devRef .tc main_arg0) = V (Proc.devRef .tc main_arg0)
    ∧ W (Proc.devRef .tc main_arg1) = V (Proc.devRef .tc main_arg1)
    ∧ W (Proc.devRef .tc main_arg2) = V (Proc.devRef .tc main_arg2)
    ∧ W (Proc.devRef .tc main_arg3) = V (Proc.devRef .tc main_arg3)
    ∧ W (Proc.devRef .tc main_arg4) = V (Proc.devRef .tc main_arg4)
    ∧ W (Proc.devRef .tc main_arg5) = V (Proc.devRef .tc main_arg5)
    ∧ W (Proc.devRef .tc main_arg6) = V (Proc.devRef .tc main_arg6)
    ∧ W (Proc.devRef .tc main_arg7) = V (Proc.devRef .tc main_arg7)
    ∧ W (Proc.devRef .tc main_arg8) = V (Proc.devRef .tc main_arg8)

theorem Same.trans {V W X : Valuation τ sig (Elt F)} (h : Same V W) (h' : Same W X) : Same V X :=
  ⟨h'.1.trans h.1, h'.2.1.trans h.2.1, h'.2.2.1.trans h.2.2.1, h'.2.2.2.1.trans h.2.2.2.1, h'.2.2.2.2.1.trans h.2.2.2.2.1,
    h'.2.2.2.2.2.1.trans h.2.2.2.2.2.1, h'.2.2.2.2.2.2.1.trans h.2.2.2.2.2.2.1, h'.2.2.2.2.2.2.2.1.trans h.2.2.2.2.2.2.2.1,
    h'.2.2.2.2.2.2.2.2.trans h.2.2.2.2.2.2.2.2⟩

theorem after_ops (V : Valuation τ sig (Elt F)) :
    after ops V (Proc.devRef .tc main_v158) = RefRead.val_main_v158 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))
      ∧ Same V (after ops V) := by
  have e : after (ops : List (HloOp τ sig (Elt F))) V = after ops3 (after ops2 (after ops1 (after ops0 V))) := by
    show after (ops0 ++ (ops1 ++ (ops2 ++ ops3))) V = _
    rw [StableHlo.after_append, StableHlo.after_append, StableHlo.after_append]
  rw [e]
  have a : Same V (after ops0 V) := after0_args V
  obtain ⟨s_v44, s_cst_13, s_v32, s_v43⟩ := after0 (F := F) V _ _ _ _ rfl rfl rfl rfl
  generalize after ops0 V = W0 at *
  have b := a.trans (after1_args W0)
  obtain ⟨s_v85, s_v91, s_v89, s_v86, s_v67, s_v81⟩ := after1 (F := F) W0 _ _ _ _ _ _ _ a.2.2.2.1 a.2.2.2.2.1 a.2.2.2.2.2.1 a.2.2.2.2.2.2.1 s_v44 s_cst_13 s_v32 s_v43
  generalize after ops1 W0 = W1 at *
  have c := b.trans (after2_args W1)
  obtain ⟨s_v139, s_v102, s_v116⟩ := after2 (F := F) W1 _ _ _ _ _ _ _ _ _ b.2.2.2.2.2.2.2.1 b.2.2.2.2.2.2.2.2 s_v85 s_v91 s_v89 s_v86 s_v67 s_v81
  generalize after ops2 W1 = W2 at *
  exact ⟨after3 (F := F) W2 _ _ _ _ _ _ _ _ _ s_v139 s_v102 s_v116, c.trans (after3_args W2)⟩

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v158) = RefRead.val_main_v158 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => by
      obtain ⟨e, e0, e1, e2, e3, e4, e5, e6, e7, e8⟩ := after_ops (F := F) (launchContents m c)
      exact ⟨(h c main_v158).trans e, (h c main_arg0).trans e0, (h c main_arg1).trans e1, (h c main_arg2).trans e2, (h c main_arg3).trans e3, (h c main_arg4).trans e4, (h c main_arg5).trans e5, (h c main_arg6).trans e6, (h c main_arg7).trans e7, (h c main_arg8).trans e8⟩)
    (run_seq scopedRefs_eq scopedSems_eq defs main (fun _ => ops) main_eq (fun _ => ops_sub) m ρ (fun _ => ops_fresh))

end Cert.ReferenceIdeal.RefRun

end
-- ==== Proof.RefValue.lean ====
import proofs.«411066_j83983790505988_3_alg».proof.Proof.Ref.Read
import proofs.«411066_j83983790505988_3_alg».proof.Proof.Consts
import Idealize.ShloMosaic.Lib.IdealHost
import Idealize.ShloMosaic.Lib.ValueLayout
import Idealize.ShloMosaic.Lib.KernelVsHost
import Mathlib.Data.Fintype.Lattice

noncomputable section

namespace Cert.ReferenceIdeal.RefValue

open Cert.ReferenceIdeal Cert.ReferenceIdeal.Gen Cert.ReferenceIdeal.RefRead Idealize.ShloMosaic Idealize.ShloMosaic.ValueIdx
open Idealize.ShloMosaic.StableHlo Cert.Spec

theorem reduce_max_all {s t u : Shape} {axes : List (Fin s.rank)} (h : s.ReducesTo axes t) (ht : ∀ b, t.size b = 1)
    (x : s.Idx → EReal) (init : u.Idx → EReal) (hu : 0 < u.numel) (hinit : init (Shape.Idx.first hu) = ⊥) (j : t.Idx) :
    Host.reduce (FloatOps.maximumf (F := Ideal) (φ := .f32)) x init h hu j = ⨆ i, x i := by
  rw [Host.reduce_eq_fold, hinit, Finset.filter_true_of_mem fun i _ => funext fun b => Fin.ext (by
    have := (h.drop i b).isLt; have := (j b).isLt; have := ht b; omega)]
  exact Finset.sup_univ_eq_iSup x

theorem reduce_max_single {s t u : Shape} {a : Fin s.rank} (h' : s.ReducesTo [a] t) (h : s.Reduces [a] t)
    (x : s.Idx → EReal) (init : u.Idx → EReal) (hu : 0 < u.numel) (hinit : init (Shape.Idx.first hu) = ⊥) (j : t.Idx) :
    Host.reduce (FloatOps.maximumf (F := Ideal) (φ := .f32)) x init h' hu j = ⨆ k : Fin (s.size a), x (h.lift j k) := by
  rw [Host.reduce_eq_fold_single _ x init h' h hu, hinit]
  exact Finset.sup_univ_eq_iSup (x ∘ h.lift j)

section General
variable {s : Shape} (bc : S_.BroadcastsInDim s ![])

/-- A scalar repeated over a shape. -/
abbrev spread (a : S_.Idx → EReal) : s.Idx → EReal := broadcastInDim (s := S_) s ![] bc a

/-- A clip whose two bounds are scalar constants. -/
abbrev clipC (lo hi : BitVec 32) (y : s.Idx → EReal) : s.Idx → EReal :=
  minimumf (F := Ideal) (φ := .f32) (spread bc (id (constant (F := Ideal) S_ .f32 hi))) (maximumf (spread bc (id (constant (F := Ideal) S_ .f32 lo))) y)

/-- The scale of a tensor: the maximum of its absolute values from −∞ over every axis, over a constant. -/
theorem scale_eq {axes : List (Fin s.rank)} (h : s.ReducesTo axes S_) (x : s.Idx → EReal)
    {b : BitVec 32} {k : EReal} (hk : Ideal.ofBits .f32 b = k) (j : S_.Idx) :
    Host.divf (F := Ideal) (Host.reduce FloatOps.maximumf (Host.absf x) (constant S_ .f32 0xFF800000#32) h h_S_) (constant S_ .f32 b) j
      = Ideal.div (amax x) k := by
  show Ideal.div (Host.reduce _ _ _ h h_S_ j) (Ideal.ofBits .f32 b) = _
  rw [reduce_max_all h (fun c => c.elim0) _ _ h_S_ Consts.ofBits_ninf, hk]; rfl

theorem clip_apply (y : s.Idx → EReal) {lo hi : BitVec 32} {l h : EReal}
    (hl : Ideal.ofBits .f32 lo = l) (hh : Ideal.ofBits .f32 hi = h) (i : s.Idx) : clipC bc lo hi y i = clipE l h (y i) :=
  congrArg₂ (fun a b => min a (max b (y i))) ((broadcastInDim_scalar_apply bc _ i).trans hh) ((broadcastInDim_scalar_apply bc _ i).trans hl)

/-- A tensor over a repeated scalar, rounded. -/
theorem rdiv_apply (x : s.Idx → EReal) (a : S_.Idx → EReal) (i : s.Idx) :
    Host.roundeven (F := Ideal) (φ := .f32) (Host.divf x (spread bc a)) i = rnd (Ideal.div (x i) (a ix0)) :=
  congrArg (fun v => rnd (Ideal.div (x i) v)) (broadcastInDim_scalar_apply bc a i)

/-- Quantise at scale `a`, then `· a / a`. -/
theorem quant_apply (x : s.Idx → EReal) (a : S_.Idx → EReal) (i : s.Idx) :
    Host.divf (F := Ideal) (φ := .f32) (mulf (clipC bc 0xC7000000#32 0x46FFFE00#32 (Host.roundeven (F := Ideal) (φ := .f32) (Host.divf x (spread bc a)))) (spread bc a)) (spread bc a) i
      = Ideal.div (clipE nAlo nA (rnd (Ideal.div (x i) (a ix0))) * a ix0) (a ix0) :=
  congrArg₂ (fun u v => Ideal.div (u * v) v) ((clip_apply bc _ Consts.ofBits_nAlo Consts.ofBits_nA i).trans
    (congrArg (clipE nAlo nA) (rdiv_apply bc x a i))) (broadcastInDim_scalar_apply bc a i)

/-- Requantise an integer multiple of `p` to scale `a`. -/
theorem rq_apply (h : s.Idx → EReal) (p a : S_.Idx → EReal) (i : s.Idx) :
    clipC bc 0xC7000000#32 0x46FFFE00#32 (Host.roundeven (F := Ideal) (φ := .f32) (mulf (Host.roundeven (Host.divf h (spread bc p))) (spread bc (Host.divf (F := Ideal) (φ := .f32) p a)))) i
      = clipE nAlo nA (rnd (rnd (Ideal.div (h i) (p ix0)) * Ideal.div (p ix0) (a ix0))) :=
  (clip_apply bc _ Consts.ofBits_nAlo Consts.ofBits_nA i).trans (congrArg (fun u => clipE nAlo nA (rnd u))
    (congrArg₂ (· * ·) (rdiv_apply bc h p i) (broadcastInDim_scalar_apply bc _ i)))

theorem requant_apply (h : s.Idx → EReal) (p a : S_.Idx → EReal) (i : s.Idx) :
    Host.divf (F := Ideal) (φ := .f32) (mulf (clipC bc 0xC7000000#32 0x46FFFE00#32 (Host.roundeven (F := Ideal) (φ := .f32)
      (mulf (Host.roundeven (Host.divf h (spread bc p))) (spread bc (Host.divf (F := Ideal) (φ := .f32) p a))))) (spread bc a)) (spread bc a) i
      = Ideal.div (clipE nAlo nA (rnd (rnd (Ideal.div (h i) (p ix0)) * Ideal.div (p ix0) (a ix0))) * a ix0) (a ix0) :=
  congrArg₂ (fun u v => Ideal.div (u * v) v) (rq_apply bc h p a i) (broadcastInDim_scalar_apply bc a i)

end General

theorem idx2_eq {n m : ℕ} (f : (⟨2, ![n, m]⟩ : Shape).Idx) (a : Fin n) (b : Fin m) (h0 : f 0 = a) (h1 : f 1 = b) : f = ix2 a b :=
  h0 ▸ h1 ▸ eq_ix2 f

theorem idx1_eq {n : ℕ} (f : (⟨1, ![n]⟩ : Shape).Idx) (a : Fin n) (h : f 0 = a) : f = ix1 a := h ▸ eq_ix1 f

theorem ext2 {n m : ℕ} {f g : Mat n m} (h : ∀ i j, f (ix2 i j) = g (ix2 i j)) : f = g :=
  funext fun y => by rw [eq_ix2 y]; exact h _ _

/-- A quantised weight matrix, transposed. -/
theorem wq_apply {n m : ℕ} (bc : S_.BroadcastsInDim ⟨2, ![n, m]⟩ ![]) (tr : (⟨2, ![n, m]⟩ : Shape).Transposes [1, 0] ⟨2, ![m, n]⟩)
    (W : Mat n m) (a : S_.Idx → EReal) (k : Fin m) (j : Fin n) :
    transpose ⟨2, ![m, n]⟩ [1, 0] (clipC bc 0xC3000000#32 0x42FE0000#32 (Host.roundeven (F := Ideal) (φ := .f32) (Host.divf W (spread bc a)))) tr (ix2 k j)
      = clipE nWlo nW (rnd (Ideal.div (W (ix2 j k)) (a ix0))) :=
  (transpose_ix2_apply _ tr k j).trans ((clip_apply bc _ Consts.ofBits_nWlo Consts.ofBits_nW _).trans (congrArg (clipE nWlo nW) (rdiv_apply bc W a _)))

/-- A vector laid out as one row and repeated down the rows. -/
theorem row_apply {Bn N : ℕ} (bc1 : (⟨1, ![N]⟩ : Shape).BroadcastsInDim ⟨2, ![1, N]⟩ ![1])
    (bc2 : (⟨2, ![1, N]⟩ : Shape).BroadcastsInDim ⟨2, ![Bn, N]⟩ ![0, 1]) (b : Vc N) (i : Fin Bn) (j : Fin N) :
    broadcastInDim (s := ⟨2, ![1, N]⟩) ⟨2, ![Bn, N]⟩ ![0, 1] bc2 (broadcastInDim (s := ⟨1, ![N]⟩) ⟨2, ![1, N]⟩ ![1] bc1 b) (ix2 i j) = b (ix1 j) := by
  rw [broadcastInDim_oneRow_apply, broadcastInDim_apply ![1] bc1 b (ix2 0 j) (ix1 j) (fun a => by
    match a with
    | ⟨0, _⟩ =>
      show j.val = if N = 1 then 0 else j.val
      by_cases h : N = 1
      · rw [if_pos h]; have := j.isLt; omega
      · rw [if_neg h])]

/-- The integer layer: the matrix product plus the bias row, times the broadcast scale. -/
theorem lin_apply {Bn K N : ℕ} (bc : S_.BroadcastsInDim ⟨2, ![Bn, N]⟩ ![]) (bc1 : (⟨1, ![N]⟩ : Shape).BroadcastsInDim ⟨2, ![1, N]⟩ ![1])
    (bc2 : (⟨2, ![1, N]⟩ : Shape).BroadcastsInDim ⟨2, ![Bn, N]⟩ ![0, 1]) (D : Mat Bn N) (L : Mat Bn K) (R : Mat K N)
    (li : (⟨2, ![Bn, N]⟩ : Shape).Idx → Fin K → (⟨2, ![Bn, K]⟩ : Shape).Idx) (ri : (⟨2, ![Bn, N]⟩ : Shape).Idx → Fin K → (⟨2, ![K, N]⟩ : Shape).Idx)
    (hD : ∀ y, D y = ∑ k, L (li y k) * R (ri y k)) (i : Fin Bn) (j : Fin N) (hl : ∀ k, li (ix2 i j) k = ix2 i k) (hr : ∀ k, ri (ix2 i j) k = ix2 k j)
    (b : Vc N) (c : S_.Idx → EReal) :
    mulf (F := Ideal) (φ := .f32) (addf D (broadcastInDim (s := ⟨2, ![1, N]⟩) ⟨2, ![Bn, N]⟩ ![0, 1] bc2 (broadcastInDim (s := ⟨1, ![N]⟩) ⟨2, ![1, N]⟩ ![1] bc1 b)))
      (spread bc c) (ix2 i j) = ((∑ k, L (ix2 i k) * R (ix2 k j)) + b (ix1 j)) * c ix0 :=
  congrArg₂ (· * ·) (congrArg₂ (· + ·) ((hD _).trans (by simp only [hl, hr])) (row_apply bc1 bc2 b i j)) (broadcastInDim_scalar_apply bc c _)

abbrev T0 : Type := (⟨S1048576x16, .f32⟩ : BufTy).Contents (Elt Ideal)
abbrev T1 : Type := (⟨S64x16, .f32⟩ : BufTy).Contents (Elt Ideal)
abbrev T2 : Type := (⟨S64, .f32⟩ : BufTy).Contents (Elt Ideal)
abbrev T3 : Type := (⟨S32x64, .f32⟩ : BufTy).Contents (Elt Ideal)
abbrev T4 : Type := (⟨S32, .f32⟩ : BufTy).Contents (Elt Ideal)
abbrev T5 : Type := (⟨S32x32, .f32⟩ : BufTy).Contents (Elt Ideal)
abbrev T6 : Type := (⟨S32, .f32⟩ : BufTy).Contents (Elt Ideal)
abbrev T7 : Type := (⟨S5x32, .f32⟩ : BufTy).Contents (Elt Ideal)
abbrev T8 : Type := (⟨S5, .f32⟩ : BufTy).Contents (Elt Ideal)

variable (x0 : T0) (x1 : T1) (x2 : T2) (x3 : T3) (x4 : T4) (x5 : T5) (x6 : T6) (x7 : T7) (x8 : T8)

theorem v2_eq (i : S_.Idx) : val_main_v2 (F := Ideal) x0 i = rA0 x0 :=
  scale_eq reducesTo_S1048576x16_S_d0_1 x0 Consts.ofBits_nA i
theorem v11_eq (i : S_.Idx) : val_main_v11 (F := Ideal) x1 i = wsf x1 :=
  scale_eq reducesTo_S64x16_S_d0_1 x1 Consts.ofBits_nW i
theorem v16_eq (i : S_.Idx) : val_main_v16 (F := Ideal) x0 x1 i = rBs1 x0 x1 :=
  congrArg₂ (· * ·) (v11_eq x1 i) (v2_eq x0 i)
theorem v21_eq (i : Fin 1048576) (k : Fin 16) :
    val_main_v21 (F := Ideal) x0 (ix2 i k) = roundTrip (qfresh x0 (rA0 x0)) (rA0 x0) i k :=
  (quant_apply bcast_S_S1048576x16 x0 (val_main_v2 x0) _).trans (by rw [v2_eq]; rfl)
theorem v22_eq (k : Fin 16) (j : Fin 64) : val_main_v22 (F := Ideal) x1 (ix2 k j) = wT x1 (ix2 k j) :=
  (wq_apply bcast_S_S64x16 transposes_S64x16_S16x64_1_0 x1 (val_main_v11 x1) k j).trans (by rw [v11_eq]; rfl)
theorem v19_eq (j : Fin 64) : val_main_v19 (F := Ideal) x0 x1 x2 (ix1 j) = rnd (Ideal.div (x2 (ix1 j)) (rBs1 x0 x1)) :=
  (rdiv_apply bcast_S_S64 x2 (val_main_v16 x0 x1) _).trans (by rw [v16_eq])
theorem v29_eq : val_main_v29 (F := Ideal) x0 x1 x2 = rH1 x0 x1 x2 := ext2 fun i j => by
  refine (clip_apply bcast_S_S1048576x64 _ Consts.ofBits_zero Consts.ofBits_six _).trans (congrArg relu6
    ((lin_apply _ _ _ _ _ _ _ _ (val_main_v23_apply x0 x1) i j (fun _ => idx2_eq _ _ _ rfl rfl) (fun _ => idx2_eq _ _ _ rfl rfl) _ _).trans ?_))
  simp only [v21_eq, v22_eq, v19_eq, v16_eq]; rfl

theorem v32_eq (i : S_.Idx) : val_main_v32 (F := Ideal) x0 x1 x2 i = rA1 x0 x1 x2 :=
  (scale_eq reducesTo_S1048576x64_S_d0_1 _ Consts.ofBits_nA i).trans (by rw [v29_eq]; rfl)
theorem v33_eq (i : S_.Idx) : val_main_v33 (F := Ideal) x0 x1 i = rPre1 x0 x1 :=
  congrArg₂ (· * ·) (v2_eq x0 i) (v11_eq x1 i)
theorem v46_eq (i : S_.Idx) : val_main_v46 (F := Ideal) x3 i = wsf x3 :=
  scale_eq reducesTo_S32x64_S_d0_1 x3 Consts.ofBits_nW i
theorem v51_eq (i : S_.Idx) : val_main_v51 (F := Ideal) x0 x1 x2 x3 i = rBs2 x0 x1 x2 x3 :=
  congrArg₂ (· * ·) (v46_eq x3 i) (v32_eq x0 x1 x2 i)
theorem v56_eq (i : Fin 1048576) (k : Fin 64) : val_main_v56 (F := Ideal) x0 x1 x2 (ix2 i k)
    = roundTrip (requant (rH1 x0 x1 x2) (rPre1 x0 x1) (rA1 x0 x1 x2)) (rA1 x0 x1 x2) i k :=
  (requant_apply bcast_S_S1048576x64 _ (val_main_v33 x0 x1) (val_main_v32 x0 x1 x2) _).trans (by rw [v29_eq, v33_eq, v32_eq]; rfl)
theorem v57_eq (k : Fin 64) (j : Fin 32) : val_main_v57 (F := Ideal) x3 (ix2 k j) = wT x3 (ix2 k j) :=
  (wq_apply bcast_S_S32x64 transposes_S32x64_S64x32_1_0 x3 (val_main_v46 x3) k j).trans (by rw [v46_eq]; rfl)
theorem v54_eq (j : Fin 32) : val_main_v54 (F := Ideal) x0 x1 x2 x3 x4 (ix1 j) = rnd (Ideal.div (x4 (ix1 j)) (rBs2 x0 x1 x2 x3)) :=
  (rdiv_apply bcast_S_S32 x4 (val_main_v51 x0 x1 x2 x3) _).trans (by rw [v51_eq])
theorem v64_eq : val_main_v64 (F := Ideal) x0 x1 x2 x3 x4 = rH2 x0 x1 x2 x3 x4 := ext2 fun i j => by
  refine (clip_apply bcast_S_S1048576x32 _ Consts.ofBits_zero Consts.ofBits_six _).trans (congrArg relu6
    ((lin_apply _ _ _ _ _ _ _ _ (val_main_v58_apply x0 x1 x2 x3) i j (fun _ => idx2_eq _ _ _ rfl rfl) (fun _ => idx2_eq _ _ _ rfl rfl) _ _).trans ?_))
  simp only [v56_eq, v57_eq, v54_eq, v51_eq]; rfl

theorem v67_eq (i : S_.Idx) : val_main_v67 (F := Ideal) x0 x1 x2 x3 x4 i = rA2 x0 x1 x2 x3 x4 :=
  (scale_eq reducesTo_S1048576x32_S_d0_1 _ Consts.ofBits_nA i).trans (by rw [v64_eq]; rfl)
theorem v68_eq (i : S_.Idx) : val_main_v68 (F := Ideal) x0 x1 x2 x3 i = rPre2 x0 x1 x2 x3 :=
  congrArg₂ (· * ·) (v32_eq x0 x1 x2 i) (v46_eq x3 i)
theorem v81_eq (i : S_.Idx) : val_main_v81 (F := Ideal) x5 i = wsf x5 :=
  scale_eq reducesTo_S32x32_S_d0_1 x5 Consts.ofBits_nW i
theorem v86_eq (i : S_.Idx) : val_main_v86 (F := Ideal) x0 x1 x2 x3 x4 x5 i = rBs3 x0 x1 x2 x3 x4 x5 :=
  congrArg₂ (· * ·) (v81_eq x5 i) (v67_eq x0 x1 x2 x3 x4 i)
theorem v91_eq (i : Fin 1048576) (k : Fin 32) : val_main_v91 (F := Ideal) x0 x1 x2 x3 x4 (ix2 i k)
    = roundTrip (requant (rH2 x0 x1 x2 x3 x4) (rPre2 x0 x1 x2 x3) (rA2 x0 x1 x2 x3 x4)) (rA2 x0 x1 x2 x3 x4) i k :=
  (requant_apply bcast_S_S1048576x32 _ (val_main_v68 x0 x1 x2 x3) (val_main_v67 x0 x1 x2 x3 x4) _).trans (by rw [v64_eq, v68_eq, v67_eq]; rfl)
theorem v92_eq (k : Fin 32) (j : Fin 32) : val_main_v92 (F := Ideal) x5 (ix2 k j) = wT x5 (ix2 k j) :=
  (wq_apply bcast_S_S32x32 transposes_S32x32_S32x32_1_0 x5 (val_main_v81 x5) k j).trans (by rw [v81_eq]; rfl)
theorem v89_eq (j : Fin 32) : val_main_v89 (F := Ideal) x0 x1 x2 x3 x4 x5 x6 (ix1 j) = rnd (Ideal.div (x6 (ix1 j)) (rBs3 x0 x1 x2 x3 x4 x5)) :=
  (rdiv_apply bcast_S_S32 x6 (val_main_v86 x0 x1 x2 x3 x4 x5) _).trans (by rw [v86_eq])
theorem v99_eq : val_main_v99 (F := Ideal) x0 x1 x2 x3 x4 x5 x6 = rH3 x0 x1 x2 x3 x4 x5 x6 := ext2 fun i j => by
  refine (clip_apply bcast_S_S1048576x32 _ Consts.ofBits_zero Consts.ofBits_six _).trans (congrArg relu6
    ((lin_apply _ _ _ _ _ _ _ _ (val_main_v93_apply x0 x1 x2 x3 x4 x5) i j (fun _ => idx2_eq _ _ _ rfl rfl) (fun _ => idx2_eq _ _ _ rfl rfl) _ _).trans ?_))
  simp only [v91_eq, v92_eq, v89_eq, v86_eq]; rfl

theorem v102_eq (i : S_.Idx) : val_main_v102 (F := Ideal) x0 x1 x2 x3 x4 x5 x6 i = rA3 x0 x1 x2 x3 x4 x5 x6 :=
  (scale_eq reducesTo_S1048576x32_S_d0_1 _ Consts.ofBits_nA i).trans (by rw [v99_eq]; rfl)
theorem v103_eq (i : S_.Idx) : val_main_v103 (F := Ideal) x0 x1 x2 x3 x4 x5 i = rPre3 x0 x1 x2 x3 x4 x5 :=
  congrArg₂ (· * ·) (v67_eq x0 x1 x2 x3 x4 i) (v81_eq x5 i)
theorem v116_eq (i : S_.Idx) : val_main_v116 (F := Ideal) x7 i = wsf x7 :=
  scale_eq reducesTo_S5x32_S_d0_1 x7 Consts.ofBits_nW i
theorem v121_eq (i : S_.Idx) : val_main_v121 (F := Ideal) x0 x1 x2 x3 x4 x5 x6 x7 i = rBs4 x0 x1 x2 x3 x4 x5 x6 x7 :=
  congrArg₂ (· * ·) (v116_eq x7 i) (v102_eq x0 x1 x2 x3 x4 x5 x6 i)
theorem v126_eq (i : Fin 1048576) (k : Fin 32) : val_main_v126 (F := Ideal) x0 x1 x2 x3 x4 x5 x6 (ix2 i k)
    = roundTrip (requant (rH3 x0 x1 x2 x3 x4 x5 x6) (rPre3 x0 x1 x2 x3 x4 x5) (rA3 x0 x1 x2 x3 x4 x5 x6)) (rA3 x0 x1 x2 x3 x4 x5 x6) i k :=
  (requant_apply bcast_S_S1048576x32 _ (val_main_v103 x0 x1 x2 x3 x4 x5) (val_main_v102 x0 x1 x2 x3 x4 x5 x6) _).trans (by rw [v99_eq, v103_eq, v102_eq]; rfl)
theorem v127_eq (k : Fin 32) (j : Fin 5) : val_main_v127 (F := Ideal) x7 (ix2 k j) = wT x7 (ix2 k j) :=
  (wq_apply bcast_S_S5x32 transposes_S5x32_S32x5_1_0 x7 (val_main_v116 x7) k j).trans (by rw [v116_eq]; rfl)
theorem v124_eq (j : Fin 5) : val_main_v124 (F := Ideal) x0 x1 x2 x3 x4 x5 x6 x7 x8 (ix1 j) = rnd (Ideal.div (x8 (ix1 j)) (rBs4 x0 x1 x2 x3 x4 x5 x6 x7)) :=
  (rdiv_apply bcast_S_S5 x8 (val_main_v121 x0 x1 x2 x3 x4 x5 x6 x7) _).trans (by rw [v121_eq])
theorem v133_eq : val_main_v133 (F := Ideal) x0 x1 x2 x3 x4 x5 x6 x7 x8 = rLogits x0 x1 x2 x3 x4 x5 x6 x7 x8 := ext2 fun i j => by
  refine (lin_apply _ _ _ _ _ _ _ _ (val_main_v128_apply x0 x1 x2 x3 x4 x5 x6 x7) i j (fun _ => idx2_eq _ _ _ rfl rfl) (fun _ => idx2_eq _ _ _ rfl rfl) _ _).trans ?_
  simp only [v126_eq, v127_eq, v124_eq, v121_eq]; rfl

theorem lift_col (h : S1048576x5.Reduces [0] S5) (j : Fin 5) (k : Fin (S1048576x5.size 0)) :
    h.lift (ix1 j) k = ix2 (⟨k.val, k.isLt⟩ : Fin 1048576) j := by
  funext c; apply Fin.ext
  fin_cases c <;> rfl

theorem colmax_eq (L : Mat B 5) (j : Fin 5) :
    (⨆ k : Fin (S1048576x5.size 0), L (ix2 (⟨k.val, k.isLt⟩ : Fin 1048576) j)) = colmax L (ix2 0 j) := rfl

theorem v136_eq (j : Fin 5) : val_main_v136 (F := Ideal) x0 x1 x2 x3 x4 x5 x6 x7 x8 (ix1 j) = colmax (rLogits x0 x1 x2 x3 x4 x5 x6 x7 x8) (ix2 0 j) := by
  rw [val_main_v136_apply, val_main_v135_apply, val_main_cst_38_apply]
  unfold val_main_v134
  rw [reduce_max_single reducesTo_S1048576x5_S5_d0 (by decide) _ _ h_S_ Consts.ofBits_ninf, v133_eq]
  simp only [lift_col, Ideal.maximumf_def, Ideal.ofBits_def, Consts.ofBits_ninf]
  rw [max_bot_left]
  exact colmax_eq _ j

theorem v140_eq : val_main_v140 (F := Ideal) x0 x1 x2 x3 x4 x5 x6 x7 x8 = rExp x0 x1 x2 x3 x4 x5 x6 x7 x8 := ext2 fun i j =>
  (congrArg (fun u => Ideal.exp (val_main_v133 x0 x1 x2 x3 x4 x5 x6 x7 x8 (ix2 i j) - u))
    ((row_apply bcast_S5_S1x5_1 bcast_S1x5_S1048576x5_0_1 _ i j).trans (v136_eq x0 x1 x2 x3 x4 x5 x6 x7 x8 j))).trans (by rw [v133_eq]; rfl)

theorem colsum_apply (E : Mat B 5) (j : Fin 5) : colsum E (ix2 0 j) = ∑ i : Fin 1048576, E (ix2 i j) := rfl

theorem v141_eq (j : Fin 5) : val_main_v141 (F := Ideal) x0 x1 x2 x3 x4 x5 x6 x7 x8 (ix1 j) = colsum (rExp x0 x1 x2 x3 x4 x5 x6 x7 x8) (ix2 0 j) := by
  rw [val_main_v141_apply, val_main_cst_39_apply, Ideal.ofBits_def, Ideal.ofBits_zero_f32, zero_add, v140_eq]
  generalize rExp x0 x1 x2 x3 x4 x5 x6 x7 x8 = E
  rw [colsum_apply]
  exact Finset.sum_congr rfl fun k _ => congrArg E (idx2_eq _ k j rfl rfl)

theorem rSm_apply (i : Fin 1048576) (j : Fin 5) :
    rSm x0 x1 x2 x3 x4 x5 x6 x7 x8 (ix2 i j) = Ideal.div (rExp x0 x1 x2 x3 x4 x5 x6 x7 x8 (ix2 i j)) (colsum (rExp x0 x1 x2 x3 x4 x5 x6 x7 x8) (ix2 0 j)) := by
  unfold rSm; rfl

theorem v144_eq : val_main_v144 (F := Ideal) x0 x1 x2 x3 x4 x5 x6 x7 x8 = rSm x0 x1 x2 x3 x4 x5 x6 x7 x8 := ext2 fun i j => by
  rw [val_main_v144_apply, val_main_v143_apply, val_main_v142_apply, idx1_eq (idx_main_v142 (idx_main_v143 (ix2 i j))) j rfl,
    v141_eq, v140_eq, rSm_apply, Ideal.hostDivf_def]

theorem v147_eq (i : S_.Idx) : val_main_v147 (F := Ideal) x0 x1 x2 x3 x4 x5 x6 x7 x8 i = rAf x0 x1 x2 x3 x4 x5 x6 x7 x8 :=
  (scale_eq reducesTo_S1048576x5_S_d0_1 _ Consts.ofBits_nA i).trans (by rw [v144_eq]; rfl)
theorem v148_eq (i : S_.Idx) : val_main_v148 (F := Ideal) x0 x1 x2 x3 x4 x5 x6 x7 i = rPre4 x0 x1 x2 x3 x4 x5 x6 x7 :=
  congrArg₂ (· * ·) (v102_eq x0 x1 x2 x3 x4 x5 x6 i) (v116_eq x7 i)

theorem v158_eq : val_main_v158 (F := Ideal) x0 x1 x2 x3 x4 x5 x6 x7 x8 = refOut x0 x1 x2 x3 x4 x5 x6 x7 x8 := ext2 fun i j =>
  (congrArg₂ (· * ·) (rq_apply bcast_S_S1048576x5 (val_main_v144 x0 x1 x2 x3 x4 x5 x6 x7 x8) (val_main_v148 x0 x1 x2 x3 x4 x5 x6 x7) (val_main_v147 x0 x1 x2 x3 x4 x5 x6 x7 x8) _)
    (broadcastInDim_scalar_apply bcast_S_S1048576x5 (val_main_v147 x0 x1 x2 x3 x4 x5 x6 x7 x8) _)).trans (by rw [v144_eq, v148_eq, v147_eq]; rfl)

end Cert.ReferenceIdeal.RefValue

end
-- ==== Proof.SpecLaws.lean ====
import proofs.«411066_j83983790505988_3_alg».proof.Proof.Spec
import Mathlib.Data.EReal.Inv
import Mathlib.Order.ConditionallyCompleteLattice.Finset
import Mathlib.Analysis.SpecialFunctions.Exp

noncomputable section

namespace Cert.Spec

open Idealize.ShloMosaic Idealize.ShloMosaic.ValueIdx

def rowEquiv : Fin 2 × Fin 64 × Fin 8192 ≃ Fin B where
  toFun p := rowOf (tileOf p.1 p.2.1) p.2.2
  invFun i := (⟨i.val / 524288, by have : i.val < 1048576 := i.isLt; omega⟩, ⟨i.val / 8192 % 64, by omega⟩, ⟨i.val % 8192, by omega⟩)
  left_inv := by
    rintro ⟨c, j, q⟩
    have := c.isLt; have := j.isLt; have := q.isLt
    refine Prod.ext (Fin.ext ?_) (Prod.ext (Fin.ext ?_) (Fin.ext ?_)) <;> simp only [rowOf, tileOf] <;> omega
  right_inv := by
    intro i
    have hi : i.val < 1048576 := i.isLt
    apply Fin.ext
    simp only [rowOf, tileOf]
    omega

theorem coreOf_mul8 (c : Fin 2) : coreOf ⟨8 * c.val, by have := c.isLt; omega⟩ = c := by
  apply Fin.ext; simp only [coreOf]; omega

theorem iSup_rows (g : Fin B → EReal) :
    (⨆ r : Fin 16, ⨆ j : Fin 64, ⨆ q : Fin 8192, g (rowOf (tileOf (coreOf r) j) q)) = ⨆ i, g i := by
  apply le_antisymm
  · exact iSup_le fun r => iSup_le fun j => iSup_le fun q => le_iSup g _
  · refine iSup_le fun i => ?_
    obtain ⟨⟨c, j, q⟩, rfl⟩ := rowEquiv.surjective i
    refine le_iSup_of_le ⟨8 * c.val, by have := c.isLt; omega⟩ (le_iSup_of_le j (le_iSup_of_le q ?_))
    rw [coreOf_mul8]; exact le_rfl

theorem sum_rows (g : Fin B → EReal) :
    (∑ j : Fin 64, ∑ q : Fin 8192, g (rowOf (tileOf (coreOf 0) j) q)) + (∑ j : Fin 64, ∑ q : Fin 8192, g (rowOf (tileOf (coreOf 8) j) q))
      = ∑ i, g i := by
  rw [← Equiv.sum_comp rowEquiv g, Fintype.sum_prod_type, Fin.sum_univ_two]
  simp only [Fintype.sum_prod_type]
  rfl

theorem satMax_satArr {D : ℕ} (h : Mat B D) : satMax (satArr h) = amax h := by
  show (⨆ r : Fin 16, ⨆ j : Fin 64, ⨆ q : Fin 8192, ⨆ k : Fin D, absE (h (ix2 (rowOf (tileOf (coreOf r) j) q) k))) = ⨆ y, absE (h y)
  rw [iSup_rows (fun i => ⨆ k : Fin D, absE (h (ix2 i k)))]
  apply le_antisymm
  · exact iSup_le fun i => iSup_le fun k => le_iSup (fun y => absE (h y)) (ix2 i k)
  · refine iSup_le fun y => ?_
    rw [eq_ix2 y]
    exact le_iSup_of_le (y 0) (le_iSup (fun k : Fin D => absE (h (ix2 (y 0) k))) (y 1))

theorem cmRow_cmArr (l : Mat B 5) : cmRow (cmArr l) = colmax l := by
  funext y
  show (⨆ r : Fin 16, ⨆ j : Fin 64, ⨆ q : Fin 8192, l (ix2 (rowOf (tileOf (coreOf r) j) q) (y 1))) = ⨆ i : Fin B, l (ix2 i (y 1))
  exact iSup_rows (fun i => l (ix2 i (y 1)))

theorem csRow_csArr (e : Mat B 5) : csRow (csArr e) = colsum e := by
  funext y
  show (∑ j : Fin 64, ∑ q : Fin 8192, e (ix2 (rowOf (tileOf (coreOf 0) j) q) (y 1)))
      + (∑ j : Fin 64, ∑ q : Fin 8192, e (ix2 (rowOf (tileOf (coreOf 8) j) q) (y 1))) = ∑ i : Fin B, e (ix2 i (y 1))
  exact sum_rows (fun i => e (ix2 i (y 1)))

def IsR (x : EReal) : Prop := ∃ r : ℝ, x = (r : EReal)

theorem IsR.coe (r : ℝ) : IsR (r : EReal) := ⟨r, rfl⟩
theorem IsR.add {a b : EReal} (ha : IsR a) (hb : IsR b) : IsR (a + b) := by
  obtain ⟨x, rfl⟩ := ha; obtain ⟨y, rfl⟩ := hb; exact ⟨x + y, (EReal.coe_add x y).symm⟩
theorem IsR.mul {a b : EReal} (ha : IsR a) (hb : IsR b) : IsR (a * b) := by
  obtain ⟨x, rfl⟩ := ha; obtain ⟨y, rfl⟩ := hb; exact ⟨x * y, (EReal.coe_mul x y).symm⟩
theorem IsR.zero : IsR 0 := ⟨0, rfl⟩
theorem IsR.sum {ι : Type*} (s : Finset ι) (f : ι → EReal) (h : ∀ i, IsR (f i)) : IsR (∑ i ∈ s, f i) :=
  Finset.sum_induction f IsR (fun _ _ => IsR.add) IsR.zero (fun i _ => h i)

theorem IsR.of_bounds {x : EReal} {a b : ℝ} (h1 : (a : EReal) ≤ x) (h2 : x ≤ (b : EReal)) : IsR x :=
  ⟨x.toReal, (EReal.coe_toReal (ne_top_of_le_ne_top (EReal.coe_ne_top b) h2) (ne_bot_of_le_ne_bot (EReal.coe_ne_bot a) h1)).symm⟩

theorem IsR.clipE {lo hi : ℝ} (h : lo ≤ hi) (x : EReal) : IsR (clipE (lo : EReal) (hi : EReal) x) :=
  IsR.of_bounds (a := lo) (b := hi) (le_min (EReal.coe_le_coe_iff.2 h) (le_max_left _ _)) (min_le_left _ _)

theorem isR_qfresh (x : Mat B 16) (a : EReal) (i : Fin B) (k : Fin 16) : IsR (qfresh x a i k) :=
  IsR.clipE (by norm_num) _
theorem isR_requant {D : ℕ} (h : Mat B D) (pre a : EReal) (i : Fin B) (k : Fin D) : IsR (requant h pre a i k) :=
  IsR.clipE (by norm_num) _
theorem isR_wT {n m : ℕ} (W : Mat n m) (k : Fin m) (j : Fin n) : IsR (wT W (ix2 k j)) :=
  IsR.clipE (lo := -128) (hi := 127) (by norm_num) _
theorem isR_relu6 (x : EReal) : IsR (relu6 x) := IsR.clipE (lo := 0) (hi := 6) (by norm_num) _

theorem div_real (x : ℝ) {y : ℝ} (hy : y ≠ 0) : Ideal.div (x : EReal) (y : EReal) = ((x / y : ℝ) : EReal) := by
  rw [Ideal.div_coe hy, ← EReal.coe_mul, mul_one_div]

theorem IsR.div {a b : EReal} (ha : IsR a) (hb : IsR b) (h0 : b ≠ 0) : IsR (Ideal.div a b) := by
  obtain ⟨x, rfl⟩ := ha; obtain ⟨y, rfl⟩ := hb
  exact ⟨x / y, div_real x (fun h => h0 (by rw [h]; rfl))⟩

theorem IsR.rnd {a : EReal} (ha : IsR a) : IsR (rnd a) := by
  obtain ⟨x, rfl⟩ := ha; exact ⟨_, rfl⟩

theorem IsR.absE {a : EReal} (ha : IsR a) : IsR (absE a) := by
  obtain ⟨x, rfl⟩ := ha
  rcases le_total (x : EReal) (-(x : EReal)) with h | h
  · exact ⟨-x, by rw [Cert.Spec.absE, max_eq_right h]; rfl⟩
  · exact ⟨x, by rw [Cert.Spec.absE, max_eq_left h]⟩

theorem isR_amax {S : Shape} [Nonempty S.Idx] (x : S.Idx → EReal) (hx : ∀ i, IsR (x i)) : IsR (amax x) := by
  obtain ⟨i, hi⟩ := exists_eq_ciSup_of_finite (f := fun i => absE (x i))
  show IsR (⨆ i, absE (x i))
  rw [← hi]; exact (hx i).absE

theorem isR_asf {S : Shape} [Nonempty S.Idx] (x : S.Idx → EReal) (hx : ∀ i, IsR (x i)) : IsR (asf x) :=
  (isR_amax x hx).div (IsR.coe _) (by show ((32767 : ℝ) : EReal) ≠ 0; exact_mod_cast (by norm_num : (32767 : ℝ) ≠ 0))
theorem isR_wsf {n m : ℕ} [Nonempty (⟨2, ![n, m]⟩ : Shape).Idx] (W : Mat n m) (hW : ∀ i, IsR (W i)) : IsR (wsf W) :=
  (isR_amax W hW).div (IsR.coe _) (by show ((127 : ℝ) : EReal) ≠ 0; exact_mod_cast (by norm_num : (127 : ℝ) ≠ 0))

instance nonemptyIdx2 {n m : ℕ} [NeZero n] [NeZero m] : Nonempty (⟨2, ![n, m]⟩ : Shape).Idx := ⟨ix2 0 0⟩

theorem roundTrip_eq {K : ℕ} (n : Fin B → Fin K → EReal) (hn : ∀ i k, IsR (n i k)) {s : EReal} (hs : IsR s) (h0 : s ≠ 0) :
    roundTrip n s = n := by
  funext i k
  obtain ⟨r, hr⟩ := hn i k; obtain ⟨t, rfl⟩ := hs
  have ht : t ≠ 0 := fun h => h0 (by rw [h]; rfl)
  show Ideal.div (n i k * (t : EReal)) (t : EReal) = n i k
  rw [hr, ← EReal.coe_mul, div_real _ ht, mul_div_assoc, div_self ht, mul_one]

theorem lin_roundTrip {K N : ℕ} (n : Fin B → Fin K → EReal) (hn : ∀ i k, IsR (n i k)) {s : EReal} (hs : IsR s) (c : EReal)
    (w : Mat K N) (bias : Mat 1 N) (i : Fin B) (j : Fin N) :
    lin (roundTrip n s) w bias (c * s) i j = lin n w bias (c * s) i j := by
  by_cases h0 : s = 0
  · subst h0; simp only [lin, mul_zero]
  · rw [roundTrip_eq n hn hs h0]

theorem mk_lin_eq {K N : ℕ} (f : EReal → EReal) (n : Fin B → Fin K → EReal) (hn : ∀ i k, IsR (n i k)) {a : EReal} (ha : IsR a) (c : EReal)
    (w : Mat K N) (bias : Mat 1 N) :
    (mk fun i j => f (lin n w bias (c * a) i j)) = mk fun i j => f (lin (roundTrip n a) w bias (c * a) i j) :=
  funext fun y => congrArg f (lin_roundTrip n hn ha c w bias (y 0) (y 1)).symm

theorem kA_eq {D : ℕ} (h : Mat B D) : Ideal.div (satMax (satArr h)) nA = asf h := by
  rw [satMax_satArr]; rfl

theorem isR_lin {K N : ℕ} (v : Fin B → Fin K → EReal) (hv : ∀ i k, IsR (v i k)) (w : Mat K N) (hw : ∀ k j, IsR (w (ix2 k j)))
    (b : Vc N) (hb : ∀ j, IsR (b j)) {bs : EReal} (hbs : IsR bs) (i : Fin B) (j : Fin N) :
    IsR (lin v w (bI b bs) bs i j) := by
  by_cases h0 : bs = 0
  · subst h0; simp only [lin, mul_zero]; exact IsR.zero
  · refine IsR.mul (IsR.add (IsR.sum _ _ fun k => (hv i k).mul (hw k j)) ?_) hbs
    show IsR (rnd (Ideal.div (b (ix1 j)) bs))
    exact ((hb _).div hbs h0).rnd

theorem coe_sum {ι : Type*} (s : Finset ι) (f : ι → ℝ) : ∑ i ∈ s, ((f i : ℝ) : EReal) = ((∑ i ∈ s, f i : ℝ) : EReal) := by
  classical
  induction s using Finset.induction_on with
  | empty => rfl
  | insert a s ha ih => rw [Finset.sum_insert ha, Finset.sum_insert ha, ih, EReal.coe_add]

theorem absE_of_nonneg {p : ℝ} (h : 0 ≤ p) : absE (p : EReal) = (p : EReal) := by
  rw [absE, max_eq_left]
  show ((-p : ℝ) : EReal) ≤ (p : EReal)
  exact EReal.coe_le_coe_iff.2 (by linarith)

theorem softmax_amax (l : Mat B 5) (hl : ∀ y, IsR (l y)) (e : Mat B 5) (he : e = pass5 l (colmax l)) :
    (⨆ j : Fin 5, Ideal.div one (colsum e (ix2 0 j)))
      = amax (S := ⟨2, ![B, 5]⟩) (mk fun i j => Ideal.div (e (ix2 i j)) (colsum e (ix2 0 j))) := by
  choose lr hlr using hl
  have hmax : ∀ j : Fin 5, ∃ i₀ : Fin B, ∀ i, lr (ix2 i j) ≤ lr (ix2 i₀ j) := fun j =>
    Finite.exists_max (fun i : Fin B => lr (ix2 i j))
  choose i₀ hi₀ using hmax
  obtain ⟨E, hE⟩ : ∃ E : Fin B → Fin 5 → ℝ, ∀ i j, E i j = Real.exp (lr (ix2 i j) - lr (ix2 (i₀ j) j)) := ⟨_, fun _ _ => rfl⟩
  have hM : ∀ j : Fin 5, (⨆ i : Fin B, l (ix2 i j)) = ((lr (ix2 (i₀ j) j) : ℝ) : EReal) := fun j =>
    le_antisymm (iSup_le fun i => by rw [hlr]; exact EReal.coe_le_coe_iff.2 (hi₀ j i))
      (by rw [← hlr]; exact le_iSup (fun i => l (ix2 i j)) (i₀ j))
  have hexp : ∀ i j, e (ix2 i j) = ((E i j : ℝ) : EReal) := fun i j => by
    rw [he, hE]
    show Ideal.exp (l (ix2 i j) - ⨆ i' : Fin B, l (ix2 i' j)) = _
    rw [hM, hlr, ← EReal.coe_sub, Ideal.exp_coe]
  have hE1 : ∀ j, E (i₀ j) j = 1 := fun j => by rw [hE, sub_self, Real.exp_zero]
  have hEpos : ∀ i j, 0 < E i j := fun i j => by rw [hE]; exact Real.exp_pos _
  have hEle : ∀ i j, E i j ≤ 1 := fun i j => by rw [hE]; exact Real.exp_le_one_iff.2 (sub_nonpos.2 (hi₀ j i))
  have hcs : ∀ j, colsum e (ix2 0 j) = ((∑ i, E i j : ℝ) : EReal) := fun j => by
    show (∑ i : Fin B, e (ix2 i j)) = _
    rw [← coe_sum]
    exact Finset.sum_congr rfl fun i _ => hexp i j
  have hSpos : ∀ j, 0 < ∑ i, E i j := fun j => Finset.sum_pos (fun i _ => hEpos i j) ⟨i₀ j, Finset.mem_univ _⟩
  have hL : ∀ j, Ideal.div one (colsum e (ix2 0 j)) = ((1 / ∑ i, E i j : ℝ) : EReal) := fun j => by
    rw [hcs]; exact div_real 1 (hSpos j).ne'
  have hR : ∀ i j, absE (Ideal.div (e (ix2 i j)) (colsum e (ix2 0 j))) = ((E i j / ∑ i, E i j : ℝ) : EReal) := fun i j => by
    rw [hexp, hcs, div_real _ (hSpos j).ne']
    exact absE_of_nonneg (div_nonneg (hEpos i j).le (hSpos j).le)
  apply le_antisymm
  · refine iSup_le fun j => ?_
    rw [hL]
    refine le_trans ?_ (le_iSup _ (ix2 (i₀ j) j))
    show _ ≤ absE (Ideal.div (e (ix2 (i₀ j) j)) (colsum e (ix2 0 j)))
    rw [hR, hE1]
  · refine iSup_le fun y => ?_
    obtain ⟨a, b, rfl⟩ : ∃ a b, y = ix2 a b := ⟨y 0, y 1, eq_ix2 y⟩
    show absE (Ideal.div (e (ix2 a b)) (colsum e (ix2 0 b))) ≤ _
    rw [hR]
    refine le_iSup_of_le b ?_
    rw [hL]
    exact EReal.coe_le_coe_iff.2 (div_le_div_of_nonneg_right (hEle a b) (hSpos b).le)

theorem kerOut_eq_refOut (x : Mat B 16) (W1 : Mat 64 16) (b1 : Vc 64) (W2 : Mat 32 64) (b2 : Vc 32) (W3 : Mat 32 32) (b3 : Vc 32) (W4 : Mat 5 32) (b4 : Vc 5)
    (hx : ∀ i, ∃ r : ℝ, x i = (r : EReal)) (hW1 : ∀ i, ∃ r : ℝ, W1 i = (r : EReal)) (hb1 : ∀ i, ∃ r : ℝ, b1 i = (r : EReal)) (hW2 : ∀ i, ∃ r : ℝ, W2 i = (r : EReal)) (hb2 : ∀ i, ∃ r : ℝ, b2 i = (r : EReal)) (hW3 : ∀ i, ∃ r : ℝ, W3 i = (r : EReal)) (hb3 : ∀ i, ∃ r : ℝ, b3 i = (r : EReal)) (hW4 : ∀ i, ∃ r : ℝ, W4 i = (r : EReal)) (hb4 : ∀ i, ∃ r : ℝ, b4 i = (r : EReal)) :
    kerOut x W1 b1 W2 b2 W3 b3 W4 b4 = refOut x W1 b1 W2 b2 W3 b3 W4 b4 := by
  have hA0 : kA0 x = rA0 x := kA_eq x
  have rA0R : IsR (rA0 x) := isR_asf x hx
  have hH1 : kH1 x W1 b1 = rH1 x W1 b1 := by
    unfold kH1 rH1 kBs1 rBs1; rw [hA0]; exact mk_lin_eq relu6 _ (isR_qfresh x _) rA0R (wsf W1) (wT W1) _
  have hA1 : kA1 x W1 b1 = rA1 x W1 b1 := by unfold kA1 rA1; rw [hH1]; exact kA_eq _
  have rA1R : IsR (rA1 x W1 b1) := isR_asf _ fun _ => isR_relu6 _
  have hH2 : kH2 x W1 b1 W2 b2 = rH2 x W1 b1 W2 b2 := by
    unfold kH2 rH2 kBs2 rBs2 kBs1 rPre1
    rw [hH1, hA1, hA0, mul_comm (rA0 x) (wsf W1)]
    exact mk_lin_eq relu6 _ (isR_requant _ _ _) rA1R (wsf W2) (wT W2) _
  have hA2 : kA2 x W1 b1 W2 b2 = rA2 x W1 b1 W2 b2 := by unfold kA2 rA2; rw [hH2]; exact kA_eq _
  have rA2R : IsR (rA2 x W1 b1 W2 b2) := isR_asf _ fun _ => isR_relu6 _
  have hH3 : kH3 x W1 b1 W2 b2 W3 b3 = rH3 x W1 b1 W2 b2 W3 b3 := by
    unfold kH3 rH3 kBs3 rBs3 kBs2 rPre2
    rw [hH2, hA2, hA1, mul_comm (rA1 x W1 b1) (wsf W2)]
    exact mk_lin_eq relu6 _ (isR_requant _ _ _) rA2R (wsf W3) (wT W3) _
  have hA3 : kA3 x W1 b1 W2 b2 W3 b3 = rA3 x W1 b1 W2 b2 W3 b3 := by unfold kA3 rA3; rw [hH3]; exact kA_eq _
  have rA3R : IsR (rA3 x W1 b1 W2 b2 W3 b3) := isR_asf _ fun _ => isR_relu6 _
  have hL : kLogits x W1 b1 W2 b2 W3 b3 W4 b4 = rLogits x W1 b1 W2 b2 W3 b3 W4 b4 := by
    unfold kLogits rLogits kBs4 rBs4 kBs3 rPre3
    rw [hH3, hA3, hA2, mul_comm (rA2 x W1 b1 W2 b2) (wsf W3)]
    exact mk_lin_eq id _ (isR_requant _ _ _) rA3R (wsf W4) (wT W4) _
  have hbs4 : IsR (kBs4 x W1 b1 W2 b2 W3 b3 W4) := by
    unfold kBs4; rw [hA3]; exact (isR_wsf W4 hW4).mul rA3R
  have hLR : ∀ y, IsR (rLogits x W1 b1 W2 b2 W3 b3 W4 b4 y) := fun y => by
    rw [← hL]
    exact isR_lin _ (isR_requant _ _ _) (wT W4) (isR_wT W4) b4 hb4 hbs4 (y 0) (y 1)
  have hExp : kExp x W1 b1 W2 b2 W3 b3 W4 b4 = rExp x W1 b1 W2 b2 W3 b3 W4 b4 := by
    unfold kExp rExp; rw [cmRow_cmArr, hL]
  have hCs : kCs x W1 b1 W2 b2 W3 b3 W4 b4 = colsum (rExp x W1 b1 W2 b2 W3 b3 W4 b4) := by
    unfold kCs; rw [csRow_csArr, hExp]
  have hAf : kAf x W1 b1 W2 b2 W3 b3 W4 b4 = rAf x W1 b1 W2 b2 W3 b3 W4 b4 := by
    unfold kAf rAf asf rSm
    rw [hCs, softmax_amax (rLogits x W1 b1 W2 b2 W3 b3 W4 b4) hLR (rExp x W1 b1 W2 b2 W3 b3 W4 b4) rfl]
  unfold kerOut refOut kBs4 rPre4
  rw [hExp, hCs, hAf, hA3, mul_comm (wsf W4) (rA3 x W1 b1 W2 b2 W3 b3)]

end Cert.Spec

end
-- ==== Proof.PreFinite.lean ====
import proofs.«411066_j83983790505988_3_alg».proof.Pre_finite_inputs
import Idealize.ShloMosaic.Lib.ReduceAll
import Idealize.ShloMosaic.Lib.ValueIdx

noncomputable section

namespace Cert.PreFinite

open Idealize.ShloMosaic Cert.Pre_finite_inputs

instance : Subsingleton S_.Idx := ⟨fun a b => funext fun d => d.elim0⟩

theorem ofBits_inf : Ideal.ofBits .f32 0x7F800000#32 = (⊤ : EReal) := by
  simp [Ideal.ofBits, Ideal.ieee]

theorem real_of_abs_lt (x : EReal)
    (e : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  change Ideal.cmp .olt (max x (-x)) (Ideal.ofBits .f32 0x7F800000#32) = 1#1 at e
  rw [ofBits_inf] at e
  unfold Ideal.cmp at e
  induction x using EReal.rec with
  | bot => simp at e
  | coe r => exact ⟨r, rfl⟩
  | top => simp at e

theorem real_of_all {s : Shape} {axes : List (Fin s.rank)} (x : s.Idx → EReal)
    (bc : S_.BroadcastsInDim s (![] : Fin 0 → Fin s.rank)) (hr : s.ReducesTo axes S_) (hu : 0 < S_.numel) (j : S_.Idx)
    (e : Host.reduce IntOp.andi
          (cmpf (F := Ideal) (φ := .f32) .olt (Host.absf (F := Ideal) (φ := .f32) x)
            (broadcastInDim s ![] bc (constant (F := Ideal) S_ .f32 0x7F800000#32)))
          (constantI S_ 1 1#1) hr hu j = 1#1) (i : s.Idx) :
    ∃ r : ℝ, x i = (r : EReal) :=
  real_of_abs_lt (x i) (Host.reduce_andi_all _ _ hr hu j e i)

theorem real_of_fn [hP : Cert.Pre_finite_inputs.Facts]
    (a0 : (⟨2, ![1048576, 16]⟩ : Shape).Idx → EReal) (a1 : (⟨2, ![64, 16]⟩ : Shape).Idx → EReal)
    (a2 : (⟨1, ![64]⟩ : Shape).Idx → EReal) (a3 : (⟨2, ![32, 64]⟩ : Shape).Idx → EReal)
    (a4 : (⟨1, ![32]⟩ : Shape).Idx → EReal) (a5 : (⟨2, ![32, 32]⟩ : Shape).Idx → EReal)
    (a6 : (⟨1, ![32]⟩ : Shape).Idx → EReal) (a7 : (⟨2, ![5, 32]⟩ : Shape).Idx → EReal)
    (a8 : (⟨1, ![5]⟩ : Shape).Idx → EReal)
    (h : Cert.Pre_finite_inputs.fn (F := Ideal) a0 a1 a2 a3 a4 a5 a6 a7 a8 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal)) := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨e0, e1⟩, e2⟩, e3⟩, e4⟩, e5⟩, e6⟩, e7⟩, e8⟩ := e
  exact ⟨real_of_all a0 _ _ _ _ e0, real_of_all a1 _ _ _ _ e1, real_of_all a2 _ _ _ _ e2, real_of_all a3 _ _ _ _ e3,
    real_of_all a4 _ _ _ _ e4, real_of_all a5 _ _ _ _ e5, real_of_all a6 _ _ _ _ e6, real_of_all a7 _ _ _ _ e7,
    real_of_all a8 _ _ _ _ e8⟩

end Cert.PreFinite

end
-- ==== Proof.lean ====
import proofs.«411066_j83983790505988_3_alg».proof.Defs
import proofs.«411066_j83983790505988_3_alg».proof.Proof.Gen.Kernel
import proofs.«411066_j83983790505988_3_alg».proof.Proof.Gen.KernelIdeal
import proofs.«411066_j83983790505988_3_alg».proof.Proof.Gen.ReferenceIdeal
import proofs.«411066_j83983790505988_3_alg».proof.Proof.Gen.Pre_finite_inputs
import proofs.«411066_j83983790505988_3_alg».proof.Proof.K.Run
import proofs.«411066_j83983790505988_3_alg».proof.Proof.KI.Run
import proofs.«411066_j83983790505988_3_alg».proof.Proof.KI.KValue
import proofs.«411066_j83983790505988_3_alg».proof.Proof.Ref.Run
import proofs.«411066_j83983790505988_3_alg».proof.Proof.RefValue
import proofs.«411066_j83983790505988_3_alg».proof.Proof.SpecLaws
import proofs.«411066_j83983790505988_3_alg».proof.Proof.PreFinite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.RefRun.ref_run (F := Ideal) m ρ)

theorem algebraic : Cert.algebraic_KernelIdeal_ReferenceIdeal := by
  intro m ρ m' ρ' hpre hagree
  refine ⟨fun c => Cert.Spec.kerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Hand.kernel_value m c), (h c).2⟩)
      (Cert.KernelIdeal.Hand.run_value (F := Ideal) m ρ)
  · refine (θ_run Cert.ReferenceIdeal.defs _ _).mono (fun r h c => ⟨(h c).1.trans ?_, (h c).2⟩)
      (Cert.ReferenceIdeal.RefRun.ref_run (F := Ideal) m' ρ')
    obtain ⟨h0, h1, h2, h3, h4, h5, h6, h7, h8⟩ := hagree c
    rw [h0, h1, h2, h3, h4, h5, h6, h7, h8, Cert.ReferenceIdeal.RefValue.v158_eq]
    obtain ⟨r0, r1, r2, r3, r4, r5, r6, r7, r8⟩ := Cert.PreFinite.real_of_fn _ _ _ _ _ _ _ _ _ (hpre c)
    exact (Cert.Spec.kerOut_eq_refOut _ _ _ _ _ _ _ _ _ r0 r1 r2 r3 r4 r5 r6 r7 r8).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
